-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x6400000 : Shape := ⟨2, ![2, 6400000]⟩
abbrev S6400000 : Shape := ⟨1, ![6400000]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel
  bcast_S_S2x6400000 : S_.BroadcastsInDim S2x6400000 (![] : Fin 0 → Fin S2x6400000.rank)
  reducesTo_S2x6400000_S_d0_1 : S2x6400000.ReducesTo [0, 1] S_

variable [Facts]

def fn {F : FTy → Type} [FloatOps F] (main_arg0 : IVec S2x6400000 32) (main_arg1 : FVec F S6400000 .f32) : IVec S_ 1 :=
  let main_v0 : FVec F S6400000 .f32 := Host.absf main_arg1
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  let main_c_0 : IVec S_ 32 := constantI S_ 32 0#32
  let main_v4 : IVec S2x6400000 32 := broadcastInDim S2x6400000 ![] bcast_S_S2x6400000 main_c_0
  let main_v5 : IVec S2x6400000 1 := cmpi .sge main_arg0 main_v4
  let main_c_1 : IVec S_ 32 := constantI S_ 32 99999#32
  let main_v6 : IVec S2x6400000 32 := broadcastInDim S2x6400000 ![] bcast_S_S2x6400000 main_c_1
  let main_v7 : IVec S2x6400000 1 := cmpi .sle main_arg0 main_v6
  let main_v8 : IVec S2x6400000 1 := andi main_v5 main_v7
  let main_c_2 : IVec S_ 1 := constantI S_ 1 1#1
  let main_v9 : IVec S_ 1 := (fun x v => Host.reduce IntOp.andi x v reducesTo_S2x6400000_S_d0_1 h_S_) main_v8 main_c_2
  let main_v10 : IVec S_ 1 := andi main_v3 main_v9
  main_v10
-- ==== Kernel.lean ====
abbrev S2x6400000 : Shape := ⟨2, ![2, 6400000]⟩
abbrev S6400000 : Shape := ⟨1, ![6400000]⟩
abbrev S1x6400000 : Shape := ⟨2, ![1, 6400000]⟩
abbrev S3203072 : Shape := ⟨1, ![3203072]⟩
abbrev S100096 : Shape := ⟨1, ![100096]⟩
abbrev S4000 : Shape := ⟨1, ![4000]⟩
abbrev S2 : Shape := ⟨1, ![2]⟩
abbrev S1 : Shape := ⟨1, ![1]⟩
abbrev S_ : Shape := ⟨0, ![]⟩
abbrev S16 : Shape := ⟨1, ![16]⟩

abbrev nBuf : Table → Nat
  | .hbm => 73
  | .local .scVector .vmem => 14
  | _ => 0

abbrev bufTy : (tb : Table) → Fin (nBuf tb) → BufTy
  | .hbm, ⟨0, _⟩ => ⟨S2x6400000, .i32⟩
  | .hbm, ⟨1, _⟩ => ⟨S6400000, .f32⟩
  | .hbm, ⟨2, _⟩ => ⟨S1x6400000, .i32⟩
  | .hbm, ⟨3, _⟩ => ⟨S6400000, .i32⟩
  | .hbm, ⟨4, _⟩ => ⟨S3203072, .f32⟩
  | .hbm, ⟨5, _⟩ => ⟨S6400000, .f32⟩
  | .hbm, ⟨6, _⟩ => ⟨S100096, .f32⟩
  | .hbm, ⟨7, _⟩ => ⟨S100096, .f32⟩
  | .hbm, ⟨8, _⟩ => ⟨S100096, .f32⟩
  | .hbm, ⟨9, _⟩ => ⟨S100096, .f32⟩
  | .hbm, ⟨10, _⟩ => ⟨S100096, .f32⟩
  | .hbm, ⟨11, _⟩ => ⟨S100096, .f32⟩
  | .hbm, ⟨12, _⟩ => ⟨S100096, .f32⟩
  | .hbm, ⟨13, _⟩ => ⟨S100096, .f32⟩
  | .hbm, ⟨14, _⟩ => ⟨S100096, .f32⟩
  | .hbm, ⟨15, _⟩ => ⟨S100096, .f32⟩
  | .hbm, ⟨16, _⟩ => ⟨S100096, .f32⟩
  | .hbm, ⟨17, _⟩ => ⟨S100096, .f32⟩
  | .hbm, ⟨18, _⟩ => ⟨S100096, .f32⟩
  | .hbm, ⟨19, _⟩ => ⟨S100096, .f32⟩
  | .hbm, ⟨20, _⟩ => ⟨S100096, .f32⟩
  | .hbm, ⟨21, _⟩ => ⟨S100096, .f32⟩
  | .hbm, ⟨22, _⟩ => ⟨S100096, .f32⟩
  | .hbm, ⟨23, _⟩ => ⟨S100096, .f32⟩
  | .hbm, ⟨24, _⟩ => ⟨S100096, .f32⟩
  | .hbm, ⟨25, _⟩ => ⟨S100096, .f32⟩
  | .hbm, ⟨26, _⟩ => ⟨S100096, .f32⟩
  | .hbm, ⟨27, _⟩ => ⟨S100096, .f32⟩
  | .hbm, ⟨28, _⟩ => ⟨S100096, .f32⟩
  | .hbm, ⟨29, _⟩ => ⟨S100096, .f32⟩
  | .hbm, ⟨30, _⟩ => ⟨S100096, .f32⟩
  | .hbm, ⟨31, _⟩ => ⟨S100096, .f32⟩
  | .hbm, ⟨32, _⟩ => ⟨S100096, .f32⟩
  | .hbm, ⟨33, _⟩ => ⟨S100096, .f32⟩
  | .hbm, ⟨34, _⟩ => ⟨S100096, .f32⟩
  | .hbm, ⟨35, _⟩ => ⟨S100096, .f32⟩
  | .hbm, ⟨36, _⟩ => ⟨S100096, .f32⟩
  | .hbm, ⟨37, _⟩ => ⟨S100096, .f32⟩
  | .hbm, ⟨38, _⟩ => ⟨S100096, .f32⟩
  | .hbm, ⟨39, _⟩ => ⟨S100096, .f32⟩
  | .hbm, ⟨40, _⟩ => ⟨S100096, .f32⟩
  | .hbm, ⟨41, _⟩ => ⟨S100096, .f32⟩
  | .hbm, ⟨42, _⟩ => ⟨S100096, .f32⟩
  | .hbm, ⟨43, _⟩ => ⟨S100096, .f32⟩
  | .hbm, ⟨44, _⟩ => ⟨S100096, .f32⟩
  | .hbm, ⟨45, _⟩ => ⟨S100096, .f32⟩
  | .hbm, ⟨46, _⟩ => ⟨S100096, .f32⟩
  | .hbm, ⟨47, _⟩ => ⟨S100096, .f32⟩
  | .hbm, ⟨48, _⟩ => ⟨S100096, .f32⟩
  | .hbm, ⟨49, _⟩ => ⟨S100096, .f32⟩
  | .hbm, ⟨50, _⟩ => ⟨S100096, .f32⟩
  | .hbm, ⟨51, _⟩ => ⟨S100096, .f32⟩
  | .hbm, ⟨52, _⟩ => ⟨S100096, .f32⟩
  | .hbm, ⟨53, _⟩ => ⟨S100096, .f32⟩
  | .hbm, ⟨54, _⟩ => ⟨S100096, .f32⟩
  | .hbm, ⟨55, _⟩ => ⟨S100096, .f32⟩
  | .hbm, ⟨56, _⟩ => ⟨S100096, .f32⟩
  | .hbm, ⟨57, _⟩ => ⟨S100096, .f32⟩
  | .hbm, ⟨58, _⟩ => ⟨S100096, .f32⟩
  | .hbm, ⟨59, _⟩ => ⟨S100096, .f32⟩
  | .hbm, ⟨60, _⟩ => ⟨S100096, .f32⟩
  | .hbm, ⟨61, _⟩ => ⟨S100096, .f32⟩
  | .hbm, ⟨62, _⟩ => ⟨S100096, .f32⟩
  | .hbm, ⟨63, _⟩ => ⟨S100096, .f32⟩
  | .hbm, ⟨64, _⟩ => ⟨S100096, .f32⟩
  | .hbm, ⟨65, _⟩ => ⟨S100096, .f32⟩
  | .hbm, ⟨66, _⟩ => ⟨S100096, .f32⟩
  | .hbm, ⟨67, _⟩ => ⟨S100096, .f32⟩
  | .hbm, ⟨68, _⟩ => ⟨S100096, .f32⟩
  | .hbm, ⟨69, _⟩ => ⟨S_, .f32⟩
  | .hbm, ⟨70, _⟩ => ⟨S100096, .f32⟩
  | .hbm, ⟨71, _⟩ => ⟨S100096, .f32⟩
  | .hbm, ⟨72, _⟩ => ⟨S6400000, .f32⟩
  | .local .scVector .vmem, ⟨0, _⟩ => ⟨S100096, .f32⟩
  | .local .scVector .vmem, ⟨1, _⟩ => ⟨S4000, .i32⟩
  | .local .scVector .vmem, ⟨2, _⟩ => ⟨S4000, .i32⟩
  | .local .scVector .vmem, ⟨3, _⟩ => ⟨S4000, .f32⟩
  | .local .scVector .vmem, ⟨4, _⟩ => ⟨S4000, .f32⟩
  | .local .scVector .vmem, ⟨5, _⟩ => ⟨S4000, .f32⟩
  | .local .scVector .vmem, ⟨6, _⟩ => ⟨S4000, .f32⟩
  | .local .scVector .vmem, ⟨7, _⟩ => ⟨S100096, .f32⟩
  | .local .scVector .vmem, ⟨8, _⟩ => ⟨S4000, .i32⟩
  | .local .scVector .vmem, ⟨9, _⟩ => ⟨S4000, .i32⟩
  | .local .scVector .vmem, ⟨10, _⟩ => ⟨S4000, .f32⟩
  | .local .scVector .vmem, ⟨11, _⟩ => ⟨S4000, .f32⟩
  | .local .scVector .vmem, ⟨12, _⟩ => ⟨S4000, .f32⟩
  | .local .scVector .vmem, ⟨13, _⟩ => ⟨S4000, .f32⟩
  | _, _ => ⟨S2x6400000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_cst : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v1_scv : Ref sig .scVector := ⟨.hbm, 3, rfl⟩
abbrev main_arg1_scv : Ref sig .scVector := ⟨.hbm, 1, rfl⟩
abbrev main_v2_0_scv : Ref sig .scVector := ⟨.hbm, 4, rfl⟩
abbrev main_v2_1_scv : Ref sig .scVector := ⟨.hbm, 5, rfl⟩
abbrev main_v67_scv : Ref sig .scVector := ⟨.hbm, 71, rfl⟩
abbrev main_v68_scv : Ref sig .scVector := ⟨.hbm, 72, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_scratch0 : Ref sig .scVector := ⟨.vmem, 7, rfl⟩
abbrev cc1_scratch1 : Ref sig .scVector := ⟨.vmem, 8, rfl⟩
abbrev cc1_scratch2 : Ref sig .scVector := ⟨.vmem, 9, rfl⟩
abbrev cc1_scratch3 : Ref sig .scVector := ⟨.vmem, 10, rfl⟩
abbrev cc1_scratch4 : Ref sig .scVector := ⟨.vmem, 11, rfl⟩
abbrev cc1_scratch5 : Ref sig .scVector := ⟨.vmem, 12, rfl⟩
abbrev cc1_scratch6 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32 : BitVec 32 := 200000#32
  let v2 : BitVec 32 := Scalar.muli v1 c200000_i32
  let v3 : BitVec 32 := Scalar.addi v2 c0_i32
  ![v3.toNat]
@[reducible] def k0_t1_loop : Scf.Loop 32 :=
  let c0_i32_5 : BitVec 32 := 0#32
  let c782_i32 : BitVec 32 := 782#32
  let v23 : BitVec 32 := Scalar.addi c0_i32_5 c782_i32
  let c1_i32_6 : BitVec 32 := 1#32
  ⟨c0_i32_5, v23, c1_i32_6⟩
def k0_off2 (k0_t1 : Fin k0_t1_loop.trips) (c0_i32_18 : BitVec 32) : Fin 1 → Nat :=
  let c0_i32_5 : BitVec 32 := 0#32
  let c1_i32_6 : BitVec 32 := 1#32
  let arg16 : BitVec 32 := Scf.iv c0_i32_5 c1_i32_6 k0_t1
  let c128_i32 : BitVec 32 := 128#32
  let v34 : BitVec 32 := Scalar.muli arg16 c128_i32
  let v35 : BitVec 32 := Scalar.addi v34 c0_i32_18
  let v36 : Index := Scalar.indexCast v35
  ![v36.toNat]
@[reducible] def k0_t2_loop : Scf.Loop 32 :=
  let c0_i32_9 : BitVec 32 := 0#32
  let c25_i32 : BitVec 32 := 25#32
  let v24 : BitVec 32 := Scalar.addi c0_i32_9 c25_i32
  let c1_i32_10 : BitVec 32 := 1#32
  ⟨c0_i32_9, v24, c1_i32_10⟩
@[reducible] def k0_t3_loop : Scf.Loop 32 :=
  let c0_i32_28 : BitVec 32 := 0#32
  let c25_i32_29 : BitVec 32 := 25#32
  let v47 : BitVec 32 := Scalar.addi c0_i32_28 c25_i32_29
  let c1_i32_30 : BitVec 32 := 1#32
  ⟨c0_i32_28, v47, c1_i32_30⟩
def k0_off3 (k0_t3 : Fin k0_t3_loop.trips) (c0_i32_59 : BitVec 32) : Fin 1 → Nat :=
  let c0_i32_28 : BitVec 32 := 0#32
  let c1_i32_30 : BitVec 32 := 1#32
  let arg17 : BitVec 32 := Scf.iv c0_i32_28 c1_i32_30 k0_t3
  let c10_i32 : BitVec 32 := 10#32
  let v84 : BitVec 32 := Scalar.muli arg17 c10_i32
  let c16_i32_58 : BitVec 32 := 16#32
  let v85 : BitVec 32 := Scalar.muli v84 c16_i32_58
  let v86 : BitVec 32 := Scalar.addi v85 c0_i32_59
  let v87 : Index := Scalar.indexCast v86
  ![v87.toNat]

def k0_chk1 (v88 : IVec S16 32) : Prop :=
  (∀ a x, ((![v88] : Fin 1 → IVec S16 32) a x).toNat < S100096.size a)
instance k0_chk1.dec : ∀ (v88 : IVec S16 32), Decidable (k0_chk1 v88) := fun v88 => decidable_of_iff' _ (Iff.of_eq (k0_chk1.eq_1 v88))
theorem k0_idx1_inb : ∀ (v88 : IVec S16 32) (k0_hw1 : k0_chk1 v88), ∀ a x, ((![v88] : Fin 1 → IVec S16 32) a x).toNat < S100096.size a := fun v88 k0_hw1 => k0_hw1

def k0_chk2 (v91 : IVec S16 32) : Prop :=
  (∀ a x, ((![v91] : Fin 1 → IVec S16 32) a x).toNat < S100096.size a)
instance k0_chk2.dec : ∀ (v91 : IVec S16 32), Decidable (k0_chk2 v91) := fun v91 => decidable_of_iff' _ (Iff.of_eq (k0_chk2.eq_1 v91))
theorem k0_idx2_inb : ∀ (v91 : IVec S16 32) (k0_hw2 : k0_chk2 v91), ∀ a x, ((![v91] : Fin 1 → IVec S16 32) a x).toNat < S100096.size a := fun v91 k0_hw2 => k0_hw2

def k0_chk3 (v94 : IVec S16 32) : Prop :=
  (∀ a x, ((![v94] : Fin 1 → IVec S16 32) a x).toNat < S100096.size a)
instance k0_chk3.dec : ∀ (v94 : IVec S16 32), Decidable (k0_chk3 v94) := fun v94 => decidable_of_iff' _ (Iff.of_eq (k0_chk3.eq_1 v94))
theorem k0_idx3_inb : ∀ (v94 : IVec S16 32) (k0_hw3 : k0_chk3 v94), ∀ a x, ((![v94] : Fin 1 → IVec S16 32) a x).toNat < S100096.size a := fun v94 k0_hw3 => k0_hw3

def k0_chk4 (v97 : IVec S16 32) : Prop :=
  (∀ a x, ((![v97] : Fin 1 → IVec S16 32) a x).toNat < S100096.size a)
instance k0_chk4.dec : ∀ (v97 : IVec S16 32), Decidable (k0_chk4 v97) := fun v97 => decidable_of_iff' _ (Iff.of_eq (k0_chk4.eq_1 v97))
theorem k0_idx4_inb : ∀ (v97 : IVec S16 32) (k0_hw4 : k0_chk4 v97), ∀ a x, ((![v97] : Fin 1 → IVec S16 32) a x).toNat < S100096.size a := fun v97 k0_hw4 => k0_hw4

def k0_chk5 (v100 : IVec S16 32) : Prop :=
  (∀ a x, ((![v100] : Fin 1 → IVec S16 32) a x).toNat < S100096.size a)
instance k0_chk5.dec : ∀ (v100 : IVec S16 32), Decidable (k0_chk5 v100) := fun v100 => decidable_of_iff' _ (Iff.of_eq (k0_chk5.eq_1 v100))
theorem k0_idx5_inb : ∀ (v100 : IVec S16 32) (k0_hw5 : k0_chk5 v100), ∀ a x, ((![v100] : Fin 1 → IVec S16 32) a x).toNat < S100096.size a := fun v100 k0_hw5 => k0_hw5

def k0_chk6 (v103 : IVec S16 32) : Prop :=
  (∀ a x, ((![v103] : Fin 1 → IVec S16 32) a x).toNat < S100096.size a)
instance k0_chk6.dec : ∀ (v103 : IVec S16 32), Decidable (k0_chk6 v103) := fun v103 => decidable_of_iff' _ (Iff.of_eq (k0_chk6.eq_1 v103))
theorem k0_idx6_inb : ∀ (v103 : IVec S16 32) (k0_hw6 : k0_chk6 v103), ∀ a x, ((![v103] : Fin 1 → IVec S16 32) a x).toNat < S100096.size a := fun v103 k0_hw6 => k0_hw6

def k0_chk7 (v106 : IVec S16 32) : Prop :=
  (∀ a x, ((![v106] : Fin 1 → IVec S16 32) a x).toNat < S100096.size a)
instance k0_chk7.dec : ∀ (v106 : IVec S16 32), Decidable (k0_chk7 v106) := fun v106 => decidable_of_iff' _ (Iff.of_eq (k0_chk7.eq_1 v106))
theorem k0_idx7_inb : ∀ (v106 : IVec S16 32) (k0_hw7 : k0_chk7 v106), ∀ a x, ((![v106] : Fin 1 → IVec S16 32) a x).toNat < S100096.size a := fun v106 k0_hw7 => k0_hw7

def k0_chk8 (v109 : IVec S16 32) : Prop :=
  (∀ a x, ((![v109] : Fin 1 → IVec S16 32) a x).toNat < S100096.size a)
instance k0_chk8.dec : ∀ (v109 : IVec S16 32), Decidable (k0_chk8 v109) := fun v109 => decidable_of_iff' _ (Iff.of_eq (k0_chk8.eq_1 v109))
theorem k0_idx8_inb : ∀ (v109 : IVec S16 32) (k0_hw8 : k0_chk8 v109), ∀ a x, ((![v109] : Fin 1 → IVec S16 32) a x).toNat < S100096.size a := fun v109 k0_hw8 => k0_hw8

def k0_chk9 (v112 : IVec S16 32) : Prop :=
  (∀ a x, ((![v112] : Fin 1 → IVec S16 32) a x).toNat < S100096.size a)
instance k0_chk9.dec : ∀ (v112 : IVec S16 32), Decidable (k0_chk9 v112) := fun v112 => decidable_of_iff' _ (Iff.of_eq (k0_chk9.eq_1 v112))
theorem k0_idx9_inb : ∀ (v112 : IVec S16 32) (k0_hw9 : k0_chk9 v112), ∀ a x, ((![v112] : Fin 1 → IVec S16 32) a x).toNat < S100096.size a := fun v112 k0_hw9 => k0_hw9

def k0_chk10 (v115 : IVec S16 32) : Prop :=
  (∀ a x, ((![v115] : Fin 1 → IVec S16 32) a x).toNat < S100096.size a)
instance k0_chk10.dec : ∀ (v115 : IVec S16 32), Decidable (k0_chk10 v115) := fun v115 => decidable_of_iff' _ (Iff.of_eq (k0_chk10.eq_1 v115))
theorem k0_idx10_inb : ∀ (v115 : IVec S16 32) (k0_hw10 : k0_chk10 v115), ∀ a x, ((![v115] : Fin 1 → IVec S16 32) a x).toNat < S100096.size a := fun v115 k0_hw10 => k0_hw10
def k0_cond2 (k0_t2 : Fin k0_t2_loop.trips) : BitVec 1 :=
  let c0_i32_9 : BitVec 32 := 0#32
  let c1_i32_10 : BitVec 32 := 1#32
  let arg16 : BitVec 32 := Scf.iv c0_i32_9 c1_i32_10 k0_t2
  let c2_i32 : BitVec 32 := 2#32
  let v34 : BitVec 32 := Scalar.muli arg16 c2_i32
  let c0_i32_18 : BitVec 32 := 0#32
  let v35 : BitVec 32 := Scalar.addi v34 c0_i32_18
  let c2_i32_32 : BitVec 32 := 2#32
  let v48 : BitVec 32 := Scalar.addi v35 c2_i32_32
  let c50_i32 : BitVec 32 := 50#32
  let v49 : BitVec 1 := Scalar.cmpi .slt v48 c50_i32
  let v50 : BitVec 32 := Scalar.extui v49
  let c0_i32_33 : BitVec 32 := 0#32
  let v51 : BitVec 1 := Scalar.cmpi .ne v50 c0_i32_33
  v51

def k0_off4 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32_59 : BitVec 32 := 200000#32
  let v85 : BitVec 32 := Scalar.muli v1 c200000_i32_59
  let c0_i32_9 : BitVec 32 := 0#32
  let c1_i32_10 : BitVec 32 := 1#32
  let arg16 : BitVec 32 := Scf.iv c0_i32_9 c1_i32_10 k0_t2
  let c2_i32 : BitVec 32 := 2#32
  let v34 : BitVec 32 := Scalar.muli arg16 c2_i32
  let c0_i32_18 : BitVec 32 := 0#32
  let v35 : BitVec 32 := Scalar.addi v34 c0_i32_18
  let c2_i32_58 : BitVec 32 := 2#32
  let v84 : BitVec 32 := Scalar.addi v35 c2_i32_58
  let c4000_i32_60 : BitVec 32 := 4000#32
  let v86 : BitVec 32 := Scalar.muli v84 c4000_i32_60
  let v87 : BitVec 32 := Scalar.addi v85 v86
  ![v87.toNat]
def k0_off5 (i : grid0.Coords) (k0_t2 : Fin k0_t2_loop.trips) (c0_i32_18 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32_34 : BitVec 32 := 200000#32
  let v52 : BitVec 32 := Scalar.muli v1 c200000_i32_34
  let c0_i32_9 : BitVec 32 := 0#32
  let c1_i32_10 : BitVec 32 := 1#32
  let arg16 : BitVec 32 := Scf.iv c0_i32_9 c1_i32_10 k0_t2
  let c2_i32 : BitVec 32 := 2#32
  let v34 : BitVec 32 := Scalar.muli arg16 c2_i32
  let v35 : BitVec 32 := Scalar.addi v34 c0_i32_18
  let c4000_i32_35 : BitVec 32 := 4000#32
  let v53 : BitVec 32 := Scalar.muli v35 c4000_i32_35
  let v54 : BitVec 32 := Scalar.addi v52 v53
  ![v54.toNat]
@[reducible] def k0_t4_loop : Scf.Loop 32 :=
  let c0_i32_48 : BitVec 32 := 0#32
  let c25_i32_49 : BitVec 32 := 25#32
  let v72 : BitVec 32 := Scalar.addi c0_i32_48 c25_i32_49
  let c1_i32_50 : BitVec 32 := 1#32
  ⟨c0_i32_48, v72, c1_i32_50⟩
def k0_off6 (k0_t4 : Fin k0_t4_loop.trips) (c0_i32_59 : BitVec 32) : Fin 1 → Nat :=
  let c0_i32_48 : BitVec 32 := 0#32
  let c1_i32_50 : BitVec 32 := 1#32
  let arg17 : BitVec 32 := Scf.iv c0_i32_48 c1_i32_50 k0_t4
  let c10_i32 : BitVec 32 := 10#32
  let v84 : BitVec 32 := Scalar.muli arg17 c10_i32
  let c16_i32_58 : BitVec 32 := 16#32
  let v85 : BitVec 32 := Scalar.muli v84 c16_i32_58
  let v86 : BitVec 32 := Scalar.addi v85 c0_i32_59
  let v87 : Index := Scalar.indexCast v86
  ![v87.toNat]

def k0_chk11 (v88 : IVec S16 32) : Prop :=
  (∀ a x, ((![v88] : Fin 1 → IVec S16 32) a x).toNat < S100096.size a)
instance k0_chk11.dec : ∀ (v88 : IVec S16 32), Decidable (k0_chk11 v88) := fun v88 => decidable_of_iff' _ (Iff.of_eq (k0_chk11.eq_1 v88))
theorem k0_idx11_inb : ∀ (v88 : IVec S16 32) (k0_hw11 : k0_chk11 v88), ∀ a x, ((![v88] : Fin 1 → IVec S16 32) a x).toNat < S100096.size a := fun v88 k0_hw11 => k0_hw11

def k0_chk12 (v91 : IVec S16 32) : Prop :=
  (∀ a x, ((![v91] : Fin 1 → IVec S16 32) a x).toNat < S100096.size a)
instance k0_chk12.dec : ∀ (v91 : IVec S16 32), Decidable (k0_chk12 v91) := fun v91 => decidable_of_iff' _ (Iff.of_eq (k0_chk12.eq_1 v91))
theorem k0_idx12_inb : ∀ (v91 : IVec S16 32) (k0_hw12 : k0_chk12 v91), ∀ a x, ((![v91] : Fin 1 → IVec S16 32) a x).toNat < S100096.size a := fun v91 k0_hw12 => k0_hw12

def k0_chk13 (v94 : IVec S16 32) : Prop :=
  (∀ a x, ((![v94] : Fin 1 → IVec S16 32) a x).toNat < S100096.size a)
instance k0_chk13.dec : ∀ (v94 : IVec S16 32), Decidable (k0_chk13 v94) := fun v94 => decidable_of_iff' _ (Iff.of_eq (k0_chk13.eq_1 v94))
theorem k0_idx13_inb : ∀ (v94 : IVec S16 32) (k0_hw13 : k0_chk13 v94), ∀ a x, ((![v94] : Fin 1 → IVec S16 32) a x).toNat < S100096.size a := fun v94 k0_hw13 => k0_hw13

def k0_chk14 (v97 : IVec S16 32) : Prop :=
  (∀ a x, ((![v97] : Fin 1 → IVec S16 32) a x).toNat < S100096.size a)
instance k0_chk14.dec : ∀ (v97 : IVec S16 32), Decidable (k0_chk14 v97) := fun v97 => decidable_of_iff' _ (Iff.of_eq (k0_chk14.eq_1 v97))
theorem k0_idx14_inb : ∀ (v97 : IVec S16 32) (k0_hw14 : k0_chk14 v97), ∀ a x, ((![v97] : Fin 1 → IVec S16 32) a x).toNat < S100096.size a := fun v97 k0_hw14 => k0_hw14

def k0_chk15 (v100 : IVec S16 32) : Prop :=
  (∀ a x, ((![v100] : Fin 1 → IVec S16 32) a x).toNat < S100096.size a)
instance k0_chk15.dec : ∀ (v100 : IVec S16 32), Decidable (k0_chk15 v100) := fun v100 => decidable_of_iff' _ (Iff.of_eq (k0_chk15.eq_1 v100))
theorem k0_idx15_inb : ∀ (v100 : IVec S16 32) (k0_hw15 : k0_chk15 v100), ∀ a x, ((![v100] : Fin 1 → IVec S16 32) a x).toNat < S100096.size a := fun v100 k0_hw15 => k0_hw15

def k0_chk16 (v103 : IVec S16 32) : Prop :=
  (∀ a x, ((![v103] : Fin 1 → IVec S16 32) a x).toNat < S100096.size a)
instance k0_chk16.dec : ∀ (v103 : IVec S16 32), Decidable (k0_chk16 v103) := fun v103 => decidable_of_iff' _ (Iff.of_eq (k0_chk16.eq_1 v103))
theorem k0_idx16_inb : ∀ (v103 : IVec S16 32) (k0_hw16 : k0_chk16 v103), ∀ a x, ((![v103] : Fin 1 → IVec S16 32) a x).toNat < S100096.size a := fun v103 k0_hw16 => k0_hw16

def k0_chk17 (v106 : IVec S16 32) : Prop :=
  (∀ a x, ((![v106] : Fin 1 → IVec S16 32) a x).toNat < S100096.size a)
instance k0_chk17.dec : ∀ (v106 : IVec S16 32), Decidable (k0_chk17 v106) := fun v106 => decidable_of_iff' _ (Iff.of_eq (k0_chk17.eq_1 v106))
theorem k0_idx17_inb : ∀ (v106 : IVec S16 32) (k0_hw17 : k0_chk17 v106), ∀ a x, ((![v106] : Fin 1 → IVec S16 32) a x).toNat < S100096.size a := fun v106 k0_hw17 => k0_hw17

def k0_chk18 (v109 : IVec S16 32) : Prop :=
  (∀ a x, ((![v109] : Fin 1 → IVec S16 32) a x).toNat < S100096.size a)
instance k0_chk18.dec : ∀ (v109 : IVec S16 32), Decidable (k0_chk18 v109) := fun v109 => decidable_of_iff' _ (Iff.of_eq (k0_chk18.eq_1 v109))
theorem k0_idx18_inb : ∀ (v109 : IVec S16 32) (k0_hw18 : k0_chk18 v109), ∀ a x, ((![v109] : Fin 1 → IVec S16 32) a x).toNat < S100096.size a := fun v109 k0_hw18 => k0_hw18

def k0_chk19 (v112 : IVec S16 32) : Prop :=
  (∀ a x, ((![v112] : Fin 1 → IVec S16 32) a x).toNat < S100096.size a)
instance k0_chk19.dec : ∀ (v112 : IVec S16 32), Decidable (k0_chk19 v112) := fun v112 => decidable_of_iff' _ (Iff.of_eq (k0_chk19.eq_1 v112))
theorem k0_idx19_inb : ∀ (v112 : IVec S16 32) (k0_hw19 : k0_chk19 v112), ∀ a x, ((![v112] : Fin 1 → IVec S16 32) a x).toNat < S100096.size a := fun v112 k0_hw19 => k0_hw19

def k0_chk20 (v115 : IVec S16 32) : Prop :=
  (∀ a x, ((![v115] : Fin 1 → IVec S16 32) a x).toNat < S100096.size a)
instance k0_chk20.dec : ∀ (v115 : IVec S16 32), Decidable (k0_chk20 v115) := fun v115 => decidable_of_iff' _ (Iff.of_eq (k0_chk20.eq_1 v115))
theorem k0_idx20_inb : ∀ (v115 : IVec S16 32) (k0_hw20 : k0_chk20 v115), ∀ a x, ((![v115] : Fin 1 → IVec S16 32) a x).toNat < S100096.size a := fun v115 k0_hw20 => k0_hw20
def k0_cond4 (k0_t2 : Fin k0_t2_loop.trips) : BitVec 1 :=
  let c0_i32_9 : BitVec 32 := 0#32
  let c1_i32_10 : BitVec 32 := 1#32
  let arg16 : BitVec 32 := Scf.iv c0_i32_9 c1_i32_10 k0_t2
  let c2_i32_37 : BitVec 32 := 2#32
  let v59 : BitVec 32 := Scalar.muli arg16 c2_i32_37
  let c1_i32_38 : BitVec 32 := 1#32
  let v60 : BitVec 32 := Scalar.addi v59 c1_i32_38
  let c2_i32_52 : BitVec 32 := 2#32
  let v73 : BitVec 32 := Scalar.addi v60 c2_i32_52
  let c50_i32_53 : BitVec 32 := 50#32
  let v74 : BitVec 1 := Scalar.cmpi .slt v73 c50_i32_53
  let v75 : BitVec 32 := Scalar.extui v74
  let c0_i32_54 : BitVec 32 := 0#32
  let v76 : BitVec 1 := Scalar.cmpi .ne v75 c0_i32_54
  v76

def k0_off7 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32_59 : BitVec 32 := 200000#32
  let v85 : BitVec 32 := Scalar.muli v1 c200000_i32_59
  let c0_i32_9 : BitVec 32 := 0#32
  let c1_i32_10 : BitVec 32 := 1#32
  let arg16 : BitVec 32 := Scf.iv c0_i32_9 c1_i32_10 k0_t2
  let c2_i32_37 : BitVec 32 := 2#32
  let v59 : BitVec 32 := Scalar.muli arg16 c2_i32_37
  let c1_i32_38 : BitVec 32 := 1#32
  let v60 : BitVec 32 := Scalar.addi v59 c1_i32_38
  let c2_i32_58 : BitVec 32 := 2#32
  let v84 : BitVec 32 := Scalar.addi v60 c2_i32_58
  let c4000_i32_60 : BitVec 32 := 4000#32
  let v86 : BitVec 32 := Scalar.muli v84 c4000_i32_60
  let v87 : BitVec 32 := Scalar.addi v85 v86
  ![v87.toNat]
def k0_off8 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c100096_i32 : BitVec 32 := 100096#32
  let v33 : BitVec 32 := Scalar.muli v1 c100096_i32
  ![v33.toNat]
abbrev grid1 : Pipeline.Grid := ⟨2, ![2, 16], ![false, false]⟩

def k1_off1 (i : grid1.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32 : BitVec 32 := 200000#32
  let v2 : BitVec 32 := Scalar.muli v1 c200000_i32
  let v3 : BitVec 32 := Scalar.addi v2 c0_i32
  ![v3.toNat]
@[reducible] def k1_t1_loop : Scf.Loop 32 :=
  let c0_i32_5 : BitVec 32 := 0#32
  let c25_i32 : BitVec 32 := 25#32
  let v22 : BitVec 32 := Scalar.addi c0_i32_5 c25_i32
  let c1_i32_6 : BitVec 32 := 1#32
  ⟨c0_i32_5, v22, c1_i32_6⟩
@[reducible] def k1_t2_loop : Scf.Loop 32 :=
  let c0_i32_24 : BitVec 32 := 0#32
  let c25_i32_25 : BitVec 32 := 25#32
  let v44 : BitVec 32 := Scalar.addi c0_i32_24 c25_i32_25
  let c1_i32_26 : BitVec 32 := 1#32
  ⟨c0_i32_24, v44, c1_i32_26⟩
def k1_off2 (k1_t2 : Fin k1_t2_loop.trips) (c0_i32_55 : BitVec 32) : Fin 1 → Nat :=
  let c0_i32_24 : BitVec 32 := 0#32
  let c1_i32_26 : BitVec 32 := 1#32
  let arg18 : BitVec 32 := Scf.iv c0_i32_24 c1_i32_26 k1_t2
  let c10_i32 : BitVec 32 := 10#32
  let v81 : BitVec 32 := Scalar.muli arg18 c10_i32
  let c16_i32_54 : BitVec 32 := 16#32
  let v82 : BitVec 32 := Scalar.muli v81 c16_i32_54
  let v83 : BitVec 32 := Scalar.addi v82 c0_i32_55
  let v84 : Index := Scalar.indexCast v83
  ![v84.toNat]

def k1_chk1 (v85 : IVec S16 32) : Prop :=
  (∀ a x, ((![v85] : Fin 1 → IVec S16 32) a x).toNat < S100096.size a)
instance k1_chk1.dec : ∀ (v85 : IVec S16 32), Decidable (k1_chk1 v85) := fun v85 => decidable_of_iff' _ (Iff.of_eq (k1_chk1.eq_1 v85))
theorem k1_idx1_inb : ∀ (v85 : IVec S16 32) (k1_hw1 : k1_chk1 v85), ∀ a x, ((![v85] : Fin 1 → IVec S16 32) a x).toNat < S100096.size a := fun v85 k1_hw1 => k1_hw1

def k1_chk2 (v88 : IVec S16 32) : Prop :=
  (∀ a x, ((![v88] : Fin 1 → IVec S16 32) a x).toNat < S100096.size a)
instance k1_chk2.dec : ∀ (v88 : IVec S16 32), Decidable (k1_chk2 v88) := fun v88 => decidable_of_iff' _ (Iff.of_eq (k1_chk2.eq_1 v88))
theorem k1_idx2_inb : ∀ (v88 : IVec S16 32) (k1_hw2 : k1_chk2 v88), ∀ a x, ((![v88] : Fin 1 → IVec S16 32) a x).toNat < S100096.size a := fun v88 k1_hw2 => k1_hw2

def k1_chk3 (v91 : IVec S16 32) : Prop :=
  (∀ a x, ((![v91] : Fin 1 → IVec S16 32) a x).toNat < S100096.size a)
instance k1_chk3.dec : ∀ (v91 : IVec S16 32), Decidable (k1_chk3 v91) := fun v91 => decidable_of_iff' _ (Iff.of_eq (k1_chk3.eq_1 v91))
theorem k1_idx3_inb : ∀ (v91 : IVec S16 32) (k1_hw3 : k1_chk3 v91), ∀ a x, ((![v91] : Fin 1 → IVec S16 32) a x).toNat < S100096.size a := fun v91 k1_hw3 => k1_hw3

def k1_chk4 (v94 : IVec S16 32) : Prop :=
  (∀ a x, ((![v94] : Fin 1 → IVec S16 32) a x).toNat < S100096.size a)
instance k1_chk4.dec : ∀ (v94 : IVec S16 32), Decidable (k1_chk4 v94) := fun v94 => decidable_of_iff' _ (Iff.of_eq (k1_chk4.eq_1 v94))
theorem k1_idx4_inb : ∀ (v94 : IVec S16 32) (k1_hw4 : k1_chk4 v94), ∀ a x, ((![v94] : Fin 1 → IVec S16 32) a x).toNat < S100096.size a := fun v94 k1_hw4 => k1_hw4

def k1_chk5 (v97 : IVec S16 32) : Prop :=
  (∀ a x, ((![v97] : Fin 1 → IVec S16 32) a x).toNat < S100096.size a)
instance k1_chk5.dec : ∀ (v97 : IVec S16 32), Decidable (k1_chk5 v97) := fun v97 => decidable_of_iff' _ (Iff.of_eq (k1_chk5.eq_1 v97))
theorem k1_idx5_inb : ∀ (v97 : IVec S16 32) (k1_hw5 : k1_chk5 v97), ∀ a x, ((![v97] : Fin 1 → IVec S16 32) a x).toNat < S100096.size a := fun v97 k1_hw5 => k1_hw5

def k1_chk6 (v100 : IVec S16 32) : Prop :=
  (∀ a x, ((![v100] : Fin 1 → IVec S16 32) a x).toNat < S100096.size a)
instance k1_chk6.dec : ∀ (v100 : IVec S16 32), Decidable (k1_chk6 v100) := fun v100 => decidable_of_iff' _ (Iff.of_eq (k1_chk6.eq_1 v100))
theorem k1_idx6_inb : ∀ (v100 : IVec S16 32) (k1_hw6 : k1_chk6 v100), ∀ a x, ((![v100] : Fin 1 → IVec S16 32) a x).toNat < S100096.size a := fun v100 k1_hw6 => k1_hw6

def k1_chk7 (v103 : IVec S16 32) : Prop :=
  (∀ a x, ((![v103] : Fin 1 → IVec S16 32) a x).toNat < S100096.size a)
instance k1_chk7.dec : ∀ (v103 : IVec S16 32), Decidable (k1_chk7 v103) := fun v103 => decidable_of_iff' _ (Iff.of_eq (k1_chk7.eq_1 v103))
theorem k1_idx7_inb : ∀ (v103 : IVec S16 32) (k1_hw7 : k1_chk7 v103), ∀ a x, ((![v103] : Fin 1 → IVec S16 32) a x).toNat < S100096.size a := fun v103 k1_hw7 => k1_hw7

def k1_chk8 (v106 : IVec S16 32) : Prop :=
  (∀ a x, ((![v106] : Fin 1 → IVec S16 32) a x).toNat < S100096.size a)
instance k1_chk8.dec : ∀ (v106 : IVec S16 32), Decidable (k1_chk8 v106) := fun v106 => decidable_of_iff' _ (Iff.of_eq (k1_chk8.eq_1 v106))
theorem k1_idx8_inb : ∀ (v106 : IVec S16 32) (k1_hw8 : k1_chk8 v106), ∀ a x, ((![v106] : Fin 1 → IVec S16 32) a x).toNat < S100096.size a := fun v106 k1_hw8 => k1_hw8

def k1_chk9 (v109 : IVec S16 32) : Prop :=
  (∀ a x, ((![v109] : Fin 1 → IVec S16 32) a x).toNat < S100096.size a)
instance k1_chk9.dec : ∀ (v109 : IVec S16 32), Decidable (k1_chk9 v109) := fun v109 => decidable_of_iff' _ (Iff.of_eq (k1_chk9.eq_1 v109))
theorem k1_idx9_inb : ∀ (v109 : IVec S16 32) (k1_hw9 : k1_chk9 v109), ∀ a x, ((![v109] : Fin 1 → IVec S16 32) a x).toNat < S100096.size a := fun v109 k1_hw9 => k1_hw9

def k1_chk10 (v112 : IVec S16 32) : Prop :=
  (∀ a x, ((![v112] : Fin 1 → IVec S16 32) a x).toNat < S100096.size a)
instance k1_chk10.dec : ∀ (v112 : IVec S16 32), Decidable (k1_chk10 v112) := fun v112 => decidable_of_iff' _ (Iff.of_eq (k1_chk10.eq_1 v112))
theorem k1_idx10_inb : ∀ (v112 : IVec S16 32) (k1_hw10 : k1_chk10 v112), ∀ a x, ((![v112] : Fin 1 → IVec S16 32) a x).toNat < S100096.size a := fun v112 k1_hw10 => k1_hw10
def k1_off3 (k1_t2 : Fin k1_t2_loop.trips) (c0_i32_67 : BitVec 32) : Fin 1 → Nat :=
  let c0_i32_24 : BitVec 32 := 0#32
  let c1_i32_26 : BitVec 32 := 1#32
  let arg18 : BitVec 32 := Scf.iv c0_i32_24 c1_i32_26 k1_t2
  let c10_i32 : BitVec 32 := 10#32
  let v81 : BitVec 32 := Scalar.muli arg18 c10_i32
  let c16_i32_54 : BitVec 32 := 16#32
  let v82 : BitVec 32 := Scalar.muli v81 c16_i32_54
  let v154 : BitVec 32 := Scalar.addi v82 c0_i32_67
  let v155 : Index := Scalar.indexCast v154
  ![v155.toNat]
def k1_off4 (i : grid1.Coords) (k1_t1 : Fin k1_t1_loop.trips) (c0_i32_14 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32_28 : BitVec 32 := 200000#32
  let v45 : BitVec 32 := Scalar.muli v1 c200000_i32_28
  let c0_i32_5 : BitVec 32 := 0#32
  let c1_i32_6 : BitVec 32 := 1#32
  let arg17 : BitVec 32 := Scf.iv c0_i32_5 c1_i32_6 k1_t1
  let c2_i32 : BitVec 32 := 2#32
  let v31 : BitVec 32 := Scalar.muli arg17 c2_i32
  let v32 : BitVec 32 := Scalar.addi v31 c0_i32_14
  let c4000_i32_29 : BitVec 32 := 4000#32
  let v46 : BitVec 32 := Scalar.muli v32 c4000_i32_29
  let v47 : BitVec 32 := Scalar.addi v45 v46
  ![v47.toNat]
def k1_cond2 (k1_t1 : Fin k1_t1_loop.trips) : BitVec 1 :=
  let c0_i32_5 : BitVec 32 := 0#32
  let c1_i32_6 : BitVec 32 := 1#32
  let arg17 : BitVec 32 := Scf.iv c0_i32_5 c1_i32_6 k1_t1
  let c2_i32 : BitVec 32 := 2#32
  let v31 : BitVec 32 := Scalar.muli arg17 c2_i32
  let c0_i32_14 : BitVec 32 := 0#32
  let v32 : BitVec 32 := Scalar.addi v31 c0_i32_14
  let c2_i32_31 : BitVec 32 := 2#32
  let v52 : BitVec 32 := Scalar.addi v32 c2_i32_31
  let c50_i32 : BitVec 32 := 50#32
  let v53 : BitVec 1 := Scalar.cmpi .slt v52 c50_i32
  let v54 : BitVec 32 := Scalar.extui v53
  let c0_i32_32 : BitVec 32 := 0#32
  let v55 : BitVec 1 := Scalar.cmpi .ne v54 c0_i32_32
  v55

def k1_off5 (i : grid1.Coords) (k1_t1 : Fin k1_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32_55 : BitVec 32 := 200000#32
  let v82 : BitVec 32 := Scalar.muli v1 c200000_i32_55
  let c0_i32_5 : BitVec 32 := 0#32
  let c1_i32_6 : BitVec 32 := 1#32
  let arg17 : BitVec 32 := Scf.iv c0_i32_5 c1_i32_6 k1_t1
  let c2_i32 : BitVec 32 := 2#32
  let v31 : BitVec 32 := Scalar.muli arg17 c2_i32
  let c0_i32_14 : BitVec 32 := 0#32
  let v32 : BitVec 32 := Scalar.addi v31 c0_i32_14
  let c2_i32_54 : BitVec 32 := 2#32
  let v81 : BitVec 32 := Scalar.addi v32 c2_i32_54
  let c4000_i32_56 : BitVec 32 := 4000#32
  let v83 : BitVec 32 := Scalar.muli v81 c4000_i32_56
  let v84 : BitVec 32 := Scalar.addi v82 v83
  ![v84.toNat]
@[reducible] def k1_t3_loop : Scf.Loop 32 :=
  let c0_i32_44 : BitVec 32 := 0#32
  let c25_i32_45 : BitVec 32 := 25#32
  let v69 : BitVec 32 := Scalar.addi c0_i32_44 c25_i32_45
  let c1_i32_46 : BitVec 32 := 1#32
  ⟨c0_i32_44, v69, c1_i32_46⟩
def k1_off6 (k1_t3 : Fin k1_t3_loop.trips) (c0_i32_55 : BitVec 32) : Fin 1 → Nat :=
  let c0_i32_44 : BitVec 32 := 0#32
  let c1_i32_46 : BitVec 32 := 1#32
  let arg18 : BitVec 32 := Scf.iv c0_i32_44 c1_i32_46 k1_t3
  let c10_i32 : BitVec 32 := 10#32
  let v81 : BitVec 32 := Scalar.muli arg18 c10_i32
  let c16_i32_54 : BitVec 32 := 16#32
  let v82 : BitVec 32 := Scalar.muli v81 c16_i32_54
  let v83 : BitVec 32 := Scalar.addi v82 c0_i32_55
  let v84 : Index := Scalar.indexCast v83
  ![v84.toNat]

def k1_chk11 (v85 : IVec S16 32) : Prop :=
  (∀ a x, ((![v85] : Fin 1 → IVec S16 32) a x).toNat < S100096.size a)
instance k1_chk11.dec : ∀ (v85 : IVec S16 32), Decidable (k1_chk11 v85) := fun v85 => decidable_of_iff' _ (Iff.of_eq (k1_chk11.eq_1 v85))
theorem k1_idx11_inb : ∀ (v85 : IVec S16 32) (k1_hw11 : k1_chk11 v85), ∀ a x, ((![v85] : Fin 1 → IVec S16 32) a x).toNat < S100096.size a := fun v85 k1_hw11 => k1_hw11

def k1_chk12 (v88 : IVec S16 32) : Prop :=
  (∀ a x, ((![v88] : Fin 1 → IVec S16 32) a x).toNat < S100096.size a)
instance k1_chk12.dec : ∀ (v88 : IVec S16 32), Decidable (k1_chk12 v88) := fun v88 => decidable_of_iff' _ (Iff.of_eq (k1_chk12.eq_1 v88))
theorem k1_idx12_inb : ∀ (v88 : IVec S16 32) (k1_hw12 : k1_chk12 v88), ∀ a x, ((![v88] : Fin 1 → IVec S16 32) a x).toNat < S100096.size a := fun v88 k1_hw12 => k1_hw12

def k1_chk13 (v91 : IVec S16 32) : Prop :=
  (∀ a x, ((![v91] : Fin 1 → IVec S16 32) a x).toNat < S100096.size a)
instance k1_chk13.dec : ∀ (v91 : IVec S16 32), Decidable (k1_chk13 v91) := fun v91 => decidable_of_iff' _ (Iff.of_eq (k1_chk13.eq_1 v91))
theorem k1_idx13_inb : ∀ (v91 : IVec S16 32) (k1_hw13 : k1_chk13 v91), ∀ a x, ((![v91] : Fin 1 → IVec S16 32) a x).toNat < S100096.size a := fun v91 k1_hw13 => k1_hw13

def k1_chk14 (v94 : IVec S16 32) : Prop :=
  (∀ a x, ((![v94] : Fin 1 → IVec S16 32) a x).toNat < S100096.size a)
instance k1_chk14.dec : ∀ (v94 : IVec S16 32), Decidable (k1_chk14 v94) := fun v94 => decidable_of_iff' _ (Iff.of_eq (k1_chk14.eq_1 v94))
theorem k1_idx14_inb : ∀ (v94 : IVec S16 32) (k1_hw14 : k1_chk14 v94), ∀ a x, ((![v94] : Fin 1 → IVec S16 32) a x).toNat < S100096.size a := fun v94 k1_hw14 => k1_hw14

def k1_chk15 (v97 : IVec S16 32) : Prop :=
  (∀ a x, ((![v97] : Fin 1 → IVec S16 32) a x).toNat < S100096.size a)
instance k1_chk15.dec : ∀ (v97 : IVec S16 32), Decidable (k1_chk15 v97) := fun v97 => decidable_of_iff' _ (Iff.of_eq (k1_chk15.eq_1 v97))
theorem k1_idx15_inb : ∀ (v97 : IVec S16 32) (k1_hw15 : k1_chk15 v97), ∀ a x, ((![v97] : Fin 1 → IVec S16 32) a x).toNat < S100096.size a := fun v97 k1_hw15 => k1_hw15

def k1_chk16 (v100 : IVec S16 32) : Prop :=
  (∀ a x, ((![v100] : Fin 1 → IVec S16 32) a x).toNat < S100096.size a)
instance k1_chk16.dec : ∀ (v100 : IVec S16 32), Decidable (k1_chk16 v100) := fun v100 => decidable_of_iff' _ (Iff.of_eq (k1_chk16.eq_1 v100))
theorem k1_idx16_inb : ∀ (v100 : IVec S16 32) (k1_hw16 : k1_chk16 v100), ∀ a x, ((![v100] : Fin 1 → IVec S16 32) a x).toNat < S100096.size a := fun v100 k1_hw16 => k1_hw16

def k1_chk17 (v103 : IVec S16 32) : Prop :=
  (∀ a x, ((![v103] : Fin 1 → IVec S16 32) a x).toNat < S100096.size a)
instance k1_chk17.dec : ∀ (v103 : IVec S16 32), Decidable (k1_chk17 v103) := fun v103 => decidable_of_iff' _ (Iff.of_eq (k1_chk17.eq_1 v103))
theorem k1_idx17_inb : ∀ (v103 : IVec S16 32) (k1_hw17 : k1_chk17 v103), ∀ a x, ((![v103] : Fin 1 → IVec S16 32) a x).toNat < S100096.size a := fun v103 k1_hw17 => k1_hw17

def k1_chk18 (v106 : IVec S16 32) : Prop :=
  (∀ a x, ((![v106] : Fin 1 → IVec S16 32) a x).toNat < S100096.size a)
instance k1_chk18.dec : ∀ (v106 : IVec S16 32), Decidable (k1_chk18 v106) := fun v106 => decidable_of_iff' _ (Iff.of_eq (k1_chk18.eq_1 v106))
theorem k1_idx18_inb : ∀ (v106 : IVec S16 32) (k1_hw18 : k1_chk18 v106), ∀ a x, ((![v106] : Fin 1 → IVec S16 32) a x).toNat < S100096.size a := fun v106 k1_hw18 => k1_hw18

def k1_chk19 (v109 : IVec S16 32) : Prop :=
  (∀ a x, ((![v109] : Fin 1 → IVec S16 32) a x).toNat < S100096.size a)
instance k1_chk19.dec : ∀ (v109 : IVec S16 32), Decidable (k1_chk19 v109) := fun v109 => decidable_of_iff' _ (Iff.of_eq (k1_chk19.eq_1 v109))
theorem k1_idx19_inb : ∀ (v109 : IVec S16 32) (k1_hw19 : k1_chk19 v109), ∀ a x, ((![v109] : Fin 1 → IVec S16 32) a x).toNat < S100096.size a := fun v109 k1_hw19 => k1_hw19

def k1_chk20 (v112 : IVec S16 32) : Prop :=
  (∀ a x, ((![v112] : Fin 1 → IVec S16 32) a x).toNat < S100096.size a)
instance k1_chk20.dec : ∀ (v112 : IVec S16 32), Decidable (k1_chk20 v112) := fun v112 => decidable_of_iff' _ (Iff.of_eq (k1_chk20.eq_1 v112))
theorem k1_idx20_inb : ∀ (v112 : IVec S16 32) (k1_hw20 : k1_chk20 v112), ∀ a x, ((![v112] : Fin 1 → IVec S16 32) a x).toNat < S100096.size a := fun v112 k1_hw20 => k1_hw20
def k1_off7 (k1_t3 : Fin k1_t3_loop.trips) (c0_i32_67 : BitVec 32) : Fin 1 → Nat :=
  let c0_i32_44 : BitVec 32 := 0#32
  let c1_i32_46 : BitVec 32 := 1#32
  let arg18 : BitVec 32 := Scf.iv c0_i32_44 c1_i32_46 k1_t3
  let c10_i32 : BitVec 32 := 10#32
  let v81 : BitVec 32 := Scalar.muli arg18 c10_i32
  let c16_i32_54 : BitVec 32 := 16#32
  let v82 : BitVec 32 := Scalar.muli v81 c16_i32_54
  let v154 : BitVec 32 := Scalar.addi v82 c0_i32_67
  let v155 : Index := Scalar.indexCast v154
  ![v155.toNat]
def k1_cond4 (k1_t1 : Fin k1_t1_loop.trips) : BitVec 1 :=
  let c0_i32_5 : BitVec 32 := 0#32
  let c1_i32_6 : BitVec 32 := 1#32
  let arg17 : BitVec 32 := Scf.iv c0_i32_5 c1_i32_6 k1_t1
  let c2_i32_33 : BitVec 32 := 2#32
  let v56 : BitVec 32 := Scalar.muli arg17 c2_i32_33
  let c1_i32_34 : BitVec 32 := 1#32
  let v57 : BitVec 32 := Scalar.addi v56 c1_i32_34
  let c2_i32_51 : BitVec 32 := 2#32
  let v77 : BitVec 32 := Scalar.addi v57 c2_i32_51
  let c50_i32_52 : BitVec 32 := 50#32
  let v78 : BitVec 1 := Scalar.cmpi .slt v77 c50_i32_52
  let v79 : BitVec 32 := Scalar.extui v78
  let c0_i32_53 : BitVec 32 := 0#32
  let v80 : BitVec 1 := Scalar.cmpi .ne v79 c0_i32_53
  v80

def k1_off8 (i : grid1.Coords) (k1_t1 : Fin k1_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c200000_i32_55 : BitVec 32 := 200000#32
  let v82 : BitVec 32 := Scalar.muli v1 c200000_i32_55
  let c0_i32_5 : BitVec 32 := 0#32
  let c1_i32_6 : BitVec 32 := 1#32
  let arg17 : BitVec 32 := Scf.iv c0_i32_5 c1_i32_6 k1_t1
  let c2_i32_33 : BitVec 32 := 2#32
  let v56 : BitVec 32 := Scalar.muli arg17 c2_i32_33
  let c1_i32_34 : BitVec 32 := 1#32
  let v57 : BitVec 32 := Scalar.addi v56 c1_i32_34
  let c2_i32_54 : BitVec 32 := 2#32
  let v81 : BitVec 32 := Scalar.addi v57 c2_i32_54
  let c4000_i32_56 : BitVec 32 := 4000#32
  let v83 : BitVec 32 := Scalar.muli v81 c4000_i32_56
  let v84 : BitVec 32 := Scalar.addi v82 v83
  ![v84.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S2x6400000_S1x6400000_1_0 : S2x6400000.Slices ![1, 0] S1x6400000
  shapeCasts_S1x6400000_S6400000 : S1x6400000.ShapeCasts S6400000
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  h_S16 : 0 < S16.numel
  inb_S6400000_S4000_0 : ∀ a, (![0] : Fin 1 → Nat) a + S4000.size a ≤ S6400000.size a
  h_S100096 : 0 < S100096.numel
  slices_S3203072_S100096_0 : S3203072.Slices ![0] S100096
  slices_S3203072_S100096_100096 : S3203072.Slices ![100096] S100096
  slices_S3203072_S100096_200192 : S3203072.Slices ![200192] S100096
  slices_S3203072_S100096_300288 : S3203072.Slices ![300288] S100096
  slices_S3203072_S100096_400384 : S3203072.Slices ![400384] S100096
  slices_S3203072_S100096_500480 : S3203072.Slices ![500480] S100096
  slices_S3203072_S100096_600576 : S3203072.Slices ![600576] S100096
  slices_S3203072_S100096_700672 : S3203072.Slices ![700672] S100096
  slices_S3203072_S100096_800768 : S3203072.Slices ![800768] S100096
  slices_S3203072_S100096_900864 : S3203072.Slices ![900864] S100096
  slices_S3203072_S100096_1000960 : S3203072.Slices ![1000960] S100096
  slices_S3203072_S100096_1101056 : S3203072.Slices ![1101056] S100096
  slices_S3203072_S100096_1201152 : S3203072.Slices ![1201152] S100096
  slices_S3203072_S100096_1301248 : S3203072.Slices ![1301248] S100096
  slices_S3203072_S100096_1401344 : S3203072.Slices ![1401344] S100096
  slices_S3203072_S100096_1501440 : S3203072.Slices ![1501440] S100096
  slices_S3203072_S100096_1601536 : S3203072.Slices ![1601536] S100096
  slices_S3203072_S100096_1701632 : S3203072.Slices ![1701632] S100096
  slices_S3203072_S100096_1801728 : S3203072.Slices ![1801728] S100096
  slices_S3203072_S100096_1901824 : S3203072.Slices ![1901824] S100096
  slices_S3203072_S100096_2001920 : S3203072.Slices ![2001920] S100096
  slices_S3203072_S100096_2102016 : S3203072.Slices ![2102016] S100096
  slices_S3203072_S100096_2202112 : S3203072.Slices ![2202112] S100096
  slices_S3203072_S100096_2302208 : S3203072.Slices ![2302208] S100096
  slices_S3203072_S100096_2402304 : S3203072.Slices ![2402304] S100096
  slices_S3203072_S100096_2502400 : S3203072.Slices ![2502400] S100096
  slices_S3203072_S100096_2602496 : S3203072.Slices ![2602496] S100096
  slices_S3203072_S100096_2702592 : S3203072.Slices ![2702592] S100096
  slices_S3203072_S100096_2802688 : S3203072.Slices ![2802688] S100096
  slices_S3203072_S100096_2902784 : S3203072.Slices ![2902784] S100096
  slices_S3203072_S100096_3002880 : S3203072.Slices ![3002880] S100096
  slices_S3203072_S100096_3102976 : S3203072.Slices ![3102976] S100096
  bcast_S_S100096 : S_.BroadcastsInDim S100096 (![] : Fin 0 → Fin S100096.rank)
  hcc0_scratch7 : 0 + S2.numel ≤ 14
  hcc0_scratch8 : 2 + S2.numel ≤ 14
  hcc0_scratch9 : 4 + S2.numel ≤ 14
  hcc0_scoped0 : 6 + S_.numel ≤ 14
  hcc1_scratch7 : 7 + S2.numel ≤ 14
  hcc1_scratch8 : 9 + S2.numel ≤ 14
  hcc1_scratch9 : 11 + S2.numel ≤ 14
  hcc1_scratch10 : 13 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (4000 * r.val))) a + S4000.size a ≤ S6400000.size a
  k0_t1_ok : k0_t1_loop.OK
  k0_off2_inb : ∀ k0_t1 : Fin k0_t1_loop.trips, ∀ (r : Fin 8), ∀ a, (k0_off2 k0_t1 (BitVec.ofNat 32 (16 * r.val))) a + S16.size a ≤ S100096.size a
  k0_t2_ok : k0_t2_loop.OK
  k0_t3_ok : k0_t3_loop.OK
  k0_off3_inb : ∀ k0_t3 : Fin k0_t3_loop.trips, ∀ (r : Fin 10), ∀ a, (k0_off3 k0_t3 (BitVec.ofNat 32 (16 * r.val))) a + S16.size a ≤ S4000.size a
  k0_off4_inb : ∀ (i : grid0.Coords) (k0_t2 : Fin k0_t2_loop.trips), ∀ (k0_h2 : k0_cond2 k0_t2 = 1#1), ∀ a, (k0_off4 i k0_t2) a + S4000.size a ≤ S6400000.size a
  k0_off5_inb : ∀ (i : grid0.Coords) (k0_t2 : Fin k0_t2_loop.trips), ∀ (r : Fin 2), ∀ a, (k0_off5 i k0_t2 (BitVec.ofNat 32 r.val)) a + S4000.size a ≤ S6400000.size a
  k0_t4_ok : k0_t4_loop.OK
  k0_off6_inb : ∀ k0_t4 : Fin k0_t4_loop.trips, ∀ (r : Fin 10), ∀ a, (k0_off6 k0_t4 (BitVec.ofNat 32 (16 * r.val))) a + S16.size a ≤ S4000.size a
  k0_off7_inb : ∀ (i : grid0.Coords) (k0_t2 : Fin k0_t2_loop.trips), ∀ (k0_h4 : k0_cond4 k0_t2 = 1#1), ∀ a, (k0_off7 i k0_t2) a + S4000.size a ≤ S6400000.size a
  k0_off8_inb : ∀ i : grid0.Coords, ∀ a, (k0_off8 i) a + S100096.size a ≤ S3203072.size a
  hcore1 : grid1.bound 0 ≤ τ.nSC
  hsub1 : grid1.bound 1 ≤ τ.nSub
  k1_off1_inb : ∀ i : grid1.Coords, ∀ (r : Fin 2), ∀ a, (k1_off1 i (BitVec.ofNat 32 (4000 * r.val))) a + S4000.size a ≤ S6400000.size a
  k1_t1_ok : k1_t1_loop.OK
  k1_t2_ok : k1_t2_loop.OK
  k1_off2_inb : ∀ k1_t2 : Fin k1_t2_loop.trips, ∀ (r : Fin 10), ∀ a, (k1_off2 k1_t2 (BitVec.ofNat 32 (16 * r.val))) a + S16.size a ≤ S4000.size a
  k1_off3_inb : ∀ k1_t2 : Fin k1_t2_loop.trips, ∀ (r : Fin 10), ∀ a, (k1_off3 k1_t2 (BitVec.ofNat 32 (16 * r.val))) a + S16.size a ≤ S4000.size a
  k1_off4_inb : ∀ (i : grid1.Coords) (k1_t1 : Fin k1_t1_loop.trips), ∀ (r : Fin 2), ∀ a, (k1_off4 i k1_t1 (BitVec.ofNat 32 r.val)) a + S4000.size a ≤ S6400000.size a
  k1_off5_inb : ∀ (i : grid1.Coords) (k1_t1 : Fin k1_t1_loop.trips), ∀ (k1_h2 : k1_cond2 k1_t1 = 1#1), ∀ a, (k1_off5 i k1_t1) a + S4000.size a ≤ S6400000.size a
  k1_t3_ok : k1_t3_loop.OK
  k1_off6_inb : ∀ k1_t3 : Fin k1_t3_loop.trips, ∀ (r : Fin 10), ∀ a, (k1_off6 k1_t3 (BitVec.ofNat 32 (16 * r.val))) a + S16.size a ≤ S4000.size a
  k1_off7_inb : ∀ k1_t3 : Fin k1_t3_loop.trips, ∀ (r : Fin 10), ∀ a, (k1_off7 k1_t3 (BitVec.ofNat 32 (16 * r.val))) a + S16.size a ≤ S4000.size a
  k1_off8_inb : ∀ (i : grid1.Coords) (k1_t1 : Fin k1_t1_loop.trips), ∀ (k1_h4 : k1_cond4 k1_t1 = 1#1), ∀ a, (k1_off8 i k1_t1) a + S4000.size a ≤ S6400000.size a

variable [Facts₀]

abbrev cc0_scratch7 : DmaSems sig S2 := SemArray.consecutive 0 S2 hcc0_scratch7
abbrev cc0_scratch8 : DmaSems sig S2 := SemArray.consecutive 2 S2 hcc0_scratch8
abbrev cc0_scratch9 : DmaSems sig S2 := SemArray.consecutive 4 S2 hcc0_scratch9
abbrev cc0_scoped0 : DmaSems sig S_ := SemArray.consecutive 6 S_ hcc0_scoped0
abbrev cc1_scratch7 : DmaSems sig S2 := SemArray.consecutive 7 S2 hcc1_scratch7
abbrev cc1_scratch8 : DmaSems sig S2 := SemArray.consecutive 9 S2 hcc1_scratch8
abbrev cc1_scratch9 : DmaSems sig S2 := SemArray.consecutive 11 S2 hcc1_scratch9
abbrev cc1_scratch10 : DmaSems sig S_ := SemArray.consecutive 13 S_ hcc1_scratch10

class Facts : Prop extends Facts₀ where

variable [Facts]
-- ==== ReferenceIdeal.lean ====
abbrev S2x6400000 : Shape := ⟨2, ![2, 6400000]⟩
abbrev S6400000 : Shape := ⟨1, ![6400000]⟩
abbrev S1x6400000 : Shape := ⟨2, ![1, 6400000]⟩
abbrev S_ : Shape := ⟨0, ![]⟩
abbrev S100000 : Shape := ⟨1, ![100000]⟩
abbrev S6400000x1 : Shape := ⟨2, ![6400000, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x6400000, .i32⟩
  | .hbm, ⟨1, _⟩ => ⟨S6400000, .f32⟩
  | .hbm, ⟨2, _⟩ => ⟨S6400000, .f32⟩
  | .hbm, ⟨3, _⟩ => ⟨S1x6400000, .i32⟩
  | .hbm, ⟨4, _⟩ => ⟨S6400000, .i32⟩
  | .hbm, ⟨5, _⟩ => ⟨S_, .f32⟩
  | .hbm, ⟨6, _⟩ => ⟨S100000, .f32⟩
  | .hbm, ⟨7, _⟩ => ⟨S6400000x1, .i32⟩
  | .hbm, ⟨8, _⟩ => ⟨S100000, .f32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S1, .i32⟩
  | .hbm, ⟨18, _⟩ => ⟨S_, .i32⟩
  | .hbm, ⟨19, _⟩ => ⟨S6400000x1, .i32⟩
  | .hbm, ⟨20, _⟩ => ⟨S6400000x1, .i1⟩
  | .hbm, ⟨21, _⟩ => ⟨S1x1, .i32⟩
  | .hbm, ⟨22, _⟩ => ⟨S6400000x1, .i32⟩
  | .hbm, ⟨23, _⟩ => ⟨S6400000x1, .i1⟩
  | .hbm, ⟨24, _⟩ => ⟨S6400000x1, .i1⟩
  | .hbm, ⟨25, _⟩ => ⟨S_, .i1⟩
  | .hbm, ⟨26, _⟩ => ⟨S6400000, .i1⟩
  | .hbm, ⟨27, _⟩ => ⟨S6400000, .f32⟩
  | .hbm, ⟨28, _⟩ => ⟨S_, .f32⟩
  | .hbm, ⟨29, _⟩ => ⟨S6400000, .f32⟩
  | .hbm, ⟨30, _⟩ => ⟨S6400000, .f32⟩
  | .hbm, ⟨31, _⟩ => ⟨S6400000, .f32⟩
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩

abbrev nD : Nat := 1
abbrev τ : Topo := Topo.v7x

variable {F : FTy → Type} [FloatOps F]

class Facts₀ : Prop where
  slices_S2x6400000_S1x6400000_1_0 : S2x6400000.Slices ![1, 0] S1x6400000
  shapeCasts_S1x6400000_S6400000 : S1x6400000.ShapeCasts S6400000
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S6400000 : S_.BroadcastsInDim S6400000 (![] : Fin 0 → Fin S6400000.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf

class Facts : Prop extends Facts₀ where

variable [Facts]
-- ==== Proof.Spec.lean ====
import Idealize.ShloMosaic.PureOps
import Idealize.ShloMosaic.PureOps.Ideal
import Idealize.ShloMosaic.Lib.ValueIdx

noncomputable section

namespace Cert.EdgeSoftmax

open Idealize.ShloMosaic Idealize.ShloMosaic.ValueIdx

abbrev S2E : Shape := ⟨2, ![2, 6400000]⟩

abbrev SE : Shape := ⟨1, ![6400000]⟩

abbrev SN : Shape := ⟨1, ![100096]⟩

abbrev SP : Shape := ⟨1, ![3203072]⟩

abbrev SL : Shape := ⟨1, ![16]⟩

variable {F : FTy → Type} [FloatOps F]

def segOf (a0 : IVec S2E 32) : IVec SE 32 := fun e => a0 (ix2 (1 : Fin 2) (e 0))

theorem lane_lt (l : SL.Idx) : (l 0).val < 16 := (l 0).isLt

def lanes {α : Type} (x : SE.Idx → α) (off : Nat) (h : off + 16 ≤ 6400000) : SL.Idx → α :=
  fun l => x (ix1 ⟨off + (l 0).val, by have := lane_lt l; omega⟩)

def scatStep (seg : IVec SE 32) (w : FVec F SE .f32) (off : Nat) (D : FVec F SN .f32) : FVec F SN .f32 :=
  if h1 : off + 16 ≤ 6400000 then
    if h2 : ∀ (a : Fin SN.rank) (x : SL.Idx), ((![lanes seg off h1] : Fin SN.rank → IVec SL 32) a x).toNat < SN.size a then
      storeIdx (F := F) (s := SN) (e := .f32) D ![lanes seg off h1] (exp (lanes w off h1)) (fun _ => 1#1) true h2
    else D
  else D

def zeroTable : FVec F SN .f32 := fun _ => Scalar.ofBits .f32 0x00000000#32

def tilePartialUpTo (seg : IVec SE 32) (w : FVec F SE .f32) (t n : Nat) : FVec F SN .f32 :=
  (List.range n).foldl (fun D k => scatStep seg w (t * 200000 + 16 * k) D) zeroTable

def tilePartial (seg : IVec SE 32) (w : FVec F SE .f32) (t : Nat) : FVec F SN .f32 := tilePartialUpTo seg w t 12500

theorem tilePartialUpTo_zero (seg : IVec SE 32) (w : FVec F SE .f32) (t : Nat) : tilePartialUpTo seg w t 0 = zeroTable := rfl

theorem tilePartialUpTo_succ (seg : IVec SE 32) (w : FVec F SE .f32) (t n : Nat) :
    tilePartialUpTo seg w t (n + 1) = scatStep seg w (t * 200000 + 16 * n) (tilePartialUpTo seg w t n) := by
  unfold tilePartialUpTo; rw [List.range_succ, List.foldl_append]; rfl

def partialAll (seg : IVec SE 32) (w : FVec F SE .f32) : FVec F SP .f32 :=
  fun i => tilePartial seg w ((i 0).val / 100096) (ix1 ⟨(i 0).val % 100096, Nat.mod_lt _ (by norm_num)⟩)

def expAll (w : FVec F SE .f32) : FVec F SE .f32 := exp w

def tableAt (P : FVec F SP .f32) (t : Nat) : FVec F SN .f32 :=
  fun n => if h : t * 100096 + (n 0).val < 3203072 then P (ix1 ⟨t * 100096 + (n 0).val, h⟩) else P (ix1 ⟨0, by norm_num⟩)

def accOf (P : FVec F SP .f32) : FVec F SN .f32 :=
  (List.range 31).foldl (fun a t => addf a (tableAt P (t + 1))) (tableAt P 0)

def dinvOf (acc : FVec F SN .f32) : FVec F SN .f32 :=
  Host.divf (fun _ => FloatOps.ofBits .f32 0x3F800000#32) acc

def normAll (seg : IVec SE 32) (ew : FVec F SE .f32) (dinv : FVec F SN .f32) : FVec F SE .f32 :=
  fun e => if h : (seg e).toNat < 100096 then FloatOps.mulf (ew e) (dinv (ix1 ⟨(seg e).toNat, h⟩)) else ew e

def kernVal (a0 : IVec S2E 32) (a1 : FVec F SE .f32) : FVec F SE .f32 :=
  normAll (segOf a0) (expAll a1) (dinvOf (accOf (partialAll (segOf a0) a1)))

def softmaxSpec (a0 : IVec S2E 32) (a1 : SE.Idx → EReal) : SE.Idx → EReal :=
  fun e => Ideal.div (Ideal.exp (a1 e)) (∑ e' ∈ Finset.univ.filter (fun e' => segOf a0 e' = segOf a0 e), Ideal.exp (a1 e'))

end Cert.EdgeSoftmax

end
-- ==== Proof.Common.lean ====
import proofs.«207891_g54065048322743_cont_9to1_m_676_18_alg».proof.Defs
import proofs.«207891_g54065048322743_cont_9to1_m_676_18_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207891_g54065048322743_cont_9to1_m_676_18_alg».proof.Proof.Gen.KernelIdeal
import proofs.«207891_g54065048322743_cont_9to1_m_676_18_alg».proof.Proof.Gen.KernelIdeal.Skeleton

noncomputable section

namespace Cert.Proof.KI

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

abbrev a0Loc (d : Dev nD) : Loc nD τ sig := (SparseCore.T d).loc main_arg0
abbrev wLoc (d : Dev nD) : Loc nD τ sig := (SparseCore.T d).loc main_arg1
abbrev segLoc (d : Dev nD) : Loc nD τ sig := (SparseCore.T d).loc main_v1
abbrev partLoc (d : Dev nD) : Loc nD τ sig := (SparseCore.T d).loc main_v2_0
abbrev ewLoc (d : Dev nD) : Loc nD τ sig := (SparseCore.T d).loc main_v2_1
abbrev dinvLoc (d : Dev nD) : Loc nD τ sig := (SparseCore.T d).loc main_v67
abbrev outLoc (d : Dev nD) : Loc nD τ sig := (SparseCore.T d).loc main_v68

def wid (c : Fin 2) (i : Fin 16) : Nat := 16 * c.val + i.val
theorem wid_lt (c : Fin 2) (i : Fin 16) : wid c i < 32 := by unfold wid; omega

def edgesOf (t : Nat) : Finset SE.Idx := Finset.univ.filter fun e => (e 0).val / 200000 = t

def slotsOf (t : Nat) : Finset SP.Idx := Finset.univ.filter fun i => (i 0).val / 100096 = t

end Cert.Proof.KI

end
-- ==== Proof.Iface.lean ====
import proofs.«207891_g54065048322743_cont_9to1_m_676_18_alg».proof.Proof.Common

noncomputable section

namespace Cert.Proof.KI

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

def go0 (d : Dev nD) (segA : IVec SE 32) (wA : FVec F SE .f32) (t : Nat) : sProp 𝕄 :=
  iprop((segLoc d ↦[edgesOf t]{fullShare} segA) ∗ (wLoc d ↦[edgesOf t]{fullShare} wA)
    ∗ (∃ f, partLoc d ↦[slotsOf t]{fullShare} f) ∗ (∃ g, ewLoc d ↦[edgesOf t]{fullShare} g))

def td0 (d : Dev nD) (segA : IVec SE 32) (wA : FVec F SE .f32) (t : Nat) : sProp 𝕄 :=
  iprop((segLoc d ↦[edgesOf t]{fullShare} segA) ∗ (wLoc d ↦[edgesOf t]{fullShare} wA)
    ∗ (partLoc d ↦[slotsOf t]{fullShare} (partialAll segA wA)) ∗ (ewLoc d ↦[edgesOf t]{fullShare} (expAll wA)))

def go1 (d : Dev nD) (segA : IVec SE 32) (ewA : FVec F SE .f32) (dinvA : FVec F SN .f32) (t : Nat) : sProp 𝕄 :=
  iprop((segLoc d ↦[edgesOf t]{fullShare} segA) ∗ (ewLoc d ↦[edgesOf t]{fullShare} ewA)
    ∗ (dinvLoc d ↦{Transfers.shareTokN fullShare t} dinvA) ∗ (∃ f, outLoc d ↦[edgesOf t]{fullShare} f))

def td1 (d : Dev nD) (segA : IVec SE 32) (ewA : FVec F SE .f32) (dinvA : FVec F SN .f32) (t : Nat) : sProp 𝕄 :=
  iprop((segLoc d ↦[edgesOf t]{fullShare} segA) ∗ (ewLoc d ↦[edgesOf t]{fullShare} ewA)
    ∗ (dinvLoc d ↦{Transfers.shareTokN fullShare t} dinvA) ∗ (outLoc d ↦[edgesOf t]{fullShare} (normAll segA ewA dinvA)))

abbrev cV0 (L : grid0.Coords) : Fin τ.nSC := (L 0).castLE hcore0
abbrev jV0 (L : grid0.Coords) : Fin τ.nSub := (L 1).castLE hsub0
abbrev cV1 (L : grid1.Coords) : Fin τ.nSC := (L 0).castLE hcore1
abbrev jV1 (L : grid1.Coords) : Fin τ.nSub := (L 1).castLE hsub1

def tOf0 (L : grid0.Coords) : Nat := 16 * (L 0).val + (L 1).val
def tOf1 (L : grid1.Coords) : Nat := 16 * (L 0).val + (L 1).val

end Cert.Proof.KI

end
-- ==== Proof.Body0Defs.lean ====
import proofs.«207891_g54065048322743_cont_9to1_m_676_18_alg».proof.Proof.Iface

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev isem0 : DmaSem sig := ((cc0_scratch7.slice (Rect.unit (s := S2) ![0] S1.size inb_S2_S1_0)).squeeze S_ squeezes_S1_S_).sem
abbrev isem1 : DmaSem sig := ((cc0_scratch7.slice (Rect.unit (s := S2) ![1] S1.size inb_S2_S1_1)).squeeze S_ squeezes_S1_S_).sem
abbrev wsem0 : DmaSem sig := ((cc0_scratch8.slice (Rect.unit (s := S2) ![0] S1.size inb_S2_S1_0)).squeeze S_ squeezes_S1_S_).sem
abbrev wsem1 : DmaSem sig := ((cc0_scratch8.slice (Rect.unit (s := S2) ![1] S1.size inb_S2_S1_1)).squeeze S_ squeezes_S1_S_).sem
abbrev esem0 : DmaSem sig := ((cc0_scratch9.slice (Rect.unit (s := S2) ![0] S1.size inb_S2_S1_0)).squeeze S_ squeezes_S1_S_).sem
abbrev esem1 : DmaSem sig := ((cc0_scratch9.slice (Rect.unit (s := S2) ![1] S1.size inb_S2_S1_1)).squeeze S_ squeezes_S1_S_).sem
abbrev tsem : DmaSem sig := cc0_scoped0.sem

section Names
variable (d : Dev nD) (L : grid0.Coords)

abbrev thr : Thread nD τ := V d (cV0 L) (jV0 L)
abbrev cellOf (s : DmaSem sig) : GSem nD τ sig := (thr d L, SemLoc.dma s)
end Names

namespace Names0
scoped notation "aSeg" => (Memref.whole Cert.KernelIdeal.main_v1_scv : Memref Cert.KernelIdeal.sig Kind.scVector Space.hbm Cert.KernelIdeal.S6400000 EltTy.i32)
scoped notation "aW" => (Memref.whole Cert.KernelIdeal.main_arg1_scv : Memref Cert.KernelIdeal.sig Kind.scVector Space.hbm Cert.KernelIdeal.S6400000 EltTy.f32)
scoped notation "aPart" => (Memref.whole Cert.KernelIdeal.main_v2_0_scv : Memref Cert.KernelIdeal.sig Kind.scVector Space.hbm Cert.KernelIdeal.S3203072 EltTy.f32)
scoped notation "aEw" => (Memref.whole Cert.KernelIdeal.main_v2_1_scv : Memref Cert.KernelIdeal.sig Kind.scVector Space.hbm Cert.KernelIdeal.S6400000 EltTy.f32)
scoped notation "bTab" => (Memref.whole Cert.KernelIdeal.cc0_scratch0 : Memref Cert.KernelIdeal.sig Kind.scVector Space.vmem Cert.KernelIdeal.S100096 EltTy.f32)
scoped notation "bI0" => (Memref.whole Cert.KernelIdeal.cc0_scratch1 : Memref Cert.KernelIdeal.sig Kind.scVector Space.vmem Cert.KernelIdeal.S4000 EltTy.i32)
scoped notation "bI1" => (Memref.whole Cert.KernelIdeal.cc0_scratch2 : Memref Cert.KernelIdeal.sig Kind.scVector Space.vmem Cert.KernelIdeal.S4000 EltTy.i32)
scoped notation "bW0" => (Memref.whole Cert.KernelIdeal.cc0_scratch3 : Memref Cert.KernelIdeal.sig Kind.scVector Space.vmem Cert.KernelIdeal.S4000 EltTy.f32)
scoped notation "bW1" => (Memref.whole Cert.KernelIdeal.cc0_scratch4 : Memref Cert.KernelIdeal.sig Kind.scVector Space.vmem Cert.KernelIdeal.S4000 EltTy.f32)
scoped notation "bE0" => (Memref.whole Cert.KernelIdeal.cc0_scratch5 : Memref Cert.KernelIdeal.sig Kind.scVector Space.vmem Cert.KernelIdeal.S4000 EltTy.f32)
scoped notation "bE1" => (Memref.whole Cert.KernelIdeal.cc0_scratch6 : Memref Cert.KernelIdeal.sig Kind.scVector Space.vmem Cert.KernelIdeal.S4000 EltTy.f32)
end Names0
open Names0

abbrev EC : UEmb Counters 𝕄 := countersEmb (U := UU)

def eOf (t j : Nat) : Nat := 200000 * t + 4000 * j

def rng (lo hi : Nat) : Finset SE.Idx := Finset.univ.filter fun e => lo ≤ (e 0).val ∧ (e 0).val < hi

def chunkFn {α : Type} (x : SE.Idx → α) (t j : Nat) : S4000.Idx → α :=
  fun i => if h : eOf t j + (i 0).val < 6400000 then x (ix1 ⟨eOf t j + (i 0).val, h⟩) else x (ix1 ⟨0, by norm_num⟩)

def zpre (k : Nat) (f0 : FVec F SN .f32) : FVec F SN .f32 :=
  fun i => if (i 0).val < 128 * k then Scalar.ofBits .f32 0x00000000#32 else f0 i

def epre (wA : FVec F SE .f32) (t j g : Nat) (f0 : FVec F S4000 .f32) : FVec F S4000 .f32 :=
  fun i => if (i 0).val < 160 * g then chunkFn (expAll wA) t j i else f0 i

section Inv
variable (d : Dev nD) (L : grid0.Coords) (segA : IVec SE 32) (wA : FVec F SE .f32)

def invZ (f0 : FVec F SN .f32) (k : Nat) (_ : PUnit) : sProp 𝕄 :=
  iprop((bTab).view.loc (thr d L) ↦{fullShare} zpre k f0)

def invG0 (j : Nat) (fE : FVec F S4000 .f32) (g : Nat) (_ : PUnit) : sProp 𝕄 :=
  iprop(((bTab).view.loc (thr d L) ↦{fullShare} tilePartialUpTo segA wA (tOf0 L) (250 * j + 10 * g))
    ∗ ((bI0).view.loc (thr d L) ↦{fullShare} chunkFn segA (tOf0 L) j)
    ∗ ((bW0).view.loc (thr d L) ↦{fullShare} chunkFn wA (tOf0 L) j)
    ∗ ((bE0).view.loc (thr d L) ↦{fullShare} epre wA (tOf0 L) j g fE))

def invG1 (j : Nat) (fE : FVec F S4000 .f32) (g : Nat) (_ : PUnit) : sProp 𝕄 :=
  iprop(((bTab).view.loc (thr d L) ↦{fullShare} tilePartialUpTo segA wA (tOf0 L) (250 * j + 10 * g))
    ∗ ((bI1).view.loc (thr d L) ↦{fullShare} chunkFn segA (tOf0 L) j)
    ∗ ((bW1).view.loc (thr d L) ↦{fullShare} chunkFn wA (tOf0 L) j)
    ∗ ((bE1).view.loc (thr d L) ↦{fullShare} epre wA (tOf0 L) j g fE))

end Inv

end Cert.Proof.KI

end
-- ==== Proof.Body0Inv.lean ====
import proofs.«207891_g54065048322743_cont_9to1_m_676_18_alg».proof.Proof.Body0Defs

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

section Pair
variable (d : Dev nD) (L : grid0.Coords) (segA : IVec SE 32) (wA : FVec F SE .f32)

example : (bI0).view.dmaCredit = 128000 := by decide
example : (bW1).view.dmaCredit = 128000 := by decide
example : ((aEw).slice (Rect.unit (s := S6400000) ![0] S4000.size inb_S6400000_S4000_0) (fun _ => rfl)).view.dmaCredit = 128000 := by decide

def flI0 (j : Nat) : sProp 𝕄 :=
  Transfers.Flight EC (thr d L) (.dma isem0) (none : HIx 2) 128000
    iprop(((bI0).view.loc (thr d L) ↦{fullShare} chunkFn segA (tOf0 L) j)
      ∗ (segLoc d ↦[rng (eOf (tOf0 L) j) (eOf (tOf0 L) (j + 1))]{fullShare} segA))

def flI1 (j : Nat) : sProp 𝕄 :=
  Transfers.Flight EC (thr d L) (.dma isem1) (none : HIx 2) 128000
    iprop(((bI1).view.loc (thr d L) ↦{fullShare} chunkFn segA (tOf0 L) j)
      ∗ (segLoc d ↦[rng (eOf (tOf0 L) j) (eOf (tOf0 L) (j + 1))]{fullShare} segA))

def flW0 (j : Nat) : sProp 𝕄 :=
  Transfers.Flight EC (thr d L) (.dma wsem0) (none : HIx 2) 128000
    iprop(((bW0).view.loc (thr d L) ↦{fullShare} chunkFn wA (tOf0 L) j)
      ∗ (wLoc d ↦[rng (eOf (tOf0 L) j) (eOf (tOf0 L) (j + 1))]{fullShare} wA))

def flW1 (j : Nat) : sProp 𝕄 :=
  Transfers.Flight EC (thr d L) (.dma wsem1) (none : HIx 2) 128000
    iprop(((bW1).view.loc (thr d L) ↦{fullShare} chunkFn wA (tOf0 L) j)
      ∗ (wLoc d ↦[rng (eOf (tOf0 L) j) (eOf (tOf0 L) (j + 1))]{fullShare} wA))

def flE0 (j : Nat) : sProp 𝕄 :=
  Transfers.Flight EC (thr d L) (.dma esem0) (none : HIx 2) 128000
    iprop((ewLoc d ↦[rng (eOf (tOf0 L) j) (eOf (tOf0 L) (j + 1))]{fullShare} expAll wA)
      ∗ ((bE0).view.loc (thr d L) ↦{fullShare} chunkFn (expAll wA) (tOf0 L) j))

def flE1 (j : Nat) : sProp 𝕄 :=
  Transfers.Flight EC (thr d L) (.dma esem1) (none : HIx 2) 128000
    iprop((ewLoc d ↦[rng (eOf (tOf0 L) j) (eOf (tOf0 L) (j + 1))]{fullShare} expAll wA)
      ∗ ((bE1).view.loc (thr d L) ↦{fullShare} chunkFn (expAll wA) (tOf0 L) j))

def inB0 (c : Prop) [Decidable c] (j : Nat) : sProp 𝕄 :=
  if c then iprop(flI0 (F := F) d L segA j ∗ flW0 (F := F) d L wA j)
  else iprop((∃ f, (bI0).view.loc (thr d L) ↦{fullShare} f) ∗ (∃ f, (bW0).view.loc (thr d L) ↦{fullShare} f)
    ∗ semVal (cellOf d L isem0) 0 ∗ semVal (cellOf d L wsem0) 0)
def inB1 (c : Prop) [Decidable c] (j : Nat) : sProp 𝕄 :=
  if c then iprop(flI1 (F := F) d L segA j ∗ flW1 (F := F) d L wA j)
  else iprop((∃ f, (bI1).view.loc (thr d L) ↦{fullShare} f) ∗ (∃ f, (bW1).view.loc (thr d L) ↦{fullShare} f)
    ∗ semVal (cellOf d L isem1) 0 ∗ semVal (cellOf d L wsem1) 0)

def outB0 (c : Prop) [Decidable c] (j : Nat) : sProp 𝕄 :=
  if c then flE0 (F := F) d L wA j
  else iprop((∃ f, (bE0).view.loc (thr d L) ↦{fullShare} f) ∗ semVal (cellOf d L esem0) 0)
def outB1 (c : Prop) [Decidable c] (j : Nat) : sProp 𝕄 :=
  if c then flE1 (F := F) d L wA j
  else iprop((∃ f, (bE1).view.loc (thr d L) ↦{fullShare} f) ∗ semVal (cellOf d L esem1) 0)

variable (O : CellTallies nD τ sig (HIx 2)) (W : Waits sig (HIx 2)) (g0 : FVec F SE .f32)

def owesW : sProp 𝕄 := iprop(∃ W', ⌜∀ q ∈ W', q ∈ W ∨ q.2 = none⌝ ∗ owes (thr d L) O W')

def invP (p : Nat) (_ : PUnit) : sProp 𝕄 :=
  iprop(Transfers.MayWaits (thr d L) (none : HIx 2) O
    ∗ ((bTab).view.loc (thr d L) ↦{fullShare} tilePartialUpTo segA wA (tOf0 L) (500 * p))
    ∗ inB0 (F := F) d L segA wA (p < 25) (2 * p) ∗ inB1 (F := F) d L segA wA (p < 25) (2 * p + 1)
    ∗ outB0 (F := F) d L wA (1 ≤ p) (2 * p - 2) ∗ outB1 (F := F) d L wA (1 ≤ p) (2 * p - 1)
    ∗ (segLoc d ↦[rng (eOf (tOf0 L) 0) (eOf (tOf0 L) (2 * p))]{fullShare} segA) ∗ (segLoc d ↦[rng (eOf (tOf0 L) (min (2 * p + 2) 50)) (eOf (tOf0 L) 50)]{fullShare} segA)
    ∗ (wLoc d ↦[rng (eOf (tOf0 L) 0) (eOf (tOf0 L) (2 * p))]{fullShare} wA) ∗ (wLoc d ↦[rng (eOf (tOf0 L) (min (2 * p + 2) 50)) (eOf (tOf0 L) 50)]{fullShare} wA)
    ∗ (ewLoc d ↦[rng (eOf (tOf0 L) 0) (eOf (tOf0 L) (2 * p - 2))]{fullShare} expAll wA) ∗ (ewLoc d ↦[rng (eOf (tOf0 L) (2 * p)) (eOf (tOf0 L) 50)]{fullShare} g0)
    ∗ owesW (F := F) d L O W)

def invH (p : Nat) : sProp 𝕄 :=
  iprop(Transfers.MayWaits (thr d L) (none : HIx 2) O
    ∗ ((bTab).view.loc (thr d L) ↦{fullShare} tilePartialUpTo segA wA (tOf0 L) (500 * p + 250))
    ∗ inB0 (F := F) d L segA wA (p < 24) (2 * p + 2) ∗ inB1 (F := F) d L segA wA (p < 25) (2 * p + 1)
    ∗ flE0 (F := F) d L wA (2 * p) ∗ outB1 (F := F) d L wA (1 ≤ p) (2 * p - 1)
    ∗ (segLoc d ↦[rng (eOf (tOf0 L) 0) (eOf (tOf0 L) (2 * p + 1))]{fullShare} segA) ∗ (segLoc d ↦[rng (eOf (tOf0 L) (min (2 * p + 3) 50)) (eOf (tOf0 L) 50)]{fullShare} segA)
    ∗ (wLoc d ↦[rng (eOf (tOf0 L) 0) (eOf (tOf0 L) (2 * p + 1))]{fullShare} wA) ∗ (wLoc d ↦[rng (eOf (tOf0 L) (min (2 * p + 3) 50)) (eOf (tOf0 L) 50)]{fullShare} wA)
    ∗ (ewLoc d ↦[rng (eOf (tOf0 L) 0) (eOf (tOf0 L) (2 * p - 1))]{fullShare} expAll wA) ∗ (ewLoc d ↦[rng (eOf (tOf0 L) (2 * p + 1)) (eOf (tOf0 L) 50)]{fullShare} g0)
    ∗ owesW (F := F) d L O W)

end Pair

end Cert.Proof.KI

end
-- ==== Proof.Body0Pure.lean ====
import proofs.«207891_g54065048322743_cont_9to1_m_676_18_alg».proof.Proof.Body0Defs

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

section Pure
variable (L : grid0.Coords) (segA : IVec SE 32) (wA : FVec F SE .f32)

theorem tOf0_lt : tOf0 L < 32 := by
  have h0 : (L 0).val < 2 := (L 0).isLt
  have h1 : (L 1).val < 16 := (L 1).isLt
  unfold tOf0
  omega

theorem mem_rng {a b : Nat} {e : SE.Idx} : e ∈ rng a b ↔ a ≤ (e 0).val ∧ (e 0).val < b := by
  unfold rng
  rw [Finset.mem_filter]
  simp only [Finset.mem_univ, true_and]

theorem rng_empty (a : Nat) : rng a a = ∅ := by
  ext e
  simp only [rng, Finset.mem_filter, Finset.mem_univ, true_and, Finset.notMem_empty, iff_false]
  omega

theorem rng_union {a b c : Nat} (hab : a ≤ b) (hbc : b ≤ c) : rng a c = rng a b ∪ rng b c := by
  ext e
  simp only [rng, Finset.mem_filter, Finset.mem_univ, true_and, Finset.mem_union]
  omega

theorem rng_disjoint (a b c : Nat) : Disjoint (rng a b) (rng b c) := by
  rw [Finset.disjoint_left]
  intro e h1 h2
  simp only [rng, Finset.mem_filter, Finset.mem_univ, true_and] at h1 h2
  omega

theorem edgesOf_eq_rng (t : Nat) : edgesOf t = rng (eOf t 0) (eOf t 50) := by
  ext e
  rw [mem_rng]
  simp only [edgesOf, eOf, Finset.mem_filter, Finset.mem_univ, true_and]
  constructor
  · intro h
    subst h
    omega
  · intro h
    exact Nat.div_eq_of_lt_le (by omega) (by omega)

theorem eOf_succ (t j : Nat) : eOf t (j + 1) = eOf t j + 4000 := by
  unfold eOf; omega

theorem unit4000_set (off : Fin 1 → Nat) (inb : ∀ a, off a + S4000.size a ≤ S6400000.size a) :
    (Rect.unit (s := S6400000) off S4000.size inb).set = rng (off 0) (off 0 + 4000) := by
  ext i
  rw [Rect.mem_set_unit, Fin.forall_fin_one]
  unfold rng
  rw [Finset.mem_filter]
  simp only [Finset.mem_univ, true_and]
  exact Iff.rfl

theorem unit4000_emb (off : Fin 1 → Nat) (inb : ∀ a, off a + S4000.size a ≤ S6400000.size a) (i : S4000.Idx)
    (h : off 0 + (i 0).val < 6400000) :
    (Rect.unit (s := S6400000) off S4000.size inb).emb i = ix1 ⟨off 0 + (i 0).val, h⟩ := by
  funext a
  match a with
  | ⟨0, _⟩ => exact Fin.ext (by show off 0 + 1 * (i 0).val = off 0 + (i 0).val; omega)

theorem window_chunk {α : Type} (x : SE.Idx → α) (t j : Nat) (off : Fin 1 → Nat) (h0 : off 0 = eOf t j)
    (inb : ∀ a, off a + S4000.size a ≤ S6400000.size a) (i : S4000.Idx) :
    x ((Rect.unit (s := S6400000) off S4000.size inb).emb i) = chunkFn x t j i := by
  have hi : (i 0).val < 4000 := (i 0).isLt
  have hb : off 0 + 4000 ≤ 6400000 := inb 0
  have h : eOf t j + (i 0).val < 6400000 := by omega
  unfold chunkFn
  rw [dif_pos h, unit4000_emb off inb i (by omega)]
  congr 2
  exact Fin.ext (by show off 0 + (i 0).val = eOf t j + (i 0).val; omega)

theorem window_exists (off : Fin 1 → Nat) (inb : ∀ a, off a + S4000.size a ≤ S6400000.size a) (e : SE.Idx)
    (he : e ∈ rng (off 0) (off 0 + 4000)) :
    ∃ i : S4000.Idx, (Rect.unit (s := S6400000) off S4000.size inb).emb i = e ∧ (i 0).val = (e 0).val - off 0 := by
  have he' := mem_rng.mp he
  have hb : off 0 + 4000 ≤ 6400000 := inb 0
  refine ⟨ix1 ⟨(e 0).val - off 0, by omega⟩, ?_, rfl⟩
  refine (unit4000_emb off inb _ (by show off 0 + ((e 0).val - off 0) < 6400000; omega)).trans
    ((congrArg ix1 (Fin.ext ?_)).trans (eq_ix1 e).symm)
  show off 0 + ((e 0).val - off 0) = (e 0).val
  omega

theorem unit100096_set (t : Nat) (off : Fin 1 → Nat) (h0 : off 0 = 100096 * t)
    (inb : ∀ a, off a + S100096.size a ≤ S3203072.size a) :
    (Rect.unit (s := S3203072) off S100096.size inb).set = slotsOf t := by
  ext i
  rw [Rect.mem_set_unit, Fin.forall_fin_one]
  have hb : off 0 + 100096 ≤ 3203072 := inb 0
  show (off 0 ≤ (i 0).val ∧ (i 0).val < off 0 + 100096) ↔ i ∈ slotsOf t
  simp only [slotsOf, Finset.mem_filter, Finset.mem_univ, true_and]
  constructor
  · intro h
    exact Nat.div_eq_of_lt_le (by omega) (by omega)
  · intro h
    subst h
    omega

theorem unit100096_emb (off : Fin 1 → Nat) (inb : ∀ a, off a + S100096.size a ≤ S3203072.size a) (n : SN.Idx)
    (h : off 0 + (n 0).val < 3203072) :
    (Rect.unit (s := S3203072) off S100096.size inb).emb n = ix1 ⟨off 0 + (n 0).val, h⟩ := by
  funext a
  match a with
  | ⟨0, _⟩ => exact Fin.ext (by show off 0 + 1 * (n 0).val = off 0 + (n 0).val; omega)

theorem slot_exists (t : Nat) (off : Fin 1 → Nat) (h0 : off 0 = 100096 * t)
    (inb : ∀ a, off a + S100096.size a ≤ S3203072.size a) (i : SP.Idx) (hi : i ∈ slotsOf t) :
    ∃ n : SN.Idx, (Rect.unit (s := S3203072) off S100096.size inb).emb n = i ∧ (n 0).val = (i 0).val % 100096 := by
  have hi' : (i 0).val / 100096 = t := by
    simpa only [slotsOf, Finset.mem_filter, Finset.mem_univ, true_and] using hi
  have hb : off 0 + 100096 ≤ 3203072 := inb 0
  refine ⟨ix1 ⟨(i 0).val % 100096, Nat.mod_lt _ (by norm_num)⟩, ?_, rfl⟩
  refine (unit100096_emb off inb _ (by show off 0 + (i 0).val % 100096 < 3203072; omega)).trans
    ((congrArg ix1 (Fin.ext ?_)).trans (eq_ix1 i).symm)
  show off 0 + (i 0).val % 100096 = (i 0).val
  omega

theorem seg_slice_set (off : Fin 1 → Nat) (inb : ∀ a, off a + S4000.size a ≤ S6400000.size a) :
    ((aSeg).slice (Rect.unit (s := S6400000) off S4000.size inb) (fun _ => rfl)).view.set = rng (off 0) (off 0 + 4000) := by
  exact (View.set_slice_whole main_v1_scv _).trans (unit4000_set off inb)

theorem w_slice_set (off : Fin 1 → Nat) (inb : ∀ a, off a + S4000.size a ≤ S6400000.size a) :
    ((aW).slice (Rect.unit (s := S6400000) off S4000.size inb) (fun _ => rfl)).view.set = rng (off 0) (off 0 + 4000) := by
  exact (View.set_slice_whole main_arg1_scv _).trans (unit4000_set off inb)

theorem ew_slice_set (off : Fin 1 → Nat) (inb : ∀ a, off a + S4000.size a ≤ S6400000.size a) :
    ((aEw).slice (Rect.unit (s := S6400000) off S4000.size inb) (fun _ => rfl)).view.set = rng (off 0) (off 0 + 4000) := by
  exact (View.set_slice_whole main_v2_1_scv _).trans (unit4000_set off inb)

theorem part_slice_set (t : Nat) (off : Fin 1 → Nat) (h0 : off 0 = 100096 * t) (inb : ∀ a, off a + S100096.size a ≤ S3203072.size a) :
    ((aPart).slice (Rect.unit (s := S3203072) off S100096.size inb) (fun _ => rfl)).view.set = slotsOf t := by
  exact (View.set_slice_whole main_v2_0_scv _).trans (unit100096_set t off h0 inb)

theorem land_I0 (t j : Nat) (ht : t < 32) (hj : j < 50) (off : Fin 1 → Nat) (h0 : off 0 = eOf t j)
    (inb : ∀ a, off a + S4000.size a ≤ S6400000.size a) (fd : IVec S4000 32) :
    (bI0).view.write (Elt F) fd (ReadAs.same.apply (((aSeg).slice (Rect.unit (s := S6400000) off S4000.size inb) (fun _ => rfl)).view.read (Elt F) segA)) Finset.univ
      = chunkFn segA t j := by
  refine (View.write_whole_univ cc0_scratch1 _ _).trans ?_
  funext i
  exact window_chunk segA t j off h0 inb i

theorem land_I1 (t j : Nat) (ht : t < 32) (hj : j < 50) (off : Fin 1 → Nat) (h0 : off 0 = eOf t j)
    (inb : ∀ a, off a + S4000.size a ≤ S6400000.size a) (fd : IVec S4000 32) :
    (bI1).view.write (Elt F) fd (ReadAs.same.apply (((aSeg).slice (Rect.unit (s := S6400000) off S4000.size inb) (fun _ => rfl)).view.read (Elt F) segA)) Finset.univ
      = chunkFn segA t j := by
  refine (View.write_whole_univ cc0_scratch2 _ _).trans ?_
  funext i
  exact window_chunk segA t j off h0 inb i

theorem land_W0 (t j : Nat) (ht : t < 32) (hj : j < 50) (off : Fin 1 → Nat) (h0 : off 0 = eOf t j)
    (inb : ∀ a, off a + S4000.size a ≤ S6400000.size a) (fd : FVec F S4000 .f32) :
    (bW0).view.write (Elt F) fd (ReadAs.same.apply (((aW).slice (Rect.unit (s := S6400000) off S4000.size inb) (fun _ => rfl)).view.read (Elt F) wA)) Finset.univ
      = chunkFn wA t j := by
  refine (View.write_whole_univ cc0_scratch3 _ _).trans ?_
  funext i
  exact window_chunk wA t j off h0 inb i

theorem land_W1 (t j : Nat) (ht : t < 32) (hj : j < 50) (off : Fin 1 → Nat) (h0 : off 0 = eOf t j)
    (inb : ∀ a, off a + S4000.size a ≤ S6400000.size a) (fd : FVec F S4000 .f32) :
    (bW1).view.write (Elt F) fd (ReadAs.same.apply (((aW).slice (Rect.unit (s := S6400000) off S4000.size inb) (fun _ => rfl)).view.read (Elt F) wA)) Finset.univ
      = chunkFn wA t j := by
  refine (View.write_whole_univ cc0_scratch4 _ _).trans ?_
  funext i
  exact window_chunk wA t j off h0 inb i

theorem out_E0 (t j : Nat) (ht : t < 32) (hj : j < 50) (off : Fin 1 → Nat) (h0 : off 0 = eOf t j)
    (inb : ∀ a, off a + S4000.size a ≤ S6400000.size a) (g : FVec F SE .f32) :
    ∀ i ∈ rng (eOf t j) (eOf t j + 4000),
      ((aEw).slice (Rect.unit (s := S6400000) off S4000.size inb) (fun _ => rfl)).view.write (Elt F) g
          (ReadAs.same.apply ((bE0).view.read (Elt F) (chunkFn (expAll wA) t j))) Finset.univ i = expAll wA i := by
  intro i hi
  rw [← h0] at hi
  obtain ⟨x, rfl, -⟩ := window_exists off inb i hi
  refine (View.write_emb_of_mem (v := ((aEw).slice (Rect.unit (s := S6400000) off S4000.size inb) (fun _ => rfl)).view)
    (Val := Elt F) g _ (Finset.mem_univ x)).trans ?_
  exact (window_chunk (expAll wA) t j off h0 inb x).symm

theorem out_E1 (t j : Nat) (ht : t < 32) (hj : j < 50) (off : Fin 1 → Nat) (h0 : off 0 = eOf t j)
    (inb : ∀ a, off a + S4000.size a ≤ S6400000.size a) (g : FVec F SE .f32) :
    ∀ i ∈ rng (eOf t j) (eOf t j + 4000),
      ((aEw).slice (Rect.unit (s := S6400000) off S4000.size inb) (fun _ => rfl)).view.write (Elt F) g
          (ReadAs.same.apply ((bE1).view.read (Elt F) (chunkFn (expAll wA) t j))) Finset.univ i = expAll wA i := by
  intro i hi
  rw [← h0] at hi
  obtain ⟨x, rfl, -⟩ := window_exists off inb i hi
  refine (View.write_emb_of_mem (v := ((aEw).slice (Rect.unit (s := S6400000) off S4000.size inb) (fun _ => rfl)).view)
    (Val := Elt F) g _ (Finset.mem_univ x)).trans ?_
  exact (window_chunk (expAll wA) t j off h0 inb x).symm

theorem out_tab (t : Nat) (ht : t < 32) (off : Fin 1 → Nat) (h0 : off 0 = 100096 * t)
    (inb : ∀ a, off a + S100096.size a ≤ S3203072.size a) (g : FVec F SP .f32) :
    ∀ i ∈ slotsOf t,
      ((aPart).slice (Rect.unit (s := S3203072) off S100096.size inb) (fun _ => rfl)).view.write (Elt F) g
          (ReadAs.same.apply ((bTab).view.read (Elt F) (tilePartial segA wA t))) Finset.univ i = partialAll segA wA i := by
  intro i hi
  obtain ⟨n, rfl, -⟩ := slot_exists t off h0 inb i hi
  have hn : (n 0).val < 100096 := (n 0).isLt
  have hb : off 0 + 100096 ≤ 3203072 := inb 0
  refine (View.write_emb_of_mem (v := ((aPart).slice (Rect.unit (s := S3203072) off S100096.size inb) (fun _ => rfl)).view)
    (Val := Elt F) g _ (Finset.mem_univ n)).trans ?_
  rw [unit100096_emb off inb n (by omega)]
  unfold partialAll
  generalize tilePartial segA wA = TP
  have key : ∀ (a b : Nat) (hb' : b < 100096), a = t → b = (n 0).val → TP t n = TP a (ix1 ⟨b, hb'⟩) := by
    intro a b hb' ha hb''
    subst ha; subst hb''
    exact congrArg _ (eq_ix1 n)
  exact key _ _ _ (by show (off 0 + (n 0).val) / 100096 = t; omega) (by show (off 0 + (n 0).val) % 100096 = (n 0).val; omega)

theorem off1_0 : k0_off1 L 0#32 0 = eOf (tOf0 L) 0 := by
  have h := congrFun (k0_off1_eq L ⟨0, by decide⟩) 0
  refine h.trans ?_
  show 3200000 * (L 0).val + 200000 * (L 1).val + 4000 * 0 = _
  unfold eOf tOf0
  omega
theorem off1_1 : k0_off1 L 4000#32 0 = eOf (tOf0 L) 1 := by
  have h := congrFun (k0_off1_eq L ⟨1, by decide⟩) 0
  refine h.trans ?_
  show 3200000 * (L 0).val + 200000 * (L 1).val + 4000 * 1 = _
  unfold eOf tOf0
  omega
theorem off4_eq (k : Fin k0_t2_loop.trips) : k0_off4 L k 0 = eOf (tOf0 L) (2 * k.val + 2) := by
  have h := congrFun (k0_off4_eq L k) 0
  refine h.trans ?_
  show 3200000 * (L 0).val + 200000 * (L 1).val + 8000 * k.val + 8000 = _
  unfold eOf tOf0
  omega
theorem off7_eq (k : Fin k0_t2_loop.trips) : k0_off7 L k 0 = eOf (tOf0 L) (2 * k.val + 3) := by
  have h := congrFun (k0_off7_eq L k) 0
  refine h.trans ?_
  show 3200000 * (L 0).val + 200000 * (L 1).val + 8000 * k.val + 12000 = _
  unfold eOf tOf0
  omega
theorem off5_0 (k : Fin k0_t2_loop.trips) : k0_off5 L k 0#32 0 = eOf (tOf0 L) (2 * k.val) := by
  have h := congrFun (k0_off5_eq L k ⟨0, by decide⟩) 0
  refine h.trans ?_
  show 3200000 * (L 0).val + 200000 * (L 1).val + 8000 * k.val + 4000 * 0 = _
  unfold eOf tOf0
  omega
theorem off5_1 (k : Fin k0_t2_loop.trips) : k0_off5 L k 1#32 0 = eOf (tOf0 L) (2 * k.val + 1) := by
  have h := congrFun (k0_off5_eq L k ⟨1, by decide⟩) 0
  refine h.trans ?_
  show 3200000 * (L 0).val + 200000 * (L 1).val + 8000 * k.val + 4000 * 1 = _
  unfold eOf tOf0
  omega
theorem off8_eq : k0_off8 L 0 = 100096 * tOf0 L := by
  have h := congrFun (k0_off8_eq L) 0
  refine h.trans ?_
  show 1601536 * (L 0).val + 100096 * (L 1).val = _
  unfold tOf0
  omega

theorem trips1 : k0_t1_loop.trips = 782 := by
  decide
theorem trips2 : k0_t2_loop.trips = 25 := by
  decide
theorem trips3 : k0_t3_loop.trips = 25 := by
  decide
theorem trips4 : k0_t4_loop.trips = 25 := by
  decide

theorem cond2_iff (k : Fin k0_t2_loop.trips) : k0_cond2 k = 1#1 ↔ k.val < 24 := by
  revert k
  decide +kernel
theorem cond4_iff (k : Fin k0_t2_loop.trips) : k0_cond4 k = 1#1 ↔ k.val < 24 := by
  revert k
  decide +kernel

theorem cond1_iff (k : Fin k0_t2_loop.trips) : Scalar.cmpi .ne (Scalar.extui (Scalar.cmpi .sge (Scalar.addi (Scalar.muli (Scf.iv 0#32 1#32 k) 2#32) 0#32) 2#32)) 0#32 = 1#1 ↔ 1 ≤ k.val := by
  revert k
  decide +kernel
theorem cond3_iff (k : Fin k0_t2_loop.trips) : Scalar.cmpi .ne (Scalar.extui (Scalar.cmpi .sge (Scalar.addi (Scalar.muli (Scf.iv 0#32 1#32 k) 2#32) 1#32) 2#32)) 0#32 = 1#1 ↔ 1 ≤ k.val := by
  revert k
  decide +kernel

end Pure

end Cert.Proof.KI

end
-- ==== Proof.Body0Zero.lean ====
import proofs.«207891_g54065048322743_cont_9to1_m_676_18_alg».proof.Proof.Body0Defs

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

section Zero
variable (d : Dev nD) (L : grid0.Coords)

private abbrev z32 : F .f32 := Scalar.ofBits .f32 0x00000000#32

private theorem mem_unit16 (off : Fin S100096.rank → Nat) (c : Nat) (hoff : off = ![c])
    (inb : ∀ a, off a + S16.size a ≤ S100096.size a) (y : S100096.Idx) :
    y ∈ (Rect.unit (s := S100096) off S16.size inb).set ↔ c ≤ (y 0).val ∧ (y 0).val < c + 16 := by
  subst hoff
  rw [Rect.mem_set_unit]
  constructor
  · intro h; exact h 0
  · intro h a
    have ha : a = 0 := Subsingleton.elim _ _
    subst ha
    exact h

private theorem writes_zero_block (f0 : FVec F SN .f32) (k : Nat) (Ls : List (View.Piece (Elt F) S100096 .f32))
    (hpay : ∀ p ∈ Ls, ∀ x : p.1.shape.Idx, p.2 x = (z32 : F .f32))
    (hin : ∀ p ∈ Ls, ∀ y : S100096.Idx, y ∈ p.1.set → 128 * k ≤ (y 0).val ∧ (y 0).val < 128 * k + 128)
    (hcov : ∀ y : S100096.Idx, 128 * k ≤ (y 0).val → (y 0).val < 128 * k + 128 → ∃ p ∈ Ls, y ∈ p.1.set) :
    (Memref.whole cc0_scratch0).view.writes (Elt F) (zpre k f0) Ls = zpre (k + 1) f0 := by
  funext y
  show (View.whole cc0_scratch0).read (Elt F) ((View.whole cc0_scratch0).writes (Elt F) (zpre k f0) Ls) y = _
  by_cases hy : 128 * k ≤ (y 0).val ∧ (y 0).val < 128 * k + 128
  · rw [View.read_writes_apply_of_pieces (View.whole cc0_scratch0) (zpre k f0) (fun _ => (z32 : F .f32)) Ls hpay y
      (hcov y hy.1 hy.2)]
    have : (y 0).val < 128 * (k + 1) := by omega
    simp only [zpre, this, if_true]
  · rw [View.read_writes_apply_of_forall_not_mem (View.whole cc0_scratch0) (zpre k f0) y Ls
      (fun p hp hm => hy (hin p hp y hm))]
    show zpre k f0 y = zpre (k + 1) f0 y
    unfold zpre
    by_cases h1 : (y 0).val < 128 * k
    · have h2 : (y 0).val < 128 * (k + 1) := by omega
      simp only [h1, h2, if_true]
    · have h2 : ¬ (y 0).val < 128 * (k + 1) := by omega
      simp only [h1, h2, if_false]

theorem zpre_zero (f0 : FVec F SN .f32) : zpre 0 f0 = f0 := by
  funext i
  simp only [zpre, Nat.mul_zero, Nat.not_lt_zero, if_false]

theorem zpre_full (f0 : FVec F SN .f32) : zpre 782 f0 = (zeroTable : FVec F SN .f32) := by
  funext i
  have h : (i 0).val < 128 * 782 := (i 0).isLt
  simp only [zpre, zeroTable, h, if_true]

private theorem zero_writes (f0 : FVec F SN .f32) (k : Fin k0_t1_loop.trips)
    (h0 : ∀ a, k0_off2 k 0#32 a + S16.size a ≤ S100096.size a)
    (h1 : ∀ a, k0_off2 k 16#32 a + S16.size a ≤ S100096.size a)
    (h2 : ∀ a, k0_off2 k 32#32 a + S16.size a ≤ S100096.size a)
    (h3 : ∀ a, k0_off2 k 48#32 a + S16.size a ≤ S100096.size a)
    (h4 : ∀ a, k0_off2 k 64#32 a + S16.size a ≤ S100096.size a)
    (h5 : ∀ a, k0_off2 k 80#32 a + S16.size a ≤ S100096.size a)
    (h6 : ∀ a, k0_off2 k 96#32 a + S16.size a ≤ S100096.size a)
    (h7 : ∀ a, k0_off2 k 112#32 a + S16.size a ≤ S100096.size a) :
    (Memref.whole cc0_scratch0).view.writes (Elt F) (zpre k.val f0)
      [⟨Rect.unit (s := S100096) (k0_off2 k 112#32) S16.size h7, k0_pay21⟩,
       ⟨Rect.unit (s := S100096) (k0_off2 k 96#32) S16.size h6, k0_pay21⟩,
       ⟨Rect.unit (s := S100096) (k0_off2 k 80#32) S16.size h5, k0_pay21⟩,
       ⟨Rect.unit (s := S100096) (k0_off2 k 64#32) S16.size h4, k0_pay21⟩,
       ⟨Rect.unit (s := S100096) (k0_off2 k 48#32) S16.size h3, k0_pay21⟩,
       ⟨Rect.unit (s := S100096) (k0_off2 k 32#32) S16.size h2, k0_pay21⟩,
       ⟨Rect.unit (s := S100096) (k0_off2 k 16#32) S16.size h1, k0_pay21⟩,
       ⟨Rect.unit (s := S100096) (k0_off2 k 0#32) S16.size h0, k0_pay21⟩]
      = zpre (k.val + 1) f0 := by
  have e0 : k0_off2 k 0#32 = ![128 * k.val + 16 * 0] := k0_off2_eq k ⟨0, by decide⟩
  have e1 : k0_off2 k 16#32 = ![128 * k.val + 16 * 1] := k0_off2_eq k ⟨1, by decide⟩
  have e2 : k0_off2 k 32#32 = ![128 * k.val + 16 * 2] := k0_off2_eq k ⟨2, by decide⟩
  have e3 : k0_off2 k 48#32 = ![128 * k.val + 16 * 3] := k0_off2_eq k ⟨3, by decide⟩
  have e4 : k0_off2 k 64#32 = ![128 * k.val + 16 * 4] := k0_off2_eq k ⟨4, by decide⟩
  have e5 : k0_off2 k 80#32 = ![128 * k.val + 16 * 5] := k0_off2_eq k ⟨5, by decide⟩
  have e6 : k0_off2 k 96#32 = ![128 * k.val + 16 * 6] := k0_off2_eq k ⟨6, by decide⟩
  have e7 : k0_off2 k 112#32 = ![128 * k.val + 16 * 7] := k0_off2_eq k ⟨7, by decide⟩
  apply writes_zero_block
  · intro p hp x
    simp only [List.mem_cons, List.not_mem_nil, or_false] at hp
    rcases hp with rfl | rfl | rfl | rfl | rfl | rfl | rfl | rfl <;> rfl
  · intro p hp y hm
    simp only [List.mem_cons, List.not_mem_nil, or_false] at hp
    rcases hp with rfl | rfl | rfl | rfl | rfl | rfl | rfl | rfl
    · rw [mem_unit16 _ _ e7] at hm; omega
    · rw [mem_unit16 _ _ e6] at hm; omega
    · rw [mem_unit16 _ _ e5] at hm; omega
    · rw [mem_unit16 _ _ e4] at hm; omega
    · rw [mem_unit16 _ _ e3] at hm; omega
    · rw [mem_unit16 _ _ e2] at hm; omega
    · rw [mem_unit16 _ _ e1] at hm; omega
    · rw [mem_unit16 _ _ e0] at hm; omega
  · intro y hy1 hy2
    have hc : (128 * k.val + 16 * 0 ≤ (y 0).val ∧ (y 0).val < 128 * k.val + 16 * 0 + 16) ∨
        (128 * k.val + 16 * 1 ≤ (y 0).val ∧ (y 0).val < 128 * k.val + 16 * 1 + 16) ∨
        (128 * k.val + 16 * 2 ≤ (y 0).val ∧ (y 0).val < 128 * k.val + 16 * 2 + 16) ∨
        (128 * k.val + 16 * 3 ≤ (y 0).val ∧ (y 0).val < 128 * k.val + 16 * 3 + 16) ∨
        (128 * k.val + 16 * 4 ≤ (y 0).val ∧ (y 0).val < 128 * k.val + 16 * 4 + 16) ∨
        (128 * k.val + 16 * 5 ≤ (y 0).val ∧ (y 0).val < 128 * k.val + 16 * 5 + 16) ∨
        (128 * k.val + 16 * 6 ≤ (y 0).val ∧ (y 0).val < 128 * k.val + 16 * 6 + 16) ∨
        (128 * k.val + 16 * 7 ≤ (y 0).val ∧ (y 0).val < 128 * k.val + 16 * 7 + 16) := by omega
    rcases hc with h | h | h | h | h | h | h | h
    · exact ⟨⟨Rect.unit (s := S100096) (k0_off2 k 0#32) S16.size h0, k0_pay21⟩,
        by repeat (first | exact List.mem_cons_self | apply List.mem_cons_of_mem), (mem_unit16 _ _ e0 h0 y).mpr h⟩
    · exact ⟨⟨Rect.unit (s := S100096) (k0_off2 k 16#32) S16.size h1, k0_pay21⟩,
        by repeat (first | exact List.mem_cons_self | apply List.mem_cons_of_mem), (mem_unit16 _ _ e1 h1 y).mpr h⟩
    · exact ⟨⟨Rect.unit (s := S100096) (k0_off2 k 32#32) S16.size h2, k0_pay21⟩,
        by repeat (first | exact List.mem_cons_self | apply List.mem_cons_of_mem), (mem_unit16 _ _ e2 h2 y).mpr h⟩
    · exact ⟨⟨Rect.unit (s := S100096) (k0_off2 k 48#32) S16.size h3, k0_pay21⟩,
        by repeat (first | exact List.mem_cons_self | apply List.mem_cons_of_mem), (mem_unit16 _ _ e3 h3 y).mpr h⟩
    · exact ⟨⟨Rect.unit (s := S100096) (k0_off2 k 64#32) S16.size h4, k0_pay21⟩,
        by repeat (first | exact List.mem_cons_self | apply List.mem_cons_of_mem), (mem_unit16 _ _ e4 h4 y).mpr h⟩
    · exact ⟨⟨Rect.unit (s := S100096) (k0_off2 k 80#32) S16.size h5, k0_pay21⟩,
        by repeat (first | exact List.mem_cons_self | apply List.mem_cons_of_mem), (mem_unit16 _ _ e5 h5 y).mpr h⟩
    · exact ⟨⟨Rect.unit (s := S100096) (k0_off2 k 96#32) S16.size h6, k0_pay21⟩,
        by repeat (first | exact List.mem_cons_self | apply List.mem_cons_of_mem), (mem_unit16 _ _ e6 h6 y).mpr h⟩
    · exact ⟨⟨Rect.unit (s := S100096) (k0_off2 k 112#32) S16.size h7, k0_pay21⟩,
        by repeat (first | exact List.mem_cons_self | apply List.mem_cons_of_mem), (mem_unit16 _ _ e7 h7 y).mpr h⟩

theorem zero_trip (f0 : FVec F SN .f32) (k : Fin k0_t1_loop.trips) (u : PUnit) :
    invZ (F := F) d L f0 k.val u
      ⊢ wp frame (wpE (defs₀ (F := F)) 𝒱₀ (thr d L) none) Set.univ
          (k0_t1_body L (Memref.whole main_v1_scv) (Memref.isWhole_whole _) (Memref.whole main_arg1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scoped0 k u)
          (invZ (F := F) d L f0 (k.val + 1)) := by
  unfold invZ
  iintro Ht
  unfold k0_t1_body
  sl_exec
  sl_step
  rw [← zero_writes f0 k _ _ _ _ _ _ _ _]
  iexact Ht

end Zero

end Cert.Proof.KI

end
-- ==== Proof.Body0Fl.lean ====
import proofs.«207891_g54065048322743_cont_9to1_m_676_18_alg».proof.Proof.Body0Inv
import proofs.«207891_g54065048322743_cont_9to1_m_676_18_alg».proof.Proof.Body0Pure

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

section Fl
variable (d : Dev nD) (L : grid0.Coords)

theorem seg_split (x : IVec SE 32) {a b c : Nat} (hab : a ≤ b) (hbc : b ≤ c) :
    (segLoc d ↦[rng a c]{fullShare} x : sProp 𝕄) ⊣⊢ iprop((segLoc d ↦[rng a b]{fullShare} x) ∗ (segLoc d ↦[rng b c]{fullShare} x)) := by
  rw [rng_union hab hbc]; exact pointsTo_union (rng_disjoint a b c)

theorem w_split (x : FVec F SE .f32) {a b c : Nat} (hab : a ≤ b) (hbc : b ≤ c) :
    (wLoc d ↦[rng a c]{fullShare} x : sProp 𝕄) ⊣⊢ iprop((wLoc d ↦[rng a b]{fullShare} x) ∗ (wLoc d ↦[rng b c]{fullShare} x)) := by
  rw [rng_union hab hbc]; exact pointsTo_union (rng_disjoint a b c)

theorem ew_split (x : FVec F SE .f32) {a b c : Nat} (hab : a ≤ b) (hbc : b ≤ c) :
    (ewLoc d ↦[rng a c]{fullShare} x : sProp 𝕄) ⊣⊢ iprop((ewLoc d ↦[rng a b]{fullShare} x) ∗ (ewLoc d ↦[rng b c]{fullShare} x)) := by
  rw [rng_union hab hbc]; exact pointsTo_union (rng_disjoint a b c)

theorem flI0_intro (segA : IVec SE 32) (off : Fin 1 → Nat) (inb : ∀ a, off a + S4000.size a ≤ S6400000.size a) (j : Nat) (hj : j < 50)
    (h0 : off 0 = eOf (tOf0 L) j) (fd : IVec S4000 32) :
    Transfers.Flight EC (thr d L) (.dma isem0) (none : HIx 2) 128000
        iprop(((bI0).view.loc (thr d L) ↦[Finset.univ]{fullShare}
            (bI0).view.write (Elt F) fd (ReadAs.same.apply (((aSeg).slice (Rect.unit (s := S6400000) off S4000.size inb) (fun _ => rfl)).view.read (Elt F) segA)) Finset.univ)
          ∗ (((aSeg).slice (Rect.unit (s := S6400000) off S4000.size inb) (fun _ => rfl)).view.loc (thr d L)
              ↦[((aSeg).slice (Rect.unit (s := S6400000) off S4000.size inb) (fun _ => rfl)).view.set]{fullShare} segA))
      ⊢ flI0 (F := F) d L segA j := by
  unfold flI0
  rw [land_I0 segA (tOf0 L) j (tOf0_lt L) hj off h0 inb fd, seg_slice_set off inb, h0, ← eOf_succ]

theorem flI0_piece (segA : IVec SE 32) (off : Fin 1 → Nat) (inb : ∀ a, off a + S4000.size a ≤ S6400000.size a) (j : Nat)
    (h0 : off 0 = eOf (tOf0 L) j) :
    (segLoc d ↦[rng (eOf (tOf0 L) j) (eOf (tOf0 L) (j + 1))]{fullShare} segA : sProp 𝕄)
      ⊢ (((aSeg).slice (Rect.unit (s := S6400000) off S4000.size inb) (fun _ => rfl)).view.loc (thr d L)
              ↦[((aSeg).slice (Rect.unit (s := S6400000) off S4000.size inb) (fun _ => rfl)).view.set]{fullShare} segA) := by
  rw [seg_slice_set off inb, h0, ← eOf_succ]

theorem flI1_intro (segA : IVec SE 32) (off : Fin 1 → Nat) (inb : ∀ a, off a + S4000.size a ≤ S6400000.size a) (j : Nat) (hj : j < 50)
    (h0 : off 0 = eOf (tOf0 L) j) (fd : IVec S4000 32) :
    Transfers.Flight EC (thr d L) (.dma isem1) (none : HIx 2) 128000
        iprop(((bI1).view.loc (thr d L) ↦[Finset.univ]{fullShare}
            (bI1).view.write (Elt F) fd (ReadAs.same.apply (((aSeg).slice (Rect.unit (s := S6400000) off S4000.size inb) (fun _ => rfl)).view.read (Elt F) segA)) Finset.univ)
          ∗ (((aSeg).slice (Rect.unit (s := S6400000) off S4000.size inb) (fun _ => rfl)).view.loc (thr d L)
              ↦[((aSeg).slice (Rect.unit (s := S6400000) off S4000.size inb) (fun _ => rfl)).view.set]{fullShare} segA))
      ⊢ flI1 (F := F) d L segA j := by
  unfold flI1
  rw [land_I1 segA (tOf0 L) j (tOf0_lt L) hj off h0 inb fd, seg_slice_set off inb, h0, ← eOf_succ]

theorem flI1_piece (segA : IVec SE 32) (off : Fin 1 → Nat) (inb : ∀ a, off a + S4000.size a ≤ S6400000.size a) (j : Nat)
    (h0 : off 0 = eOf (tOf0 L) j) :
    (segLoc d ↦[rng (eOf (tOf0 L) j) (eOf (tOf0 L) (j + 1))]{fullShare} segA : sProp 𝕄)
      ⊢ (((aSeg).slice (Rect.unit (s := S6400000) off S4000.size inb) (fun _ => rfl)).view.loc (thr d L)
              ↦[((aSeg).slice (Rect.unit (s := S6400000) off S4000.size inb) (fun _ => rfl)).view.set]{fullShare} segA) := by
  rw [seg_slice_set off inb, h0, ← eOf_succ]

theorem flW0_intro (wA : FVec F SE .f32) (off : Fin 1 → Nat) (inb : ∀ a, off a + S4000.size a ≤ S6400000.size a) (j : Nat) (hj : j < 50)
    (h0 : off 0 = eOf (tOf0 L) j) (fd : FVec F S4000 .f32) :
    Transfers.Flight EC (thr d L) (.dma wsem0) (none : HIx 2) 128000
        iprop(((bW0).view.loc (thr d L) ↦[Finset.univ]{fullShare}
            (bW0).view.write (Elt F) fd (ReadAs.same.apply (((aW).slice (Rect.unit (s := S6400000) off S4000.size inb) (fun _ => rfl)).view.read (Elt F) wA)) Finset.univ)
          ∗ (((aW).slice (Rect.unit (s := S6400000) off S4000.size inb) (fun _ => rfl)).view.loc (thr d L)
              ↦[((aW).slice (Rect.unit (s := S6400000) off S4000.size inb) (fun _ => rfl)).view.set]{fullShare} wA))
      ⊢ flW0 (F := F) d L wA j := by
  unfold flW0
  rw [land_W0 wA (tOf0 L) j (tOf0_lt L) hj off h0 inb fd, w_slice_set off inb, h0, ← eOf_succ]

theorem flW0_piece (wA : FVec F SE .f32) (off : Fin 1 → Nat) (inb : ∀ a, off a + S4000.size a ≤ S6400000.size a) (j : Nat)
    (h0 : off 0 = eOf (tOf0 L) j) :
    (wLoc d ↦[rng (eOf (tOf0 L) j) (eOf (tOf0 L) (j + 1))]{fullShare} wA : sProp 𝕄)
      ⊢ (((aW).slice (Rect.unit (s := S6400000) off S4000.size inb) (fun _ => rfl)).view.loc (thr d L)
              ↦[((aW).slice (Rect.unit (s := S6400000) off S4000.size inb) (fun _ => rfl)).view.set]{fullShare} wA) := by
  rw [w_slice_set off inb, h0, ← eOf_succ]

theorem flW1_intro (wA : FVec F SE .f32) (off : Fin 1 → Nat) (inb : ∀ a, off a + S4000.size a ≤ S6400000.size a) (j : Nat) (hj : j < 50)
    (h0 : off 0 = eOf (tOf0 L) j) (fd : FVec F S4000 .f32) :
    Transfers.Flight EC (thr d L) (.dma wsem1) (none : HIx 2) 128000
        iprop(((bW1).view.loc (thr d L) ↦[Finset.univ]{fullShare}
            (bW1).view.write (Elt F) fd (ReadAs.same.apply (((aW).slice (Rect.unit (s := S6400000) off S4000.size inb) (fun _ => rfl)).view.read (Elt F) wA)) Finset.univ)
          ∗ (((aW).slice (Rect.unit (s := S6400000) off S4000.size inb) (fun _ => rfl)).view.loc (thr d L)
              ↦[((aW).slice (Rect.unit (s := S6400000) off S4000.size inb) (fun _ => rfl)).view.set]{fullShare} wA))
      ⊢ flW1 (F := F) d L wA j := by
  unfold flW1
  rw [land_W1 wA (tOf0 L) j (tOf0_lt L) hj off h0 inb fd, w_slice_set off inb, h0, ← eOf_succ]

theorem flW1_piece (wA : FVec F SE .f32) (off : Fin 1 → Nat) (inb : ∀ a, off a + S4000.size a ≤ S6400000.size a) (j : Nat)
    (h0 : off 0 = eOf (tOf0 L) j) :
    (wLoc d ↦[rng (eOf (tOf0 L) j) (eOf (tOf0 L) (j + 1))]{fullShare} wA : sProp 𝕄)
      ⊢ (((aW).slice (Rect.unit (s := S6400000) off S4000.size inb) (fun _ => rfl)).view.loc (thr d L)
              ↦[((aW).slice (Rect.unit (s := S6400000) off S4000.size inb) (fun _ => rfl)).view.set]{fullShare} wA) := by
  rw [w_slice_set off inb, h0, ← eOf_succ]

theorem flE0_intro (wA : FVec F SE .f32) (off : Fin 1 → Nat) (inb : ∀ a, off a + S4000.size a ≤ S6400000.size a) (j : Nat) (hj : j < 50)
    (h0 : off 0 = eOf (tOf0 L) j) (g : FVec F SE .f32) :
    Transfers.Flight EC (thr d L) (.dma esem0) (none : HIx 2) 128000
        iprop((((aEw).slice (Rect.unit (s := S6400000) off S4000.size inb) (fun _ => rfl)).view.loc (thr d L)
              ↦[((aEw).slice (Rect.unit (s := S6400000) off S4000.size inb) (fun _ => rfl)).view.set]{fullShare}
            ((aEw).slice (Rect.unit (s := S6400000) off S4000.size inb) (fun _ => rfl)).view.write (Elt F) g
              (ReadAs.same.apply ((bE0).view.read (Elt F) (chunkFn (expAll wA) (tOf0 L) j))) Finset.univ)
          ∗ ((bE0).view.loc (thr d L) ↦[(bE0).view.set]{fullShare} chunkFn (expAll wA) (tOf0 L) j))
      ⊢ flE0 (F := F) d L wA j := by
  unfold flE0
  rw [ew_slice_set off inb, h0, ← eOf_succ, show (bE0).view.set = Finset.univ from View.set_whole _]
  refine Transfers.Flight_mono EC (thr d L) (sep_mono_left (Entails.of_eq ?_))
  have hW := out_E0 wA (tOf0 L) j (tOf0_lt L) hj off h0 inb g
  rw [← eOf_succ] at hW
  generalize ((aEw).slice (Rect.unit (s := S6400000) off S4000.size inb) (fun _ => rfl)).view.write (Elt F) g
    (ReadAs.same.apply ((bE0).view.read (Elt F) (chunkFn (expAll wA) (tOf0 L) j))) Finset.univ = W at hW ⊢
  generalize expAll wA = EA at hW ⊢
  show (ewLoc d ↦[rng (eOf (tOf0 L) j) (eOf (tOf0 L) (j + 1))]{fullShare} W : sProp 𝕄)
    = (ewLoc d ↦[rng (eOf (tOf0 L) j) (eOf (tOf0 L) (j + 1))]{fullShare} EA)
  exact pointsTo_congr (ℓ := ewLoc d) (I := rng (eOf (tOf0 L) j) (eOf (tOf0 L) (j + 1))) (q := fullShare) (f := W) (g := EA) hW

theorem flE0_piece (off : Fin 1 → Nat) (inb : ∀ a, off a + S4000.size a ≤ S6400000.size a) (j : Nat)
    (h0 : off 0 = eOf (tOf0 L) j) (g : FVec F SE .f32) :
    (ewLoc d ↦[rng (eOf (tOf0 L) j) (eOf (tOf0 L) (j + 1))]{fullShare} g : sProp 𝕄)
      ⊢ (((aEw).slice (Rect.unit (s := S6400000) off S4000.size inb) (fun _ => rfl)).view.loc (thr d L)
              ↦[((aEw).slice (Rect.unit (s := S6400000) off S4000.size inb) (fun _ => rfl)).view.set]{fullShare} g) := by
  rw [ew_slice_set off inb, h0, ← eOf_succ]

theorem flE1_intro (wA : FVec F SE .f32) (off : Fin 1 → Nat) (inb : ∀ a, off a + S4000.size a ≤ S6400000.size a) (j : Nat) (hj : j < 50)
    (h0 : off 0 = eOf (tOf0 L) j) (g : FVec F SE .f32) :
    Transfers.Flight EC (thr d L) (.dma esem1) (none : HIx 2) 128000
        iprop((((aEw).slice (Rect.unit (s := S6400000) off S4000.size inb) (fun _ => rfl)).view.loc (thr d L)
              ↦[((aEw).slice (Rect.unit (s := S6400000) off S4000.size inb) (fun _ => rfl)).view.set]{fullShare}
            ((aEw).slice (Rect.unit (s := S6400000) off S4000.size inb) (fun _ => rfl)).view.write (Elt F) g
              (ReadAs.same.apply ((bE1).view.read (Elt F) (chunkFn (expAll wA) (tOf0 L) j))) Finset.univ)
          ∗ ((bE1).view.loc (thr d L) ↦[(bE1).view.set]{fullShare} chunkFn (expAll wA) (tOf0 L) j))
      ⊢ flE1 (F := F) d L wA j := by
  unfold flE1
  rw [ew_slice_set off inb, h0, ← eOf_succ, show (bE1).view.set = Finset.univ from View.set_whole _]
  refine Transfers.Flight_mono EC (thr d L) (sep_mono_left (Entails.of_eq ?_))
  have hW := out_E1 wA (tOf0 L) j (tOf0_lt L) hj off h0 inb g
  rw [← eOf_succ] at hW
  generalize ((aEw).slice (Rect.unit (s := S6400000) off S4000.size inb) (fun _ => rfl)).view.write (Elt F) g
    (ReadAs.same.apply ((bE1).view.read (Elt F) (chunkFn (expAll wA) (tOf0 L) j))) Finset.univ = W at hW ⊢
  generalize expAll wA = EA at hW ⊢
  show (ewLoc d ↦[rng (eOf (tOf0 L) j) (eOf (tOf0 L) (j + 1))]{fullShare} W : sProp 𝕄)
    = (ewLoc d ↦[rng (eOf (tOf0 L) j) (eOf (tOf0 L) (j + 1))]{fullShare} EA)
  exact pointsTo_congr (ℓ := ewLoc d) (I := rng (eOf (tOf0 L) j) (eOf (tOf0 L) (j + 1))) (q := fullShare) (f := W) (g := EA) hW

theorem flE1_piece (off : Fin 1 → Nat) (inb : ∀ a, off a + S4000.size a ≤ S6400000.size a) (j : Nat)
    (h0 : off 0 = eOf (tOf0 L) j) (g : FVec F SE .f32) :
    (ewLoc d ↦[rng (eOf (tOf0 L) j) (eOf (tOf0 L) (j + 1))]{fullShare} g : sProp 𝕄)
      ⊢ (((aEw).slice (Rect.unit (s := S6400000) off S4000.size inb) (fun _ => rfl)).view.loc (thr d L)
              ↦[((aEw).slice (Rect.unit (s := S6400000) off S4000.size inb) (fun _ => rfl)).view.set]{fullShare} g) := by
  rw [ew_slice_set off inb, h0, ← eOf_succ]

theorem tab_congr (segA : IVec SE 32) (wA : FVec F SE .f32) {n m : Nat} (h : n = m) :
    ((bTab).view.loc (thr d L) ↦{fullShare} tilePartialUpTo segA wA (tOf0 L) n : sProp 𝕄)
      ⊢ ((bTab).view.loc (thr d L) ↦{fullShare} tilePartialUpTo segA wA (tOf0 L) m) := by
  subst h; exact .rfl

theorem bE0_own (f : FVec F S4000 .f32) :
    ((bE0).view.loc (thr d L) ↦{fullShare} f : sProp 𝕄) ⊢ ((bE0).view.loc (thr d L) ↦[(bE0).view.set]{fullShare} f) := by
  rw [show (bE0).view.set = Finset.univ from View.set_whole _]
theorem bE1_own (f : FVec F S4000 .f32) :
    ((bE1).view.loc (thr d L) ↦{fullShare} f : sProp 𝕄) ⊢ ((bE1).view.loc (thr d L) ↦[(bE1).view.set]{fullShare} f) := by
  rw [show (bE1).view.set = Finset.univ from View.set_whole _]
theorem bTab_own (f : FVec F SN .f32) :
    ((bTab).view.loc (thr d L) ↦{fullShare} f : sProp 𝕄) ⊢ ((bTab).view.loc (thr d L) ↦[(bTab).view.set]{fullShare} f) := by
  rw [show (bTab).view.set = Finset.univ from View.set_whole _]

theorem part_piece (off : Fin 1 → Nat) (inb : ∀ a, off a + S100096.size a ≤ S3203072.size a)
    (h0 : off 0 = 100096 * tOf0 L) (f : FVec F SP .f32) :
    (partLoc d ↦[slotsOf (tOf0 L)]{fullShare} f : sProp 𝕄)
      ⊢ (((aPart).slice (Rect.unit (s := S3203072) off S100096.size inb) (fun _ => rfl)).view.loc (thr d L)
            ↦[((aPart).slice (Rect.unit (s := S3203072) off S100096.size inb) (fun _ => rfl)).view.set]{fullShare} f) := by
  rw [part_slice_set (tOf0 L) off h0 inb]

theorem part_landed (segA : IVec SE 32) (wA : FVec F SE .f32) (off : Fin 1 → Nat)
    (inb : ∀ a, off a + S100096.size a ≤ S3203072.size a) (h0 : off 0 = 100096 * tOf0 L) (f : FVec F SP .f32) :
    (((aPart).slice (Rect.unit (s := S3203072) off S100096.size inb) (fun _ => rfl)).view.loc (thr d L)
          ↦[((aPart).slice (Rect.unit (s := S3203072) off S100096.size inb) (fun _ => rfl)).view.set]{fullShare}
        ((aPart).slice (Rect.unit (s := S3203072) off S100096.size inb) (fun _ => rfl)).view.write (Elt F) f
          (ReadAs.same.apply ((bTab).view.read (Elt F) (tilePartial segA wA (tOf0 L)))) Finset.univ : sProp 𝕄)
      ⊢ (partLoc d ↦[slotsOf (tOf0 L)]{fullShare} partialAll segA wA) := by
  rw [part_slice_set (tOf0 L) off h0 inb]
  refine Entails.of_eq ?_
  have hW := out_tab segA wA (tOf0 L) (tOf0_lt L) off h0 inb f
  generalize ((aPart).slice (Rect.unit (s := S3203072) off S100096.size inb) (fun _ => rfl)).view.write (Elt F) f
    (ReadAs.same.apply ((bTab).view.read (Elt F) (tilePartial segA wA (tOf0 L)))) Finset.univ = W at hW ⊢
  generalize partialAll segA wA = PA at hW ⊢
  show (partLoc d ↦[slotsOf (tOf0 L)]{fullShare} W : sProp 𝕄) = (partLoc d ↦[slotsOf (tOf0 L)]{fullShare} PA)
  exact pointsTo_congr (ℓ := partLoc d) (I := slotsOf (tOf0 L)) (q := fullShare) (f := W) (g := PA) hW

omit [FloatOps F] in
theorem ent_id {P : sProp 𝕄} : P ⊢ P := .rfl

end Fl

end Cert.Proof.KI

end
-- ==== Proof.Body0Ends.lean ====
import proofs.«207891_g54065048322743_cont_9to1_m_676_18_alg».proof.Proof.Body0Inv
import proofs.«207891_g54065048322743_cont_9to1_m_676_18_alg».proof.Proof.Body0Pure

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

section Ends
variable (d : Dev nD) (L : grid0.Coords) (segA : IVec SE 32) (wA : FVec F SE .f32)
variable (O : CellTallies nD τ sig (HIx 2)) (W : Waits sig (HIx 2)) (g0 : FVec F SE .f32)

theorem invP_entry (fE0 fE1 : FVec F S4000 .f32) (u : PUnit) :
    iprop(Transfers.MayWaits (thr d L) (none : HIx 2) O
      ∗ ((bTab).view.loc (thr d L) ↦{fullShare} tilePartialUpTo segA wA (tOf0 L) (500 * 0))
      ∗ flI0 (F := F) d L segA 0 ∗ flW0 (F := F) d L wA 0 ∗ flI1 (F := F) d L segA 1 ∗ flW1 (F := F) d L wA 1
      ∗ ((bE0).view.loc (thr d L) ↦{fullShare} fE0) ∗ semVal (cellOf d L esem0) 0
      ∗ ((bE1).view.loc (thr d L) ↦{fullShare} fE1) ∗ semVal (cellOf d L esem1) 0
      ∗ (segLoc d ↦[rng (eOf (tOf0 L) 2) (eOf (tOf0 L) 50)]{fullShare} segA)
      ∗ (wLoc d ↦[rng (eOf (tOf0 L) 2) (eOf (tOf0 L) 50)]{fullShare} wA)
      ∗ (ewLoc d ↦[rng (eOf (tOf0 L) 0) (eOf (tOf0 L) 50)]{fullShare} g0)
      ∗ owes (thr d L) O W)
      ⊢ invP (F := F) d L segA wA O W g0 0 u := by
  unfold invP inB0 inB1 outB0 outB1 owesW
  rw [if_pos (show (0 < 25) by decide), if_pos (show (0 < 25) by decide), if_neg (show ¬ (1 ≤ 0) by decide),
    if_neg (show ¬ (1 ≤ 0) by decide)]
  have e1 : rng (eOf (tOf0 L) 0) (eOf (tOf0 L) (2 * 0)) = ∅ := rng_empty _
  rw [e1, pointsTo_empty, pointsTo_empty, pointsTo_empty]
  iintro ⟨Hmw, Htab, HfI0, HfW0, HfI1, HfW1, HbE0, Hce0, HbE1, Hce1, Hs, Hw, He, HO⟩
  isplitl [Hmw]; · iexact Hmw
  isplitl [Htab]; · iexact Htab
  isplitl [HfI0 HfW0]
  · isplitl [HfI0]; · iexact HfI0
    iexact HfW0
  isplitl [HfI1 HfW1]
  · isplitl [HfI1]; · iexact HfI1
    iexact HfW1
  isplitl [HbE0 Hce0]
  · isplitl [HbE0]; · iexists fE0; iexact HbE0
    iexact Hce0
  isplitl [HbE1 Hce1]
  · isplitl [HbE1]; · iexists fE1; iexact HbE1
    iexact Hce1
  isplitr; · iempintro
  isplitl [Hs]; · iexact Hs
  isplitr; · iempintro
  isplitl [Hw]; · iexact Hw
  isplitr; · iempintro
  isplitl [He]; · iexact He
  iexists W; isplitr
  · ipureintro; exact fun q hq => Or.inl hq
  · iexact HO

theorem invP_exit (u : PUnit) :
    invP (F := F) d L segA wA O W g0 25 u
      ⊢ iprop(((bTab).view.loc (thr d L) ↦{fullShare} tilePartial segA wA (tOf0 L))
        ∗ (∃ f, (bI0).view.loc (thr d L) ↦{fullShare} f) ∗ (∃ f, (bW0).view.loc (thr d L) ↦{fullShare} f)
        ∗ semVal (cellOf d L isem0) 0 ∗ semVal (cellOf d L wsem0) 0
        ∗ (∃ f, (bI1).view.loc (thr d L) ↦{fullShare} f) ∗ (∃ f, (bW1).view.loc (thr d L) ↦{fullShare} f)
        ∗ semVal (cellOf d L isem1) 0 ∗ semVal (cellOf d L wsem1) 0
        ∗ flE0 (F := F) d L wA 48 ∗ flE1 (F := F) d L wA 49
        ∗ (segLoc d ↦[rng (eOf (tOf0 L) 0) (eOf (tOf0 L) 50)]{fullShare} segA)
        ∗ (wLoc d ↦[rng (eOf (tOf0 L) 0) (eOf (tOf0 L) 50)]{fullShare} wA)
        ∗ (ewLoc d ↦[rng (eOf (tOf0 L) 0) (eOf (tOf0 L) 48)]{fullShare} expAll wA)
        ∗ owesW (F := F) d L O W) := by
  unfold invP inB0 inB1 outB0 outB1
  rw [if_neg (show ¬ (25 < 25) by decide), if_neg (show ¬ (25 < 25) by decide), if_pos (show 1 ≤ 25 by decide),
    if_pos (show 1 ≤ 25 by decide)]
  iintro ⟨-, Htab, ⟨HI0, HW0, Hci0, Hcw0⟩, ⟨HI1, HW1, Hci1, Hcw1⟩, HE0, HE1, Hs, -, Hw, -, He, -, HO⟩
  isplitl [Htab]; · iexact Htab
  isplitl [HI0]; · iexact HI0
  isplitl [HW0]; · iexact HW0
  isplitl [Hci0]; · iexact Hci0
  isplitl [Hcw0]; · iexact Hcw0
  isplitl [HI1]; · iexact HI1
  isplitl [HW1]; · iexact HW1
  isplitl [Hci1]; · iexact Hci1
  isplitl [Hcw1]; · iexact Hcw1
  isplitl [HE0]; · iexact HE0
  isplitl [HE1]; · iexact HE1
  isplitl [Hs]; · iexact Hs
  isplitl [Hw]; · iexact Hw
  isplitl [He]; · iexact He
  iexact HO

theorem td0_close :
    iprop((segLoc d ↦[rng (eOf (tOf0 L) 0) (eOf (tOf0 L) 50)]{fullShare} segA)
      ∗ (wLoc d ↦[rng (eOf (tOf0 L) 0) (eOf (tOf0 L) 50)]{fullShare} wA)
      ∗ (partLoc d ↦[slotsOf (tOf0 L)]{fullShare} partialAll segA wA)
      ∗ (ewLoc d ↦[rng (eOf (tOf0 L) 0) (eOf (tOf0 L) 48)]{fullShare} expAll wA)
      ∗ (ewLoc d ↦[rng (eOf (tOf0 L) 48) (eOf (tOf0 L) 49)]{fullShare} expAll wA)
      ∗ (ewLoc d ↦[rng (eOf (tOf0 L) 49) (eOf (tOf0 L) 50)]{fullShare} expAll wA))
      ⊢ (td0 d segA wA (tOf0 L) : sProp 𝕄) := by
  have h1 : eOf (tOf0 L) 0 ≤ eOf (tOf0 L) 48 := by unfold eOf; omega
  have h2 : eOf (tOf0 L) 48 ≤ eOf (tOf0 L) 49 := by unfold eOf; omega
  have h3 : eOf (tOf0 L) 49 ≤ eOf (tOf0 L) 50 := by unfold eOf; omega
  have h4 : eOf (tOf0 L) 0 ≤ eOf (tOf0 L) 49 := by unfold eOf; omega
  have hd1 : Disjoint (rng (eOf (tOf0 L) 0) (eOf (tOf0 L) 48)) (rng (eOf (tOf0 L) 48) (eOf (tOf0 L) 49)) := rng_disjoint _ _ _
  have hd2 : Disjoint (rng (eOf (tOf0 L) 0) (eOf (tOf0 L) 49)) (rng (eOf (tOf0 L) 49) (eOf (tOf0 L) 50)) := rng_disjoint _ _ _
  unfold td0
  rw [edgesOf_eq_rng]
  iintro ⟨Hs, Hw, Hp, He0, He1, He2⟩
  isplitl [Hs]; · iexact Hs
  isplitl [Hw]; · iexact Hw
  isplitl [Hp]; · iexact Hp
  rw [rng_union h4 h3]
  iapply (pointsTo_union hd2).2
  isplitr [He2]
  · rw [rng_union h1 h2]
    iapply (pointsTo_union hd1).2
    isplitl [He0]; · iexact He0
    iexact He1
  iexact He2

end Ends

end Cert.Proof.KI

end
-- ==== Proof.Body0Grp0.lean ====
import proofs.«207891_g54065048322743_cont_9to1_m_676_18_alg».proof.Proof.Body0Defs

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

section Grp
variable (d : Dev nD) (L : grid0.Coords) (segA : IVec SE 32) (wA : FVec F SE .f32)

theorem chunk_seg_lt (hseg : ∀ e, (segA e).toNat < 100096) (t j : Nat) (i : S4000.Idx) : (chunkFn segA t j i).toNat < 100096 := by
  unfold chunkFn; split <;> exact hseg _

theorem chk_of_vals (v : IVec S16 32) (hv : ∀ x, (v x).toNat < 100096) :
    ∀ (a : Fin 1) (x : S16.Idx), ((![v] : Fin 1 → IVec S16 32) a x).toNat < S100096.size a := by
  intro a x
  have ha : a = 0 := Subsingleton.elim _ _
  subst ha
  exact hv x

omit [FloatOps F] in

theorem pts_tab_whole (f : Buf (Elt F) ((thr d L).loc cc0_scratch0)) :
    (((bTab).access (.whole S100096)).loc (thr d L) ↦[((bTab).access (.whole S100096)).set]{fullShare} f : sProp 𝕄)
      = ((bTab).view.loc (thr d L) ↦{fullShare} f) := by
  rw [show ((bTab).access (.whole S100096)).set = Finset.univ from Memref.set_access_whole (cc0_scratch0 : Ref sig .scVector)]

theorem wp_scat {α : Type} {idx : IVec S16 32} {x : FVec F S16 .f32} {h : ∀ a y, ((![idx] : Fin 1 → IVec S16 32) a y).toNat < S100096.size a}
    {hs : ((bTab).access (.whole S100096)).Stores Finset.univ}
    {k : PUnit → Prog (TpuEff nD τ sig (Elt F) Λ₀ (thr d L).2) α} {Q : α → sProp 𝕄} (f : FVec F SN .f32) :
    ((bTab).view.loc (thr d L) ↦{fullShare} f)
      ⊢ iprop((((bTab).view.loc (thr d L) ↦{fullShare} storeIdx (F := F) (s := SN) (e := .f32) f ![idx] x (fun _ => 1#1) true h)
          -∗ wp frame (wpE (defs₀ (F := F)) 𝒱₀ (thr d L) none) Set.univ (k ⟨⟩) Q)
        -∗ wp frame (wpE (defs₀ (F := F)) 𝒱₀ (thr d L) none) Set.univ (SparseCore.vectorStoreIdx bTab ![idx] x (fun _ => 1#1) true h hs >>= k) Q) := by
  iintro H Hk
  ihave H' := (Entails.of_eq (pts_tab_whole (F := F) d L _).symm) $$ H
  iapply (SparseCore.wp_vectorStoreIdx 𝒱₀ (thr d L) none Set.univ (base := bTab)) $$ H'
  iintro H'
  iapply Hk
  ihave H := (Entails.of_eq (pts_tab_whole (F := F) d L _)) $$ H'
  rw [Memref.write_access_whole_univ, Memref.read_access_whole]
  iexact H

theorem chunkFn_eq {α : Type} (x : SE.Idx → α) (t j : Nat) (ht : t < 32) (hj : j < 50) (i : S4000.Idx) :
    chunkFn x t j i = x (ix1 ⟨eOf t j + (i 0).val, by have h4 : (i 0).val < 4000 := (i 0).isLt; unfold eOf; omega⟩) := by
  have h4 : (i 0).val < 4000 := (i 0).isLt
  unfold chunkFn
  rw [dif_pos (by unfold eOf; omega)]

theorem chunkFn_exp (t j : Nat) (i : S4000.Idx) : chunkFn (expAll wA) t j i = FloatOps.exp (chunkFn wA t j i) := by
  unfold chunkFn; split <;> rfl

theorem chunk_lanes {α : Type} (x : SE.Idx → α) (t j : Nat) (ht : t < 32) (hj : j < 50) (off : Fin 1 → Nat)
    (inb : ∀ a, off a + S16.size a ≤ S4000.size a) (o : Nat) (ho : off 0 = o) (h : eOf t j + o + 16 ≤ 6400000) :
    (fun (l : S16.Idx) => chunkFn x t j ((Rect.unit (s := S4000) off S16.size inb).toLoadRect.idx l)) = lanes x (eOf t j + o) h := by
  funext l
  rw [chunkFn_eq x t j ht hj]
  unfold lanes
  have e : (((Rect.unit (s := S4000) off S16.size inb).toLoadRect.idx l) 0).val = o + (l 0).val := by
    rw [LoadRect.idx_apply]
    show off 0 + 1 * (l 0).val = o + (l 0).val
    rw [ho, Nat.one_mul]
  congr 1
  apply congrArg ix1
  apply Fin.ext
  show eOf t j + (((Rect.unit (s := S4000) off S16.size inb).toLoadRect.idx l) 0).val = eOf t j + o + (l 0).val
  rw [e, Nat.add_assoc]

theorem storeIdx_congr (D : FVec F SN .f32) {v v' : IVec S16 32} {x x' : FVec F S16 .f32} (hv : v = v') (hx : x = x')
    (h : ∀ a y, ((![v] : Fin 1 → IVec S16 32) a y).toNat < S100096.size a)
    (h' : ∀ a y, ((![v'] : Fin 1 → IVec S16 32) a y).toNat < S100096.size a) :
    storeIdx (F := F) (s := SN) (e := .f32) D ![v] x (fun _ => 1#1) true h
      = storeIdx (F := F) (s := SN) (e := .f32) D ![v'] x' (fun _ => 1#1) true h' := by
  subst hv; subst hx; rfl

theorem tab_step (hseg : ∀ e, (segA e).toNat < 100096) (t j g u : Nat) (ht : t < 32) (hj : j < 50) (hg : g < 25) (hu : u < 10)
    (off : Fin 1 → Nat) (inb : ∀ a, off a + S16.size a ≤ S4000.size a) (ho : off 0 = 160 * g + 16 * u)
    (h : ∀ a y, ((![fun (l : S16.Idx) => chunkFn segA t j ((Rect.unit (s := S4000) off S16.size inb).toLoadRect.idx l)] : Fin 1 → IVec S16 32) a y).toNat < S100096.size a) :
    storeIdx (F := F) (s := SN) (e := .f32) (tilePartialUpTo segA wA t (250 * j + 10 * g + u))
        ![fun (l : S16.Idx) => chunkFn segA t j ((Rect.unit (s := S4000) off S16.size inb).toLoadRect.idx l)]
        (exp (fun (l : S16.Idx) => chunkFn wA t j ((Rect.unit (s := S4000) off S16.size inb).toLoadRect.idx l))) (fun _ => 1#1) true h
      = tilePartialUpTo segA wA t (250 * j + 10 * g + u + 1) := by
  have hb : eOf t j + (160 * g + 16 * u) + 16 ≤ 6400000 := by unfold eOf; omega
  have e1 := chunk_lanes segA t j ht hj off inb _ ho hb
  have e2 := chunk_lanes wA t j ht hj off inb _ ho hb
  have hoff : t * 200000 + 16 * (250 * j + 10 * g + u) = eOf t j + (160 * g + 16 * u) := by unfold eOf; omega
  have h' : ∀ (a : Fin SN.rank) (x : SL.Idx), ((![lanes segA (eOf t j + (160 * g + 16 * u)) hb] : Fin SN.rank → IVec SL 32) a x).toNat < SN.size a :=
    chk_of_vals (lanes segA (eOf t j + (160 * g + 16 * u)) hb) (fun x => hseg _)
  rw [tilePartialUpTo_succ, hoff]
  unfold scatStep
  rw [dif_pos hb, dif_pos h']
  exact storeIdx_congr _ e1 (congrArg (exp (F := F) (s := S16) (φ := .f32)) e2) h h'

def expPiece (t j : Nat) (off : Fin 1 → Nat) (inb : ∀ a, off a + S16.size a ≤ S4000.size a) : View.Piece (Elt F) S4000 .f32 :=
  ⟨Rect.unit (s := S4000) off S16.size inb, exp (fun (l : S16.Idx) => chunkFn wA t j ((Rect.unit (s := S4000) off S16.size inb).toLoadRect.idx l))⟩

theorem mem_tenList : ∀ u : Fin 10, u ∈ ([9, 8, 7, 6, 5, 4, 3, 2, 1, 0] : List (Fin 10)) := by decide

theorem epre_step {κ : Kind} {sp : Space} (v : View sig κ sp S4000 .f32) (f : v.ty.Contents (Elt F)) (t j g : Nat)
    (fE : FVec F S4000 .f32) (hf : v.read (Elt F) f = epre wA t j g fE)
    (o : Fin 10 → Fin 1 → Nat) (inb : ∀ (u : Fin 10) a, o u a + S16.size a ≤ S4000.size a) (ho : ∀ u : Fin 10, o u 0 = 160 * g + 16 * u.val) :
    v.read (Elt F) (v.writes (Elt F) f (([9, 8, 7, 6, 5, 4, 3, 2, 1, 0] : List (Fin 10)).map fun u => expPiece wA t j (o u) (inb u)))
      = epre wA t j (g + 1) fE := by
  funext y
  by_cases hy : 160 * g ≤ (y 0).val ∧ (y 0).val < 160 * g + 160
  · have hu : ((y 0).val - 160 * g) / 16 < 10 := by omega
    rw [View.read_writes_apply_of_pieces (v := v) (f := f) (chunkFn (expAll wA) t j) _ ?hp y ?hc]
    · unfold epre; rw [if_pos (by omega)]
    case hp =>
      intro p hp x
      obtain ⟨u, -, rfl⟩ := List.mem_map.mp hp
      exact (chunkFn_exp wA t j _).symm
    case hc =>
      refine ⟨expPiece wA t j (o ⟨_, hu⟩) (inb ⟨_, hu⟩), List.mem_map.mpr ⟨⟨_, hu⟩, mem_tenList _, rfl⟩, ?_⟩
      refine (Rect.mem_set_unit (inb := inb ⟨_, hu⟩)).mpr (Fin.forall_fin_one.mpr ?_)
      rw [ho]
      show 160 * g + 16 * (((y 0).val - 160 * g) / 16) ≤ (y 0).val ∧ (y 0).val < 160 * g + 16 * (((y 0).val - 160 * g) / 16) + 16
      omega
  · rw [View.read_writes_apply_of_forall_not_mem (v := v) (f := f) y _ ?hn, hf]
    · unfold epre
      by_cases h1 : (y 0).val < 160 * g
      · rw [if_pos h1, if_pos (by omega)]
      · rw [if_neg h1, if_neg (by omega)]
    case hn =>
      intro p hp hmem
      obtain ⟨u, -, rfl⟩ := List.mem_map.mp hp
      have h0 := (Rect.mem_set_unit (inb := inb u)).mp hmem 0
      rw [ho] at h0
      have h16 : (y 0).val < 160 * g + 16 * u.val + 16 := h0.2
      have hu := u.isLt
      omega

omit [FloatOps F] in

theorem pts_congr (b : Ref sig .scVector) {f f' : Buf (Elt F) ((thr d L).loc b)} (h : f = f') :
    (((Memref.whole b : Memref sig .scVector b.space b.ty.shape b.ty.elt).view.loc (thr d L) ↦{fullShare} f) : sProp 𝕄)
      ⊢ ((Memref.whole b : Memref sig .scVector b.space b.ty.shape b.ty.elt).view.loc (thr d L) ↦{fullShare} f') := by
  subst h; exact .rfl

theorem wp_scat_to {α : Type} {idx : IVec S16 32} {x : FVec F S16 .f32} {h : ∀ a y, ((![idx] : Fin 1 → IVec S16 32) a y).toNat < S100096.size a}
    {hs : ((bTab).access (.whole S100096)).Stores Finset.univ}
    {k : PUnit → Prog (TpuEff nD τ sig (Elt F) Λ₀ (thr d L).2) α} {Q : α → sProp 𝕄} {f f' : FVec F SN .f32}
    (hD : storeIdx (F := F) (s := SN) (e := .f32) f ![idx] x (fun _ => 1#1) true h = f') :
    ((bTab).view.loc (thr d L) ↦{fullShare} f)
      ⊢ iprop((((bTab).view.loc (thr d L) ↦{fullShare} f')
          -∗ wp frame (wpE (defs₀ (F := F)) 𝒱₀ (thr d L) none) Set.univ (k ⟨⟩) Q)
        -∗ wp frame (wpE (defs₀ (F := F)) 𝒱₀ (thr d L) none) Set.univ (SparseCore.vectorStoreIdx bTab ![idx] x (fun _ => 1#1) true h hs >>= k) Q) := by
  subst hD
  exact wp_scat (F := F) d L f

theorem epre_zero0 (t j : Nat) (fE : FVec F S4000 .f32) : epre wA t j 0 fE = fE := by
  funext i
  unfold epre
  rw [if_neg (by omega)]

theorem epre_full0 (t j : Nat) (fE : FVec F S4000 .f32) : epre wA t j 25 fE = chunkFn (expAll wA) t j := by
  funext i
  have h4 : (i 0).val < 4000 := (i 0).isLt
  unfold epre
  rw [if_pos (by omega)]

set_option maxHeartbeats 4000000 in

theorem grp0_trip (hseg : ∀ e, (segA e).toNat < 100096) (j : Nat) (hj : j < 50) (fE : FVec F S4000 .f32)
    (v1 c0 c1 : BitVec 32) (k2 : Fin k0_t2_loop.trips) (g : Fin k0_t3_loop.trips) (u : PUnit) :
    invG0 (F := F) d L segA wA j fE g.val u
      ⊢ wp frame (wpE (defs₀ (F := F)) 𝒱₀ (thr d L) none) Set.univ
          (k0_t3_body L (Memref.whole main_v1_scv) (Memref.isWhole_whole _) (Memref.whole main_arg1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scoped0 v1 c0 c1 k2 g u)
          (invG0 (F := F) d L segA wA j fE (g.val + 1)) := by
  have ht : tOf0 L < 32 := by
    have h0 : (L 0).val < 2 := (L 0).isLt
    have h1 : (L 1).val < 16 := (L 1).isLt
    unfold tOf0; omega
  have hg : g.val < 25 := lt_of_lt_of_le g.isLt k0_t3_abs.2.1
  have ho : ∀ r : Fin 10, k0_off3 g (BitVec.ofNat 32 (16 * r.val)) 0 = 160 * g.val + 16 * r.val := fun r => by
    rw [k0_off3_eq g r]; rfl
  unfold invG0
  iintro ⟨Htab, HI, HW, HE⟩
  unfold k0_t3_body
  sl_exec (disch := exact chk_of_vals _ (fun x => chunk_seg_lt segA hseg _ _ _))

  iapply (wp_scat_to (F := F) d L (tab_step segA wA hseg (tOf0 L) j g.val 0 ht hj hg (by norm_num) (k0_off3 g 0#32) (k0_off3_inb g 0) (ho 0) _)) $$ Htab; iintro Htab
  iapply (wp_scat_to (F := F) d L (tab_step segA wA hseg (tOf0 L) j g.val 1 ht hj hg (by norm_num) (k0_off3 g 16#32) (k0_off3_inb g 1) (ho 1) _)) $$ Htab; iintro Htab
  iapply (wp_scat_to (F := F) d L (tab_step segA wA hseg (tOf0 L) j g.val 2 ht hj hg (by norm_num) (k0_off3 g 32#32) (k0_off3_inb g 2) (ho 2) _)) $$ Htab; iintro Htab
  iapply (wp_scat_to (F := F) d L (tab_step segA wA hseg (tOf0 L) j g.val 3 ht hj hg (by norm_num) (k0_off3 g 48#32) (k0_off3_inb g 3) (ho 3) _)) $$ Htab; iintro Htab
  iapply (wp_scat_to (F := F) d L (tab_step segA wA hseg (tOf0 L) j g.val 4 ht hj hg (by norm_num) (k0_off3 g 64#32) (k0_off3_inb g 4) (ho 4) _)) $$ Htab; iintro Htab
  iapply (wp_scat_to (F := F) d L (tab_step segA wA hseg (tOf0 L) j g.val 5 ht hj hg (by norm_num) (k0_off3 g 80#32) (k0_off3_inb g 5) (ho 5) _)) $$ Htab; iintro Htab
  iapply (wp_scat_to (F := F) d L (tab_step segA wA hseg (tOf0 L) j g.val 6 ht hj hg (by norm_num) (k0_off3 g 96#32) (k0_off3_inb g 6) (ho 6) _)) $$ Htab; iintro Htab
  iapply (wp_scat_to (F := F) d L (tab_step segA wA hseg (tOf0 L) j g.val 7 ht hj hg (by norm_num) (k0_off3 g 112#32) (k0_off3_inb g 7) (ho 7) _)) $$ Htab; iintro Htab
  iapply (wp_scat_to (F := F) d L (tab_step segA wA hseg (tOf0 L) j g.val 8 ht hj hg (by norm_num) (k0_off3 g 128#32) (k0_off3_inb g 8) (ho 8) _)) $$ Htab; iintro Htab
  iapply (wp_scat_to (F := F) d L (tab_step segA wA hseg (tOf0 L) j g.val 9 ht hj hg (by norm_num) (k0_off3 g 144#32) (k0_off3_inb g 9) (ho 9) _)) $$ Htab; iintro Htab
  sl_step
  have e10 : 250 * j + 10 * (g.val + 1) = 250 * j + 10 * g.val + 9 + 1 := by omega
  rw [e10]
  isplitl [Htab]; · iexact Htab
  isplitl [HI]; · iexact HI
  isplitl [HW]; · iexact HW
  iapply (pts_congr (F := F) d L cc0_scratch5 ?hE) $$ HE
  case hE =>
    exact epre_step wA (bE0).view (epre wA (tOf0 L) j g.val fE) (tOf0 L) j g.val fE rfl
      (fun u => k0_off3 g (BitVec.ofNat 32 (16 * u.val))) (k0_off3_inb g) ho

end Grp

end Cert.Proof.KI

end
-- ==== Proof.Body0Grp1.lean ====
import proofs.«207891_g54065048322743_cont_9to1_m_676_18_alg».proof.Proof.Body0Grp0

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

section Grp
variable (d : Dev nD) (L : grid0.Coords) (segA : IVec SE 32) (wA : FVec F SE .f32)

theorem epre_zero1 (t j : Nat) (fE : FVec F S4000 .f32) : epre wA t j 0 fE = fE := by
  funext i
  unfold epre
  rw [if_neg (by omega)]

theorem epre_full1 (t j : Nat) (fE : FVec F S4000 .f32) : epre wA t j 25 fE = chunkFn (expAll wA) t j := by
  funext i
  have h4 : (i 0).val < 4000 := (i 0).isLt
  unfold epre
  rw [if_pos (by omega)]

set_option maxHeartbeats 4000000 in

theorem grp1_trip (hseg : ∀ e, (segA e).toNat < 100096) (j : Nat) (hj : j < 50) (fE : FVec F S4000 .f32)
    (g : Fin k0_t4_loop.trips) (u : PUnit) :
    invG1 (F := F) d L segA wA j fE g.val u
      ⊢ wp frame (wpE (defs₀ (F := F)) 𝒱₀ (thr d L) none) Set.univ
          (k0_t4_body L (Memref.whole main_v1_scv) (Memref.isWhole_whole _) (Memref.whole main_arg1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scoped0 g u)
          (invG1 (F := F) d L segA wA j fE (g.val + 1)) := by
  have ht : tOf0 L < 32 := by
    have h0 : (L 0).val < 2 := (L 0).isLt
    have h1 : (L 1).val < 16 := (L 1).isLt
    unfold tOf0; omega
  have hg : g.val < 25 := lt_of_lt_of_le g.isLt k0_t4_abs.2.1
  have ho : ∀ r : Fin 10, k0_off6 g (BitVec.ofNat 32 (16 * r.val)) 0 = 160 * g.val + 16 * r.val := fun r => by
    rw [k0_off6_eq g r]; rfl
  unfold invG1
  iintro ⟨Htab, HI, HW, HE⟩
  unfold k0_t4_body
  sl_exec (disch := exact chk_of_vals _ (fun x => chunk_seg_lt segA hseg _ _ _))

  iapply (wp_scat_to (F := F) d L (tab_step segA wA hseg (tOf0 L) j g.val 0 ht hj hg (by norm_num) (k0_off6 g 0#32) (k0_off6_inb g 0) (ho 0) _)) $$ Htab; iintro Htab
  iapply (wp_scat_to (F := F) d L (tab_step segA wA hseg (tOf0 L) j g.val 1 ht hj hg (by norm_num) (k0_off6 g 16#32) (k0_off6_inb g 1) (ho 1) _)) $$ Htab; iintro Htab
  iapply (wp_scat_to (F := F) d L (tab_step segA wA hseg (tOf0 L) j g.val 2 ht hj hg (by norm_num) (k0_off6 g 32#32) (k0_off6_inb g 2) (ho 2) _)) $$ Htab; iintro Htab
  iapply (wp_scat_to (F := F) d L (tab_step segA wA hseg (tOf0 L) j g.val 3 ht hj hg (by norm_num) (k0_off6 g 48#32) (k0_off6_inb g 3) (ho 3) _)) $$ Htab; iintro Htab
  iapply (wp_scat_to (F := F) d L (tab_step segA wA hseg (tOf0 L) j g.val 4 ht hj hg (by norm_num) (k0_off6 g 64#32) (k0_off6_inb g 4) (ho 4) _)) $$ Htab; iintro Htab
  iapply (wp_scat_to (F := F) d L (tab_step segA wA hseg (tOf0 L) j g.val 5 ht hj hg (by norm_num) (k0_off6 g 80#32) (k0_off6_inb g 5) (ho 5) _)) $$ Htab; iintro Htab
  iapply (wp_scat_to (F := F) d L (tab_step segA wA hseg (tOf0 L) j g.val 6 ht hj hg (by norm_num) (k0_off6 g 96#32) (k0_off6_inb g 6) (ho 6) _)) $$ Htab; iintro Htab
  iapply (wp_scat_to (F := F) d L (tab_step segA wA hseg (tOf0 L) j g.val 7 ht hj hg (by norm_num) (k0_off6 g 112#32) (k0_off6_inb g 7) (ho 7) _)) $$ Htab; iintro Htab
  iapply (wp_scat_to (F := F) d L (tab_step segA wA hseg (tOf0 L) j g.val 8 ht hj hg (by norm_num) (k0_off6 g 128#32) (k0_off6_inb g 8) (ho 8) _)) $$ Htab; iintro Htab
  iapply (wp_scat_to (F := F) d L (tab_step segA wA hseg (tOf0 L) j g.val 9 ht hj hg (by norm_num) (k0_off6 g 144#32) (k0_off6_inb g 9) (ho 9) _)) $$ Htab; iintro Htab
  sl_step
  have e10 : 250 * j + 10 * (g.val + 1) = 250 * j + 10 * g.val + 9 + 1 := by omega
  rw [e10]
  isplitl [Htab]; · iexact Htab
  isplitl [HI]; · iexact HI
  isplitl [HW]; · iexact HW
  iapply (pts_congr (F := F) d L cc0_scratch6 ?hE) $$ HE
  case hE =>
    exact epre_step wA (bE1).view (epre wA (tOf0 L) j g.val fE) (tOf0 L) j g.val fE rfl
      (fun u => k0_off6 g (BitVec.ofNat 32 (16 * u.val))) (k0_off6_inb g) ho

end Grp

end Cert.Proof.KI

end
-- ==== Proof.Body0Pair.lean ====
import proofs.«207891_g54065048322743_cont_9to1_m_676_18_alg».proof.Proof.Body0Inv
import proofs.«207891_g54065048322743_cont_9to1_m_676_18_alg».proof.Proof.Body0Pure
import proofs.«207891_g54065048322743_cont_9to1_m_676_18_alg».proof.Proof.Body0Fl
import proofs.«207891_g54065048322743_cont_9to1_m_676_18_alg».proof.Proof.Body0Grp0
import proofs.«207891_g54065048322743_cont_9to1_m_676_18_alg».proof.Proof.Body0Grp1

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

section Fl2
variable (d : Dev nD) (L : grid0.Coords)
theorem seg_rcongr (x : IVec SE 32) {a a' b b' : Nat} (ha : a = a') (hb : b = b') :
    (segLoc d ↦[rng a b]{fullShare} x : sProp 𝕄) ⊢ (segLoc d ↦[rng a' b']{fullShare} x) := by subst ha hb; exact .rfl
theorem w_rcongr (x : FVec F SE .f32) {a a' b b' : Nat} (ha : a = a') (hb : b = b') :
    (wLoc d ↦[rng a b]{fullShare} x : sProp 𝕄) ⊢ (wLoc d ↦[rng a' b']{fullShare} x) := by subst ha hb; exact .rfl
theorem ew_rcongr (x : FVec F SE .f32) {a a' b b' : Nat} (ha : a = a') (hb : b = b') :
    (ewLoc d ↦[rng a b]{fullShare} x : sProp 𝕄) ⊢ (ewLoc d ↦[rng a' b']{fullShare} x) := by subst ha hb; exact .rfl
omit [FloatOps F] in
theorem sub_insert {W W' : Waits sig (HIx 2)} {a : SemLoc sig × HIx 2} (ha : a.2 = none) (h : ∀ q ∈ W', q ∈ W ∨ q.2 = none) :
    ∀ q ∈ insert a W', q ∈ W ∨ q.2 = none := by
  intro q hq
  rcases Finset.mem_insert.mp hq with rfl | hq
  · exact .inr ha
  · exact h q hq

omit [FloatOps F] in

theorem fl_congr (f : Nat → sProp 𝕄) {j j' : Nat} (h : j = j') : f j ⊢ f j' := by subst h; exact .rfl
end Fl2

section Congr
variable (d : Dev nD) (L : grid0.Coords) (segA : IVec SE 32) (wA : FVec F SE .f32)

theorem inB0_congr {c c' : Prop} [Decidable c] [Decidable c'] (hc : c ↔ c') {j j' : Nat} (hj : j = j') :
    inB0 (F := F) d L segA wA c j ⊢ inB0 (F := F) d L segA wA c' j' := by
  subst hj
  unfold inB0
  by_cases h : c
  · rw [if_pos h, if_pos (hc.mp h)]
  · rw [if_neg h, if_neg (fun h' => h (hc.mpr h'))]
end Congr

section Amt
omit [FloatOps F] in
theorem amt_I0 : (bI0).view.amount (SemLoc.dma isem0) = 128000 := by decide
omit [FloatOps F] in
theorem amt_I1 : (bI1).view.amount (SemLoc.dma isem1) = 128000 := by decide
omit [FloatOps F] in
theorem amt_W0 : (bW0).view.amount (SemLoc.dma wsem0) = 128000 := by decide
omit [FloatOps F] in
theorem amt_W1 : (bW1).view.amount (SemLoc.dma wsem1) = 128000 := by decide
omit [FloatOps F] in
theorem amt_E (off : Fin 1 → Nat) (inb : ∀ a, off a + S4000.size a ≤ S6400000.size a) (s : DmaSem sig) :
    ((aEw).slice (Rect.unit (s := S6400000) off S4000.size inb) (fun _ => rfl)).view.amount (SemLoc.dma s) = 128000 := by
  rw [View.amount_dma]
  exact (by decide : (sig.dmaCredit Kind.scVector (Kind.scVector.table Space.hbm) (Cert.KernelIdeal.main_v2_1_scv).idx S4000 EltTy.f32) = 128000)
end Amt

section Half0
variable (d : Dev nD) (L : grid0.Coords) (segA : IVec SE 32) (wA : FVec F SE .f32)
variable (O : CellTallies nD τ sig (HIx 2)) (W : Waits sig (HIx 2)) (g0 : FVec F SE .f32)

set_option maxHeartbeats 4000000 in

theorem half0 (hseg : ∀ e, (segA e).toNat < 100096) (v1 : BitVec 32) (k2 : Fin k0_t2_loop.trips) :
    invP (F := F) d L segA wA O W g0 k2.val ⟨⟩
      ⊢ wp frame (wpE (defs₀ (F := F)) 𝒱₀ (thr d L) none) Set.univ
          (k0_part5 L (Memref.whole main_v1_scv) (Memref.isWhole_whole _) (Memref.whole main_arg1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scoped0 v1 0#32 1#32 k2)
          (fun v60 => iprop(⌜v60 = Scalar.addi (Scalar.muli (Scf.iv 0#32 1#32 k2) 2#32) 1#32⌝ ∗ invH (F := F) d L segA wA O W g0 k2.val)) := by
  have hp : k2.val < 25 := (trips2 ▸ k2.isLt)
  have ht := tOf0_lt L
  simp only [k0_part5_eq_skeleton]; unfold k0_part5_skel
  unfold invP inB0 inB1 owesW
  rw [if_pos hp, if_pos hp]
  unfold flI0 flW0 flI1 flW1
  have hcases : k2.val = 0 ∨ (1 ≤ k2.val ∧ k2.val < 24) ∨ k2.val = 24 := by omega
  rcases hcases with h0 | ⟨h1, h2⟩ | h24
  · have h1 : ¬ (1 ≤ k2.val) := by omega
    have h2 : k2.val < 24 := by omega
    have hc1 := mt (cond1_iff k2).mp h1
    have hc2 := (cond2_iff k2).mpr h2
    unfold outB0 outB1
    rw [if_neg h1, if_neg h1]
    iintro ⟨#Hmw, Htab, ⟨HfI0, HfW0⟩, ⟨HfI1, HfW1⟩, ⟨⟨%fE, HbE0⟩, HfE0⟩, HfE1, Hs1, Hs2, Hw1, Hw2, He1, He2, %W', %hW', HO⟩
    sl_exec (disch := first | exact hc1 | exact hc2)
    sl_for (invG0 (F := F) d L segA wA (2 * k2.val) fE) $$ [Htab HfI0_dst HfW0_dst HbE0]
    case region => intro g u; exact grp0_trip d L segA wA hseg (2 * k2.val) (by omega) _ v1 0#32 1#32 k2 g u
    · unfold invG0
      rw [epre_zero0, show 250 * (2 * k2.val) + 10 * 0 = 500 * k2.val by omega]
      isplitl [Htab]; · iexact Htab
      isplitl [HfI0_dst]; · iexact HfI0_dst
      isplitl [HfW0_dst]; · iexact HfW0_dst
      iexact HbE0
    iintro %_ HG
    unfold invG0
    rw [show Scf.trips k0_t3_loop.lb k0_t3_loop.ub k0_t3_loop.st = 25 from trips3, epre_full0]
    icases HG with ⟨Htab, HbI0, HbW0, HbE0⟩
    sl_exec (disch := first | exact hc1 | exact hc2)

    rw [show min (2 * k2.val + 2) 50 = 2 * k2.val + 2 by omega]
    ihave Hs2 := (seg_split (F := F) d segA (a := eOf (tOf0 L) (2 * k2.val + 2)) (b := eOf (tOf0 L) (2 * k2.val + 2 + 1)) (c := eOf (tOf0 L) 50) (by unfold eOf; omega) (by unfold eOf; omega)).1 $$ Hs2
    icases Hs2 with ⟨Hsp, Hs2⟩
    ihave Hsp := (flI0_piece (F := F) d L segA (k0_off4 L k2) (k0_off4_inb L k2 hc2) (2 * k2.val + 2) (off4_eq L k2)) $$ Hsp
    iapply (Transfers.wp_dmaLocal EC 𝒱₀ (thr d L) none (none : HIx 2) 128000 (dst := bI0) (sm := .dma isem0) amt_I0 (by decide) (Finset.subset_univ _)) $$ [Hsp HbI0 HfI0]
    · isplitl [Hsp]; · iexact Hsp
      isplitl [HbI0]; · iexact HbI0
      iexact HfI0
    iintro HfI0
    ihave HfI0 := (flI0_intro (F := F) d L segA (k0_off4 L k2) (k0_off4_inb L k2 hc2) (2 * k2.val + 2) (by omega) (off4_eq L k2) _) $$ HfI0
    sl_exec (disch := first | exact hc1 | exact hc2)
    ihave Hw2 := (w_split (F := F) d wA (a := eOf (tOf0 L) (2 * k2.val + 2)) (b := eOf (tOf0 L) (2 * k2.val + 2 + 1)) (c := eOf (tOf0 L) 50) (by unfold eOf; omega) (by unfold eOf; omega)).1 $$ Hw2
    icases Hw2 with ⟨Hwp, Hw2⟩
    ihave Hwp := (flW0_piece (F := F) d L wA (k0_off4 L k2) (k0_off4_inb L k2 hc2) (2 * k2.val + 2) (off4_eq L k2)) $$ Hwp
    iapply (Transfers.wp_dmaLocal EC 𝒱₀ (thr d L) none (none : HIx 2) 128000 (dst := bW0) (sm := .dma wsem0) amt_W0 (by decide) (Finset.subset_univ _)) $$ [Hwp HbW0 HfW0]
    · isplitl [Hwp]; · iexact Hwp
      isplitl [HbW0]; · iexact HbW0
      iexact HfW0
    iintro HfW0
    ihave HfW0 := (flW0_intro (F := F) d L wA (k0_off4 L k2) (k0_off4_inb L k2 hc2) (2 * k2.val + 2) (by omega) (off4_eq L k2) _) $$ HfW0
    sl_exec (disch := first | exact hc1 | exact hc2)

    ihave He2 := (ew_split (F := F) d g0 (a := eOf (tOf0 L) (2 * k2.val)) (b := eOf (tOf0 L) (2 * k2.val + 1)) (c := eOf (tOf0 L) 50) (by unfold eOf; omega) (by unfold eOf; omega)).1 $$ He2
    icases He2 with ⟨Hep, He2⟩
    ihave Hep := (flE0_piece (F := F) d L (k0_off5 L k2 0#32) (k0_off5_inb L k2 0) (2 * k2.val) (off5_0 L k2) g0) $$ Hep
    ihave HbE0 := (bE0_own (F := F) d L _) $$ HbE0
    iapply (Transfers.wp_dmaLocal EC 𝒱₀ (thr d L) none (none : HIx 2) 128000 (src := bE0) (dst := (aEw).slice (Rect.unit (s := S6400000) (k0_off5 L k2 0#32) S4000.size (k0_off5_inb L k2 0)) (fun _ => rfl)) (sm := .dma esem0) (amt_E _ _ _) (by decide) (Finset.Subset.refl _)) $$ [HbE0 Hep HfE0]
    · isplitl [HbE0]; · iexact HbE0
      isplitl [Hep]; · iexact Hep
      iexact HfE0
    iintro HfE0
    ihave HfE0 := (flE0_intro (F := F) d L wA (k0_off5 L k2 0#32) (k0_off5_inb L k2 0) (2 * k2.val) (by omega) (off5_0 L k2) g0) $$ HfE0
    sl_exec (disch := first | exact hc1 | exact hc2)
    sl_step
    isplitr
    · ipureintro; rfl
    unfold invH inB0 inB1 outB1 owesW
    rw [if_pos h2, if_pos hp, if_neg h1]
    unfold flI1 flW1
    isplitr; · iexact Hmw
    isplitl [Htab]
    · iapply (tab_congr (F := F) d L segA wA (show 250 * (2 * k2.val) + 10 * 25 = 500 * k2.val + 250 by omega)); iexact Htab
    isplitl [HfI0 HfW0]
    · isplitl [HfI0]; · iexact HfI0
      iexact HfW0
    isplitl [HfI1 HfW1]
    · isplitl [HfI1]; · iexact HfI1
      iexact HfW1
    isplitl [HfE0]; · iexact HfE0
    isplitl [HfE1]; · iexact HfE1
    isplitl [Hs1 HfI0_src]
    · iapply (seg_split (F := F) d segA (a := eOf (tOf0 L) (0)) (b := eOf (tOf0 L) (2 * k2.val)) (c := eOf (tOf0 L) (2 * k2.val + 1)) (by unfold eOf; omega) (by unfold eOf; omega)).2
      isplitl [Hs1]; · iexact Hs1
      iexact HfI0_src
    isplitl [Hs2]
    · iapply (seg_rcongr (F := F) d segA (congrArg (eOf (tOf0 L)) (show 2 * k2.val + 2 + 1 = min (2 * k2.val + 3) 50 by omega)) rfl); iexact Hs2
    isplitl [Hw1 HfW0_src]
    · iapply (w_split (F := F) d wA (a := eOf (tOf0 L) (0)) (b := eOf (tOf0 L) (2 * k2.val)) (c := eOf (tOf0 L) (2 * k2.val + 1)) (by unfold eOf; omega) (by unfold eOf; omega)).2
      isplitl [Hw1]; · iexact Hw1
      iexact HfW0_src
    isplitl [Hw2]
    · iapply (w_rcongr (F := F) d wA (congrArg (eOf (tOf0 L)) (show 2 * k2.val + 2 + 1 = min (2 * k2.val + 3) 50 by omega)) rfl); iexact Hw2
    isplitl [He1]
    · iapply (ew_rcongr (F := F) d (expAll wA) rfl (congrArg (eOf (tOf0 L)) (show 2 * k2.val - 2 = 2 * k2.val - 1 by omega))); iexact He1
    isplitl [He2]; · iexact He2
    iexists _
    isplitr
    rotate_left
    · iexact HO
    · ipureintro; refine sub_insert ?_ (sub_insert ?_ hW') <;> rfl
  · have hc1 := (cond1_iff k2).mpr h1
    have hc2 := (cond2_iff k2).mpr h2
    unfold outB0 outB1
    rw [if_pos h1, if_pos h1]
    unfold flE0
    iintro ⟨#Hmw, Htab, ⟨HfI0, HfW0⟩, ⟨HfI1, HfW1⟩, HfE0, HfE1, Hs1, Hs2, Hw1, Hw2, He1, He2, %W', %hW', HO⟩
    sl_exec (disch := first | exact hc1 | exact hc2)
    irename HfE0_src => HbE0
    sl_for (invG0 (F := F) d L segA wA (2 * k2.val) (chunkFn (expAll wA) (tOf0 L) (2 * k2.val - 2))) $$ [Htab HfI0_dst HfW0_dst HbE0]
    case region => intro g u; exact grp0_trip d L segA wA hseg (2 * k2.val) (by omega) _ v1 0#32 1#32 k2 g u
    · unfold invG0
      rw [epre_zero0, show 250 * (2 * k2.val) + 10 * 0 = 500 * k2.val by omega]
      isplitl [Htab]; · iexact Htab
      isplitl [HfI0_dst]; · iexact HfI0_dst
      isplitl [HfW0_dst]; · iexact HfW0_dst
      iexact HbE0
    iintro %_ HG
    unfold invG0
    rw [show Scf.trips k0_t3_loop.lb k0_t3_loop.ub k0_t3_loop.st = 25 from trips3, epre_full0]
    icases HG with ⟨Htab, HbI0, HbW0, HbE0⟩
    sl_exec (disch := first | exact hc1 | exact hc2)

    rw [show min (2 * k2.val + 2) 50 = 2 * k2.val + 2 by omega]
    ihave Hs2 := (seg_split (F := F) d segA (a := eOf (tOf0 L) (2 * k2.val + 2)) (b := eOf (tOf0 L) (2 * k2.val + 2 + 1)) (c := eOf (tOf0 L) 50) (by unfold eOf; omega) (by unfold eOf; omega)).1 $$ Hs2
    icases Hs2 with ⟨Hsp, Hs2⟩
    ihave Hsp := (flI0_piece (F := F) d L segA (k0_off4 L k2) (k0_off4_inb L k2 hc2) (2 * k2.val + 2) (off4_eq L k2)) $$ Hsp
    iapply (Transfers.wp_dmaLocal EC 𝒱₀ (thr d L) none (none : HIx 2) 128000 (dst := bI0) (sm := .dma isem0) amt_I0 (by decide) (Finset.subset_univ _)) $$ [Hsp HbI0 HfI0]
    · isplitl [Hsp]; · iexact Hsp
      isplitl [HbI0]; · iexact HbI0
      iexact HfI0
    iintro HfI0
    ihave HfI0 := (flI0_intro (F := F) d L segA (k0_off4 L k2) (k0_off4_inb L k2 hc2) (2 * k2.val + 2) (by omega) (off4_eq L k2) _) $$ HfI0
    sl_exec (disch := first | exact hc1 | exact hc2)
    ihave Hw2 := (w_split (F := F) d wA (a := eOf (tOf0 L) (2 * k2.val + 2)) (b := eOf (tOf0 L) (2 * k2.val + 2 + 1)) (c := eOf (tOf0 L) 50) (by unfold eOf; omega) (by unfold eOf; omega)).1 $$ Hw2
    icases Hw2 with ⟨Hwp, Hw2⟩
    ihave Hwp := (flW0_piece (F := F) d L wA (k0_off4 L k2) (k0_off4_inb L k2 hc2) (2 * k2.val + 2) (off4_eq L k2)) $$ Hwp
    iapply (Transfers.wp_dmaLocal EC 𝒱₀ (thr d L) none (none : HIx 2) 128000 (dst := bW0) (sm := .dma wsem0) amt_W0 (by decide) (Finset.subset_univ _)) $$ [Hwp HbW0 HfW0]
    · isplitl [Hwp]; · iexact Hwp
      isplitl [HbW0]; · iexact HbW0
      iexact HfW0
    iintro HfW0
    ihave HfW0 := (flW0_intro (F := F) d L wA (k0_off4 L k2) (k0_off4_inb L k2 hc2) (2 * k2.val + 2) (by omega) (off4_eq L k2) _) $$ HfW0
    sl_exec (disch := first | exact hc1 | exact hc2)

    ihave He2 := (ew_split (F := F) d g0 (a := eOf (tOf0 L) (2 * k2.val)) (b := eOf (tOf0 L) (2 * k2.val + 1)) (c := eOf (tOf0 L) 50) (by unfold eOf; omega) (by unfold eOf; omega)).1 $$ He2
    icases He2 with ⟨Hep, He2⟩
    ihave Hep := (flE0_piece (F := F) d L (k0_off5 L k2 0#32) (k0_off5_inb L k2 0) (2 * k2.val) (off5_0 L k2) g0) $$ Hep
    ihave HbE0 := (bE0_own (F := F) d L _) $$ HbE0
    iapply (Transfers.wp_dmaLocal EC 𝒱₀ (thr d L) none (none : HIx 2) 128000 (src := bE0) (dst := (aEw).slice (Rect.unit (s := S6400000) (k0_off5 L k2 0#32) S4000.size (k0_off5_inb L k2 0)) (fun _ => rfl)) (sm := .dma esem0) (amt_E _ _ _) (by decide) (Finset.Subset.refl _)) $$ [HbE0 Hep HfE0]
    · isplitl [HbE0]; · iexact HbE0
      isplitl [Hep]; · iexact Hep
      iexact HfE0
    iintro HfE0
    ihave HfE0 := (flE0_intro (F := F) d L wA (k0_off5 L k2 0#32) (k0_off5_inb L k2 0) (2 * k2.val) (by omega) (off5_0 L k2) g0) $$ HfE0
    sl_exec (disch := first | exact hc1 | exact hc2)
    sl_step
    isplitr
    · ipureintro; rfl
    unfold invH inB0 inB1 outB1 owesW
    rw [if_pos h2, if_pos hp, if_pos h1]
    unfold flI1 flW1
    isplitr; · iexact Hmw
    isplitl [Htab]
    · iapply (tab_congr (F := F) d L segA wA (show 250 * (2 * k2.val) + 10 * 25 = 500 * k2.val + 250 by omega)); iexact Htab
    isplitl [HfI0 HfW0]
    · isplitl [HfI0]; · iexact HfI0
      iexact HfW0
    isplitl [HfI1 HfW1]
    · isplitl [HfI1]; · iexact HfI1
      iexact HfW1
    isplitl [HfE0]; · iexact HfE0
    isplitl [HfE1]; · iexact HfE1
    isplitl [Hs1 HfI0_src]
    · iapply (seg_split (F := F) d segA (a := eOf (tOf0 L) (0)) (b := eOf (tOf0 L) (2 * k2.val)) (c := eOf (tOf0 L) (2 * k2.val + 1)) (by unfold eOf; omega) (by unfold eOf; omega)).2
      isplitl [Hs1]; · iexact Hs1
      iexact HfI0_src
    isplitl [Hs2]
    · iapply (seg_rcongr (F := F) d segA (congrArg (eOf (tOf0 L)) (show 2 * k2.val + 2 + 1 = min (2 * k2.val + 3) 50 by omega)) rfl); iexact Hs2
    isplitl [Hw1 HfW0_src]
    · iapply (w_split (F := F) d wA (a := eOf (tOf0 L) (0)) (b := eOf (tOf0 L) (2 * k2.val)) (c := eOf (tOf0 L) (2 * k2.val + 1)) (by unfold eOf; omega) (by unfold eOf; omega)).2
      isplitl [Hw1]; · iexact Hw1
      iexact HfW0_src
    isplitl [Hw2]
    · iapply (w_rcongr (F := F) d wA (congrArg (eOf (tOf0 L)) (show 2 * k2.val + 2 + 1 = min (2 * k2.val + 3) 50 by omega)) rfl); iexact Hw2
    isplitl [He1 HfE0_dst]
    · iapply (ew_split (F := F) d (expAll wA) (a := eOf (tOf0 L) (0)) (b := eOf (tOf0 L) (2 * k2.val - 2)) (c := eOf (tOf0 L) (2 * k2.val - 1)) (by unfold eOf; omega) (by unfold eOf; omega)).2
      isplitl [He1]; · iexact He1
      iapply (ew_rcongr (F := F) d (expAll wA) rfl (congrArg (eOf (tOf0 L)) (show 2 * k2.val - 2 + 1 = 2 * k2.val - 1 by omega))); iexact HfE0_dst
    isplitl [He2]; · iexact He2
    iexists _
    isplitr
    rotate_left
    · iexact HO
    · ipureintro; refine sub_insert ?_ (sub_insert ?_ (sub_insert ?_ hW')) <;> rfl
  · have h1 : 1 ≤ k2.val := by omega
    have h2 : ¬ (k2.val < 24) := by omega
    have hc1 := (cond1_iff k2).mpr h1
    have hc2 := mt (cond2_iff k2).mp h2
    unfold outB0 outB1
    rw [if_pos h1, if_pos h1]
    unfold flE0
    iintro ⟨#Hmw, Htab, ⟨HfI0, HfW0⟩, ⟨HfI1, HfW1⟩, HfE0, HfE1, Hs1, Hs2, Hw1, Hw2, He1, He2, %W', %hW', HO⟩
    sl_exec (disch := first | exact hc1 | exact hc2)
    irename HfE0_src => HbE0
    sl_for (invG0 (F := F) d L segA wA (2 * k2.val) (chunkFn (expAll wA) (tOf0 L) (2 * k2.val - 2))) $$ [Htab HfI0_dst HfW0_dst HbE0]
    case region => intro g u; exact grp0_trip d L segA wA hseg (2 * k2.val) (by omega) _ v1 0#32 1#32 k2 g u
    · unfold invG0
      rw [epre_zero0, show 250 * (2 * k2.val) + 10 * 0 = 500 * k2.val by omega]
      isplitl [Htab]; · iexact Htab
      isplitl [HfI0_dst]; · iexact HfI0_dst
      isplitl [HfW0_dst]; · iexact HfW0_dst
      iexact HbE0
    iintro %_ HG
    unfold invG0
    rw [show Scf.trips k0_t3_loop.lb k0_t3_loop.ub k0_t3_loop.st = 25 from trips3, epre_full0]
    icases HG with ⟨Htab, HbI0, HbW0, HbE0⟩
    sl_exec (disch := first | exact hc1 | exact hc2)

    ihave He2 := (ew_split (F := F) d g0 (a := eOf (tOf0 L) (2 * k2.val)) (b := eOf (tOf0 L) (2 * k2.val + 1)) (c := eOf (tOf0 L) 50) (by unfold eOf; omega) (by unfold eOf; omega)).1 $$ He2
    icases He2 with ⟨Hep, He2⟩
    ihave Hep := (flE0_piece (F := F) d L (k0_off5 L k2 0#32) (k0_off5_inb L k2 0) (2 * k2.val) (off5_0 L k2) g0) $$ Hep
    ihave HbE0 := (bE0_own (F := F) d L _) $$ HbE0
    iapply (Transfers.wp_dmaLocal EC 𝒱₀ (thr d L) none (none : HIx 2) 128000 (src := bE0) (dst := (aEw).slice (Rect.unit (s := S6400000) (k0_off5 L k2 0#32) S4000.size (k0_off5_inb L k2 0)) (fun _ => rfl)) (sm := .dma esem0) (amt_E _ _ _) (by decide) (Finset.Subset.refl _)) $$ [HbE0 Hep HfE0]
    · isplitl [HbE0]; · iexact HbE0
      isplitl [Hep]; · iexact Hep
      iexact HfE0
    iintro HfE0
    ihave HfE0 := (flE0_intro (F := F) d L wA (k0_off5 L k2 0#32) (k0_off5_inb L k2 0) (2 * k2.val) (by omega) (off5_0 L k2) g0) $$ HfE0
    sl_exec (disch := first | exact hc1 | exact hc2)
    sl_step
    isplitr
    · ipureintro; rfl
    unfold invH inB0 inB1 outB1 owesW
    rw [if_neg h2, if_pos hp, if_pos h1]
    unfold flI1 flW1
    isplitr; · iexact Hmw
    isplitl [Htab]
    · iapply (tab_congr (F := F) d L segA wA (show 250 * (2 * k2.val) + 10 * 25 = 500 * k2.val + 250 by omega)); iexact Htab
    isplitl [HbI0 HbW0 HfI0 HfW0]
    · isplitl [HbI0]; · iexists _; iexact HbI0
      isplitl [HbW0]; · iexists _; iexact HbW0
      isplitl [HfI0]; · iexact HfI0
      iexact HfW0
    isplitl [HfI1 HfW1]
    · isplitl [HfI1]; · iexact HfI1
      iexact HfW1
    isplitl [HfE0]; · iexact HfE0
    isplitl [HfE1]; · iexact HfE1
    isplitl [Hs1 HfI0_src]
    · iapply (seg_split (F := F) d segA (a := eOf (tOf0 L) (0)) (b := eOf (tOf0 L) (2 * k2.val)) (c := eOf (tOf0 L) (2 * k2.val + 1)) (by unfold eOf; omega) (by unfold eOf; omega)).2
      isplitl [Hs1]; · iexact Hs1
      iexact HfI0_src
    isplitl [Hs2]
    · iapply (seg_rcongr (F := F) d segA (congrArg (eOf (tOf0 L)) (show min (2 * k2.val + 2) 50 = min (2 * k2.val + 3) 50 by omega)) rfl); iexact Hs2
    isplitl [Hw1 HfW0_src]
    · iapply (w_split (F := F) d wA (a := eOf (tOf0 L) (0)) (b := eOf (tOf0 L) (2 * k2.val)) (c := eOf (tOf0 L) (2 * k2.val + 1)) (by unfold eOf; omega) (by unfold eOf; omega)).2
      isplitl [Hw1]; · iexact Hw1
      iexact HfW0_src
    isplitl [Hw2]
    · iapply (w_rcongr (F := F) d wA (congrArg (eOf (tOf0 L)) (show min (2 * k2.val + 2) 50 = min (2 * k2.val + 3) 50 by omega)) rfl); iexact Hw2
    isplitl [He1 HfE0_dst]
    · iapply (ew_split (F := F) d (expAll wA) (a := eOf (tOf0 L) (0)) (b := eOf (tOf0 L) (2 * k2.val - 2)) (c := eOf (tOf0 L) (2 * k2.val - 1)) (by unfold eOf; omega) (by unfold eOf; omega)).2
      isplitl [He1]; · iexact He1
      iapply (ew_rcongr (F := F) d (expAll wA) rfl (congrArg (eOf (tOf0 L)) (show 2 * k2.val - 2 + 1 = 2 * k2.val - 1 by omega))); iexact HfE0_dst
    isplitl [He2]; · iexact He2
    iexists _
    isplitr
    rotate_left
    · iexact HO
    · ipureintro; refine sub_insert ?_ (sub_insert ?_ (sub_insert ?_ hW')) <;> rfl

end Half0

section PairTrip
variable (d : Dev nD) (L : grid0.Coords) (segA : IVec SE 32) (wA : FVec F SE .f32)
variable (O : CellTallies nD τ sig (HIx 2)) (W : Waits sig (HIx 2)) (g0 : FVec F SE .f32)

set_option maxHeartbeats 4000000 in

theorem pair_trip (hseg : ∀ e, (segA e).toNat < 100096) (v1 : BitVec 32) (k2 : Fin k0_t2_loop.trips) (u : PUnit) :
    invP (F := F) d L segA wA O W g0 k2.val u
      ⊢ wp frame (wpE (defs₀ (F := F)) 𝒱₀ (thr d L) none) Set.univ
          (k0_t2_body L (Memref.whole main_v1_scv) (Memref.isWhole_whole _) (Memref.whole main_arg1_scv) (Memref.isWhole_whole _) (Memref.whole main_v2_0_scv) (Memref.isWhole_whole _) (Memref.whole main_v2_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scoped0 v1 k2 u)
          (invP (F := F) d L segA wA O W g0 (k2.val + 1)) := by
  have hp : k2.val < 25 := (trips2 ▸ k2.isLt)
  have ht := tOf0_lt L
  unfold k0_t2_body
  rw [wp_bind]
  refine (half0 (F := F) d L segA wA O W g0 hseg v1 k2).trans (wp_mono _ _ _ fun v60 => ?_)
  iintro ⟨%hv, H⟩
  subst hv
  irevert H
  unfold invH inB1 owesW
  rw [if_pos hp]
  unfold flI1 flW1
  have hcases : k2.val = 0 ∨ (1 ≤ k2.val ∧ k2.val < 24) ∨ k2.val = 24 := by omega
  rcases hcases with h0 | ⟨h1, h2⟩ | h24
  · have h1 : ¬ (1 ≤ k2.val) := by omega
    have h2 : k2.val < 24 := by omega
    have hc3 := mt (cond3_iff k2).mp h1
    have hc4 := (cond4_iff k2).mpr h2
    unfold outB1
    rw [if_neg h1]
    iintro ⟨#Hmw, Htab, Hin0, ⟨HfI1, HfW1⟩, HfE0, ⟨⟨%fE, HbE1⟩, HfE1⟩, Hs1, Hs2, Hw1, Hw2, He1, He2, %W', %hW', HO⟩
    sl_exec (disch := first | exact hc3 | exact hc4)
    sl_for (invG1 (F := F) d L segA wA (2 * k2.val + 1) fE) $$ [Htab HfI1_dst HfW1_dst HbE1]
    case region => intro g u; exact grp1_trip d L segA wA hseg (2 * k2.val + 1) (by omega) _ g u
    · unfold invG1
      rw [epre_zero1, show 250 * (2 * k2.val + 1) + 10 * 0 = 500 * k2.val + 250 by omega]
      isplitl [Htab]; · iexact Htab
      isplitl [HfI1_dst]; · iexact HfI1_dst
      isplitl [HfW1_dst]; · iexact HfW1_dst
      iexact HbE1
    iintro %_ HG
    unfold invG1
    rw [show Scf.trips k0_t4_loop.lb k0_t4_loop.ub k0_t4_loop.st = 25 from trips4, epre_full1]
    icases HG with ⟨Htab, HbI1, HbW1, HbE1⟩
    sl_exec (disch := first | exact hc3 | exact hc4)

    rw [show min (2 * k2.val + 3) 50 = 2 * k2.val + 3 by omega]
    ihave Hs2 := (seg_split (F := F) d segA (a := eOf (tOf0 L) (2 * k2.val + 3)) (b := eOf (tOf0 L) (2 * k2.val + 3 + 1)) (c := eOf (tOf0 L) 50) (by unfold eOf; omega) (by unfold eOf; omega)).1 $$ Hs2
    icases Hs2 with ⟨Hsp, Hs2⟩
    ihave Hsp := (flI1_piece (F := F) d L segA (k0_off7 L k2) (k0_off7_inb L k2 hc4) (2 * k2.val + 3) (off7_eq L k2)) $$ Hsp
    iapply (Transfers.wp_dmaLocal EC 𝒱₀ (thr d L) none (none : HIx 2) 128000 (dst := bI1) (sm := .dma isem1) amt_I1 (by decide) (Finset.subset_univ _)) $$ [Hsp HbI1 HfI1]
    · isplitl [Hsp]; · iexact Hsp
      isplitl [HbI1]; · iexact HbI1
      iexact HfI1
    iintro HfI1
    ihave HfI1 := (flI1_intro (F := F) d L segA (k0_off7 L k2) (k0_off7_inb L k2 hc4) (2 * k2.val + 3) (by omega) (off7_eq L k2) _) $$ HfI1
    sl_exec (disch := first | exact hc3 | exact hc4)
    ihave Hw2 := (w_split (F := F) d wA (a := eOf (tOf0 L) (2 * k2.val + 3)) (b := eOf (tOf0 L) (2 * k2.val + 3 + 1)) (c := eOf (tOf0 L) 50) (by unfold eOf; omega) (by unfold eOf; omega)).1 $$ Hw2
    icases Hw2 with ⟨Hwp, Hw2⟩
    ihave Hwp := (flW1_piece (F := F) d L wA (k0_off7 L k2) (k0_off7_inb L k2 hc4) (2 * k2.val + 3) (off7_eq L k2)) $$ Hwp
    iapply (Transfers.wp_dmaLocal EC 𝒱₀ (thr d L) none (none : HIx 2) 128000 (dst := bW1) (sm := .dma wsem1) amt_W1 (by decide) (Finset.subset_univ _)) $$ [Hwp HbW1 HfW1]
    · isplitl [Hwp]; · iexact Hwp
      isplitl [HbW1]; · iexact HbW1
      iexact HfW1
    iintro HfW1
    ihave HfW1 := (flW1_intro (F := F) d L wA (k0_off7 L k2) (k0_off7_inb L k2 hc4) (2 * k2.val + 3) (by omega) (off7_eq L k2) _) $$ HfW1
    sl_exec (disch := first | exact hc3 | exact hc4)

    ihave He2 := (ew_split (F := F) d g0 (a := eOf (tOf0 L) (2 * k2.val + 1)) (b := eOf (tOf0 L) (2 * k2.val + 1 + 1)) (c := eOf (tOf0 L) 50) (by unfold eOf; omega) (by unfold eOf; omega)).1 $$ He2
    icases He2 with ⟨Hep, He2⟩
    ihave Hep := (flE1_piece (F := F) d L (k0_off5 L k2 1#32) (k0_off5_inb L k2 1) (2 * k2.val + 1) (off5_1 L k2) g0) $$ Hep
    ihave HbE1 := (bE1_own (F := F) d L _) $$ HbE1
    iapply (Transfers.wp_dmaLocal EC 𝒱₀ (thr d L) none (none : HIx 2) 128000 (src := bE1) (dst := (aEw).slice (Rect.unit (s := S6400000) (k0_off5 L k2 1#32) S4000.size (k0_off5_inb L k2 1)) (fun _ => rfl)) (sm := .dma esem1) (amt_E _ _ _) (by decide) (Finset.Subset.refl _)) $$ [HbE1 Hep HfE1]
    · isplitl [HbE1]; · iexact HbE1
      isplitl [Hep]; · iexact Hep
      iexact HfE1
    iintro HfE1
    ihave HfE1 := (flE1_intro (F := F) d L wA (k0_off5 L k2 1#32) (k0_off5_inb L k2 1) (2 * k2.val + 1) (by omega) (off5_1 L k2) g0) $$ HfE1
    sl_exec (disch := first | exact hc3 | exact hc4)
    sl_step
    unfold invP inB1 outB0 outB1 owesW
    rw [if_pos (show k2.val + 1 < 25 by omega), if_pos (show 1 ≤ k2.val + 1 by omega), if_pos (show 1 ≤ k2.val + 1 by omega)]
    isplitr; · iexact Hmw
    isplitl [Htab]
    · iapply (tab_congr (F := F) d L segA wA (show 250 * (2 * k2.val + 1) + 10 * 25 = 500 * (k2.val + 1) by omega)); iexact Htab
    isplitl [Hin0]
    · iapply (inB0_congr (F := F) d L segA wA (show k2.val < 24 ↔ k2.val + 1 < 25 by omega) (show 2 * k2.val + 2 = 2 * (k2.val + 1) by omega)); iexact Hin0
    isplitl [HfI1 HfW1]
    · isplitl [HfI1]
      · iapply (fl_congr (flI1 (F := F) d L segA) (show 2 * k2.val + 3 = 2 * (k2.val + 1) + 1 by omega)); iexact HfI1
      · iapply (fl_congr (flW1 (F := F) d L wA) (show 2 * k2.val + 3 = 2 * (k2.val + 1) + 1 by omega)); iexact HfW1
    isplitl [HfE0]
    · iapply (fl_congr (flE0 (F := F) d L wA) (show 2 * k2.val = 2 * (k2.val + 1) - 2 by omega)); iexact HfE0
    isplitl [HfE1]
    · iapply (fl_congr (flE1 (F := F) d L wA) (show 2 * k2.val + 1 = 2 * (k2.val + 1) - 1 by omega)); iexact HfE1
    isplitl [Hs1 HfI1_src]
    · iapply (seg_rcongr (F := F) d segA rfl (congrArg (eOf (tOf0 L)) (show 2 * k2.val + 1 + 1 = 2 * (k2.val + 1) by omega)))
      iapply (seg_split (F := F) d segA (a := eOf (tOf0 L) (0)) (b := eOf (tOf0 L) (2 * k2.val + 1)) (c := eOf (tOf0 L) (2 * k2.val + 1 + 1)) (by unfold eOf; omega) (by unfold eOf; omega)).2
      isplitl [Hs1]; · iexact Hs1
      iexact HfI1_src
    isplitl [Hs2]
    · iapply (seg_rcongr (F := F) d segA (congrArg (eOf (tOf0 L)) (show 2 * k2.val + 3 + 1 = min (2 * (k2.val + 1) + 2) 50 by omega)) rfl); iexact Hs2
    isplitl [Hw1 HfW1_src]
    · iapply (w_rcongr (F := F) d wA rfl (congrArg (eOf (tOf0 L)) (show 2 * k2.val + 1 + 1 = 2 * (k2.val + 1) by omega)))
      iapply (w_split (F := F) d wA (a := eOf (tOf0 L) (0)) (b := eOf (tOf0 L) (2 * k2.val + 1)) (c := eOf (tOf0 L) (2 * k2.val + 1 + 1)) (by unfold eOf; omega) (by unfold eOf; omega)).2
      isplitl [Hw1]; · iexact Hw1
      iexact HfW1_src
    isplitl [Hw2]
    · iapply (w_rcongr (F := F) d wA (congrArg (eOf (tOf0 L)) (show 2 * k2.val + 3 + 1 = min (2 * (k2.val + 1) + 2) 50 by omega)) rfl); iexact Hw2
    isplitl [He1]
    · iapply (ew_rcongr (F := F) d (expAll wA) rfl (congrArg (eOf (tOf0 L)) (show 2 * k2.val - 1 = 2 * (k2.val + 1) - 2 by omega))); iexact He1
    isplitl [He2]
    · iapply (ew_rcongr (F := F) d g0 (congrArg (eOf (tOf0 L)) (show 2 * k2.val + 1 + 1 = 2 * (k2.val + 1) by omega)) rfl); iexact He2
    iexists _
    isplitr
    rotate_left
    · iexact HO
    · ipureintro; refine sub_insert ?_ (sub_insert ?_ hW') <;> rfl
  · have hc3 := (cond3_iff k2).mpr h1
    have hc4 := (cond4_iff k2).mpr h2
    unfold outB1
    rw [if_pos h1]
    unfold flE1
    iintro ⟨#Hmw, Htab, Hin0, ⟨HfI1, HfW1⟩, HfE0, HfE1, Hs1, Hs2, Hw1, Hw2, He1, He2, %W', %hW', HO⟩
    sl_exec (disch := first | exact hc3 | exact hc4)
    irename HfE1_src => HbE1
    sl_for (invG1 (F := F) d L segA wA (2 * k2.val + 1) (chunkFn (expAll wA) (tOf0 L) (2 * k2.val - 1))) $$ [Htab HfI1_dst HfW1_dst HbE1]
    case region => intro g u; exact grp1_trip d L segA wA hseg (2 * k2.val + 1) (by omega) _ g u
    · unfold invG1
      rw [epre_zero1, show 250 * (2 * k2.val + 1) + 10 * 0 = 500 * k2.val + 250 by omega]
      isplitl [Htab]; · iexact Htab
      isplitl [HfI1_dst]; · iexact HfI1_dst
      isplitl [HfW1_dst]; · iexact HfW1_dst
      iexact HbE1
    iintro %_ HG
    unfold invG1
    rw [show Scf.trips k0_t4_loop.lb k0_t4_loop.ub k0_t4_loop.st = 25 from trips4, epre_full1]
    icases HG with ⟨Htab, HbI1, HbW1, HbE1⟩
    sl_exec (disch := first | exact hc3 | exact hc4)

    rw [show min (2 * k2.val + 3) 50 = 2 * k2.val + 3 by omega]
    ihave Hs2 := (seg_split (F := F) d segA (a := eOf (tOf0 L) (2 * k2.val + 3)) (b := eOf (tOf0 L) (2 * k2.val + 3 + 1)) (c := eOf (tOf0 L) 50) (by unfold eOf; omega) (by unfold eOf; omega)).1 $$ Hs2
    icases Hs2 with ⟨Hsp, Hs2⟩
    ihave Hsp := (flI1_piece (F := F) d L segA (k0_off7 L k2) (k0_off7_inb L k2 hc4) (2 * k2.val + 3) (off7_eq L k2)) $$ Hsp
    iapply (Transfers.wp_dmaLocal EC 𝒱₀ (thr d L) none (none : HIx 2) 128000 (dst := bI1) (sm := .dma isem1) amt_I1 (by decide) (Finset.subset_univ _)) $$ [Hsp HbI1 HfI1]
    · isplitl [Hsp]; · iexact Hsp
      isplitl [HbI1]; · iexact HbI1
      iexact HfI1
    iintro HfI1
    ihave HfI1 := (flI1_intro (F := F) d L segA (k0_off7 L k2) (k0_off7_inb L k2 hc4) (2 * k2.val + 3) (by omega) (off7_eq L k2) _) $$ HfI1
    sl_exec (disch := first | exact hc3 | exact hc4)
    ihave Hw2 := (w_split (F := F) d wA (a := eOf (tOf0 L) (2 * k2.val + 3)) (b := eOf (tOf0 L) (2 * k2.val + 3 + 1)) (c := eOf (tOf0 L) 50) (by unfold eOf; omega) (by unfold eOf; omega)).1 $$ Hw2
    icases Hw2 with ⟨Hwp, Hw2⟩
    ihave Hwp := (flW1_piece (F := F) d L wA (k0_off7 L k2) (k0_off7_inb L k2 hc4) (2 * k2.val + 3) (off7_eq L k2)) $$ Hwp
    iapply (Transfers.wp_dmaLocal EC 𝒱₀ (thr d L) none (none : HIx 2) 128000 (dst := bW1) (sm := .dma wsem1) amt_W1 (by decide) (Finset.subset_univ _)) $$ [Hwp HbW1 HfW1]
    · isplitl [Hwp]; · iexact Hwp
      isplitl [HbW1]; · iexact HbW1
      iexact HfW1
    iintro HfW1
    ihave HfW1 := (flW1_intro (F := F) d L wA (k0_off7 L k2) (k0_off7_inb L k2 hc4) (2 * k2.val + 3) (by omega) (off7_eq L k2) _) $$ HfW1
    sl_exec (disch := first | exact hc3 | exact hc4)

    ihave He2 := (ew_split (F := F) d g0 (a := eOf (tOf0 L) (2 * k2.val + 1)) (b := eOf (tOf0 L) (2 * k2.val + 1 + 1)) (c := eOf (tOf0 L) 50) (by unfold eOf; omega) (by unfold eOf; omega)).1 $$ He2
    icases He2 with ⟨Hep, He2⟩
    ihave Hep := (flE1_piece (F := F) d L (k0_off5 L k2 1#32) (k0_off5_inb L k2 1) (2 * k2.val + 1) (off5_1 L k2) g0) $$ Hep
    ihave HbE1 := (bE1_own (F := F) d L _) $$ HbE1
    iapply (Transfers.wp_dmaLocal EC 𝒱₀ (thr d L) none (none : HIx 2) 128000 (src := bE1) (dst := (aEw).slice (Rect.unit (s := S6400000) (k0_off5 L k2 1#32) S4000.size (k0_off5_inb L k2 1)) (fun _ => rfl)) (sm := .dma esem1) (amt_E _ _ _) (by decide) (Finset.Subset.refl _)) $$ [HbE1 Hep HfE1]
    · isplitl [HbE1]; · iexact HbE1
      isplitl [Hep]; · iexact Hep
      iexact HfE1
    iintro HfE1
    ihave HfE1 := (flE1_intro (F := F) d L wA (k0_off5 L k2 1#32) (k0_off5_inb L k2 1) (2 * k2.val + 1) (by omega) (off5_1 L k2) g0) $$ HfE1
    sl_exec (disch := first | exact hc3 | exact hc4)
    sl_step
    unfold invP inB1 outB0 outB1 owesW
    rw [if_pos (show k2.val + 1 < 25 by omega), if_pos (show 1 ≤ k2.val + 1 by omega), if_pos (show 1 ≤ k2.val + 1 by omega)]
    isplitr; · iexact Hmw
    isplitl [Htab]
    · iapply (tab_congr (F := F) d L segA wA (show 250 * (2 * k2.val + 1) + 10 * 25 = 500 * (k2.val + 1) by omega)); iexact Htab
    isplitl [Hin0]
    · iapply (inB0_congr (F := F) d L segA wA (show k2.val < 24 ↔ k2.val + 1 < 25 by omega) (show 2 * k2.val + 2 = 2 * (k2.val + 1) by omega)); iexact Hin0
    isplitl [HfI1 HfW1]
    · isplitl [HfI1]
      · iapply (fl_congr (flI1 (F := F) d L segA) (show 2 * k2.val + 3 = 2 * (k2.val + 1) + 1 by omega)); iexact HfI1
      · iapply (fl_congr (flW1 (F := F) d L wA) (show 2 * k2.val + 3 = 2 * (k2.val + 1) + 1 by omega)); iexact HfW1
    isplitl [HfE0]
    · iapply (fl_congr (flE0 (F := F) d L wA) (show 2 * k2.val = 2 * (k2.val + 1) - 2 by omega)); iexact HfE0
    isplitl [HfE1]
    · iapply (fl_congr (flE1 (F := F) d L wA) (show 2 * k2.val + 1 = 2 * (k2.val + 1) - 1 by omega)); iexact HfE1
    isplitl [Hs1 HfI1_src]
    · iapply (seg_rcongr (F := F) d segA rfl (congrArg (eOf (tOf0 L)) (show 2 * k2.val + 1 + 1 = 2 * (k2.val + 1) by omega)))
      iapply (seg_split (F := F) d segA (a := eOf (tOf0 L) (0)) (b := eOf (tOf0 L) (2 * k2.val + 1)) (c := eOf (tOf0 L) (2 * k2.val + 1 + 1)) (by unfold eOf; omega) (by unfold eOf; omega)).2
      isplitl [Hs1]; · iexact Hs1
      iexact HfI1_src
    isplitl [Hs2]
    · iapply (seg_rcongr (F := F) d segA (congrArg (eOf (tOf0 L)) (show 2 * k2.val + 3 + 1 = min (2 * (k2.val + 1) + 2) 50 by omega)) rfl); iexact Hs2
    isplitl [Hw1 HfW1_src]
    · iapply (w_rcongr (F := F) d wA rfl (congrArg (eOf (tOf0 L)) (show 2 * k2.val + 1 + 1 = 2 * (k2.val + 1) by omega)))
      iapply (w_split (F := F) d wA (a := eOf (tOf0 L) (0)) (b := eOf (tOf0 L) (2 * k2.val + 1)) (c := eOf (tOf0 L) (2 * k2.val + 1 + 1)) (by unfold eOf; omega) (by unfold eOf; omega)).2
      isplitl [Hw1]; · iexact Hw1
      iexact HfW1_src
    isplitl [Hw2]
    · iapply (w_rcongr (F := F) d wA (congrArg (eOf (tOf0 L)) (show 2 * k2.val + 3 + 1 = min (2 * (k2.val + 1) + 2) 50 by omega)) rfl); iexact Hw2
    isplitl [He1 HfE1_dst]
    · iapply (ew_rcongr (F := F) d (expAll wA) rfl (congrArg (eOf (tOf0 L)) (show 2 * k2.val - 1 + 1 = 2 * (k2.val + 1) - 2 by omega)))
      iapply (ew_split (F := F) d (expAll wA) (a := eOf (tOf0 L) (0)) (b := eOf (tOf0 L) (2 * k2.val - 1)) (c := eOf (tOf0 L) (2 * k2.val - 1 + 1)) (by unfold eOf; omega) (by unfold eOf; omega)).2
      isplitl [He1]; · iexact He1
      iexact HfE1_dst
    isplitl [He2]
    · iapply (ew_rcongr (F := F) d g0 (congrArg (eOf (tOf0 L)) (show 2 * k2.val + 1 + 1 = 2 * (k2.val + 1) by omega)) rfl); iexact He2
    iexists _
    isplitr
    rotate_left
    · iexact HO
    · ipureintro; refine sub_insert ?_ (sub_insert ?_ (sub_insert ?_ hW')) <;> rfl
  · have h1 : 1 ≤ k2.val := by omega
    have h2 : ¬ (k2.val < 24) := by omega
    have hc3 := (cond3_iff k2).mpr h1
    have hc4 := mt (cond4_iff k2).mp h2
    unfold outB1
    rw [if_pos h1]
    unfold flE1
    iintro ⟨#Hmw, Htab, Hin0, ⟨HfI1, HfW1⟩, HfE0, HfE1, Hs1, Hs2, Hw1, Hw2, He1, He2, %W', %hW', HO⟩
    sl_exec (disch := first | exact hc3 | exact hc4)
    irename HfE1_src => HbE1
    sl_for (invG1 (F := F) d L segA wA (2 * k2.val + 1) (chunkFn (expAll wA) (tOf0 L) (2 * k2.val - 1))) $$ [Htab HfI1_dst HfW1_dst HbE1]
    case region => intro g u; exact grp1_trip d L segA wA hseg (2 * k2.val + 1) (by omega) _ g u
    · unfold invG1
      rw [epre_zero1, show 250 * (2 * k2.val + 1) + 10 * 0 = 500 * k2.val + 250 by omega]
      isplitl [Htab]; · iexact Htab
      isplitl [HfI1_dst]; · iexact HfI1_dst
      isplitl [HfW1_dst]; · iexact HfW1_dst
      iexact HbE1
    iintro %_ HG
    unfold invG1
    rw [show Scf.trips k0_t4_loop.lb k0_t4_loop.ub k0_t4_loop.st = 25 from trips4, epre_full1]
    icases HG with ⟨Htab, HbI1, HbW1, HbE1⟩
    sl_exec (disch := first | exact hc3 | exact hc4)

    ihave He2 := (ew_split (F := F) d g0 (a := eOf (tOf0 L) (2 * k2.val + 1)) (b := eOf (tOf0 L) (2 * k2.val + 1 + 1)) (c := eOf (tOf0 L) 50) (by unfold eOf; omega) (by unfold eOf; omega)).1 $$ He2
    icases He2 with ⟨Hep, He2⟩
    ihave Hep := (flE1_piece (F := F) d L (k0_off5 L k2 1#32) (k0_off5_inb L k2 1) (2 * k2.val + 1) (off5_1 L k2) g0) $$ Hep
    ihave HbE1 := (bE1_own (F := F) d L _) $$ HbE1
    iapply (Transfers.wp_dmaLocal EC 𝒱₀ (thr d L) none (none : HIx 2) 128000 (src := bE1) (dst := (aEw).slice (Rect.unit (s := S6400000) (k0_off5 L k2 1#32) S4000.size (k0_off5_inb L k2 1)) (fun _ => rfl)) (sm := .dma esem1) (amt_E _ _ _) (by decide) (Finset.Subset.refl _)) $$ [HbE1 Hep HfE1]
    · isplitl [HbE1]; · iexact HbE1
      isplitl [Hep]; · iexact Hep
      iexact HfE1
    iintro HfE1
    ihave HfE1 := (flE1_intro (F := F) d L wA (k0_off5 L k2 1#32) (k0_off5_inb L k2 1) (2 * k2.val + 1) (by omega) (off5_1 L k2) g0) $$ HfE1
    sl_exec (disch := first | exact hc3 | exact hc4)
    sl_step
    unfold invP inB1 outB0 outB1 owesW
    rw [if_neg (show ¬ (k2.val + 1 < 25) by omega), if_pos (show 1 ≤ k2.val + 1 by omega), if_pos (show 1 ≤ k2.val + 1 by omega)]
    isplitr; · iexact Hmw
    isplitl [Htab]
    · iapply (tab_congr (F := F) d L segA wA (show 250 * (2 * k2.val + 1) + 10 * 25 = 500 * (k2.val + 1) by omega)); iexact Htab
    isplitl [Hin0]
    · iapply (inB0_congr (F := F) d L segA wA (show k2.val < 24 ↔ k2.val + 1 < 25 by omega) (show 2 * k2.val + 2 = 2 * (k2.val + 1) by omega)); iexact Hin0
    isplitl [HbI1 HbW1 HfI1 HfW1]
    · isplitl [HbI1]; · iexists _; iexact HbI1
      isplitl [HbW1]; · iexists _; iexact HbW1
      isplitl [HfI1]; · iexact HfI1
      iexact HfW1
    isplitl [HfE0]
    · iapply (fl_congr (flE0 (F := F) d L wA) (show 2 * k2.val = 2 * (k2.val + 1) - 2 by omega)); iexact HfE0
    isplitl [HfE1]
    · iapply (fl_congr (flE1 (F := F) d L wA) (show 2 * k2.val + 1 = 2 * (k2.val + 1) - 1 by omega)); iexact HfE1
    isplitl [Hs1 HfI1_src]
    · iapply (seg_rcongr (F := F) d segA rfl (congrArg (eOf (tOf0 L)) (show 2 * k2.val + 1 + 1 = 2 * (k2.val + 1) by omega)))
      iapply (seg_split (F := F) d segA (a := eOf (tOf0 L) (0)) (b := eOf (tOf0 L) (2 * k2.val + 1)) (c := eOf (tOf0 L) (2 * k2.val + 1 + 1)) (by unfold eOf; omega) (by unfold eOf; omega)).2
      isplitl [Hs1]; · iexact Hs1
      iexact HfI1_src
    isplitl [Hs2]
    · iapply (seg_rcongr (F := F) d segA (congrArg (eOf (tOf0 L)) (show min (2 * k2.val + 3) 50 = min (2 * (k2.val + 1) + 2) 50 by omega)) rfl); iexact Hs2
    isplitl [Hw1 HfW1_src]
    · iapply (w_rcongr (F := F) d wA rfl (congrArg (eOf (tOf0 L)) (show 2 * k2.val + 1 + 1 = 2 * (k2.val + 1) by omega)))
      iapply (w_split (F := F) d wA (a := eOf (tOf0 L) (0)) (b := eOf (tOf0 L) (2 * k2.val + 1)) (c := eOf (tOf0 L) (2 * k2.val + 1 + 1)) (by unfold eOf; omega) (by unfold eOf; omega)).2
      isplitl [Hw1]; · iexact Hw1
      iexact HfW1_src
    isplitl [Hw2]
    · iapply (w_rcongr (F := F) d wA (congrArg (eOf (tOf0 L)) (show min (2 * k2.val + 3) 50 = min (2 * (k2.val + 1) + 2) 50 by omega)) rfl); iexact Hw2
    isplitl [He1 HfE1_dst]
    · iapply (ew_rcongr (F := F) d (expAll wA) rfl (congrArg (eOf (tOf0 L)) (show 2 * k2.val - 1 + 1 = 2 * (k2.val + 1) - 2 by omega)))
      iapply (ew_split (F := F) d (expAll wA) (a := eOf (tOf0 L) (0)) (b := eOf (tOf0 L) (2 * k2.val - 1)) (c := eOf (tOf0 L) (2 * k2.val - 1 + 1)) (by unfold eOf; omega) (by unfold eOf; omega)).2
      isplitl [He1]; · iexact He1
      iexact HfE1_dst
    isplitl [He2]
    · iapply (ew_rcongr (F := F) d g0 (congrArg (eOf (tOf0 L)) (show 2 * k2.val + 1 + 1 = 2 * (k2.val + 1) by omega)) rfl); iexact He2
    iexists _
    isplitr
    rotate_left
    · iexact HO
    · ipureintro; refine sub_insert ?_ (sub_insert ?_ (sub_insert ?_ hW')) <;> rfl

end PairTrip

end Cert.Proof.KI

end
-- ==== Proof.Body0.lean ====
import proofs.«207891_g54065048322743_cont_9to1_m_676_18_alg».proof.Proof.Body0Inv
import proofs.«207891_g54065048322743_cont_9to1_m_676_18_alg».proof.Proof.Body0Pure
import proofs.«207891_g54065048322743_cont_9to1_m_676_18_alg».proof.Proof.Body0Zero
import proofs.«207891_g54065048322743_cont_9to1_m_676_18_alg».proof.Proof.Body0Fl
import proofs.«207891_g54065048322743_cont_9to1_m_676_18_alg».proof.Proof.Body0Ends
import proofs.«207891_g54065048322743_cont_9to1_m_676_18_alg».proof.Proof.Body0Pair

noncomputable section

namespace Cert.Proof.KI

open Cert.KernelIdeal Cert.KernelIdeal.Gen Cert.EdgeSoftmax

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

open Names0

namespace Top0

section Open
variable (d : Dev nD) (L : grid0.Coords)
omit [FloatOps F] in

theorem ownSems0_V0 :
    (ownSems0 (thr d L) : sProp 𝕄)
      = iprop(semVal (cellOf d L isem0) 0 ∗ semVal (cellOf d L isem1) 0 ∗ semVal (cellOf d L wsem0) 0 ∗ semVal (cellOf d L wsem1) 0 ∗ semVal (cellOf d L esem0) 0 ∗ semVal (cellOf d L esem1) 0 ∗ semVal (cellOf d L tsem) 0
          ∗ bigSep ((((((((ownCells (thr d L)).erase (cellOf d L isem0)).erase (cellOf d L isem1)).erase (cellOf d L wsem0)).erase (cellOf d L wsem1)).erase (cellOf d L esem0)).erase (cellOf d L esem1)).erase (cellOf d L tsem)) fun g => semVal g 0) := by
  unfold SparseCore.Cfg.ownSems0
  rw [SparseCore.bigSep_erase' ((mem_ownCells (g := cellOf d L isem0)).mpr ⟨rfl, by show (SemLoc.dma isem0 : SemLoc sig).isScoped .scVector = true; decide⟩),
    SparseCore.bigSep_erase' (Finset.mem_erase.mpr ⟨fun e => absurd (congrArg (fun g : GSem nD τ sig => g.2) e) (show (SemLoc.dma isem1 : SemLoc sig) ≠ SemLoc.dma isem0 by decide), (mem_ownCells (g := cellOf d L isem1)).mpr ⟨rfl, by show (SemLoc.dma isem1 : SemLoc sig).isScoped .scVector = true; decide⟩⟩),
    SparseCore.bigSep_erase' (Finset.mem_erase.mpr ⟨fun e => absurd (congrArg (fun g : GSem nD τ sig => g.2) e) (show (SemLoc.dma wsem0 : SemLoc sig) ≠ SemLoc.dma isem1 by decide), Finset.mem_erase.mpr ⟨fun e => absurd (congrArg (fun g : GSem nD τ sig => g.2) e) (show (SemLoc.dma wsem0 : SemLoc sig) ≠ SemLoc.dma isem0 by decide), (mem_ownCells (g := cellOf d L wsem0)).mpr ⟨rfl, by show (SemLoc.dma wsem0 : SemLoc sig).isScoped .scVector = true; decide⟩⟩⟩),
    SparseCore.bigSep_erase' (Finset.mem_erase.mpr ⟨fun e => absurd (congrArg (fun g : GSem nD τ sig => g.2) e) (show (SemLoc.dma wsem1 : SemLoc sig) ≠ SemLoc.dma wsem0 by decide), Finset.mem_erase.mpr ⟨fun e => absurd (congrArg (fun g : GSem nD τ sig => g.2) e) (show (SemLoc.dma wsem1 : SemLoc sig) ≠ SemLoc.dma isem1 by decide), Finset.mem_erase.mpr ⟨fun e => absurd (congrArg (fun g : GSem nD τ sig => g.2) e) (show (SemLoc.dma wsem1 : SemLoc sig) ≠ SemLoc.dma isem0 by decide), (mem_ownCells (g := cellOf d L wsem1)).mpr ⟨rfl, by show (SemLoc.dma wsem1 : SemLoc sig).isScoped .scVector = true; decide⟩⟩⟩⟩),
    SparseCore.bigSep_erase' (Finset.mem_erase.mpr ⟨fun e => absurd (congrArg (fun g : GSem nD τ sig => g.2) e) (show (SemLoc.dma esem0 : SemLoc sig) ≠ SemLoc.dma wsem1 by decide), Finset.mem_erase.mpr ⟨fun e => absurd (congrArg (fun g : GSem nD τ sig => g.2) e) (show (SemLoc.dma esem0 : SemLoc sig) ≠ SemLoc.dma wsem0 by decide), Finset.mem_erase.mpr ⟨fun e => absurd (congrArg (fun g : GSem nD τ sig => g.2) e) (show (SemLoc.dma esem0 : SemLoc sig) ≠ SemLoc.dma isem1 by decide), Finset.mem_erase.mpr ⟨fun e => absurd (congrArg (fun g : GSem nD τ sig => g.2) e) (show (SemLoc.dma esem0 : SemLoc sig) ≠ SemLoc.dma isem0 by decide), (mem_ownCells (g := cellOf d L esem0)).mpr ⟨rfl, by show (SemLoc.dma esem0 : SemLoc sig).isScoped .scVector = true; decide⟩⟩⟩⟩⟩),
    SparseCore.bigSep_erase' (Finset.mem_erase.mpr ⟨fun e => absurd (congrArg (fun g : GSem nD τ sig => g.2) e) (show (SemLoc.dma esem1 : SemLoc sig) ≠ SemLoc.dma esem0 by decide), Finset.mem_erase.mpr ⟨fun e => absurd (congrArg (fun g : GSem nD τ sig => g.2) e) (show (SemLoc.dma esem1 : SemLoc sig) ≠ SemLoc.dma wsem1 by decide), Finset.mem_erase.mpr ⟨fun e => absurd (congrArg (fun g : GSem nD τ sig => g.2) e) (show (SemLoc.dma esem1 : SemLoc sig) ≠ SemLoc.dma wsem0 by decide), Finset.mem_erase.mpr ⟨fun e => absurd (congrArg (fun g : GSem nD τ sig => g.2) e) (show (SemLoc.dma esem1 : SemLoc sig) ≠ SemLoc.dma isem1 by decide), Finset.mem_erase.mpr ⟨fun e => absurd (congrArg (fun g : GSem nD τ sig => g.2) e) (show (SemLoc.dma esem1 : SemLoc sig) ≠ SemLoc.dma isem0 by decide), (mem_ownCells (g := cellOf d L esem1)).mpr ⟨rfl, by show (SemLoc.dma esem1 : SemLoc sig).isScoped .scVector = true; decide⟩⟩⟩⟩⟩⟩),
    SparseCore.bigSep_erase' (Finset.mem_erase.mpr ⟨fun e => absurd (congrArg (fun g : GSem nD τ sig => g.2) e) (show (SemLoc.dma tsem : SemLoc sig) ≠ SemLoc.dma esem1 by decide), Finset.mem_erase.mpr ⟨fun e => absurd (congrArg (fun g : GSem nD τ sig => g.2) e) (show (SemLoc.dma tsem : SemLoc sig) ≠ SemLoc.dma esem0 by decide), Finset.mem_erase.mpr ⟨fun e => absurd (congrArg (fun g : GSem nD τ sig => g.2) e) (show (SemLoc.dma tsem : SemLoc sig) ≠ SemLoc.dma wsem1 by decide), Finset.mem_erase.mpr ⟨fun e => absurd (congrArg (fun g : GSem nD τ sig => g.2) e) (show (SemLoc.dma tsem : SemLoc sig) ≠ SemLoc.dma wsem0 by decide), Finset.mem_erase.mpr ⟨fun e => absurd (congrArg (fun g : GSem nD τ sig => g.2) e) (show (SemLoc.dma tsem : SemLoc sig) ≠ SemLoc.dma isem1 by decide), Finset.mem_erase.mpr ⟨fun e => absurd (congrArg (fun g : GSem nD τ sig => g.2) e) (show (SemLoc.dma tsem : SemLoc sig) ≠ SemLoc.dma isem0 by decide), (mem_ownCells (g := cellOf d L tsem)).mpr ⟨rfl, by show (SemLoc.dma tsem : SemLoc sig).isScoped .scVector = true; decide⟩⟩⟩⟩⟩⟩⟩)]

omit [FloatOps F] in

theorem ownBufs_V0 :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f)
          ∗ bigSep ((((((((ownRefs (τ := τ) (.scVector (cV0 L) (jV0 L))).erase ((Proc.scVector (cV0 L) (jV0 L)).devRef cc0_scratch0)).erase ((Proc.scVector (cV0 L) (jV0 L)).devRef cc0_scratch1)).erase ((Proc.scVector (cV0 L) (jV0 L)).devRef cc0_scratch2)).erase ((Proc.scVector (cV0 L) (jV0 L)).devRef cc0_scratch3)).erase ((Proc.scVector (cV0 L) (jV0 L)).devRef cc0_scratch4)).erase ((Proc.scVector (cV0 L) (jV0 L)).devRef cc0_scratch5)).erase ((Proc.scVector (cV0 L) (jV0 L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV0 L) (jV0 L)) (b := (Proc.scVector (cV0 L) (jV0 L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV0 L) (jV0 L)) (b := (Proc.scVector (cV0 L) (jV0 L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV0 L) (jV0 L)) (b := (Proc.scVector (cV0 L) (jV0 L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV0 L) (jV0 L)) (b := (Proc.scVector (cV0 L) (jV0 L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV0 L) (jV0 L)) (b := (Proc.scVector (cV0 L) (jV0 L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV0 L) (jV0 L)) (b := (Proc.scVector (cV0 L) (jV0 L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV0 L) (jV0 L)) (b := (Proc.scVector (cV0 L) (jV0 L)).devRef cc0_scratch6) rfl⟩⟩⟩⟩⟩⟩)]

end Open
section Pieces
variable (d : Dev nD) (L : grid0.Coords) (segA : IVec SE 32) (wA : FVec F SE .f32)

theorem seg_piece (off : Fin 1 → Nat) (inb : ∀ a, off a + S4000.size a ≤ S6400000.size a) (j : Nat) (h0 : off 0 = eOf (tOf0 L) j) :
    ((((aSeg).slice (Rect.unit (s := S6400000) off S4000.size inb) (fun _ => rfl)).view.loc (thr d L)
        ↦[((aSeg).slice (Rect.unit (s := S6400000) off S4000.size inb) (fun _ => rfl)).view.set]{fullShare} segA) : sProp 𝕄)
      = (segLoc d ↦[rng (eOf (tOf0 L) j) (eOf (tOf0 L) (j + 1))]{fullShare} segA) := by
  rw [seg_slice_set, h0, eOf_succ]

theorem w_piece (off : Fin 1 → Nat) (inb : ∀ a, off a + S4000.size a ≤ S6400000.size a) (j : Nat) (h0 : off 0 = eOf (tOf0 L) j) :
    ((((aW).slice (Rect.unit (s := S6400000) off S4000.size inb) (fun _ => rfl)).view.loc (thr d L)
        ↦[((aW).slice (Rect.unit (s := S6400000) off S4000.size inb) (fun _ => rfl)).view.set]{fullShare} wA) : sProp 𝕄)
      = (wLoc d ↦[rng (eOf (tOf0 L) j) (eOf (tOf0 L) (j + 1))]{fullShare} wA) := by
  rw [w_slice_set, h0, eOf_succ]

end Pieces
section Flights
variable (d : Dev nD) (L : grid0.Coords) (segA : IVec SE 32) (wA : FVec F SE .f32)

theorem to_flI0 (j : Nat) (hj : j < 50) (off : Fin 1 → Nat) (inb : ∀ a, off a + S4000.size a ≤ S6400000.size a)
    (h0 : off 0 = eOf (tOf0 L) j) (fd : IVec S4000 32) :
    (Transfers.Flight EC (thr d L) (.dma isem0) (none : HIx 2) 128000
      iprop(((bI0).view.loc (thr d L) ↦{fullShare}
            (bI0).view.write (Elt F) fd (ReadAs.same.apply (((aSeg).slice (Rect.unit (s := S6400000) off S4000.size inb) (fun _ => rfl)).view.read (Elt F) segA)) Finset.univ)
        ∗ (((aSeg).slice (Rect.unit (s := S6400000) off S4000.size inb) (fun _ => rfl)).view.loc (thr d L)
            ↦[((aSeg).slice (Rect.unit (s := S6400000) off S4000.size inb) (fun _ => rfl)).view.set]{fullShare} segA)) : sProp 𝕄)
      ⊢ flI0 (F := F) d L segA j := by
  unfold flI0
  rw [land_I0 (F := F) segA (tOf0 L) j (tOf0_lt L) hj off h0 inb fd, seg_piece (F := F) d L segA off inb j h0]

theorem to_flI1 (j : Nat) (hj : j < 50) (off : Fin 1 → Nat) (inb : ∀ a, off a + S4000.size a ≤ S6400000.size a)
    (h0 : off 0 = eOf (tOf0 L) j) (fd : IVec S4000 32) :
    (Transfers.Flight EC (thr d L) (.dma isem1) (none : HIx 2) 128000
      iprop(((bI1).view.loc (thr d L) ↦{fullShare}
            (bI1).view.write (Elt F) fd (ReadAs.same.apply (((aSeg).slice (Rect.unit (s := S6400000) off S4000.size inb) (fun _ => rfl)).view.read (Elt F) segA)) Finset.univ)
        ∗ (((aSeg).slice (Rect.unit (s := S6400000) off S4000.size inb) (fun _ => rfl)).view.loc (thr d L)
            ↦[((aSeg).slice (Rect.unit (s := S6400000) off S4000.size inb) (fun _ => rfl)).view.set]{fullShare} segA)) : sProp 𝕄)
      ⊢ flI1 (F := F) d L segA j := by
  unfold flI1
  rw [land_I1 (F := F) segA (tOf0 L) j (tOf0_lt L) hj off h0 inb fd, seg_piece (F := F) d L segA off inb j h0]

theorem to_flW0 (j : Nat) (hj : j < 50) (off : Fin 1 → Nat) (inb : ∀ a, off a + S4000.size a ≤ S6400000.size a)
    (h0 : off 0 = eOf (tOf0 L) j) (fd : FVec F S4000 .f32) :
    (Transfers.Flight EC (thr d L) (.dma wsem0) (none : HIx 2) 128000
      iprop(((bW0).view.loc (thr d L) ↦{fullShare}
            (bW0).view.write (Elt F) fd (ReadAs.same.apply (((aW).slice (Rect.unit (s := S6400000) off S4000.size inb) (fun _ => rfl)).view.read (Elt F) wA)) Finset.univ)
        ∗ (((aW).slice (Rect.unit (s := S6400000) off S4000.size inb) (fun _ => rfl)).view.loc (thr d L)
            ↦[((aW).slice (Rect.unit (s := S6400000) off S4000.size inb) (fun _ => rfl)).view.set]{fullShare} wA)) : sProp 𝕄)
      ⊢ flW0 (F := F) d L wA j := by
  unfold flW0
  rw [land_W0 (F := F) wA (tOf0 L) j (tOf0_lt L) hj off h0 inb fd, w_piece (F := F) d L wA off inb j h0]

theorem to_flW1 (j : Nat) (hj : j < 50) (off : Fin 1 → Nat) (inb : ∀ a, off a + S4000.size a ≤ S6400000.size a)
    (h0 : off 0 = eOf (tOf0 L) j) (fd : FVec F S4000 .f32) :
    (Transfers.Flight EC (thr d L) (.dma wsem1) (none : HIx 2) 128000
      iprop(((bW1).view.loc (thr d L) ↦{fullShare}
            (bW1).view.write (Elt F) fd (ReadAs.same.apply (((aW).slice (Rect.unit (s := S6400000) off S4000.size inb) (fun _ => rfl)).view.read (Elt F) wA)) Finset.univ)
        ∗ (((aW).slice (Rect.unit (s := S6400000) off S4000.size inb) (fun _ => rfl)).view.loc (thr d L)
            ↦[((aW).slice (Rect.unit (s := S6400000) off S4000.size inb) (fun _ => rfl)).view.set]{fullShare} wA)) : sProp 𝕄)
      ⊢ flW1 (F := F) d L wA j := by
  unfold flW1
  rw [land_W1 (F := F) wA (tOf0 L) j (tOf0_lt L) hj off h0 inb fd, w_piece (F := F) d L wA off inb j h0]

theorem invZ_exit (f0 : FVec F SN .f32) (u : PUnit) :
    (invZ (F := F) d L f0 k0_t1_loop.trips u : sProp 𝕄)
      = ((bTab).view.loc (thr d L) ↦{fullShare} tilePartialUpTo segA wA (tOf0 L) (500 * 0)) := by
  unfold invZ
  rw [trips1, zpre_full]
  rfl

end Flights
section Landed
variable (d : Dev nD) (L : grid0.Coords)

theorem part_landed_writes (segA : IVec SE 32) (wA : FVec F SE .f32) (off : Fin 1 → Nat)
    (inb : ∀ a, off a + S100096.size a ≤ S3203072.size a) (h0 : off 0 = 100096 * tOf0 L) (f : FVec F SP .f32) :
    (((aPart).slice (Rect.unit (s := S3203072) off S100096.size inb) (fun _ => rfl)).view.loc (thr d L)
          ↦[((aPart).slice (Rect.unit (s := S3203072) off S100096.size inb) (fun _ => rfl)).view.set]{fullShare}
        ((aPart).slice (Rect.unit (s := S3203072) off S100096.size inb) (fun _ => rfl)).view.writes (Elt F) f
          [⟨Rect.whole S100096, ReadAs.same.apply ((bTab).view.read (Elt F) (tilePartial segA wA (tOf0 L)))⟩] : sProp 𝕄)
      ⊢ (partLoc d ↦[slotsOf (tOf0 L)]{fullShare} partialAll segA wA) := by
  have e := View.write_univ_eq_writes_whole (Val := Elt F)
    ((aPart).slice (Rect.unit (s := S3203072) off S100096.size inb) (fun _ => rfl)).view f []
    (ReadAs.same.apply ((bTab).view.read (Elt F) (tilePartial segA wA (tOf0 L))))
  rw [View.writes_nil] at e
  have h := part_landed (F := F) d L segA wA off inb h0 f
  rw [e] at h
  exact h

end Landed

end Top0

open Top0

section Top

theorem body0 (hF : (K (F := F)).Facts) (d : Dev nD) (L : grid0.Coords) (segA : IVec SE 32) (wA : FVec F SE .f32)
    (hseg : ∀ e, (segA e).toNat < 100096) (O : CellTallies nD τ sig (HIx 2)) (W : Waits sig (HIx 2)) (hO : ∀ g, O g none = 0) :
    iprop(levAts (K (F := F)).L (K (F := F)).lev ∗ emp ∗ go0 d segA wA (tOf0 L)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0__segment_sum L (Memref.whole main_v1_scv) (Memref.isWhole_whole _) (Memref.whole main_arg1_scv) (Memref.isWhole_whole _)
            (Memref.whole main_v2_0_scv) (Memref.isWhole_whole _) (Memref.whole main_v2_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8 cc0_scratch9 cc0_scoped0)
          fun _ => iprop(td0 d segA wA (tOf0 L) ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') := by
  have ht := tOf0_lt L
  have he01 : eOf (tOf0 L) 0 ≤ eOf (tOf0 L) 1 := by unfold eOf; omega
  have he12 : eOf (tOf0 L) 1 ≤ eOf (tOf0 L) 2 := by unfold eOf; omega
  have he150 : eOf (tOf0 L) 1 ≤ eOf (tOf0 L) 50 := by unfold eOf; omega
  have he250 : eOf (tOf0 L) 2 ≤ eOf (tOf0 L) 50 := by unfold eOf; omega
  simp only [cc0__segment_sum_eq_skeleton]; unfold cc0__segment_sum_skel
  unfold go0
  rw [edgesOf_eq_rng]
  rw [(K (F := F)).scopedBufs_V hF d (cV0 L) (jV0 L), SparseCore.Cfg.scopedSems0_V (Val := Elt F) d (cV0 L) (jV0 L), ownSems0_V0, ownBufs_V0]
  iintro ⟨#Hlv, -, ⟨Hseg, Hw, ⟨%fp, Hpart⟩, ⟨%g0, Hew⟩⟩, ⟨⟨%fT, HbT⟩, ⟨%fI0, HbI0⟩, ⟨%fI1, HbI1⟩, ⟨%fW0, HbW0⟩, ⟨%fW1, HbW1⟩, ⟨%fE0, HbE0⟩, ⟨%fE1, HbE1⟩, Hbrest⟩, ⟨Hci0, Hci1, Hcw0, Hcw1, Hce0, Hce1, Hct, Hcrest⟩, HO⟩
  ihave Hmw := ((K (F := F)).mayWaits_none (thr := thr d L) hO) $$ Hlv
  ihave HbT' := (Entails.of_eq (show (((thr d L).loc cc0_scratch0 ↦{fullShare} fT) : sProp 𝕄) = ((bTab).view.loc (thr d L) ↦{fullShare} fT) from rfl)) $$ HbT
  ihave HbI0' := (Entails.of_eq (show (((thr d L).loc cc0_scratch1 ↦{fullShare} fI0) : sProp 𝕄) = ((bI0).view.loc (thr d L) ↦{fullShare} fI0) from rfl)) $$ HbI0
  ihave HbI1' := (Entails.of_eq (show (((thr d L).loc cc0_scratch2 ↦{fullShare} fI1) : sProp 𝕄) = ((bI1).view.loc (thr d L) ↦{fullShare} fI1) from rfl)) $$ HbI1
  ihave HbW0' := (Entails.of_eq (show (((thr d L).loc cc0_scratch3 ↦{fullShare} fW0) : sProp 𝕄) = ((bW0).view.loc (thr d L) ↦{fullShare} fW0) from rfl)) $$ HbW0
  ihave HbW1' := (Entails.of_eq (show (((thr d L).loc cc0_scratch4 ↦{fullShare} fW1) : sProp 𝕄) = ((bW1).view.loc (thr d L) ↦{fullShare} fW1) from rfl)) $$ HbW1
  ihave HbE0' := (Entails.of_eq (show (((thr d L).loc cc0_scratch5 ↦{fullShare} fE0) : sProp 𝕄) = ((bE0).view.loc (thr d L) ↦{fullShare} fE0) from rfl)) $$ HbE0
  ihave HbE1' := (Entails.of_eq (show (((thr d L).loc cc0_scratch6 ↦{fullShare} fE1) : sProp 𝕄) = ((bE1).view.loc (thr d L) ↦{fullShare} fE1) from rfl)) $$ HbE1

  ihave Hs := (seg_split (F := F) d segA he01 he150).1 $$ Hseg
  icases Hs with ⟨Hs0, Hs'⟩
  ihave Hs := (seg_split (F := F) d segA he12 he250).1 $$ Hs'
  icases Hs with ⟨Hs1, Hs2⟩
  ihave Hww := (w_split (F := F) d wA he01 he150).1 $$ Hw
  icases Hww with ⟨Hw0, Hw'⟩
  ihave Hww := (w_split (F := F) d wA he12 he250).1 $$ Hw'
  icases Hww with ⟨Hw1, Hw2⟩
  ihave Hs0' := (Entails.of_eq (seg_piece (F := F) d L segA (k0_off1 L 0#32) (k0_off1_inb L 0) 0 (off1_0 L)).symm) $$ Hs0
  ihave Hs1' := (Entails.of_eq (seg_piece (F := F) d L segA (k0_off1 L 4000#32) (k0_off1_inb L 1) 1 (off1_1 L)).symm) $$ Hs1
  ihave Hw0' := (Entails.of_eq (w_piece (F := F) d L wA (k0_off1 L 0#32) (k0_off1_inb L 0) 0 (off1_0 L)).symm) $$ Hw0
  ihave Hw1' := (Entails.of_eq (w_piece (F := F) d L wA (k0_off1 L 4000#32) (k0_off1_inb L 1) 1 (off1_1 L)).symm) $$ Hw1
  sl_exec
  ihave HfI0 : flI0 (F := F) d L segA 0 $$ [Hci0]
  · iapply (to_flI0 (F := F) d L segA 0 (by decide) _ (k0_off1_inb L 0) (off1_0 L) fI0)
    iexact Hci0
  ihave HfW0 : flW0 (F := F) d L wA 0 $$ [Hcw0]
  · iapply (to_flW0 (F := F) d L wA 0 (by decide) _ (k0_off1_inb L 0) (off1_0 L) fW0)
    iexact Hcw0
  ihave HfI1 : flI1 (F := F) d L segA 1 $$ [Hci1]
  · iapply (to_flI1 (F := F) d L segA 1 (by decide) _ (k0_off1_inb L 1) (off1_1 L) fI1)
    iexact Hci1
  ihave HfW1 : flW1 (F := F) d L wA 1 $$ [Hcw1]
  · iapply (to_flW1 (F := F) d L wA 1 (by decide) _ (k0_off1_inb L 1) (off1_1 L) fW1)
    iexact Hcw1

  sl_for (invZ (F := F) d L fT) $$ [HbT']
  case region => intro k u; exact zero_trip d L fT k u
  · unfold invZ
    rw [zpre_zero]
    iexact HbT'
  iintro %_ HZ
  ihave Htab := (Entails.of_eq (invZ_exit (F := F) d L segA wA fT _)) $$ HZ

  sl_for (invP (F := F) d L segA wA O W g0) $$ [Htab HfI0 HfW0 HfI1 HfW1 HbE0' Hce0 HbE1' Hce1 Hs2 Hw2 Hew HO]
  case region => intro k2 u; exact pair_trip d L segA wA O W g0 hseg _ k2 u
  · iapply (invP_entry (F := F) d L segA wA O W g0 fE0 fE1 _)
    isplitr; · iexact Hmw
    isplitl [Htab]; · iexact Htab
    isplitl [HfI0]; · iexact HfI0
    isplitl [HfW0]; · iexact HfW0
    isplitl [HfI1]; · iexact HfI1
    isplitl [HfW1]; · iexact HfW1
    isplitl [HbE0']; · iexact HbE0'
    isplitl [Hce0]; · iexact Hce0
    isplitl [HbE1']; · iexact HbE1'
    isplitl [Hce1]; · iexact Hce1
    isplitl [Hs2]; · iexact Hs2
    isplitl [Hw2]; · iexact Hw2
    isplitl [Hew]; · iexact Hew
    iexact HO
  iintro %_ HP
  rw [show Scf.trips k0_t2_loop.lb k0_t2_loop.ub k0_t2_loop.st = 25 from trips2]
  ihave HX := (invP_exit (F := F) d L segA wA O W g0 _) $$ HP
  icases HX with ⟨Htab, ⟨%fI0', HbI0⟩, ⟨%fW0', HbW0⟩, Hci0, Hcw0, ⟨%fI1', HbI1⟩, ⟨%fW1', HbW1⟩, Hci1, Hcw1, HfE0, HfE1, Hseg, Hw, Hew, HOW⟩
  unfold owesW flE0 flE1
  icases HOW with ⟨%W', %hW', HO⟩
  ihave Hpart' := (part_piece (F := F) d L (k0_off8 L) (k0_off8_inb L) (off8_eq L) fp) $$ Hpart
  sl_exec
  sl_step
  ihave Hp : (partLoc d ↦[slotsOf (tOf0 L)]{fullShare} partialAll segA wA) $$ [Hpart']
  · iapply (part_landed_writes (F := F) d L segA wA (k0_off8 L) (k0_off8_inb L) (off8_eq L) fp)
    iexact Hpart'
  isplitl [Hseg Hw Hp Hew HfE0_dst HfE1_dst]
  · iapply (td0_close (F := F) d L segA wA)
    isplitl [Hseg]; · iexact Hseg
    isplitl [Hw]; · iexact Hw
    isplitl [Hp]; · iexact Hp
    isplitl [Hew]; · iexact Hew
    isplitl [HfE0_dst]; · iexact HfE0_dst
    iexact HfE1_dst
  isplitl [Htab HbI0 HbI1 HbW0 HbW1 HfE0_src HfE1_src Hbrest]
  · isplitl [Htab]; · iexists _; iexact Htab
    isplitl [HbI0]; · iexists _; iexact HbI0
    isplitl [HbI1]; · iexists _; iexact HbI1
    isplitl [HbW0]; · iexists _; iexact HbW0
    isplitl [HbW1]; · iexists _; iexact HbW1
    isplitl [HfE0_src]; · iexists _; iexact HfE0_src
    isplitl [HfE1_src]; · iexists _; iexact HfE1_src
    iexact Hbrest
  isplitl [Hci0 Hci1 Hcw0 Hcw1 HfE0 HfE1 Hct Hcrest]
  · isplitl [Hci0]; · iexact Hci0
    isplitl [Hci1]; · iexact Hci1
    isplitl [Hcw0]; · iexact Hcw0
    isplitl [Hcw1]; · iexact Hcw1
    isplitl [HfE0]; · iexact HfE0
    isplitl [HfE1]; · iexact HfE1
    isplitl [Hct]; · iexact Hct
    iexact Hcrest
  iexists (insert (SemLoc.dma tsem, (none : HIx 2)) (insert (SemLoc.dma esem1, (none : HIx 2)) (insert (SemLoc.dma esem0, (none : HIx 2)) W')))
  isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact hW' p hp
  iexact HO

end Top

end Cert.Proof.KI

end
-- ==== Proof.Body1Res.lean ====
import proofs.«207891_g54065048322743_cont_9to1_m_676_18_alg».proof.Proof.Iface

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev A2 : Memref sig .scVector .hbm S6400000 .i32 := Memref.whole main_v1_scv
abbrev A3 : Memref sig .scVector .hbm S6400000 .f32 := Memref.whole main_v2_1_scv
abbrev A4 : Memref sig .scVector .hbm S100096 .f32 := Memref.whole main_v67_scv
abbrev A5 : Memref sig .scVector .hbm S6400000 .f32 := Memref.whole main_v68_scv
abbrev B6 : Memref sig .scVector .vmem S100096 .f32 := Memref.whole cc1_scratch0
abbrev B7 : Memref sig .scVector .vmem S4000 .i32 := Memref.whole cc1_scratch1
abbrev B8 : Memref sig .scVector .vmem S4000 .i32 := Memref.whole cc1_scratch2
abbrev B9 : Memref sig .scVector .vmem S4000 .f32 := Memref.whole cc1_scratch3
abbrev B10 : Memref sig .scVector .vmem S4000 .f32 := Memref.whole cc1_scratch4
abbrev B11 : Memref sig .scVector .vmem S4000 .f32 := Memref.whole cc1_scratch5
abbrev B12 : Memref sig .scVector .vmem S4000 .f32 := Memref.whole cc1_scratch6

abbrev sI0 : DmaSem sig := ((cc1_scratch7.slice (Rect.unit (s := S2) ![0] S1.size inb_S2_S1_0)).squeeze S_ squeezes_S1_S_).sem
abbrev sI1 : DmaSem sig := ((cc1_scratch7.slice (Rect.unit (s := S2) ![1] S1.size inb_S2_S1_1)).squeeze S_ squeezes_S1_S_).sem
abbrev sW0 : DmaSem sig := ((cc1_scratch8.slice (Rect.unit (s := S2) ![0] S1.size inb_S2_S1_0)).squeeze S_ squeezes_S1_S_).sem
abbrev sW1 : DmaSem sig := ((cc1_scratch8.slice (Rect.unit (s := S2) ![1] S1.size inb_S2_S1_1)).squeeze S_ squeezes_S1_S_).sem
abbrev sO0 : DmaSem sig := ((cc1_scratch9.slice (Rect.unit (s := S2) ![0] S1.size inb_S2_S1_0)).squeeze S_ squeezes_S1_S_).sem
abbrev sO1 : DmaSem sig := ((cc1_scratch9.slice (Rect.unit (s := S2) ![1] S1.size inb_S2_S1_1)).squeeze S_ squeezes_S1_S_).sem
abbrev sD : DmaSem sig := cc1_scratch10.sem

abbrev thr1 (d : Dev nD) (L : grid1.Coords) : Thread nD τ := V d (cV1 L) (jV1 L)

abbrev cell (d : Dev nD) (L : grid1.Coords) (s : DmaSem sig) : GSem nD τ sig := (thr1 d L, SemLoc.dma s)

def semEmb (thr : Thread nD τ) : SemLoc sig ↪ GSem nD τ sig := ⟨fun sm => (thr, sm), fun _ _ h => (Prod.ext_iff.mp h).2⟩

abbrev mySems : Finset (SemLoc sig) := {.dma sI0, .dma sI1, .dma sW0, .dma sW1, .dma sO0, .dma sO1, .dma sD}

theorem mySems_scoped : ∀ sm ∈ mySems, SemLoc.isScoped Kind.scVector sm = true := by decide

omit [FloatOps F] in
theorem bigSep_mySems (Φ : SemLoc sig → sProp 𝕄) :
    bigSep mySems Φ = iprop(Φ (.dma sI0) ∗ Φ (.dma sI1) ∗ Φ (.dma sW0) ∗ Φ (.dma sW1) ∗ Φ (.dma sO0) ∗ Φ (.dma sO1) ∗ Φ (.dma sD)) := by
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem mySems_sub (d : Dev nD) (L : grid1.Coords) : mySems.map (semEmb (thr1 d L)) ⊆ ownCells (thr1 d L) := by
  intro g hg
  obtain ⟨sm, hsm, rfl⟩ := Finset.mem_map.mp hg
  exact mem_ownCells.mpr ⟨rfl, mySems_scoped sm hsm⟩

omit [FloatOps F] in
theorem ownSems0_V1 (d : Dev nD) (L : grid1.Coords) :
    (ownSems0 (thr1 d L) : sProp 𝕄)
      = iprop((semVal (cell d L sI0) 0 ∗ semVal (cell d L sI1) 0 ∗ semVal (cell d L sW0) 0 ∗ semVal (cell d L sW1) 0
            ∗ semVal (cell d L sO0) 0 ∗ semVal (cell d L sO1) 0 ∗ semVal (cell d L sD) 0)
          ∗ bigSep (ownCells (thr1 d L) \ mySems.map (semEmb (thr1 d L))) fun g => semVal g 0) := by
  unfold SparseCore.Cfg.ownSems0
  rw [SparseCore.bigSep_sdiff_split' (mySems_sub d L), bigSep_map, bigSep_mySems]
  rfl

def refEmb (c : Fin τ.nSC) (j : Fin τ.nSub) : Ref sig .scVector ↪ DevRef τ sig := ⟨(Proc.scVector c j).devRef, Proc.devRef_injective _⟩

abbrev myBufs : Finset (Ref sig .scVector) := {cc1_scratch0, cc1_scratch1, cc1_scratch2, cc1_scratch3, cc1_scratch4, cc1_scratch5, cc1_scratch6}

omit [FloatOps F] in
theorem bigSep_myBufs (Φ : Ref sig .scVector → sProp 𝕄) :
    bigSep myBufs Φ = iprop(Φ cc1_scratch0 ∗ Φ cc1_scratch1 ∗ Φ cc1_scratch2 ∗ Φ cc1_scratch3 ∗ Φ cc1_scratch4 ∗ Φ cc1_scratch5 ∗ Φ cc1_scratch6) := by
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem myBufs_sub (L : grid1.Coords) : myBufs.map (refEmb (cV1 L) (jV1 L)) ⊆ ownRefs (τ := τ) (.scVector (cV1 L) (jV1 L)) := by
  intro b hb
  obtain ⟨r, hr, rfl⟩ := Finset.mem_map.mp hb
  simp only [Finset.mem_insert, Finset.mem_singleton] at hr
  rcases hr with rfl | rfl | rfl | rfl | rfl | rfl | rfl <;>
    exact SparseCore.Cfg.mem_ownRefs_of_owner (p := Proc.scVector (cV1 L) (jV1 L)) rfl

omit [FloatOps F] in
theorem ownBufs_V1 (d : Dev nD) (L : grid1.Coords) :
    (ownBufs (thr1 d L) : sProp 𝕄)
      = iprop(((∃ f, (thr1 d L).loc cc1_scratch0 ↦{fullShare} f) ∗ (∃ f, (thr1 d L).loc cc1_scratch1 ↦{fullShare} f)
            ∗ (∃ f, (thr1 d L).loc cc1_scratch2 ↦{fullShare} f) ∗ (∃ f, (thr1 d L).loc cc1_scratch3 ↦{fullShare} f)
            ∗ (∃ f, (thr1 d L).loc cc1_scratch4 ↦{fullShare} f) ∗ (∃ f, (thr1 d L).loc cc1_scratch5 ↦{fullShare} f)
            ∗ (∃ f, (thr1 d L).loc cc1_scratch6 ↦{fullShare} f))
          ∗ bigSep (ownRefs (τ := τ) (.scVector (cV1 L) (jV1 L)) \ myBufs.map (refEmb (cV1 L) (jV1 L)))
              fun b => iprop(∃ f, ((d, b) : Loc nD τ sig) ↦{fullShare} f)) := by
  unfold SparseCore.Cfg.ownBufs
  rw [SparseCore.bigSep_sdiff_split' (myBufs_sub L), bigSep_map, bigSep_myBufs]
  rfl

end Cert.Proof.KI.Norm

end
-- ==== Proof.Body1Inv.lean ====
import proofs.«207891_g54065048322743_cont_9to1_m_676_18_alg».proof.Proof.Body1Res

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

def eset (lo hi : Nat) : Finset SE.Idx := Finset.univ.filter fun e => lo ≤ (e 0).val ∧ (e 0).val < hi

def base1 (L : grid1.Coords) : Nat := 3200000 * (L 0).val + 200000 * (L 1).val

def coff (L : grid1.Coords) (j : Nat) : Nat := base1 L + 4000 * j

theorem base1_le (L : grid1.Coords) : base1 L + 200000 ≤ 6400000 := by
  have h0 : (L 0).val < 2 := (L 0).isLt
  have h1 : (L 1).val < 16 := (L 1).isLt
  unfold base1; omega

theorem coff_inb (L : grid1.Coords) (j : Nat) (hj : j < 50) : coff L j + 4000 ≤ 6400000 := by
  have := base1_le L; unfold coff; omega

def chunkFn {α : Type} (x : SE.Idx → α) (o : Nat) (h : o + 4000 ≤ 6400000) : S4000.Idx → α :=
  fun i => x (ix1 ⟨o + (i 0).val, by have h4 : (i 0).val < 4000 := (i 0).isLt; omega⟩)

def upTo {α : Type} (G : SE.Idx → α) (o : Nat) (h : o + 4000 ≤ 6400000) (n : Nat) (f : S4000.Idx → α) : S4000.Idx → α :=
  fun i => if (i 0).val < n then chunkFn G o h i else f i

abbrev segSl (off : Fin 1 → Nat) (h : ∀ a, off a + S4000.size a ≤ S6400000.size a) : Memref sig .scVector .hbm S4000 .i32 :=
  A2.slice (Rect.unit (s := S6400000) off S4000.size h) (fun _ => rfl)
abbrev ewSl (off : Fin 1 → Nat) (h : ∀ a, off a + S4000.size a ≤ S6400000.size a) : Memref sig .scVector .hbm S4000 .f32 :=
  A3.slice (Rect.unit (s := S6400000) off S4000.size h) (fun _ => rfl)
abbrev outSl (off : Fin 1 → Nat) (h : ∀ a, off a + S4000.size a ≤ S6400000.size a) : Memref sig .scVector .hbm S4000 .f32 :=
  A5.slice (Rect.unit (s := S6400000) off S4000.size h) (fun _ => rfl)

def FlI0 (d : Dev nD) (L : grid1.Coords) (segA : IVec SE 32) (o : Nat) (h : o + 4000 ≤ 6400000) : sProp 𝕄 :=
  Transfers.Flight countersEmb (thr1 d L) (SemLoc.dma sI0) (default : HIx 2) 128000
    iprop((B7.view.loc (thr1 d L) ↦{fullShare} chunkFn segA o h) ∗ (segLoc d ↦[eset o (o + 4000)]{fullShare} segA))

def FlI1 (d : Dev nD) (L : grid1.Coords) (segA : IVec SE 32) (o : Nat) (h : o + 4000 ≤ 6400000) : sProp 𝕄 :=
  Transfers.Flight countersEmb (thr1 d L) (SemLoc.dma sI1) (default : HIx 2) 128000
    iprop((B8.view.loc (thr1 d L) ↦{fullShare} chunkFn segA o h) ∗ (segLoc d ↦[eset o (o + 4000)]{fullShare} segA))

def FlW0 (d : Dev nD) (L : grid1.Coords) (ewA : FVec F SE .f32) (o : Nat) (h : o + 4000 ≤ 6400000) : sProp 𝕄 :=
  Transfers.Flight countersEmb (thr1 d L) (SemLoc.dma sW0) (default : HIx 2) 128000
    iprop((B9.view.loc (thr1 d L) ↦{fullShare} chunkFn ewA o h) ∗ (ewLoc d ↦[eset o (o + 4000)]{fullShare} ewA))

def FlW1 (d : Dev nD) (L : grid1.Coords) (ewA : FVec F SE .f32) (o : Nat) (h : o + 4000 ≤ 6400000) : sProp 𝕄 :=
  Transfers.Flight countersEmb (thr1 d L) (SemLoc.dma sW1) (default : HIx 2) 128000
    iprop((B10.view.loc (thr1 d L) ↦{fullShare} chunkFn ewA o h) ∗ (ewLoc d ↦[eset o (o + 4000)]{fullShare} ewA))

def FlO0 (d : Dev nD) (L : grid1.Coords) (G : FVec F SE .f32) (o : Nat) (h : o + 4000 ≤ 6400000) : sProp 𝕄 :=
  Transfers.Flight countersEmb (thr1 d L) (SemLoc.dma sO0) (default : HIx 2) 128000
    iprop((outLoc d ↦[eset o (o + 4000)]{fullShare} G) ∗ (B11.view.loc (thr1 d L) ↦{fullShare} chunkFn G o h))

def FlO1 (d : Dev nD) (L : grid1.Coords) (G : FVec F SE .f32) (o : Nat) (h : o + 4000 ≤ 6400000) : sProp 𝕄 :=
  Transfers.Flight countersEmb (thr1 d L) (SemLoc.dma sO1) (default : HIx 2) 128000
    iprop((outLoc d ↦[eset o (o + 4000)]{fullShare} G) ∗ (B12.view.loc (thr1 d L) ↦{fullShare} chunkFn G o h))

def InSt0 (d : Dev nD) (L : grid1.Coords) (segA : IVec SE 32) (ewA : FVec F SE .f32) (j : Nat) : sProp 𝕄 :=
  if h : j < 50 then iprop(FlI0 d L segA (coff L j) (coff_inb L j h) ∗ FlW0 d L ewA (coff L j) (coff_inb L j h))
  else iprop((∃ f, B7.view.loc (thr1 d L) ↦{fullShare} f) ∗ (∃ f, B9.view.loc (thr1 d L) ↦{fullShare} f)
    ∗ semVal (cell d L sI0) 0 ∗ semVal (cell d L sW0) 0)
def InSt1 (d : Dev nD) (L : grid1.Coords) (segA : IVec SE 32) (ewA : FVec F SE .f32) (j : Nat) : sProp 𝕄 :=
  if h : j < 50 then iprop(FlI1 d L segA (coff L j) (coff_inb L j h) ∗ FlW1 d L ewA (coff L j) (coff_inb L j h))
  else iprop((∃ f, B8.view.loc (thr1 d L) ↦{fullShare} f) ∗ (∃ f, B10.view.loc (thr1 d L) ↦{fullShare} f)
    ∗ semVal (cell d L sI1) 0 ∗ semVal (cell d L sW1) 0)

def OutSt0 (d : Dev nD) (L : grid1.Coords) (G : FVec F SE .f32) (j : Nat) : sProp 𝕄 :=
  if h : 2 ≤ j ∧ j < 52 then FlO0 d L G (coff L (j - 2)) (coff_inb L (j - 2) (by omega))
  else iprop((∃ f, B11.view.loc (thr1 d L) ↦{fullShare} f) ∗ semVal (cell d L sO0) 0)
def OutSt1 (d : Dev nD) (L : grid1.Coords) (G : FVec F SE .f32) (j : Nat) : sProp 𝕄 :=
  if h : 2 ≤ j ∧ j < 52 then FlO1 d L G (coff L (j - 2)) (coff_inb L (j - 2) (by omega))
  else iprop((∃ f, B12.view.loc (thr1 d L) ↦{fullShare} f) ∗ semVal (cell d L sO1) 0)

def SegP (d : Dev nD) (L : grid1.Coords) (segA : IVec SE 32) (ewA : FVec F SE .f32) (j : Nat) : sProp 𝕄 :=
  iprop((segLoc d ↦[eset (base1 L) (coff L j)]{fullShare} segA) ∗ (segLoc d ↦[eset (coff L (j + 2)) (base1 L + 200000)]{fullShare} segA)
    ∗ (ewLoc d ↦[eset (base1 L) (coff L j)]{fullShare} ewA) ∗ (ewLoc d ↦[eset (coff L (j + 2)) (base1 L + 200000)]{fullShare} ewA))

def OutP (d : Dev nD) (L : grid1.Coords) (G fo : FVec F SE .f32) (j : Nat) : sProp 𝕄 :=
  iprop((outLoc d ↦[eset (base1 L) (coff L (j - 2))]{fullShare} G) ∗ (outLoc d ↦[eset (coff L j) (base1 L + 200000)]{fullShare} fo))

def OwesW (d : Dev nD) (L : grid1.Coords) (O : CellTallies nD τ sig (HIx 2)) (W : Waits sig (HIx 2)) : sProp 𝕄 :=
  iprop(∃ W', ⌜∀ p ∈ W', p ∈ W ∨ p.2 = none⌝ ∗ owes (thr1 d L) O W')

def inv1 (d : Dev nD) (L : grid1.Coords) (segA : IVec SE 32) (ewA : FVec F SE .f32) (dinvA : FVec F SN .f32) (fo : FVec F SE .f32)
    (O : CellTallies nD τ sig (HIx 2)) (W : Waits sig (HIx 2)) (k : Nat) (_ : PUnit) : sProp 𝕄 :=
  iprop(Transfers.MayWaits (thr1 d L) (none : HIx 2) O
    ∗ (B6.view.loc (thr1 d L) ↦{fullShare} dinvA)
    ∗ InSt0 d L segA ewA (2 * k) ∗ InSt1 d L segA ewA (2 * k + 1)
    ∗ OutSt0 d L (normAll segA ewA dinvA) (2 * k) ∗ OutSt1 d L (normAll segA ewA dinvA) (2 * k + 1)
    ∗ SegP d L segA ewA (2 * k) ∗ OutP d L (normAll segA ewA dinvA) fo (2 * k)
    ∗ OwesW d L O W)

end Cert.Proof.KI.Norm

end
-- ==== Proof.Body1Pure.lean ====
import proofs.«207891_g54065048322743_cont_9to1_m_676_18_alg».proof.Proof.Body1Inv

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

omit [FloatOps F] in
theorem eset_union {a b c : Nat} (hab : a ≤ b) (hbc : b ≤ c) : eset a b ∪ eset b c = eset a c := by
  ext e; simp only [eset, Finset.mem_union, Finset.mem_filter, Finset.mem_univ, true_and]; omega

omit [FloatOps F] in
theorem eset_disjoint {a b c d : Nat} (h : b ≤ c) : Disjoint (eset a b) (eset c d) := by
  rw [Finset.disjoint_left]; intro e h1 h2
  simp only [eset, Finset.mem_filter, Finset.mem_univ, true_and] at h1 h2; omega

omit [FloatOps F] in
theorem eset_empty {a b : Nat} (h : b ≤ a) : eset a b = ∅ := by
  ext e; simp only [eset, Finset.mem_filter, Finset.mem_univ, true_and, Finset.notMem_empty, iff_false]; omega

omit [FloatOps F] in
theorem base1_eq (L : grid1.Coords) : base1 L = 200000 * tOf1 L := by
  unfold base1 tOf1; omega

omit [FloatOps F] in

theorem edgesOf_eq (L : grid1.Coords) : edgesOf (tOf1 L) = eset (base1 L) (base1 L + 200000) := by
  ext e; rw [base1_eq]
  simp only [edgesOf, eset, Finset.mem_filter, Finset.mem_univ, true_and]; omega

omit [FloatOps F] in
theorem set_segSl (off : Fin 1 → Nat) (h : ∀ a, off a + S4000.size a ≤ S6400000.size a) :
    (segSl off h).view.set = eset (off 0) (off 0 + 4000) := by
  show ((View.whole main_v1_scv).slice (Rect.unit (s := S6400000) off S4000.size h)).set = _
  rw [View.set_slice_whole]; ext i; rw [Rect.mem_set_unit, eset, Finset.mem_filter]
  simp only [Finset.mem_univ, true_and]
  exact ⟨fun H => H (0 : Fin 1), fun H a => by
    have ha : a = (0 : Fin 1) := Subsingleton.elim (α := Fin 1) a 0
    subst ha; exact H⟩
omit [FloatOps F] in
theorem set_ewSl (off : Fin 1 → Nat) (h : ∀ a, off a + S4000.size a ≤ S6400000.size a) :
    (ewSl off h).view.set = eset (off 0) (off 0 + 4000) := by
  show ((View.whole main_v2_1_scv).slice (Rect.unit (s := S6400000) off S4000.size h)).set = _
  rw [View.set_slice_whole]; ext i; rw [Rect.mem_set_unit, eset, Finset.mem_filter]
  simp only [Finset.mem_univ, true_and]
  exact ⟨fun H => H (0 : Fin 1), fun H a => by
    have ha : a = (0 : Fin 1) := Subsingleton.elim (α := Fin 1) a 0
    subst ha; exact H⟩
omit [FloatOps F] in
theorem set_outSl (off : Fin 1 → Nat) (h : ∀ a, off a + S4000.size a ≤ S6400000.size a) :
    (outSl off h).view.set = eset (off 0) (off 0 + 4000) := by
  show ((View.whole main_v68_scv).slice (Rect.unit (s := S6400000) off S4000.size h)).set = _
  rw [View.set_slice_whole]; ext i; rw [Rect.mem_set_unit, eset, Finset.mem_filter]
  simp only [Finset.mem_univ, true_and]
  exact ⟨fun H => H (0 : Fin 1), fun H a => by
    have ha : a = (0 : Fin 1) := Subsingleton.elim (α := Fin 1) a 0
    subst ha; exact H⟩

private theorem vec1_congr {a b : Nat} (h : a = b) : (![a] : Fin 1 → Nat) = ![b] := by rw [h]

omit [FloatOps F] in
theorem off1_0 (L : grid1.Coords) : k1_off1 L 0#32 = ![coff L 0] := by
  have h : k1_off1 L 0#32 = ![3200000 * (L 0).val + 200000 * (L 1).val + 4000 * 0] := k1_off1_eq L ⟨0, by decide⟩
  exact h.trans (vec1_congr (by unfold coff base1; omega))
omit [FloatOps F] in
theorem off1_1 (L : grid1.Coords) : k1_off1 L 4000#32 = ![coff L 1] := by
  have h : k1_off1 L 4000#32 = ![3200000 * (L 0).val + 200000 * (L 1).val + 4000 * 1] := k1_off1_eq L ⟨1, by decide⟩
  exact h.trans (vec1_congr (by unfold coff base1; omega))
omit [FloatOps F] in
theorem off4_0 (L : grid1.Coords) (k : Fin k1_t1_loop.trips) : k1_off4 L k 0#32 = ![coff L (2 * k.val)] := by
  have h : k1_off4 L k 0#32 = ![3200000 * (L 0).val + 200000 * (L 1).val + 8000 * k.val + 4000 * 0] := k1_off4_eq L k ⟨0, by decide⟩
  exact h.trans (vec1_congr (by unfold coff base1; omega))
omit [FloatOps F] in
theorem off4_1 (L : grid1.Coords) (k : Fin k1_t1_loop.trips) : k1_off4 L k 1#32 = ![coff L (2 * k.val + 1)] := by
  have h : k1_off4 L k 1#32 = ![3200000 * (L 0).val + 200000 * (L 1).val + 8000 * k.val + 4000 * 1] := k1_off4_eq L k ⟨1, by decide⟩
  exact h.trans (vec1_congr (by unfold coff base1; omega))
omit [FloatOps F] in
theorem off5 (L : grid1.Coords) (k : Fin k1_t1_loop.trips) : k1_off5 L k = ![coff L (2 * k.val + 2)] := by
  exact (k1_off5_eq L k).trans (vec1_congr (by unfold coff base1; omega))
omit [FloatOps F] in
theorem off8 (L : grid1.Coords) (k : Fin k1_t1_loop.trips) : k1_off8 L k = ![coff L (2 * k.val + 3)] := by
  exact (k1_off8_eq L k).trans (vec1_congr (by unfold coff base1; omega))
omit [FloatOps F] in
theorem trips1 : k1_t1_loop.trips = 25 := by decide
omit [FloatOps F] in
theorem trips2 : k1_t2_loop.trips = 25 := by decide
omit [FloatOps F] in
theorem trips3 : k1_t3_loop.trips = 25 := by decide

omit [FloatOps F] in

theorem cond2_iff (k : Fin k1_t1_loop.trips) : k1_cond2 k = 1#1 ↔ k.val < 24 := by revert k; decide +kernel
omit [FloatOps F] in
theorem cond4_iff (k : Fin k1_t1_loop.trips) : k1_cond4 k = 1#1 ↔ k.val < 24 := by revert k; decide +kernel

end Cert.Proof.KI.Norm

end
-- ==== Proof.Body1Val.lean ====
import proofs.«207891_g54065048322743_cont_9to1_m_676_18_alg».proof.Proof.Body1Inv

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

private theorem ix1_congr {n a b : Nat} (ha : a < n) (hb : b < n) (h : a = b) : ix1 (⟨a, ha⟩ : Fin n) = ix1 ⟨b, hb⟩ := by
  subst h; rfl

omit [FloatOps F] in
theorem readAt7 (x : IVec SE 32) (o : Nat) (h : o + 4000 ≤ 6400000) (off16 : Fin 1 → Nat) (h16 : ∀ a, off16 a + S16.size a ≤ S4000.size a)
    (n : Nat) (hn : off16 0 = n) (hb : o + n + 16 ≤ 6400000) :
    View.readAt (Elt F) B7.view (Rect.unit (s := S4000) off16 S16.size h16).toLoadRect (chunkFn x o h) = lanes x (o + n) hb := by
  subst hn
  funext l
  simp only [View.readAt_apply, Memref.view_whole, View.read_whole]
  exact congrArg x (ix1_congr _ _ (by
    simp only [LoadRect.idx_apply, Rect.off_unit, Rect.stride_unit, Nat.one_mul]; omega))
omit [FloatOps F] in
theorem readAt8 (x : IVec SE 32) (o : Nat) (h : o + 4000 ≤ 6400000) (off16 : Fin 1 → Nat) (h16 : ∀ a, off16 a + S16.size a ≤ S4000.size a)
    (n : Nat) (hn : off16 0 = n) (hb : o + n + 16 ≤ 6400000) :
    View.readAt (Elt F) B8.view (Rect.unit (s := S4000) off16 S16.size h16).toLoadRect (chunkFn x o h) = lanes x (o + n) hb := by
  subst hn
  funext l
  simp only [View.readAt_apply, Memref.view_whole, View.read_whole]
  exact congrArg x (ix1_congr _ _ (by
    simp only [LoadRect.idx_apply, Rect.off_unit, Rect.stride_unit, Nat.one_mul]; omega))
theorem readAt9 (x : FVec F SE .f32) (o : Nat) (h : o + 4000 ≤ 6400000) (off16 : Fin 1 → Nat) (h16 : ∀ a, off16 a + S16.size a ≤ S4000.size a)
    (n : Nat) (hn : off16 0 = n) (hb : o + n + 16 ≤ 6400000) :
    View.readAt (Elt F) B9.view (Rect.unit (s := S4000) off16 S16.size h16).toLoadRect (chunkFn x o h) = lanes x (o + n) hb := by
  subst hn
  funext l
  simp only [View.readAt_apply, Memref.view_whole, View.read_whole]
  exact congrArg x (ix1_congr _ _ (by
    simp only [LoadRect.idx_apply, Rect.off_unit, Rect.stride_unit, Nat.one_mul]; omega))
theorem readAt10 (x : FVec F SE .f32) (o : Nat) (h : o + 4000 ≤ 6400000) (off16 : Fin 1 → Nat) (h16 : ∀ a, off16 a + S16.size a ≤ S4000.size a)
    (n : Nat) (hn : off16 0 = n) (hb : o + n + 16 ≤ 6400000) :
    View.readAt (Elt F) B10.view (Rect.unit (s := S4000) off16 S16.size h16).toLoadRect (chunkFn x o h) = lanes x (o + n) hb := by
  subst hn
  funext l
  simp only [View.readAt_apply, Memref.view_whole, View.read_whole]
  exact congrArg x (ix1_congr _ _ (by
    simp only [LoadRect.idx_apply, Rect.off_unit, Rect.stride_unit, Nat.one_mul]; omega))

omit [FloatOps F] in
theorem chk7 (segA : IVec SE 32) (hseg : ∀ e, (segA e).toNat < 100096) (o : Nat) (h : o + 4000 ≤ 6400000)
    (off16 : Fin 1 → Nat) (h16 : ∀ a, off16 a + S16.size a ≤ S4000.size a) :
    ∀ (a : Fin 1) (x : S16.Idx), ((![View.readAt (Elt F) B7.view (Rect.unit (s := S4000) off16 S16.size h16).toLoadRect (chunkFn segA o h)]
      : Fin 1 → IVec S16 32) a x).toNat < S100096.size a := by
  intro a x
  have ha : a = (0 : Fin 1) := Subsingleton.elim (α := Fin 1) a 0
  subst ha
  exact hseg _
omit [FloatOps F] in
theorem chk8 (segA : IVec SE 32) (hseg : ∀ e, (segA e).toNat < 100096) (o : Nat) (h : o + 4000 ≤ 6400000)
    (off16 : Fin 1 → Nat) (h16 : ∀ a, off16 a + S16.size a ≤ S4000.size a) :
    ∀ (a : Fin 1) (x : S16.Idx), ((![View.readAt (Elt F) B8.view (Rect.unit (s := S4000) off16 S16.size h16).toLoadRect (chunkFn segA o h)]
      : Fin 1 → IVec S16 32) a x).toNat < S100096.size a := by
  intro a x
  have ha : a = (0 : Fin 1) := Subsingleton.elim (α := Fin 1) a 0
  subst ha
  exact hseg _

theorem pay7 (segA : IVec SE 32) (hseg : ∀ e, (segA e).toNat < 100096) (ewA : FVec F SE .f32) (dinvA : FVec F SN .f32)
    (o : Nat) (h : o + 4000 ≤ 6400000) (off16 : Fin 1 → Nat) (h16 : ∀ a, off16 a + S16.size a ≤ S4000.size a)
    (n : Nat) (hn : off16 0 = n) (hb : o + n + 16 ≤ 6400000)
    (hchk : ∀ (a : Fin 1) (x : S16.Idx), ((![View.readAt (Elt F) B7.view (Rect.unit (s := S4000) off16 S16.size h16).toLoadRect (chunkFn segA o h)]
      : Fin 1 → IVec S16 32) a x).toNat < S100096.size a) :
    mulf (View.readAt (Elt F) B9.view (Rect.unit (s := S4000) off16 S16.size h16).toLoadRect (chunkFn ewA o h))
        (loadIdx (View.read (Elt F) (B6.access (Rect.whole S100096)) dinvA)
          ![View.readAt (Elt F) B7.view (Rect.unit (s := S4000) off16 S16.size h16).toLoadRect (chunkFn segA o h)] hchk)
      = lanes (normAll segA ewA dinvA) (o + n) hb := by
  funext l
  have e9 := congrFun (readAt9 ewA o h off16 h16 n hn hb) l
  have e7 := congrFun (readAt7 (F := F) segA o h off16 h16 n hn hb) l
  unfold lanes at e9 e7
  unfold lanes normAll
  rw [dif_pos (hseg _)]
  show FloatOps.mulf (View.readAt (Elt F) B9.view (Rect.unit (s := S4000) off16 S16.size h16).toLoadRect (chunkFn ewA o h) l)
      (dinvA ((B6.access (Rect.whole S100096)).emb (idxAt ![View.readAt (Elt F) B7.view (Rect.unit (s := S4000) off16 S16.size h16).toLoadRect (chunkFn segA o h)] hchk l))) = _
  rw [e9]
  refine congrArg (FloatOps.mulf _) (congrArg dinvA ?_)
  funext a
  have ha : a = (0 : Fin 1) := Subsingleton.elim (α := Fin 1) a 0
  subst ha
  apply Fin.ext
  show (Rect.whole S100096).off 0 + (Rect.whole S100096).stride 0 * (View.readAt (Elt F) B7.view (Rect.unit (s := S4000) off16 S16.size h16).toLoadRect (chunkFn segA o h) l).toNat = _
  rw [e7]
  simp only [Rect.whole, Rect.off_unit, Rect.stride_unit, Nat.one_mul, Nat.zero_add]
theorem pay8 (segA : IVec SE 32) (hseg : ∀ e, (segA e).toNat < 100096) (ewA : FVec F SE .f32) (dinvA : FVec F SN .f32)
    (o : Nat) (h : o + 4000 ≤ 6400000) (off16 : Fin 1 → Nat) (h16 : ∀ a, off16 a + S16.size a ≤ S4000.size a)
    (n : Nat) (hn : off16 0 = n) (hb : o + n + 16 ≤ 6400000)
    (hchk : ∀ (a : Fin 1) (x : S16.Idx), ((![View.readAt (Elt F) B8.view (Rect.unit (s := S4000) off16 S16.size h16).toLoadRect (chunkFn segA o h)]
      : Fin 1 → IVec S16 32) a x).toNat < S100096.size a) :
    mulf (View.readAt (Elt F) B10.view (Rect.unit (s := S4000) off16 S16.size h16).toLoadRect (chunkFn ewA o h))
        (loadIdx (View.read (Elt F) (B6.access (Rect.whole S100096)) dinvA)
          ![View.readAt (Elt F) B8.view (Rect.unit (s := S4000) off16 S16.size h16).toLoadRect (chunkFn segA o h)] hchk)
      = lanes (normAll segA ewA dinvA) (o + n) hb := by
  funext l
  have e9 := congrFun (readAt10 ewA o h off16 h16 n hn hb) l
  have e7 := congrFun (readAt8 (F := F) segA o h off16 h16 n hn hb) l
  unfold lanes at e9 e7
  unfold lanes normAll
  rw [dif_pos (hseg _)]
  show FloatOps.mulf (View.readAt (Elt F) B10.view (Rect.unit (s := S4000) off16 S16.size h16).toLoadRect (chunkFn ewA o h) l)
      (dinvA ((B6.access (Rect.whole S100096)).emb (idxAt ![View.readAt (Elt F) B8.view (Rect.unit (s := S4000) off16 S16.size h16).toLoadRect (chunkFn segA o h)] hchk l))) = _
  rw [e9]
  refine congrArg (FloatOps.mulf _) (congrArg dinvA ?_)
  funext a
  have ha : a = (0 : Fin 1) := Subsingleton.elim (α := Fin 1) a 0
  subst ha
  apply Fin.ext
  show (Rect.whole S100096).off 0 + (Rect.whole S100096).stride 0 * (View.readAt (Elt F) B8.view (Rect.unit (s := S4000) off16 S16.size h16).toLoadRect (chunkFn segA o h) l).toNat = _
  rw [e7]
  simp only [Rect.whole, Rect.off_unit, Rect.stride_unit, Nat.one_mul, Nat.zero_add]

omit [FloatOps F] in

theorem land7 (segA : IVec SE 32) (off : Fin 1 → Nat) (hoff : ∀ a, off a + S4000.size a ≤ S6400000.size a) (o : Nat) (ho : off 0 = o)
    (h : o + 4000 ≤ 6400000) (f7 : S4000.Idx → Elt F .i32) :
    View.write (Elt F) B7.view f7 (ReadAs.same.apply ((segSl off hoff).view.read (Elt F) segA)) Finset.univ = chunkFn segA o h := by
  subst ho
  refine (View.write_whole_univ cc1_scratch1 _ _).trans ?_
  funext i
  show segA _ = _
  unfold chunkFn
  exact congrArg segA (by
    funext a
    have ha : a = (0 : Fin 1) := Subsingleton.elim (α := Fin 1) a 0
    subst ha
    apply Fin.ext
    show (Rect.unit (s := S6400000) off S4000.size hoff).off 0 + (Rect.unit (s := S6400000) off S4000.size hoff).stride 0 * (i 0).val = _
    simp only [Rect.off_unit, Rect.stride_unit, Nat.one_mul])
omit [FloatOps F] in
theorem land8 (segA : IVec SE 32) (off : Fin 1 → Nat) (hoff : ∀ a, off a + S4000.size a ≤ S6400000.size a) (o : Nat) (ho : off 0 = o)
    (h : o + 4000 ≤ 6400000) (f8 : S4000.Idx → Elt F .i32) :
    View.write (Elt F) B8.view f8 (ReadAs.same.apply ((segSl off hoff).view.read (Elt F) segA)) Finset.univ = chunkFn segA o h := by
  subst ho
  refine (View.write_whole_univ cc1_scratch2 _ _).trans ?_
  funext i
  show segA _ = _
  unfold chunkFn
  exact congrArg segA (by
    funext a
    have ha : a = (0 : Fin 1) := Subsingleton.elim (α := Fin 1) a 0
    subst ha
    apply Fin.ext
    show (Rect.unit (s := S6400000) off S4000.size hoff).off 0 + (Rect.unit (s := S6400000) off S4000.size hoff).stride 0 * (i 0).val = _
    simp only [Rect.off_unit, Rect.stride_unit, Nat.one_mul])
theorem land9 (ewA : FVec F SE .f32) (off : Fin 1 → Nat) (hoff : ∀ a, off a + S4000.size a ≤ S6400000.size a) (o : Nat) (ho : off 0 = o)
    (h : o + 4000 ≤ 6400000) (f9 : S4000.Idx → Elt F .f32) :
    View.write (Elt F) B9.view f9 (ReadAs.same.apply ((ewSl off hoff).view.read (Elt F) ewA)) Finset.univ = chunkFn ewA o h := by
  subst ho
  refine (View.write_whole_univ cc1_scratch3 _ _).trans ?_
  funext i
  show ewA _ = _
  unfold chunkFn
  exact congrArg ewA (by
    funext a
    have ha : a = (0 : Fin 1) := Subsingleton.elim (α := Fin 1) a 0
    subst ha
    apply Fin.ext
    show (Rect.unit (s := S6400000) off S4000.size hoff).off 0 + (Rect.unit (s := S6400000) off S4000.size hoff).stride 0 * (i 0).val = _
    simp only [Rect.off_unit, Rect.stride_unit, Nat.one_mul])
theorem land10 (ewA : FVec F SE .f32) (off : Fin 1 → Nat) (hoff : ∀ a, off a + S4000.size a ≤ S6400000.size a) (o : Nat) (ho : off 0 = o)
    (h : o + 4000 ≤ 6400000) (f10 : S4000.Idx → Elt F .f32) :
    View.write (Elt F) B10.view f10 (ReadAs.same.apply ((ewSl off hoff).view.read (Elt F) ewA)) Finset.univ = chunkFn ewA o h := by
  subst ho
  refine (View.write_whole_univ cc1_scratch4 _ _).trans ?_
  funext i
  show ewA _ = _
  unfold chunkFn
  exact congrArg ewA (by
    funext a
    have ha : a = (0 : Fin 1) := Subsingleton.elim (α := Fin 1) a 0
    subst ha
    apply Fin.ext
    show (Rect.unit (s := S6400000) off S4000.size hoff).off 0 + (Rect.unit (s := S6400000) off S4000.size hoff).stride 0 * (i 0).val = _
    simp only [Rect.off_unit, Rect.stride_unit, Nat.one_mul])

theorem land_out11 (G fo : FVec F SE .f32) (off : Fin 1 → Nat) (hoff : ∀ a, off a + S4000.size a ≤ S6400000.size a) (o : Nat) (ho : off 0 = o)
    (h : o + 4000 ≤ 6400000) :
    ∀ i ∈ eset o (o + 4000), View.write (Elt F) (outSl off hoff).view fo (ReadAs.same.apply (B11.view.read (Elt F) (chunkFn G o h))) Finset.univ i = G i := by
  intro i hi
  subst ho
  simp only [eset, Finset.mem_filter, Finset.mem_univ, true_and] at hi
  have hx : (i 0).val - off 0 < 4000 := by omega
  have hemb : (outSl off hoff).view.emb (ix1 ⟨(i 0).val - off 0, hx⟩) = i := by
    funext a
    have ha : a = (0 : Fin 1) := Subsingleton.elim (α := Fin 1) a 0
    subst ha
    apply Fin.ext
    show (Rect.unit (s := S6400000) off S4000.size hoff).off 0
      + (Rect.unit (s := S6400000) off S4000.size hoff).stride 0 * ((i 0).val - off 0) = (i 0).val
    simp only [Rect.off_unit, Rect.stride_unit, Nat.one_mul]; omega
  have hw := View.write_emb_of_mem (v := (outSl off hoff).view) (Val := Elt F) fo
    (ReadAs.same.apply (B11.view.read (Elt F) (chunkFn G (off 0) h))) (Finset.mem_univ (ix1 ⟨(i 0).val - off 0, hx⟩))
  rw [hemb] at hw
  refine hw.trans ?_
  show G _ = G i
  exact congrArg G (by
    funext a
    have ha : a = (0 : Fin 1) := Subsingleton.elim (α := Fin 1) a 0
    subst ha
    apply Fin.ext
    show off 0 + ((i 0).val - off 0) = (i 0).val
    omega)
theorem land_out12 (G fo : FVec F SE .f32) (off : Fin 1 → Nat) (hoff : ∀ a, off a + S4000.size a ≤ S6400000.size a) (o : Nat) (ho : off 0 = o)
    (h : o + 4000 ≤ 6400000) :
    ∀ i ∈ eset o (o + 4000), View.write (Elt F) (outSl off hoff).view fo (ReadAs.same.apply (B12.view.read (Elt F) (chunkFn G o h))) Finset.univ i = G i := by
  intro i hi
  subst ho
  simp only [eset, Finset.mem_filter, Finset.mem_univ, true_and] at hi
  have hx : (i 0).val - off 0 < 4000 := by omega
  have hemb : (outSl off hoff).view.emb (ix1 ⟨(i 0).val - off 0, hx⟩) = i := by
    funext a
    have ha : a = (0 : Fin 1) := Subsingleton.elim (α := Fin 1) a 0
    subst ha
    apply Fin.ext
    show (Rect.unit (s := S6400000) off S4000.size hoff).off 0
      + (Rect.unit (s := S6400000) off S4000.size hoff).stride 0 * ((i 0).val - off 0) = (i 0).val
    simp only [Rect.off_unit, Rect.stride_unit, Nat.one_mul]; omega
  have hw := View.write_emb_of_mem (v := (outSl off hoff).view) (Val := Elt F) fo
    (ReadAs.same.apply (B12.view.read (Elt F) (chunkFn G (off 0) h))) (Finset.mem_univ (ix1 ⟨(i 0).val - off 0, hx⟩))
  rw [hemb] at hw
  refine hw.trans ?_
  show G _ = G i
  exact congrArg G (by
    funext a
    have ha : a = (0 : Fin 1) := Subsingleton.elim (α := Fin 1) a 0
    subst ha
    apply Fin.ext
    show off 0 + ((i 0).val - off 0) = (i 0).val
    omega)

end Cert.Proof.KI.Norm

end
-- ==== Proof.Body1Wr.lean ====
import proofs.«207891_g54065048322743_cont_9to1_m_676_18_alg».proof.Proof.Body1Inv
import Idealize.ShloMosaic.Lib.WritesUnit

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

private theorem store16 {κ : Kind} {sp : Space} (v : View sig κ sp S4000 .f32) (G : FVec F SE .f32) (o : Nat) (h : o + 4000 ≤ 6400000)
    (f : S4000.Idx → Elt F .f32) (g0 : v.ty.Contents (Elt F)) (L : List (View.Piece (Elt F) S4000 .f32)) (n m : Nat) (hm : m = n + 16)
    (hn : n + 16 ≤ 4000) (off : Fin 1 → Nat) (heq : off = ![n]) (inb : ∀ a, off a + S16.size a ≤ S4000.size a)
    (p : S16.Idx → Elt F .f32) (hp : ∀ hb, p = lanes G (o + n) hb) (y : S4000.Idx)
    (ih : v.read (Elt F) (v.writes (Elt F) g0 L) y = upTo G o h n f y) :
    v.read (Elt F) (v.writes (Elt F) g0 (⟨Rect.unit (s := S4000) off S16.size inb, p⟩ :: L)) y = upTo G o h m f y := by
  subst hm
  have hy : (y 0).val < 4000 := (y 0).isLt
  by_cases hc : n ≤ (y 0).val ∧ (y 0).val < n + 16
  · have hb : o + n + 16 ≤ 6400000 := by omega
    rw [View.read_writes_cons_unit_of_mem v g0 inb p L y (ix1 ⟨(y 0).val - n, by omega⟩) heq (fun a => by
      obtain rfl : a = 0 := Subsingleton.elim _ _
      show (y 0).val = n + ((y 0).val - n)
      omega), hp hb]
    simp only [upTo, lanes, chunkFn]
    rw [if_pos hc.2]
    refine congrArg G (congrArg ix1 (Fin.ext ?_))
    show o + n + ((y 0).val - n) = o + (y 0).val
    omega
  · rw [View.read_writes_cons_unit_of_not_mem v g0 inb p L y heq 0 (by
      show (y 0).val < n ∨ n + 16 ≤ (y 0).val
      omega), ih]
    simp only [upTo]
    by_cases h1 : (y 0).val < n
    · rw [if_pos h1, if_pos (by omega)]
    · rw [if_neg h1, if_neg (by omega)]

theorem grp_value0 (G : FVec F SE .f32) (o : Nat) (h : o + 4000 ≤ 6400000) (g : Fin k1_t2_loop.trips) (f : S4000.Idx → Elt F .f32)
    (p0 p1 p2 p3 p4 p5 p6 p7 p8 p9 : S16.Idx → Elt F .f32)
    (hp0 : ∀ hb, p0 = lanes G (o + (160 * g.val + 16 * 0)) hb) (hp1 : ∀ hb, p1 = lanes G (o + (160 * g.val + 16 * 1)) hb)
    (hp2 : ∀ hb, p2 = lanes G (o + (160 * g.val + 16 * 2)) hb) (hp3 : ∀ hb, p3 = lanes G (o + (160 * g.val + 16 * 3)) hb)
    (hp4 : ∀ hb, p4 = lanes G (o + (160 * g.val + 16 * 4)) hb) (hp5 : ∀ hb, p5 = lanes G (o + (160 * g.val + 16 * 5)) hb)
    (hp6 : ∀ hb, p6 = lanes G (o + (160 * g.val + 16 * 6)) hb) (hp7 : ∀ hb, p7 = lanes G (o + (160 * g.val + 16 * 7)) hb)
    (hp8 : ∀ hb, p8 = lanes G (o + (160 * g.val + 16 * 8)) hb) (hp9 : ∀ hb, p9 = lanes G (o + (160 * g.val + 16 * 9)) hb) :
    B11.view.writes (Elt F) (upTo G o h (160 * g.val) f)
      [⟨Rect.unit (s := S4000) (k1_off3 g 144#32) S16.size (k1_off3_inb g 9), p9⟩, ⟨Rect.unit (s := S4000) (k1_off3 g 128#32) S16.size (k1_off3_inb g 8), p8⟩,
        ⟨Rect.unit (s := S4000) (k1_off3 g 112#32) S16.size (k1_off3_inb g 7), p7⟩, ⟨Rect.unit (s := S4000) (k1_off3 g 96#32) S16.size (k1_off3_inb g 6), p6⟩,
        ⟨Rect.unit (s := S4000) (k1_off3 g 80#32) S16.size (k1_off3_inb g 5), p5⟩, ⟨Rect.unit (s := S4000) (k1_off3 g 64#32) S16.size (k1_off3_inb g 4), p4⟩,
        ⟨Rect.unit (s := S4000) (k1_off3 g 48#32) S16.size (k1_off3_inb g 3), p3⟩, ⟨Rect.unit (s := S4000) (k1_off3 g 32#32) S16.size (k1_off3_inb g 2), p2⟩,
        ⟨Rect.unit (s := S4000) (k1_off3 g 16#32) S16.size (k1_off3_inb g 1), p1⟩, ⟨Rect.unit (s := S4000) (k1_off3 g 0#32) S16.size (k1_off3_inb g 0), p0⟩]
      = upTo G o h (160 * (g.val + 1)) f := by
  funext y
  have hg : g.val < 25 := lt_of_lt_of_le g.isLt k1_t2_abs.2.1
  have e0 : k1_off3 g 0#32 = ![160 * g.val + 16 * 0] := k1_off3_eq g ⟨0, by decide⟩
  have e1 : k1_off3 g 16#32 = ![160 * g.val + 16 * 1] := k1_off3_eq g ⟨1, by decide⟩
  have e2 : k1_off3 g 32#32 = ![160 * g.val + 16 * 2] := k1_off3_eq g ⟨2, by decide⟩
  have e3 : k1_off3 g 48#32 = ![160 * g.val + 16 * 3] := k1_off3_eq g ⟨3, by decide⟩
  have e4 : k1_off3 g 64#32 = ![160 * g.val + 16 * 4] := k1_off3_eq g ⟨4, by decide⟩
  have e5 : k1_off3 g 80#32 = ![160 * g.val + 16 * 5] := k1_off3_eq g ⟨5, by decide⟩
  have e6 : k1_off3 g 96#32 = ![160 * g.val + 16 * 6] := k1_off3_eq g ⟨6, by decide⟩
  have e7 : k1_off3 g 112#32 = ![160 * g.val + 16 * 7] := k1_off3_eq g ⟨7, by decide⟩
  have e8 : k1_off3 g 128#32 = ![160 * g.val + 16 * 8] := k1_off3_eq g ⟨8, by decide⟩
  have e9 : k1_off3 g 144#32 = ![160 * g.val + 16 * 9] := k1_off3_eq g ⟨9, by decide⟩
  have b0 : B11.view.read (Elt F) (B11.view.writes (Elt F) (upTo G o h (160 * g.val) f) []) y
      = upTo G o h (160 * g.val + 16 * 0) f y := by
    rw [show 160 * g.val + 16 * 0 = 160 * g.val from by omega]; rfl
  have s0 := store16 B11.view G o h f _ _ _ (160 * g.val + 16 * 1) (by omega) (by omega) _ e0 (k1_off3_inb g 0) p0 hp0 y b0
  have s1 := store16 B11.view G o h f _ _ _ (160 * g.val + 16 * 2) (by omega) (by omega) _ e1 (k1_off3_inb g 1) p1 hp1 y s0
  have s2 := store16 B11.view G o h f _ _ _ (160 * g.val + 16 * 3) (by omega) (by omega) _ e2 (k1_off3_inb g 2) p2 hp2 y s1
  have s3 := store16 B11.view G o h f _ _ _ (160 * g.val + 16 * 4) (by omega) (by omega) _ e3 (k1_off3_inb g 3) p3 hp3 y s2
  have s4 := store16 B11.view G o h f _ _ _ (160 * g.val + 16 * 5) (by omega) (by omega) _ e4 (k1_off3_inb g 4) p4 hp4 y s3
  have s5 := store16 B11.view G o h f _ _ _ (160 * g.val + 16 * 6) (by omega) (by omega) _ e5 (k1_off3_inb g 5) p5 hp5 y s4
  have s6 := store16 B11.view G o h f _ _ _ (160 * g.val + 16 * 7) (by omega) (by omega) _ e6 (k1_off3_inb g 6) p6 hp6 y s5
  have s7 := store16 B11.view G o h f _ _ _ (160 * g.val + 16 * 8) (by omega) (by omega) _ e7 (k1_off3_inb g 7) p7 hp7 y s6
  have s8 := store16 B11.view G o h f _ _ _ (160 * g.val + 16 * 9) (by omega) (by omega) _ e8 (k1_off3_inb g 8) p8 hp8 y s7
  have s9 := store16 B11.view G o h f _ _ _ (160 * (g.val + 1)) (by omega) (by omega) _ e9 (k1_off3_inb g 9) p9 hp9 y s8
  exact s9

theorem grp_value1 (G : FVec F SE .f32) (o : Nat) (h : o + 4000 ≤ 6400000) (g : Fin k1_t3_loop.trips) (f : S4000.Idx → Elt F .f32)
    (p0 p1 p2 p3 p4 p5 p6 p7 p8 p9 : S16.Idx → Elt F .f32)
    (hp0 : ∀ hb, p0 = lanes G (o + (160 * g.val + 16 * 0)) hb) (hp1 : ∀ hb, p1 = lanes G (o + (160 * g.val + 16 * 1)) hb)
    (hp2 : ∀ hb, p2 = lanes G (o + (160 * g.val + 16 * 2)) hb) (hp3 : ∀ hb, p3 = lanes G (o + (160 * g.val + 16 * 3)) hb)
    (hp4 : ∀ hb, p4 = lanes G (o + (160 * g.val + 16 * 4)) hb) (hp5 : ∀ hb, p5 = lanes G (o + (160 * g.val + 16 * 5)) hb)
    (hp6 : ∀ hb, p6 = lanes G (o + (160 * g.val + 16 * 6)) hb) (hp7 : ∀ hb, p7 = lanes G (o + (160 * g.val + 16 * 7)) hb)
    (hp8 : ∀ hb, p8 = lanes G (o + (160 * g.val + 16 * 8)) hb) (hp9 : ∀ hb, p9 = lanes G (o + (160 * g.val + 16 * 9)) hb) :
    B12.view.writes (Elt F) (upTo G o h (160 * g.val) f)
      [⟨Rect.unit (s := S4000) (k1_off7 g 144#32) S16.size (k1_off7_inb g 9), p9⟩, ⟨Rect.unit (s := S4000) (k1_off7 g 128#32) S16.size (k1_off7_inb g 8), p8⟩,
        ⟨Rect.unit (s := S4000) (k1_off7 g 112#32) S16.size (k1_off7_inb g 7), p7⟩, ⟨Rect.unit (s := S4000) (k1_off7 g 96#32) S16.size (k1_off7_inb g 6), p6⟩,
        ⟨Rect.unit (s := S4000) (k1_off7 g 80#32) S16.size (k1_off7_inb g 5), p5⟩, ⟨Rect.unit (s := S4000) (k1_off7 g 64#32) S16.size (k1_off7_inb g 4), p4⟩,
        ⟨Rect.unit (s := S4000) (k1_off7 g 48#32) S16.size (k1_off7_inb g 3), p3⟩, ⟨Rect.unit (s := S4000) (k1_off7 g 32#32) S16.size (k1_off7_inb g 2), p2⟩,
        ⟨Rect.unit (s := S4000) (k1_off7 g 16#32) S16.size (k1_off7_inb g 1), p1⟩, ⟨Rect.unit (s := S4000) (k1_off7 g 0#32) S16.size (k1_off7_inb g 0), p0⟩]
      = upTo G o h (160 * (g.val + 1)) f := by
  funext y
  have hg : g.val < 25 := lt_of_lt_of_le g.isLt k1_t3_abs.2.1
  have e0 : k1_off7 g 0#32 = ![160 * g.val + 16 * 0] := k1_off7_eq g ⟨0, by decide⟩
  have e1 : k1_off7 g 16#32 = ![160 * g.val + 16 * 1] := k1_off7_eq g ⟨1, by decide⟩
  have e2 : k1_off7 g 32#32 = ![160 * g.val + 16 * 2] := k1_off7_eq g ⟨2, by decide⟩
  have e3 : k1_off7 g 48#32 = ![160 * g.val + 16 * 3] := k1_off7_eq g ⟨3, by decide⟩
  have e4 : k1_off7 g 64#32 = ![160 * g.val + 16 * 4] := k1_off7_eq g ⟨4, by decide⟩
  have e5 : k1_off7 g 80#32 = ![160 * g.val + 16 * 5] := k1_off7_eq g ⟨5, by decide⟩
  have e6 : k1_off7 g 96#32 = ![160 * g.val + 16 * 6] := k1_off7_eq g ⟨6, by decide⟩
  have e7 : k1_off7 g 112#32 = ![160 * g.val + 16 * 7] := k1_off7_eq g ⟨7, by decide⟩
  have e8 : k1_off7 g 128#32 = ![160 * g.val + 16 * 8] := k1_off7_eq g ⟨8, by decide⟩
  have e9 : k1_off7 g 144#32 = ![160 * g.val + 16 * 9] := k1_off7_eq g ⟨9, by decide⟩
  have b0 : B12.view.read (Elt F) (B12.view.writes (Elt F) (upTo G o h (160 * g.val) f) []) y
      = upTo G o h (160 * g.val + 16 * 0) f y := by
    rw [show 160 * g.val + 16 * 0 = 160 * g.val from by omega]; rfl
  have s0 := store16 B12.view G o h f _ _ _ (160 * g.val + 16 * 1) (by omega) (by omega) _ e0 (k1_off7_inb g 0) p0 hp0 y b0
  have s1 := store16 B12.view G o h f _ _ _ (160 * g.val + 16 * 2) (by omega) (by omega) _ e1 (k1_off7_inb g 1) p1 hp1 y s0
  have s2 := store16 B12.view G o h f _ _ _ (160 * g.val + 16 * 3) (by omega) (by omega) _ e2 (k1_off7_inb g 2) p2 hp2 y s1
  have s3 := store16 B12.view G o h f _ _ _ (160 * g.val + 16 * 4) (by omega) (by omega) _ e3 (k1_off7_inb g 3) p3 hp3 y s2
  have s4 := store16 B12.view G o h f _ _ _ (160 * g.val + 16 * 5) (by omega) (by omega) _ e4 (k1_off7_inb g 4) p4 hp4 y s3
  have s5 := store16 B12.view G o h f _ _ _ (160 * g.val + 16 * 6) (by omega) (by omega) _ e5 (k1_off7_inb g 5) p5 hp5 y s4
  have s6 := store16 B12.view G o h f _ _ _ (160 * g.val + 16 * 7) (by omega) (by omega) _ e6 (k1_off7_inb g 6) p6 hp6 y s5
  have s7 := store16 B12.view G o h f _ _ _ (160 * g.val + 16 * 8) (by omega) (by omega) _ e7 (k1_off7_inb g 7) p7 hp7 y s6
  have s8 := store16 B12.view G o h f _ _ _ (160 * g.val + 16 * 9) (by omega) (by omega) _ e8 (k1_off7_inb g 8) p8 hp8 y s7
  have s9 := store16 B12.view G o h f _ _ _ (160 * (g.val + 1)) (by omega) (by omega) _ e9 (k1_off7_inb g 9) p9 hp9 y s8
  exact s9

omit [FloatOps F] in

theorem upTo_zero {α : Type} (G : SE.Idx → α) (o : Nat) (h : o + 4000 ≤ 6400000) (f : S4000.Idx → α) : upTo G o h 0 f = f := by
  funext i
  simp [upTo]
omit [FloatOps F] in
theorem upTo_all {α : Type} (G : SE.Idx → α) (o : Nat) (h : o + 4000 ≤ 6400000) (n : Nat) (hn : 4000 ≤ n) (f : S4000.Idx → α) :
    upTo G o h n f = chunkFn G o h := by
  funext i
  have hi : (i 0).val < 4000 := (i 0).isLt
  simp only [upTo]
  rw [if_pos (by omega)]

end Cert.Proof.KI.Norm

end
-- ==== Proof.Body1Grp.lean ====
import proofs.«207891_g54065048322743_cont_9to1_m_676_18_alg».proof.Proof.Body1Pure
import proofs.«207891_g54065048322743_cont_9to1_m_676_18_alg».proof.Proof.Body1Val
import proofs.«207891_g54065048322743_cont_9to1_m_676_18_alg».proof.Proof.Body1Wr

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

omit [FloatOps F] in
theorem pts_B6_access (d : Dev nD) (L : grid1.Coords) (f : Buf (Elt F) ((thr1 d L).loc cc1_scratch0)) :
    ((B6.access (.whole S100096)).loc (thr1 d L) ↦{fullShare} f : sProp 𝕄) = (B6.view.loc (thr1 d L) ↦{fullShare} f) := rfl

omit [FloatOps F] in
theorem off2_at (g : Fin k1_t2_loop.trips) (r : Fin 10) : (k1_off2 g (BitVec.ofNat 32 (16 * r.val))) 0 = 160 * g.val + 16 * r.val :=
  congrFun (k1_off2_eq g r) 0

def grpInv0 (d : Dev nD) (L : grid1.Coords) (segA : IVec SE 32) (ewA : FVec F SE .f32) (dinvA : FVec F SN .f32)
    (o : Nat) (h : o + 4000 ≤ 6400000) (f : S4000.Idx → Elt F .f32) (g : Nat) (_ : PUnit) : sProp 𝕄 :=
  iprop((B7.view.loc (thr1 d L) ↦{fullShare} chunkFn segA o h) ∗ (B9.view.loc (thr1 d L) ↦{fullShare} chunkFn ewA o h)
    ∗ (B6.view.loc (thr1 d L) ↦{fullShare} dinvA) ∗ (B11.view.loc (thr1 d L) ↦{fullShare} upTo (normAll segA ewA dinvA) o h (160 * g) f))

set_option maxRecDepth 65536 in

theorem grp_step0 (d : Dev nD) (L : grid1.Coords) (segA : IVec SE 32) (hseg : ∀ e, (segA e).toNat < 100096) (ewA : FVec F SE .f32)
    (dinvA : FVec F SN .f32) (o : Nat) (h : o + 4000 ≤ 6400000) (f : S4000.Idx → Elt F .f32)
    (v1 c0 c1 : BitVec 32) (kk : Fin k1_t1_loop.trips) (g : Fin k1_t2_loop.trips) (acc : PUnit) :
    grpInv0 d L segA ewA dinvA o h f g.val acc
      ⊢ wp frame (wpE (defs₀ (F := F)) 𝒱₀ (thr1 d L) none) Set.univ
          (k1_t2_body L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 c0 c1 kk g acc)
          (grpInv0 d L segA ewA dinvA o h f (g.val + 1)) := by
  have hg : g.val < 25 := trips2 ▸ g.isLt
  unfold grpInv0 k1_t2_body
  iintro ⟨H7, H9, H6, H11⟩
  sl_exec (disch := exact chk7 segA hseg o h _ _)
  ihave H6' := (Entails.of_eq (pts_B6_access (F := F) d L _).symm) $$ H6
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  ihave H6 := (Entails.of_eq (pts_B6_access (F := F) d L _)) $$ H6'
  sl_exec
  sl_step
  sl_unfold_run_names
  rw [grp_value0 (normAll segA ewA dinvA) o h g f]
  · isplitl [H7]; · iexact H7
    isplitl [H9]; · iexact H9
    isplitl [H6]; · iexact H6
    iexact H11
  · intro hb; exact pay7 segA hseg ewA dinvA o h _ _ _ (off2_at g ⟨0, by decide⟩) hb _
  · intro hb; exact pay7 segA hseg ewA dinvA o h _ _ _ (off2_at g ⟨1, by decide⟩) hb _
  · intro hb; exact pay7 segA hseg ewA dinvA o h _ _ _ (off2_at g ⟨2, by decide⟩) hb _
  · intro hb; exact pay7 segA hseg ewA dinvA o h _ _ _ (off2_at g ⟨3, by decide⟩) hb _
  · intro hb; exact pay7 segA hseg ewA dinvA o h _ _ _ (off2_at g ⟨4, by decide⟩) hb _
  · intro hb; exact pay7 segA hseg ewA dinvA o h _ _ _ (off2_at g ⟨5, by decide⟩) hb _
  · intro hb; exact pay7 segA hseg ewA dinvA o h _ _ _ (off2_at g ⟨6, by decide⟩) hb _
  · intro hb; exact pay7 segA hseg ewA dinvA o h _ _ _ (off2_at g ⟨7, by decide⟩) hb _
  · intro hb; exact pay7 segA hseg ewA dinvA o h _ _ _ (off2_at g ⟨8, by decide⟩) hb _
  · intro hb; exact pay7 segA hseg ewA dinvA o h _ _ _ (off2_at g ⟨9, by decide⟩) hb _

omit [FloatOps F] in
theorem off6_at (g : Fin k1_t3_loop.trips) (r : Fin 10) : (k1_off6 g (BitVec.ofNat 32 (16 * r.val))) 0 = 160 * g.val + 16 * r.val :=
  congrFun (k1_off6_eq g r) 0

def grpInv1 (d : Dev nD) (L : grid1.Coords) (segA : IVec SE 32) (ewA : FVec F SE .f32) (dinvA : FVec F SN .f32)
    (o : Nat) (h : o + 4000 ≤ 6400000) (f : S4000.Idx → Elt F .f32) (g : Nat) (_ : PUnit) : sProp 𝕄 :=
  iprop((B8.view.loc (thr1 d L) ↦{fullShare} chunkFn segA o h) ∗ (B10.view.loc (thr1 d L) ↦{fullShare} chunkFn ewA o h)
    ∗ (B6.view.loc (thr1 d L) ↦{fullShare} dinvA) ∗ (B12.view.loc (thr1 d L) ↦{fullShare} upTo (normAll segA ewA dinvA) o h (160 * g) f))

set_option maxRecDepth 65536 in

theorem grp_step1 (d : Dev nD) (L : grid1.Coords) (segA : IVec SE 32) (hseg : ∀ e, (segA e).toNat < 100096) (ewA : FVec F SE .f32)
    (dinvA : FVec F SN .f32) (o : Nat) (h : o + 4000 ≤ 6400000) (f : S4000.Idx → Elt F .f32)
    (g : Fin k1_t3_loop.trips) (acc : PUnit) :
    grpInv1 d L segA ewA dinvA o h f g.val acc
      ⊢ wp frame (wpE (defs₀ (F := F)) 𝒱₀ (thr1 d L) none) Set.univ
          (k1_t3_body L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 g acc)
          (grpInv1 d L segA ewA dinvA o h f (g.val + 1)) := by
  have hg : g.val < 25 := trips3 ▸ g.isLt
  unfold grpInv1 k1_t3_body
  iintro ⟨H8, H10, H6, H12⟩
  sl_exec (disch := exact chk8 segA hseg o h _ _)
  ihave H6' := (Entails.of_eq (pts_B6_access (F := F) d L _).symm) $$ H6
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  iapply (SparseCore.wp_vectorLoadIdx 𝒱₀ (thr1 d L) none Set.univ (base := B6) (S := Finset.univ) (q := fullShare) (Finset.subset_univ _)) $$ H6'; iintro H6'
  ihave H6 := (Entails.of_eq (pts_B6_access (F := F) d L _)) $$ H6'
  sl_exec
  sl_step
  sl_unfold_run_names
  rw [grp_value1 (normAll segA ewA dinvA) o h g f]
  · isplitl [H8]; · iexact H8
    isplitl [H10]; · iexact H10
    isplitl [H6]; · iexact H6
    iexact H12
  · intro hb; exact pay8 segA hseg ewA dinvA o h _ _ _ (off6_at g ⟨0, by decide⟩) hb _
  · intro hb; exact pay8 segA hseg ewA dinvA o h _ _ _ (off6_at g ⟨1, by decide⟩) hb _
  · intro hb; exact pay8 segA hseg ewA dinvA o h _ _ _ (off6_at g ⟨2, by decide⟩) hb _
  · intro hb; exact pay8 segA hseg ewA dinvA o h _ _ _ (off6_at g ⟨3, by decide⟩) hb _
  · intro hb; exact pay8 segA hseg ewA dinvA o h _ _ _ (off6_at g ⟨4, by decide⟩) hb _
  · intro hb; exact pay8 segA hseg ewA dinvA o h _ _ _ (off6_at g ⟨5, by decide⟩) hb _
  · intro hb; exact pay8 segA hseg ewA dinvA o h _ _ _ (off6_at g ⟨6, by decide⟩) hb _
  · intro hb; exact pay8 segA hseg ewA dinvA o h _ _ _ (off6_at g ⟨7, by decide⟩) hb _
  · intro hb; exact pay8 segA hseg ewA dinvA o h _ _ _ (off6_at g ⟨8, by decide⟩) hb _
  · intro hb; exact pay8 segA hseg ewA dinvA o h _ _ _ (off6_at g ⟨9, by decide⟩) hb _

end Cert.Proof.KI.Norm

end
-- ==== Proof.Body1Fl.lean ====
import proofs.«207891_g54065048322743_cont_9to1_m_676_18_alg».proof.Proof.Body1Pure
import proofs.«207891_g54065048322743_cont_9to1_m_676_18_alg».proof.Proof.Body1Val

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

omit [FloatOps F] in
theorem pts_segSl (d : Dev nD) (L : grid1.Coords) (off : Fin 1 → Nat) (hoff : ∀ a, off a + S4000.size a ≤ S6400000.size a) (o : Nat) (ho : off 0 = o)
    (q : PosShare TreeShare) (f : IVec SE 32) :
    ((segSl off hoff).view.loc (thr1 d L) ↦[(segSl off hoff).view.set]{q} f : sProp 𝕄) = (segLoc d ↦[eset o (o + 4000)]{q} f) := by
  rw [set_segSl, ho]
omit [FloatOps F] in
theorem pts_ewSl (d : Dev nD) (L : grid1.Coords) (off : Fin 1 → Nat) (hoff : ∀ a, off a + S4000.size a ≤ S6400000.size a) (o : Nat) (ho : off 0 = o)
    (q : PosShare TreeShare) (f : FVec F SE .f32) :
    ((ewSl off hoff).view.loc (thr1 d L) ↦[(ewSl off hoff).view.set]{q} f : sProp 𝕄) = (ewLoc d ↦[eset o (o + 4000)]{q} f) := by
  rw [set_ewSl, ho]
omit [FloatOps F] in
theorem pts_outSl (d : Dev nD) (L : grid1.Coords) (off : Fin 1 → Nat) (hoff : ∀ a, off a + S4000.size a ≤ S6400000.size a) (o : Nat) (ho : off 0 = o)
    (q : PosShare TreeShare) (f : FVec F SE .f32) :
    ((outSl off hoff).view.loc (thr1 d L) ↦[(outSl off hoff).view.set]{q} f : sProp 𝕄) = (outLoc d ↦[eset o (o + 4000)]{q} f) := by
  rw [set_outSl, ho]

omit [FloatOps F] in
theorem pts_B11_set (d : Dev nD) (L : grid1.Coords) (f : Buf (Elt F) ((thr1 d L).loc cc1_scratch5)) :
    (B11.view.loc (thr1 d L) ↦[B11.view.set]{fullShare} f : sProp 𝕄) = (B11.view.loc (thr1 d L) ↦{fullShare} f) := by
  simp only [Memref.view_whole, View.set_whole]
omit [FloatOps F] in
theorem pts_B12_set (d : Dev nD) (L : grid1.Coords) (f : Buf (Elt F) ((thr1 d L).loc cc1_scratch6)) :
    (B12.view.loc (thr1 d L) ↦[B12.view.set]{fullShare} f : sProp 𝕄) = (B12.view.loc (thr1 d L) ↦{fullShare} f) := by
  simp only [Memref.view_whole, View.set_whole]

omit [FloatOps F] in
theorem cut_seg (d : Dev nD) (q : PosShare TreeShare) (f : IVec SE 32) {a b c : Nat} (hab : a ≤ b) (hbc : b ≤ c) :
    (segLoc d ↦[eset a c]{q} f : sProp 𝕄) ⊣⊢ iprop((segLoc d ↦[eset a b]{q} f) ∗ (segLoc d ↦[eset b c]{q} f)) := by
  rw [← eset_union hab hbc]; exact pointsTo_union (eset_disjoint (le_refl b))
omit [FloatOps F] in
theorem cut_ew (d : Dev nD) (q : PosShare TreeShare) (f : FVec F SE .f32) {a b c : Nat} (hab : a ≤ b) (hbc : b ≤ c) :
    (ewLoc d ↦[eset a c]{q} f : sProp 𝕄) ⊣⊢ iprop((ewLoc d ↦[eset a b]{q} f) ∗ (ewLoc d ↦[eset b c]{q} f)) := by
  rw [← eset_union hab hbc]; exact pointsTo_union (eset_disjoint (le_refl b))
omit [FloatOps F] in
theorem cut_out (d : Dev nD) (q : PosShare TreeShare) (f : FVec F SE .f32) {a b c : Nat} (hab : a ≤ b) (hbc : b ≤ c) :
    (outLoc d ↦[eset a c]{q} f : sProp 𝕄) ⊣⊢ iprop((outLoc d ↦[eset a b]{q} f) ∗ (outLoc d ↦[eset b c]{q} f)) := by
  rw [← eset_union hab hbc]; exact pointsTo_union (eset_disjoint (le_refl b))

omit [FloatOps F] in
theorem fl_in7 (d : Dev nD) (L : grid1.Coords) (segA : IVec SE 32) (off : Fin 1 → Nat) (hoff : ∀ a, off a + S4000.size a ≤ S6400000.size a)
    (o : Nat) (ho : off 0 = o) (h : o + 4000 ≤ 6400000) (fb : S4000.Idx → Elt F .i32)
    (sm : DmaSem sig) (hsm : sm = sI0) :
    (Transfers.Flight countersEmb (thr1 d L) (SemLoc.dma sm) (default : HIx 2) 128000
      iprop((B7.view.loc (thr1 d L) ↦{fullShare} View.write (Elt F) B7.view fb (ReadAs.same.apply ((segSl off hoff).view.read (Elt F) segA)) Finset.univ)
        ∗ ((segSl off hoff).view.loc (thr1 d L) ↦[(segSl off hoff).view.set]{fullShare} segA)) : sProp 𝕄)
      ⊢ FlI0 d L segA o h := by
  subst hsm
  unfold FlI0
  apply Transfers.Flight_mono
  rw [land7 segA off hoff o ho h fb, pts_segSl d L off hoff o ho]
omit [FloatOps F] in
theorem fl_in8 (d : Dev nD) (L : grid1.Coords) (segA : IVec SE 32) (off : Fin 1 → Nat) (hoff : ∀ a, off a + S4000.size a ≤ S6400000.size a)
    (o : Nat) (ho : off 0 = o) (h : o + 4000 ≤ 6400000) (fb : S4000.Idx → Elt F .i32)
    (sm : DmaSem sig) (hsm : sm = sI1) :
    (Transfers.Flight countersEmb (thr1 d L) (SemLoc.dma sm) (default : HIx 2) 128000
      iprop((B8.view.loc (thr1 d L) ↦{fullShare} View.write (Elt F) B8.view fb (ReadAs.same.apply ((segSl off hoff).view.read (Elt F) segA)) Finset.univ)
        ∗ ((segSl off hoff).view.loc (thr1 d L) ↦[(segSl off hoff).view.set]{fullShare} segA)) : sProp 𝕄)
      ⊢ FlI1 d L segA o h := by
  subst hsm
  unfold FlI1
  apply Transfers.Flight_mono
  rw [land8 segA off hoff o ho h fb, pts_segSl d L off hoff o ho]
theorem fl_in9 (d : Dev nD) (L : grid1.Coords) (ewA : FVec F SE .f32) (off : Fin 1 → Nat) (hoff : ∀ a, off a + S4000.size a ≤ S6400000.size a)
    (o : Nat) (ho : off 0 = o) (h : o + 4000 ≤ 6400000) (fb : S4000.Idx → Elt F .f32)
    (sm : DmaSem sig) (hsm : sm = sW0) :
    (Transfers.Flight countersEmb (thr1 d L) (SemLoc.dma sm) (default : HIx 2) 128000
      iprop((B9.view.loc (thr1 d L) ↦{fullShare} View.write (Elt F) B9.view fb (ReadAs.same.apply ((ewSl off hoff).view.read (Elt F) ewA)) Finset.univ)
        ∗ ((ewSl off hoff).view.loc (thr1 d L) ↦[(ewSl off hoff).view.set]{fullShare} ewA)) : sProp 𝕄)
      ⊢ FlW0 d L ewA o h := by
  subst hsm
  unfold FlW0
  apply Transfers.Flight_mono
  rw [land9 ewA off hoff o ho h fb, pts_ewSl d L off hoff o ho]
theorem fl_in10 (d : Dev nD) (L : grid1.Coords) (ewA : FVec F SE .f32) (off : Fin 1 → Nat) (hoff : ∀ a, off a + S4000.size a ≤ S6400000.size a)
    (o : Nat) (ho : off 0 = o) (h : o + 4000 ≤ 6400000) (fb : S4000.Idx → Elt F .f32)
    (sm : DmaSem sig) (hsm : sm = sW1) :
    (Transfers.Flight countersEmb (thr1 d L) (SemLoc.dma sm) (default : HIx 2) 128000
      iprop((B10.view.loc (thr1 d L) ↦{fullShare} View.write (Elt F) B10.view fb (ReadAs.same.apply ((ewSl off hoff).view.read (Elt F) ewA)) Finset.univ)
        ∗ ((ewSl off hoff).view.loc (thr1 d L) ↦[(ewSl off hoff).view.set]{fullShare} ewA)) : sProp 𝕄)
      ⊢ FlW1 d L ewA o h := by
  subst hsm
  unfold FlW1
  apply Transfers.Flight_mono
  rw [land10 ewA off hoff o ho h fb, pts_ewSl d L off hoff o ho]

theorem fl_out0 (d : Dev nD) (L : grid1.Coords) (G fo : FVec F SE .f32) (off : Fin 1 → Nat) (hoff : ∀ a, off a + S4000.size a ≤ S6400000.size a)
    (o : Nat) (ho : off 0 = o) (h : o + 4000 ≤ 6400000)
    (sm : DmaSem sig) (hsm : sm = sO0) :
    (Transfers.Flight countersEmb (thr1 d L) (SemLoc.dma sm) (default : HIx 2) 128000
      iprop(((outSl off hoff).view.loc (thr1 d L) ↦[(outSl off hoff).view.set]{fullShare}
            (outSl off hoff).view.writes (Elt F) fo [⟨Rect.whole S4000, ReadAs.same.apply (B11.view.read (Elt F) (chunkFn G o h))⟩])
        ∗ (B11.view.loc (thr1 d L) ↦[B11.view.set]{fullShare} chunkFn G o h)) : sProp 𝕄)
      ⊢ FlO0 d L G o h := by
  subst hsm
  unfold FlO0
  apply Transfers.Flight_mono
  rw [pts_outSl d L off hoff o ho, pts_B11_set,
    ← View.write_univ_eq_writes_whole (outSl off hoff).view fo [] (ReadAs.same.apply (B11.view.read (Elt F) (chunkFn G o h))),
    View.writes_nil, pointsTo_congr (land_out11 G fo off hoff o ho h)]
theorem fl_out1 (d : Dev nD) (L : grid1.Coords) (G fo : FVec F SE .f32) (off : Fin 1 → Nat) (hoff : ∀ a, off a + S4000.size a ≤ S6400000.size a)
    (o : Nat) (ho : off 0 = o) (h : o + 4000 ≤ 6400000)
    (sm : DmaSem sig) (hsm : sm = sO1) :
    (Transfers.Flight countersEmb (thr1 d L) (SemLoc.dma sm) (default : HIx 2) 128000
      iprop(((outSl off hoff).view.loc (thr1 d L) ↦[(outSl off hoff).view.set]{fullShare}
            (outSl off hoff).view.writes (Elt F) fo [⟨Rect.whole S4000, ReadAs.same.apply (B12.view.read (Elt F) (chunkFn G o h))⟩])
        ∗ (B12.view.loc (thr1 d L) ↦[B12.view.set]{fullShare} chunkFn G o h)) : sProp 𝕄)
      ⊢ FlO1 d L G o h := by
  subst hsm
  unfold FlO1
  apply Transfers.Flight_mono
  rw [pts_outSl d L off hoff o ho, pts_B12_set,
    ← View.write_univ_eq_writes_whole (outSl off hoff).view fo [] (ReadAs.same.apply (B12.view.read (Elt F) (chunkFn G o h))),
    View.writes_nil, pointsTo_congr (land_out12 G fo off hoff o ho h)]

theorem land6 (dinvA : FVec F SN .f32) (f6 : S100096.Idx → Elt F .f32) :
    View.write (Elt F) B6.view f6 (ReadAs.same.apply (A4.view.read (Elt F) dinvA)) Finset.univ = dinvA := by
  refine (View.write_whole_univ cc1_scratch0 _ _).trans ?_
  rfl

end Cert.Proof.KI.Norm

end
-- ==== Proof.Body1Half.lean ====
import proofs.«207891_g54065048322743_cont_9to1_m_676_18_alg».proof.Proof.Body1Grp
import proofs.«207891_g54065048322743_cont_9to1_m_676_18_alg».proof.Proof.Body1Fl

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

omit [FloatOps F] in
theorem coff_succ (L : grid1.Coords) (j : Nat) : coff L (j + 1) = coff L j + 4000 := by unfold coff; omega
omit [FloatOps F] in
theorem coff_zero (L : grid1.Coords) : coff L 0 = base1 L := by unfold coff; omega
omit [FloatOps F] in
theorem coff_fifty (L : grid1.Coords) : coff L 50 = base1 L + 200000 := by unfold coff; omega
omit [FloatOps F] in
theorem coff_mono (L : grid1.Coords) {i j : Nat} (h : i ≤ j) : coff L i ≤ coff L j := by unfold coff; omega

theorem InSt0_pos (d : Dev nD) (L : grid1.Coords) (segA : IVec SE 32) (ewA : FVec F SE .f32) (j : Nat) (hj : j < 50) :
    InSt0 d L segA ewA j = iprop(FlI0 d L segA (coff L j) (coff_inb L j hj) ∗ FlW0 d L ewA (coff L j) (coff_inb L j hj)) := dif_pos hj
theorem InSt0_neg (d : Dev nD) (L : grid1.Coords) (segA : IVec SE 32) (ewA : FVec F SE .f32) (j : Nat) (hj : ¬ j < 50) :
    InSt0 d L segA ewA j = iprop((∃ f, B7.view.loc (thr1 d L) ↦{fullShare} f) ∗ (∃ f, B9.view.loc (thr1 d L) ↦{fullShare} f)
      ∗ semVal (cell d L sI0) 0 ∗ semVal (cell d L sW0) 0) := dif_neg hj
theorem InSt1_pos (d : Dev nD) (L : grid1.Coords) (segA : IVec SE 32) (ewA : FVec F SE .f32) (j : Nat) (hj : j < 50) :
    InSt1 d L segA ewA j = iprop(FlI1 d L segA (coff L j) (coff_inb L j hj) ∗ FlW1 d L ewA (coff L j) (coff_inb L j hj)) := dif_pos hj
theorem InSt1_neg (d : Dev nD) (L : grid1.Coords) (segA : IVec SE 32) (ewA : FVec F SE .f32) (j : Nat) (hj : ¬ j < 50) :
    InSt1 d L segA ewA j = iprop((∃ f, B8.view.loc (thr1 d L) ↦{fullShare} f) ∗ (∃ f, B10.view.loc (thr1 d L) ↦{fullShare} f)
      ∗ semVal (cell d L sI1) 0 ∗ semVal (cell d L sW1) 0) := dif_neg hj

theorem OutSt0_pos (d : Dev nD) (L : grid1.Coords) (G : FVec F SE .f32) (j : Nat) (hj : 2 ≤ j ∧ j < 52) (i : Nat) (hi : j - 2 = i) (h : coff L i + 4000 ≤ 6400000) :
    OutSt0 d L G j = FlO0 d L G (coff L i) h := by subst hi; exact dif_pos hj
theorem OutSt0_neg (d : Dev nD) (L : grid1.Coords) (G : FVec F SE .f32) (j : Nat) (hj : ¬ (2 ≤ j ∧ j < 52)) :
    OutSt0 d L G j = iprop((∃ f, B11.view.loc (thr1 d L) ↦{fullShare} f) ∗ semVal (cell d L sO0) 0) := dif_neg hj
theorem OutSt1_pos (d : Dev nD) (L : grid1.Coords) (G : FVec F SE .f32) (j : Nat) (hj : 2 ≤ j ∧ j < 52) (i : Nat) (hi : j - 2 = i) (h : coff L i + 4000 ≤ 6400000) :
    OutSt1 d L G j = FlO1 d L G (coff L i) h := by subst hi; exact dif_pos hj
theorem OutSt1_neg (d : Dev nD) (L : grid1.Coords) (G : FVec F SE .f32) (j : Nat) (hj : ¬ (2 ≤ j ∧ j < 52)) :
    OutSt1 d L G j = iprop((∃ f, B12.view.loc (thr1 d L) ↦{fullShare} f) ∗ semVal (cell d L sO1) 0) := dif_neg hj

omit [FloatOps F] in
theorem wait0_pos : ∀ k : Fin k1_t1_loop.trips, 0 < k.val →
    Scalar.cmpi .ne (Scalar.extui (Scalar.cmpi .sge (Scalar.addi (Scalar.muli (Scf.iv 0#32 1#32 k) 2#32) 0#32) 2#32)) 0#32 = 1#1 := by
  decide +kernel
omit [FloatOps F] in
theorem wait0_neg : ∀ k : Fin k1_t1_loop.trips, k.val = 0 →
    ¬ Scalar.cmpi .ne (Scalar.extui (Scalar.cmpi .sge (Scalar.addi (Scalar.muli (Scf.iv 0#32 1#32 k) 2#32) 0#32) 2#32)) 0#32 = 1#1 := by
  decide +kernel

set_option maxRecDepth 65536 in

theorem half0_mid (d : Dev nD) (L : grid1.Coords) (segA : IVec SE 32) (hseg : ∀ e, (segA e).toNat < 100096) (ewA : FVec F SE .f32)
    (dinvA : FVec F SN .f32) (fo : FVec F SE .f32) (O : CellTallies nD τ sig (HIx 2)) (W : Waits sig (HIx 2))
    (v1 : BitVec 32) (k : Fin k1_t1_loop.trips) (hk0 : 0 < k.val) (hk24 : k.val < 24) :
    iprop(Transfers.MayWaits (thr1 d L) (none : HIx 2) O
        ∗ (B6.view.loc (thr1 d L) ↦{fullShare} dinvA)
        ∗ InSt0 d L segA ewA (2 * k.val) ∗ OutSt0 d L (normAll segA ewA dinvA) (2 * k.val)
        ∗ SegP d L segA ewA (2 * k.val) ∗ OutP d L (normAll segA ewA dinvA) fo (2 * k.val)
        ∗ OwesW d L O W)
      ⊢ wp frame (wpE (defs₀ (F := F)) 𝒱₀ (thr1 d L) none) Set.univ
          (k1_part5 L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 0#32 1#32 k)
          fun r => iprop(⌜r = Scalar.addi (Scalar.muli (Scf.iv 0#32 1#32 k) 2#32) 1#32⌝
            ∗ (B6.view.loc (thr1 d L) ↦{fullShare} dinvA)
            ∗ InSt0 d L segA ewA (2 * k.val + 2) ∗ OutSt0 d L (normAll segA ewA dinvA) (2 * k.val + 2)
            ∗ SegP d L segA ewA (2 * k.val + 1) ∗ OutP d L (normAll segA ewA dinvA) fo (2 * k.val + 1)
            ∗ OwesW d L O W) := by
  have hk : k.val < 25 := trips1 ▸ k.isLt
  rw [InSt0_pos d L segA ewA (2 * k.val) (by omega),
    OutSt0_pos d L _ (2 * k.val) (by omega) (2 * k.val - 2) rfl (coff_inb L _ (by omega)),
    InSt0_pos d L segA ewA (2 * k.val + 2) (by omega),
    OutSt0_pos d L _ (2 * k.val + 2) (by omega) (2 * k.val) (by omega) (coff_inb L _ (by omega))]
  unfold SegP OutP OwesW FlI0 FlW0 FlO0
  simp only [k1_part5_eq_skeleton]; unfold k1_part5_skel
  iintro ⟨#Hmw, H6, ⟨HIn_i, HIn_w⟩, HOut, ⟨HsL, HsR, HwL, HwR⟩, ⟨HoD, HoT⟩, %W', %hW', HO⟩
  have hc := wait0_pos k hk0
  have k1_hI : k1_cond2 k = 1#1 := (cond2_iff k).mpr hk24
  sl_exec
  sl_for (grpInv0 d L segA ewA dinvA (coff L (2 * k.val)) (coff_inb L _ (by omega)) (chunkFn (normAll segA ewA dinvA) (coff L (2 * k.val - 2)) (coff_inb L _ (by omega)))) $$ [HIn_i_dst HIn_w_dst H6 HOut_src]
  case region =>
    intro g acc
    exact grp_step0 d L segA hseg ewA dinvA _ _ _ v1 0#32 1#32 k g acc
  · unfold grpInv0
    isplitl [HIn_i_dst]; · iexact HIn_i_dst
    isplitl [HIn_w_dst]; · iexact HIn_w_dst
    isplitl [H6]; · iexact H6
    rw [Nat.mul_zero, upTo_zero]; iexact HOut_src
  iintro %acc HI
  unfold grpInv0
  icases HI with ⟨H7, H9, H6, H11⟩
  rw [upTo_all _ _ _ _ (show 4000 ≤ 160 * k1_t2_loop.trips by rw [trips2])]
  ihave HoT' := (cut_out (F := F) d fullShare fo (a := coff L (2 * k.val)) (b := coff L (2 * k.val) + 4000) (c := base1 L + 200000) (by omega) (by unfold coff; omega)).1 $$ HoT
  icases HoT' with ⟨HoC, HoT⟩
  ihave HoC' := (Entails.of_eq (pts_outSl (F := F) d L (k1_off4 L k 0#32) (k1_off4_inb L k 0) (coff L (2 * k.val)) (congrFun (off4_0 L k) 0) _ _).symm) $$ HoC
  ihave H11' := (Entails.of_eq (pts_B11_set (F := F) d L _).symm) $$ H11
  ihave HsR' := (cut_seg (F := F) d fullShare segA (a := coff L (2 * k.val + 2)) (b := coff L (2 * k.val + 2) + 4000) (c := base1 L + 200000) (by omega) (by unfold coff; omega)).1 $$ HsR
  icases HsR' with ⟨HsC, HsR⟩
  ihave HsC' := (Entails.of_eq (pts_segSl (F := F) d L (k1_off5 L k) (k1_off5_inb L k k1_hI) (coff L (2 * k.val + 2)) (congrFun (off5 L k) 0) _ _).symm) $$ HsC
  ihave HwR' := (cut_ew (F := F) d fullShare ewA (a := coff L (2 * k.val + 2)) (b := coff L (2 * k.val + 2) + 4000) (c := base1 L + 200000) (by omega) (by unfold coff; omega)).1 $$ HwR
  icases HwR' with ⟨HwC, HwR⟩
  ihave HwC' := (Entails.of_eq (pts_ewSl (F := F) d L (k1_off5 L k) (k1_off5_inb L k k1_hI) (coff L (2 * k.val + 2)) (congrFun (off5 L k) 0) _ _).symm) $$ HwC
  sl_exec
  sl_step
  sl_unfold_run_names
  rw [show coff L (2 * k.val + 1) = coff L (2 * k.val) + 4000 from by unfold coff; omega, show coff L (2 * k.val + 1 + 2) = coff L (2 * k.val + 2) + 4000 from by unfold coff; omega,
    show coff L (2 * k.val + 1 - 2) = coff L (2 * k.val - 2) + 4000 from by unfold coff; omega]
  isplitr; · ipureintro; rfl
  isplitl [H6]; · iexact H6
  isplitl [HIn_i HIn_w]
  · isplitl [HIn_i]
    · ihave HX := (fl_in7 d L segA (k1_off5 L k) (k1_off5_inb L k k1_hI) (coff L (2 * k.val + 2)) (congrFun (off5 L k) 0) _ _ (⟨7, _⟩ : DmaSem sig) rfl) $$ HIn_i
      unfold FlI0
      iexact HX
    · ihave HX := (fl_in9 d L ewA (k1_off5 L k) (k1_off5_inb L k k1_hI) (coff L (2 * k.val + 2)) (congrFun (off5 L k) 0) _ _ (⟨9, _⟩ : DmaSem sig) rfl) $$ HIn_w
      unfold FlW0
      iexact HX
  isplitl [HOut]
  · ihave HX := (fl_out0 d L _ fo (k1_off4 L k 0#32) (k1_off4_inb L k 0) (coff L (2 * k.val)) (congrFun (off4_0 L k) 0) _ (⟨11, _⟩ : DmaSem sig) rfl) $$ HOut
    unfold FlO0
    iexact HX
  isplitl [HsL HIn_i_src HsR HwL HIn_w_src HwR]
  · isplitl [HsL HIn_i_src]
    · iapply (cut_seg (F := F) d fullShare segA (a := base1 L) (b := coff L (2 * k.val)) (c := coff L (2 * k.val) + 4000) (by unfold coff; omega) (by omega)).2
      isplitl [HsL]; · iexact HsL
      iexact HIn_i_src
    isplitl [HsR]; · iexact HsR
    isplitl [HwL HIn_w_src]
    · iapply (cut_ew (F := F) d fullShare ewA (a := base1 L) (b := coff L (2 * k.val)) (c := coff L (2 * k.val) + 4000) (by unfold coff; omega) (by omega)).2
      isplitl [HwL]; · iexact HwL
      iexact HIn_w_src
    iexact HwR
  isplitl [HoD HOut_dst HoT]
  · isplitl [HoD HOut_dst]
    · iapply (cut_out (F := F) d fullShare _ (a := base1 L) (b := coff L (2 * k.val - 2)) (c := coff L (2 * k.val - 2) + 4000) (by unfold coff; omega) (by omega)).2
      isplitl [HoD]; · iexact HoD
      iexact HOut_dst
    iexact HoT
  iexists _; isplitr
  swap
  · iexact HO
  · ipureintro; intro p hp
    simp only [Finset.mem_insert] at hp
    rcases hp with rfl | rfl | rfl | hp
    · exact .inr rfl
    · exact .inr rfl
    · exact .inr rfl
    · exact hW' p hp

set_option maxRecDepth 65536 in

theorem half0_zero (d : Dev nD) (L : grid1.Coords) (segA : IVec SE 32) (hseg : ∀ e, (segA e).toNat < 100096) (ewA : FVec F SE .f32)
    (dinvA : FVec F SN .f32) (fo : FVec F SE .f32) (O : CellTallies nD τ sig (HIx 2)) (W : Waits sig (HIx 2))
    (v1 : BitVec 32) (k : Fin k1_t1_loop.trips) (hk0 : k.val = 0) (hk24 : k.val < 24) :
    iprop(Transfers.MayWaits (thr1 d L) (none : HIx 2) O
        ∗ (B6.view.loc (thr1 d L) ↦{fullShare} dinvA)
        ∗ InSt0 d L segA ewA (2 * k.val) ∗ OutSt0 d L (normAll segA ewA dinvA) (2 * k.val)
        ∗ SegP d L segA ewA (2 * k.val) ∗ OutP d L (normAll segA ewA dinvA) fo (2 * k.val)
        ∗ OwesW d L O W)
      ⊢ wp frame (wpE (defs₀ (F := F)) 𝒱₀ (thr1 d L) none) Set.univ
          (k1_part5 L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 0#32 1#32 k)
          fun r => iprop(⌜r = Scalar.addi (Scalar.muli (Scf.iv 0#32 1#32 k) 2#32) 1#32⌝
            ∗ (B6.view.loc (thr1 d L) ↦{fullShare} dinvA)
            ∗ InSt0 d L segA ewA (2 * k.val + 2) ∗ OutSt0 d L (normAll segA ewA dinvA) (2 * k.val + 2)
            ∗ SegP d L segA ewA (2 * k.val + 1) ∗ OutP d L (normAll segA ewA dinvA) fo (2 * k.val + 1)
            ∗ OwesW d L O W) := by
  have hk : k.val < 25 := trips1 ▸ k.isLt
  rw [InSt0_pos d L segA ewA (2 * k.val) (by omega),
    OutSt0_neg d L _ (2 * k.val) (by omega),
    InSt0_pos d L segA ewA (2 * k.val + 2) (by omega),
    OutSt0_pos d L _ (2 * k.val + 2) (by omega) (2 * k.val) (by omega) (coff_inb L _ (by omega))]
  unfold SegP OutP OwesW FlI0 FlW0 FlO0
  simp only [k1_part5_eq_skeleton]; unfold k1_part5_skel
  iintro ⟨#Hmw, H6, ⟨HIn_i, HIn_w⟩, ⟨⟨%f11, H11⟩, Ho0⟩, ⟨HsL, HsR, HwL, HwR⟩, ⟨HoD, HoT⟩, %W', %hW', HO⟩
  have hc := wait0_neg k hk0
  have k1_hI : k1_cond2 k = 1#1 := (cond2_iff k).mpr hk24
  sl_exec
  sl_for (grpInv0 d L segA ewA dinvA (coff L (2 * k.val)) (coff_inb L _ (by omega)) f11) $$ [HIn_i_dst HIn_w_dst H6 H11]
  case region =>
    intro g acc
    exact grp_step0 d L segA hseg ewA dinvA _ _ _ v1 0#32 1#32 k g acc
  · unfold grpInv0
    isplitl [HIn_i_dst]; · iexact HIn_i_dst
    isplitl [HIn_w_dst]; · iexact HIn_w_dst
    isplitl [H6]; · iexact H6
    rw [Nat.mul_zero, upTo_zero]; iexact H11
  iintro %acc HI
  unfold grpInv0
  icases HI with ⟨H7, H9, H6, H11⟩
  rw [upTo_all _ _ _ _ (show 4000 ≤ 160 * k1_t2_loop.trips by rw [trips2])]
  ihave HoT' := (cut_out (F := F) d fullShare fo (a := coff L (2 * k.val)) (b := coff L (2 * k.val) + 4000) (c := base1 L + 200000) (by omega) (by unfold coff; omega)).1 $$ HoT
  icases HoT' with ⟨HoC, HoT⟩
  ihave HoC' := (Entails.of_eq (pts_outSl (F := F) d L (k1_off4 L k 0#32) (k1_off4_inb L k 0) (coff L (2 * k.val)) (congrFun (off4_0 L k) 0) _ _).symm) $$ HoC
  ihave H11' := (Entails.of_eq (pts_B11_set (F := F) d L _).symm) $$ H11
  ihave HsR' := (cut_seg (F := F) d fullShare segA (a := coff L (2 * k.val + 2)) (b := coff L (2 * k.val + 2) + 4000) (c := base1 L + 200000) (by omega) (by unfold coff; omega)).1 $$ HsR
  icases HsR' with ⟨HsC, HsR⟩
  ihave HsC' := (Entails.of_eq (pts_segSl (F := F) d L (k1_off5 L k) (k1_off5_inb L k k1_hI) (coff L (2 * k.val + 2)) (congrFun (off5 L k) 0) _ _).symm) $$ HsC
  ihave HwR' := (cut_ew (F := F) d fullShare ewA (a := coff L (2 * k.val + 2)) (b := coff L (2 * k.val + 2) + 4000) (c := base1 L + 200000) (by omega) (by unfold coff; omega)).1 $$ HwR
  icases HwR' with ⟨HwC, HwR⟩
  ihave HwC' := (Entails.of_eq (pts_ewSl (F := F) d L (k1_off5 L k) (k1_off5_inb L k k1_hI) (coff L (2 * k.val + 2)) (congrFun (off5 L k) 0) _ _).symm) $$ HwC
  sl_exec
  sl_step
  sl_unfold_run_names
  rw [show coff L (2 * k.val + 1) = coff L (2 * k.val) + 4000 from by unfold coff; omega, show coff L (2 * k.val + 1 + 2) = coff L (2 * k.val + 2) + 4000 from by unfold coff; omega,
    show coff L (2 * k.val + 1 - 2) = coff L (2 * k.val - 2) from by unfold coff; omega]
  isplitr; · ipureintro; rfl
  isplitl [H6]; · iexact H6
  isplitl [HIn_i HIn_w]
  · isplitl [HIn_i]
    · ihave HX := (fl_in7 d L segA (k1_off5 L k) (k1_off5_inb L k k1_hI) (coff L (2 * k.val + 2)) (congrFun (off5 L k) 0) _ _ (⟨7, _⟩ : DmaSem sig) rfl) $$ HIn_i
      unfold FlI0
      iexact HX
    · ihave HX := (fl_in9 d L ewA (k1_off5 L k) (k1_off5_inb L k k1_hI) (coff L (2 * k.val + 2)) (congrFun (off5 L k) 0) _ _ (⟨9, _⟩ : DmaSem sig) rfl) $$ HIn_w
      unfold FlW0
      iexact HX
  isplitl [Ho0]
  · ihave HX := (fl_out0 d L _ fo (k1_off4 L k 0#32) (k1_off4_inb L k 0) (coff L (2 * k.val)) (congrFun (off4_0 L k) 0) _ (⟨11, _⟩ : DmaSem sig) rfl) $$ Ho0
    unfold FlO0
    iexact HX
  isplitl [HsL HIn_i_src HsR HwL HIn_w_src HwR]
  · isplitl [HsL HIn_i_src]
    · iapply (cut_seg (F := F) d fullShare segA (a := base1 L) (b := coff L (2 * k.val)) (c := coff L (2 * k.val) + 4000) (by unfold coff; omega) (by omega)).2
      isplitl [HsL]; · iexact HsL
      iexact HIn_i_src
    isplitl [HsR]; · iexact HsR
    isplitl [HwL HIn_w_src]
    · iapply (cut_ew (F := F) d fullShare ewA (a := base1 L) (b := coff L (2 * k.val)) (c := coff L (2 * k.val) + 4000) (by unfold coff; omega) (by omega)).2
      isplitl [HwL]; · iexact HwL
      iexact HIn_w_src
    iexact HwR
  isplitl [HoD HoT]
  · isplitl [HoD]; · iexact HoD
    iexact HoT
  iexists _; isplitr
  swap
  · iexact HO
  · ipureintro; intro p hp
    simp only [Finset.mem_insert] at hp
    rcases hp with rfl | rfl | hp
    · exact .inr rfl
    · exact .inr rfl
    · exact hW' p hp

set_option maxRecDepth 65536 in

theorem half0_last (d : Dev nD) (L : grid1.Coords) (segA : IVec SE 32) (hseg : ∀ e, (segA e).toNat < 100096) (ewA : FVec F SE .f32)
    (dinvA : FVec F SN .f32) (fo : FVec F SE .f32) (O : CellTallies nD τ sig (HIx 2)) (W : Waits sig (HIx 2))
    (v1 : BitVec 32) (k : Fin k1_t1_loop.trips) (hk0 : 0 < k.val) (hk24 : ¬ k.val < 24) :
    iprop(Transfers.MayWaits (thr1 d L) (none : HIx 2) O
        ∗ (B6.view.loc (thr1 d L) ↦{fullShare} dinvA)
        ∗ InSt0 d L segA ewA (2 * k.val) ∗ OutSt0 d L (normAll segA ewA dinvA) (2 * k.val)
        ∗ SegP d L segA ewA (2 * k.val) ∗ OutP d L (normAll segA ewA dinvA) fo (2 * k.val)
        ∗ OwesW d L O W)
      ⊢ wp frame (wpE (defs₀ (F := F)) 𝒱₀ (thr1 d L) none) Set.univ
          (k1_part5 L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 0#32 1#32 k)
          fun r => iprop(⌜r = Scalar.addi (Scalar.muli (Scf.iv 0#32 1#32 k) 2#32) 1#32⌝
            ∗ (B6.view.loc (thr1 d L) ↦{fullShare} dinvA)
            ∗ InSt0 d L segA ewA (2 * k.val + 2) ∗ OutSt0 d L (normAll segA ewA dinvA) (2 * k.val + 2)
            ∗ SegP d L segA ewA (2 * k.val + 1) ∗ OutP d L (normAll segA ewA dinvA) fo (2 * k.val + 1)
            ∗ OwesW d L O W) := by
  have hk : k.val < 25 := trips1 ▸ k.isLt
  rw [InSt0_pos d L segA ewA (2 * k.val) (by omega),
    OutSt0_pos d L _ (2 * k.val) (by omega) (2 * k.val - 2) rfl (coff_inb L _ (by omega)),
    InSt0_neg d L segA ewA (2 * k.val + 2) (by omega),
    OutSt0_pos d L _ (2 * k.val + 2) (by omega) (2 * k.val) (by omega) (coff_inb L _ (by omega))]
  unfold SegP OutP OwesW FlI0 FlW0 FlO0
  simp only [k1_part5_eq_skeleton]; unfold k1_part5_skel
  iintro ⟨#Hmw, H6, ⟨HIn_i, HIn_w⟩, HOut, ⟨HsL, HsR, HwL, HwR⟩, ⟨HoD, HoT⟩, %W', %hW', HO⟩
  have hc := wait0_pos k hk0
  have k1_hI : ¬ k1_cond2 k = 1#1 := fun hh => absurd ((cond2_iff k).mp hh) (by omega)
  sl_exec
  sl_for (grpInv0 d L segA ewA dinvA (coff L (2 * k.val)) (coff_inb L _ (by omega)) (chunkFn (normAll segA ewA dinvA) (coff L (2 * k.val - 2)) (coff_inb L _ (by omega)))) $$ [HIn_i_dst HIn_w_dst H6 HOut_src]
  case region =>
    intro g acc
    exact grp_step0 d L segA hseg ewA dinvA _ _ _ v1 0#32 1#32 k g acc
  · unfold grpInv0
    isplitl [HIn_i_dst]; · iexact HIn_i_dst
    isplitl [HIn_w_dst]; · iexact HIn_w_dst
    isplitl [H6]; · iexact H6
    rw [Nat.mul_zero, upTo_zero]; iexact HOut_src
  iintro %acc HI
  unfold grpInv0
  icases HI with ⟨H7, H9, H6, H11⟩
  rw [upTo_all _ _ _ _ (show 4000 ≤ 160 * k1_t2_loop.trips by rw [trips2])]
  ihave HoT' := (cut_out (F := F) d fullShare fo (a := coff L (2 * k.val)) (b := coff L (2 * k.val) + 4000) (c := base1 L + 200000) (by omega) (by unfold coff; omega)).1 $$ HoT
  icases HoT' with ⟨HoC, HoT⟩
  ihave HoC' := (Entails.of_eq (pts_outSl (F := F) d L (k1_off4 L k 0#32) (k1_off4_inb L k 0) (coff L (2 * k.val)) (congrFun (off4_0 L k) 0) _ _).symm) $$ HoC
  ihave H11' := (Entails.of_eq (pts_B11_set (F := F) d L _).symm) $$ H11
  sl_exec
  sl_step
  sl_unfold_run_names
  rw [show coff L (2 * k.val + 1) = coff L (2 * k.val) + 4000 from by unfold coff; omega, show coff L (2 * k.val + 1 + 2) = coff L (2 * k.val + 2) + 4000 from by unfold coff; omega,
    show coff L (2 * k.val + 1 - 2) = coff L (2 * k.val - 2) + 4000 from by unfold coff; omega]
  rw [eset_empty (a := coff L (2 * k.val + 2) + 4000) (b := base1 L + 200000) (by unfold coff; omega), eset_empty (a := coff L (2 * k.val + 2)) (b := base1 L + 200000) (by unfold coff; omega)]
  isplitr; · ipureintro; rfl
  isplitl [H6]; · iexact H6
  isplitl [H7 H9 HIn_i HIn_w]
  · isplitl [H7]; · iexists _; iexact H7
    isplitl [H9]; · iexists _; iexact H9
    isplitl [HIn_i]; · iexact HIn_i
    iexact HIn_w
  isplitl [HOut]
  · ihave HX := (fl_out0 d L _ fo (k1_off4 L k 0#32) (k1_off4_inb L k 0) (coff L (2 * k.val)) (congrFun (off4_0 L k) 0) _ (⟨11, _⟩ : DmaSem sig) rfl) $$ HOut
    unfold FlO0
    iexact HX
  isplitl [HsL HIn_i_src HsR HwL HIn_w_src HwR]
  · isplitl [HsL HIn_i_src]
    · iapply (cut_seg (F := F) d fullShare segA (a := base1 L) (b := coff L (2 * k.val)) (c := coff L (2 * k.val) + 4000) (by unfold coff; omega) (by omega)).2
      isplitl [HsL]; · iexact HsL
      iexact HIn_i_src
    isplitl [HsR]; · iexact HsR
    isplitl [HwL HIn_w_src]
    · iapply (cut_ew (F := F) d fullShare ewA (a := base1 L) (b := coff L (2 * k.val)) (c := coff L (2 * k.val) + 4000) (by unfold coff; omega) (by omega)).2
      isplitl [HwL]; · iexact HwL
      iexact HIn_w_src
    iexact HwR
  isplitl [HoD HOut_dst HoT]
  · isplitl [HoD HOut_dst]
    · iapply (cut_out (F := F) d fullShare _ (a := base1 L) (b := coff L (2 * k.val - 2)) (c := coff L (2 * k.val - 2) + 4000) (by unfold coff; omega) (by omega)).2
      isplitl [HoD]; · iexact HoD
      iexact HOut_dst
    iexact HoT
  iexists _; isplitr
  swap
  · iexact HO
  · ipureintro; intro p hp
    simp only [Finset.mem_insert] at hp
    rcases hp with rfl | rfl | rfl | hp
    · exact .inr rfl
    · exact .inr rfl
    · exact .inr rfl
    · exact hW' p hp

set_option maxRecDepth 65536 in

theorem half0 (d : Dev nD) (L : grid1.Coords) (segA : IVec SE 32) (hseg : ∀ e, (segA e).toNat < 100096) (ewA : FVec F SE .f32)
    (dinvA : FVec F SN .f32) (fo : FVec F SE .f32) (O : CellTallies nD τ sig (HIx 2)) (W : Waits sig (HIx 2))
    (v1 : BitVec 32) (k : Fin k1_t1_loop.trips) :
    iprop(Transfers.MayWaits (thr1 d L) (none : HIx 2) O
        ∗ (B6.view.loc (thr1 d L) ↦{fullShare} dinvA)
        ∗ InSt0 d L segA ewA (2 * k.val) ∗ OutSt0 d L (normAll segA ewA dinvA) (2 * k.val)
        ∗ SegP d L segA ewA (2 * k.val) ∗ OutP d L (normAll segA ewA dinvA) fo (2 * k.val)
        ∗ OwesW d L O W)
      ⊢ wp frame (wpE (defs₀ (F := F)) 𝒱₀ (thr1 d L) none) Set.univ
          (k1_part5 L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 0#32 1#32 k)
          fun r => iprop(⌜r = Scalar.addi (Scalar.muli (Scf.iv 0#32 1#32 k) 2#32) 1#32⌝
            ∗ (B6.view.loc (thr1 d L) ↦{fullShare} dinvA)
            ∗ InSt0 d L segA ewA (2 * k.val + 2) ∗ OutSt0 d L (normAll segA ewA dinvA) (2 * k.val + 2)
            ∗ SegP d L segA ewA (2 * k.val + 1) ∗ OutP d L (normAll segA ewA dinvA) fo (2 * k.val + 1)
            ∗ OwesW d L O W) := by
  have hk : k.val < 25 := trips1 ▸ k.isLt
  by_cases h0 : k.val = 0
  · exact half0_zero d L segA hseg ewA dinvA fo O W v1 k h0 (by omega)
  · by_cases h24 : k.val < 24
    · exact half0_mid d L segA hseg ewA dinvA fo O W v1 k (by omega) h24
    · exact half0_last d L segA hseg ewA dinvA fo O W v1 k (by omega) h24

end Cert.Proof.KI.Norm

end
-- ==== Proof.Body1Pair.lean ====
import proofs.«207891_g54065048322743_cont_9to1_m_676_18_alg».proof.Proof.Body1Half

noncomputable section

namespace Cert.Proof.KI.Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

omit [FloatOps F] in
theorem wait1_pos : ∀ k : Fin k1_t1_loop.trips, 0 < k.val →
    Scalar.cmpi .ne (Scalar.extui (Scalar.cmpi .sge (Scalar.addi (Scalar.muli (Scf.iv 0#32 1#32 k) 2#32) 1#32) 2#32)) 0#32 = 1#1 := by
  decide +kernel
omit [FloatOps F] in
theorem wait1_neg : ∀ k : Fin k1_t1_loop.trips, k.val = 0 →
    ¬ Scalar.cmpi .ne (Scalar.extui (Scalar.cmpi .sge (Scalar.addi (Scalar.muli (Scf.iv 0#32 1#32 k) 2#32) 1#32) 2#32)) 0#32 = 1#1 := by
  decide +kernel

set_option maxRecDepth 65536 in

theorem pair_step_mid (d : Dev nD) (L : grid1.Coords) (segA : IVec SE 32) (hseg : ∀ e, (segA e).toNat < 100096) (ewA : FVec F SE .f32)
    (dinvA : FVec F SN .f32) (fo : FVec F SE .f32) (O : CellTallies nD τ sig (HIx 2)) (W : Waits sig (HIx 2))
    (v1 : BitVec 32) (k : Fin k1_t1_loop.trips) (acc : PUnit) (hk0 : 0 < k.val) (hk24 : k.val < 24) :
    inv1 d L segA ewA dinvA fo O W k.val acc
      ⊢ wp frame (wpE (defs₀ (F := F)) 𝒱₀ (thr1 d L) none) Set.univ
          (k1_t1_body L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 k acc)
          (inv1 d L segA ewA dinvA fo O W (k.val + 1)) := by
  have hk : k.val < 25 := trips1 ▸ k.isLt
  unfold inv1
  rw [show 2 * (k.val + 1) = 2 * k.val + 2 from by omega, show 2 * k.val + 2 + 1 = 2 * k.val + 1 + 2 from by omega]
  rw [InSt1_pos d L segA ewA (2 * k.val + 1) (by omega),
    OutSt1_pos d L _ (2 * k.val + 1) (by omega) (2 * k.val + 1 - 2) rfl (coff_inb L _ (by omega)),
    InSt1_pos d L segA ewA (2 * k.val + 1 + 2) (by omega),
    OutSt1_pos d L _ (2 * k.val + 1 + 2) (by omega) (2 * k.val + 1) (by omega) (coff_inb L _ (by omega))]
  unfold k1_t1_body
  iintro ⟨#Hmw, H6, HIn0, ⟨HIn_i, HIn_w⟩, HOut0, HOut, HSeg, HOutP, HOw⟩
  rw [wp_bind]
  iapply (wp_wand frame _ _) $$ [H6 HIn0 HOut0 HSeg HOutP HOw]
  · iapply (half0 d L segA hseg ewA dinvA fo O W v1 k)
    isplitr; · iexact Hmw
    isplitl [H6]; · iexact H6
    isplitl [HIn0]; · iexact HIn0
    isplitl [HOut0]; · iexact HOut0
    isplitl [HSeg]; · iexact HSeg
    isplitl [HOutP]; · iexact HOutP
    iexact HOw
  unfold SegP OutP OwesW FlI1 FlW1 FlO1
  iintro %r ⟨%hr, H6, HIn0, HOut0, ⟨HsL, HsR, HwL, HwR⟩, ⟨HoD, HoT⟩, %W', %hW', HO⟩
  have hc : Scalar.cmpi .ne (Scalar.extui (Scalar.cmpi .sge r 2#32)) 0#32 = 1#1 := by rw [hr]; exact wait1_pos k hk0
  have k1_hI : k1_cond4 k = 1#1 := (cond4_iff k).mpr hk24
  sl_exec
  sl_for (grpInv1 d L segA ewA dinvA (coff L (2 * k.val + 1)) (coff_inb L _ (by omega)) (chunkFn (normAll segA ewA dinvA) (coff L (2 * k.val + 1 - 2)) (coff_inb L _ (by omega)))) $$ [HIn_i_dst HIn_w_dst H6 HOut_src]
  case region =>
    intro g acc
    exact grp_step1 d L segA hseg ewA dinvA _ _ _ g acc
  · unfold grpInv1
    isplitl [HIn_i_dst]; · iexact HIn_i_dst
    isplitl [HIn_w_dst]; · iexact HIn_w_dst
    isplitl [H6]; · iexact H6
    rw [Nat.mul_zero, upTo_zero]; iexact HOut_src
  iintro %acc HI
  unfold grpInv1
  icases HI with ⟨H7, H9, H6, H11⟩
  rw [upTo_all _ _ _ _ (show 4000 ≤ 160 * k1_t3_loop.trips by rw [trips3])]
  ihave HoT' := (cut_out (F := F) d fullShare fo (a := coff L (2 * k.val + 1)) (b := coff L (2 * k.val + 1) + 4000) (c := base1 L + 200000) (by omega) (by unfold coff; omega)).1 $$ HoT
  icases HoT' with ⟨HoC, HoT⟩
  ihave HoC' := (Entails.of_eq (pts_outSl (F := F) d L (k1_off4 L k 1#32) (k1_off4_inb L k 1) (coff L (2 * k.val + 1)) (congrFun (off4_1 L k) 0) _ _).symm) $$ HoC
  ihave H11' := (Entails.of_eq (pts_B12_set (F := F) d L _).symm) $$ H11
  ihave HsR' := (cut_seg (F := F) d fullShare segA (a := coff L (2 * k.val + 1 + 2)) (b := coff L (2 * k.val + 1 + 2) + 4000) (c := base1 L + 200000) (by omega) (by unfold coff; omega)).1 $$ HsR
  icases HsR' with ⟨HsC, HsR⟩
  ihave HsC' := (Entails.of_eq (pts_segSl (F := F) d L (k1_off8 L k) (k1_off8_inb L k k1_hI) (coff L (2 * k.val + 1 + 2)) (congrFun (off8 L k) 0) _ _).symm) $$ HsC
  ihave HwR' := (cut_ew (F := F) d fullShare ewA (a := coff L (2 * k.val + 1 + 2)) (b := coff L (2 * k.val + 1 + 2) + 4000) (c := base1 L + 200000) (by omega) (by unfold coff; omega)).1 $$ HwR
  icases HwR' with ⟨HwC, HwR⟩
  ihave HwC' := (Entails.of_eq (pts_ewSl (F := F) d L (k1_off8 L k) (k1_off8_inb L k k1_hI) (coff L (2 * k.val + 1 + 2)) (congrFun (off8 L k) 0) _ _).symm) $$ HwC
  sl_exec
  sl_step
  sl_unfold_run_names
  rw [show coff L (2 * k.val + 2) = coff L (2 * k.val + 1) + 4000 from by unfold coff; omega, show coff L (2 * k.val + 2 + 2) = coff L (2 * k.val + 1 + 2) + 4000 from by unfold coff; omega,
    show coff L (2 * k.val + 2 - 2) = coff L (2 * k.val + 1 - 2) + 4000 from by unfold coff; omega]
  isplitr; · iexact Hmw
  isplitl [H6]; · iexact H6
  isplitl [HIn0]; · iexact HIn0
  isplitl [HIn_i HIn_w]
  · isplitl [HIn_i]
    · ihave HX := (fl_in8 d L segA (k1_off8 L k) (k1_off8_inb L k k1_hI) (coff L (2 * k.val + 1 + 2)) (congrFun (off8 L k) 0) _ _ (⟨8, _⟩ : DmaSem sig) rfl) $$ HIn_i
      unfold FlI1
      iexact HX
    · ihave HX := (fl_in10 d L ewA (k1_off8 L k) (k1_off8_inb L k k1_hI) (coff L (2 * k.val + 1 + 2)) (congrFun (off8 L k) 0) _ _ (⟨10, _⟩ : DmaSem sig) rfl) $$ HIn_w
      unfold FlW1
      iexact HX
  isplitl [HOut0]; · iexact HOut0
  isplitl [HOut]
  · ihave HX := (fl_out1 d L _ fo (k1_off4 L k 1#32) (k1_off4_inb L k 1) (coff L (2 * k.val + 1)) (congrFun (off4_1 L k) 0) _ (⟨12, _⟩ : DmaSem sig) rfl) $$ HOut
    unfold FlO1
    iexact HX
  isplitl [HsL HIn_i_src HsR HwL HIn_w_src HwR]
  · isplitl [HsL HIn_i_src]
    · iapply (cut_seg (F := F) d fullShare segA (a := base1 L) (b := coff L (2 * k.val + 1)) (c := coff L (2 * k.val + 1) + 4000) (by unfold coff; omega) (by omega)).2
      isplitl [HsL]; · iexact HsL
      iexact HIn_i_src
    isplitl [HsR]; · iexact HsR
    isplitl [HwL HIn_w_src]
    · iapply (cut_ew (F := F) d fullShare ewA (a := base1 L) (b := coff L (2 * k.val + 1)) (c := coff L (2 * k.val + 1) + 4000) (by unfold coff; omega) (by omega)).2
      isplitl [HwL]; · iexact HwL
      iexact HIn_w_src
    iexact HwR
  isplitl [HoD HOut_dst HoT]
  · isplitl [HoD HOut_dst]
    · iapply (cut_out (F := F) d fullShare _ (a := base1 L) (b := coff L (2 * k.val + 1 - 2)) (c := coff L (2 * k.val + 1 - 2) + 4000) (by unfold coff; omega) (by omega)).2
      isplitl [HoD]; · iexact HoD
      iexact HOut_dst
    iexact HoT
  iexists _; isplitr
  swap
  · iexact HO
  · ipureintro; intro p hp
    simp only [Finset.mem_insert] at hp
    rcases hp with rfl | rfl | rfl | hp
    · exact .inr rfl
    · exact .inr rfl
    · exact .inr rfl
    · exact hW' p hp

set_option maxRecDepth 65536 in

theorem pair_step_zero (d : Dev nD) (L : grid1.Coords) (segA : IVec SE 32) (hseg : ∀ e, (segA e).toNat < 100096) (ewA : FVec F SE .f32)
    (dinvA : FVec F SN .f32) (fo : FVec F SE .f32) (O : CellTallies nD τ sig (HIx 2)) (W : Waits sig (HIx 2))
    (v1 : BitVec 32) (k : Fin k1_t1_loop.trips) (acc : PUnit) (hk0 : k.val = 0) (hk24 : k.val < 24) :
    inv1 d L segA ewA dinvA fo O W k.val acc
      ⊢ wp frame (wpE (defs₀ (F := F)) 𝒱₀ (thr1 d L) none) Set.univ
          (k1_t1_body L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 k acc)
          (inv1 d L segA ewA dinvA fo O W (k.val + 1)) := by
  have hk : k.val < 25 := trips1 ▸ k.isLt
  unfold inv1
  rw [show 2 * (k.val + 1) = 2 * k.val + 2 from by omega, show 2 * k.val + 2 + 1 = 2 * k.val + 1 + 2 from by omega]
  rw [InSt1_pos d L segA ewA (2 * k.val + 1) (by omega),
    OutSt1_neg d L _ (2 * k.val + 1) (by omega),
    InSt1_pos d L segA ewA (2 * k.val + 1 + 2) (by omega),
    OutSt1_pos d L _ (2 * k.val + 1 + 2) (by omega) (2 * k.val + 1) (by omega) (coff_inb L _ (by omega))]
  unfold k1_t1_body
  iintro ⟨#Hmw, H6, HIn0, ⟨HIn_i, HIn_w⟩, HOut0, ⟨⟨%f11, H11⟩, Ho0⟩, HSeg, HOutP, HOw⟩
  rw [wp_bind]
  iapply (wp_wand frame _ _) $$ [H6 HIn0 HOut0 HSeg HOutP HOw]
  · iapply (half0 d L segA hseg ewA dinvA fo O W v1 k)
    isplitr; · iexact Hmw
    isplitl [H6]; · iexact H6
    isplitl [HIn0]; · iexact HIn0
    isplitl [HOut0]; · iexact HOut0
    isplitl [HSeg]; · iexact HSeg
    isplitl [HOutP]; · iexact HOutP
    iexact HOw
  unfold SegP OutP OwesW FlI1 FlW1 FlO1
  iintro %r ⟨%hr, H6, HIn0, HOut0, ⟨HsL, HsR, HwL, HwR⟩, ⟨HoD, HoT⟩, %W', %hW', HO⟩
  have hc : ¬ Scalar.cmpi .ne (Scalar.extui (Scalar.cmpi .sge r 2#32)) 0#32 = 1#1 := by rw [hr]; exact wait1_neg k hk0
  have k1_hI : k1_cond4 k = 1#1 := (cond4_iff k).mpr hk24
  sl_exec
  sl_for (grpInv1 d L segA ewA dinvA (coff L (2 * k.val + 1)) (coff_inb L _ (by omega)) f11) $$ [HIn_i_dst HIn_w_dst H6 H11]
  case region =>
    intro g acc
    exact grp_step1 d L segA hseg ewA dinvA _ _ _ g acc
  · unfold grpInv1
    isplitl [HIn_i_dst]; · iexact HIn_i_dst
    isplitl [HIn_w_dst]; · iexact HIn_w_dst
    isplitl [H6]; · iexact H6
    rw [Nat.mul_zero, upTo_zero]; iexact H11
  iintro %acc HI
  unfold grpInv1
  icases HI with ⟨H7, H9, H6, H11⟩
  rw [upTo_all _ _ _ _ (show 4000 ≤ 160 * k1_t3_loop.trips by rw [trips3])]
  ihave HoT' := (cut_out (F := F) d fullShare fo (a := coff L (2 * k.val + 1)) (b := coff L (2 * k.val + 1) + 4000) (c := base1 L + 200000) (by omega) (by unfold coff; omega)).1 $$ HoT
  icases HoT' with ⟨HoC, HoT⟩
  ihave HoC' := (Entails.of_eq (pts_outSl (F := F) d L (k1_off4 L k 1#32) (k1_off4_inb L k 1) (coff L (2 * k.val + 1)) (congrFun (off4_1 L k) 0) _ _).symm) $$ HoC
  ihave H11' := (Entails.of_eq (pts_B12_set (F := F) d L _).symm) $$ H11
  ihave HsR' := (cut_seg (F := F) d fullShare segA (a := coff L (2 * k.val + 1 + 2)) (b := coff L (2 * k.val + 1 + 2) + 4000) (c := base1 L + 200000) (by omega) (by unfold coff; omega)).1 $$ HsR
  icases HsR' with ⟨HsC, HsR⟩
  ihave HsC' := (Entails.of_eq (pts_segSl (F := F) d L (k1_off8 L k) (k1_off8_inb L k k1_hI) (coff L (2 * k.val + 1 + 2)) (congrFun (off8 L k) 0) _ _).symm) $$ HsC
  ihave HwR' := (cut_ew (F := F) d fullShare ewA (a := coff L (2 * k.val + 1 + 2)) (b := coff L (2 * k.val + 1 + 2) + 4000) (c := base1 L + 200000) (by omega) (by unfold coff; omega)).1 $$ HwR
  icases HwR' with ⟨HwC, HwR⟩
  ihave HwC' := (Entails.of_eq (pts_ewSl (F := F) d L (k1_off8 L k) (k1_off8_inb L k k1_hI) (coff L (2 * k.val + 1 + 2)) (congrFun (off8 L k) 0) _ _).symm) $$ HwC
  sl_exec
  sl_step
  sl_unfold_run_names
  rw [show coff L (2 * k.val + 2) = coff L (2 * k.val + 1) + 4000 from by unfold coff; omega, show coff L (2 * k.val + 2 + 2) = coff L (2 * k.val + 1 + 2) + 4000 from by unfold coff; omega,
    show coff L (2 * k.val + 2 - 2) = coff L (2 * k.val + 1 - 2) from by unfold coff; omega]
  isplitr; · iexact Hmw
  isplitl [H6]; · iexact H6
  isplitl [HIn0]; · iexact HIn0
  isplitl [HIn_i HIn_w]
  · isplitl [HIn_i]
    · ihave HX := (fl_in8 d L segA (k1_off8 L k) (k1_off8_inb L k k1_hI) (coff L (2 * k.val + 1 + 2)) (congrFun (off8 L k) 0) _ _ (⟨8, _⟩ : DmaSem sig) rfl) $$ HIn_i
      unfold FlI1
      iexact HX
    · ihave HX := (fl_in10 d L ewA (k1_off8 L k) (k1_off8_inb L k k1_hI) (coff L (2 * k.val + 1 + 2)) (congrFun (off8 L k) 0) _ _ (⟨10, _⟩ : DmaSem sig) rfl) $$ HIn_w
      unfold FlW1
      iexact HX
  isplitl [HOut0]; · iexact HOut0
  isplitl [Ho0]
  · ihave HX := (fl_out1 d L _ fo (k1_off4 L k 1#32) (k1_off4_inb L k 1) (coff L (2 * k.val + 1)) (congrFun (off4_1 L k) 0) _ (⟨12, _⟩ : DmaSem sig) rfl) $$ Ho0
    unfold FlO1
    iexact HX
  isplitl [HsL HIn_i_src HsR HwL HIn_w_src HwR]
  · isplitl [HsL HIn_i_src]
    · iapply (cut_seg (F := F) d fullShare segA (a := base1 L) (b := coff L (2 * k.val + 1)) (c := coff L (2 * k.val + 1) + 4000) (by unfold coff; omega) (by omega)).2
      isplitl [HsL]; · iexact HsL
      iexact HIn_i_src
    isplitl [HsR]; · iexact HsR
    isplitl [HwL HIn_w_src]
    · iapply (cut_ew (F := F) d fullShare ewA (a := base1 L) (b := coff L (2 * k.val + 1)) (c := coff L (2 * k.val + 1) + 4000) (by unfold coff; omega) (by omega)).2
      isplitl [HwL]; · iexact HwL
      iexact HIn_w_src
    iexact HwR
  isplitl [HoD HoT]
  · isplitl [HoD]; · iexact HoD
    iexact HoT
  iexists _; isplitr
  swap
  · iexact HO
  · ipureintro; intro p hp
    simp only [Finset.mem_insert] at hp
    rcases hp with rfl | rfl | hp
    · exact .inr rfl
    · exact .inr rfl
    · exact hW' p hp

set_option maxRecDepth 65536 in

theorem pair_step_last (d : Dev nD) (L : grid1.Coords) (segA : IVec SE 32) (hseg : ∀ e, (segA e).toNat < 100096) (ewA : FVec F SE .f32)
    (dinvA : FVec F SN .f32) (fo : FVec F SE .f32) (O : CellTallies nD τ sig (HIx 2)) (W : Waits sig (HIx 2))
    (v1 : BitVec 32) (k : Fin k1_t1_loop.trips) (acc : PUnit) (hk0 : 0 < k.val) (hk24 : ¬ k.val < 24) :
    inv1 d L segA ewA dinvA fo O W k.val acc
      ⊢ wp frame (wpE (defs₀ (F := F)) 𝒱₀ (thr1 d L) none) Set.univ
          (k1_t1_body L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 k acc)
          (inv1 d L segA ewA dinvA fo O W (k.val + 1)) := by
  have hk : k.val < 25 := trips1 ▸ k.isLt
  unfold inv1
  rw [show 2 * (k.val + 1) = 2 * k.val + 2 from by omega, show 2 * k.val + 2 + 1 = 2 * k.val + 1 + 2 from by omega]
  rw [InSt1_pos d L segA ewA (2 * k.val + 1) (by omega),
    OutSt1_pos d L _ (2 * k.val + 1) (by omega) (2 * k.val + 1 - 2) rfl (coff_inb L _ (by omega)),
    InSt1_neg d L segA ewA (2 * k.val + 1 + 2) (by omega),
    OutSt1_pos d L _ (2 * k.val + 1 + 2) (by omega) (2 * k.val + 1) (by omega) (coff_inb L _ (by omega))]
  unfold k1_t1_body
  iintro ⟨#Hmw, H6, HIn0, ⟨HIn_i, HIn_w⟩, HOut0, HOut, HSeg, HOutP, HOw⟩
  rw [wp_bind]
  iapply (wp_wand frame _ _) $$ [H6 HIn0 HOut0 HSeg HOutP HOw]
  · iapply (half0 d L segA hseg ewA dinvA fo O W v1 k)
    isplitr; · iexact Hmw
    isplitl [H6]; · iexact H6
    isplitl [HIn0]; · iexact HIn0
    isplitl [HOut0]; · iexact HOut0
    isplitl [HSeg]; · iexact HSeg
    isplitl [HOutP]; · iexact HOutP
    iexact HOw
  unfold SegP OutP OwesW FlI1 FlW1 FlO1
  iintro %r ⟨%hr, H6, HIn0, HOut0, ⟨HsL, HsR, HwL, HwR⟩, ⟨HoD, HoT⟩, %W', %hW', HO⟩
  have hc : Scalar.cmpi .ne (Scalar.extui (Scalar.cmpi .sge r 2#32)) 0#32 = 1#1 := by rw [hr]; exact wait1_pos k hk0
  have k1_hI : ¬ k1_cond4 k = 1#1 := fun hh => absurd ((cond4_iff k).mp hh) (by omega)
  sl_exec
  sl_for (grpInv1 d L segA ewA dinvA (coff L (2 * k.val + 1)) (coff_inb L _ (by omega)) (chunkFn (normAll segA ewA dinvA) (coff L (2 * k.val + 1 - 2)) (coff_inb L _ (by omega)))) $$ [HIn_i_dst HIn_w_dst H6 HOut_src]
  case region =>
    intro g acc
    exact grp_step1 d L segA hseg ewA dinvA _ _ _ g acc
  · unfold grpInv1
    isplitl [HIn_i_dst]; · iexact HIn_i_dst
    isplitl [HIn_w_dst]; · iexact HIn_w_dst
    isplitl [H6]; · iexact H6
    rw [Nat.mul_zero, upTo_zero]; iexact HOut_src
  iintro %acc HI
  unfold grpInv1
  icases HI with ⟨H7, H9, H6, H11⟩
  rw [upTo_all _ _ _ _ (show 4000 ≤ 160 * k1_t3_loop.trips by rw [trips3])]
  ihave HoT' := (cut_out (F := F) d fullShare fo (a := coff L (2 * k.val + 1)) (b := coff L (2 * k.val + 1) + 4000) (c := base1 L + 200000) (by omega) (by unfold coff; omega)).1 $$ HoT
  icases HoT' with ⟨HoC, HoT⟩
  ihave HoC' := (Entails.of_eq (pts_outSl (F := F) d L (k1_off4 L k 1#32) (k1_off4_inb L k 1) (coff L (2 * k.val + 1)) (congrFun (off4_1 L k) 0) _ _).symm) $$ HoC
  ihave H11' := (Entails.of_eq (pts_B12_set (F := F) d L _).symm) $$ H11
  sl_exec
  sl_step
  sl_unfold_run_names
  rw [show coff L (2 * k.val + 2) = coff L (2 * k.val + 1) + 4000 from by unfold coff; omega, show coff L (2 * k.val + 2 + 2) = coff L (2 * k.val + 1 + 2) + 4000 from by unfold coff; omega,
    show coff L (2 * k.val + 2 - 2) = coff L (2 * k.val + 1 - 2) + 4000 from by unfold coff; omega]
  rw [eset_empty (a := coff L (2 * k.val + 1 + 2) + 4000) (b := base1 L + 200000) (by unfold coff; omega), eset_empty (a := coff L (2 * k.val + 1 + 2)) (b := base1 L + 200000) (by unfold coff; omega)]
  isplitr; · iexact Hmw
  isplitl [H6]; · iexact H6
  isplitl [HIn0]; · iexact HIn0
  isplitl [H7 H9 HIn_i HIn_w]
  · isplitl [H7]; · iexists _; iexact H7
    isplitl [H9]; · iexists _; iexact H9
    isplitl [HIn_i]; · iexact HIn_i
    iexact HIn_w
  isplitl [HOut0]; · iexact HOut0
  isplitl [HOut]
  · ihave HX := (fl_out1 d L _ fo (k1_off4 L k 1#32) (k1_off4_inb L k 1) (coff L (2 * k.val + 1)) (congrFun (off4_1 L k) 0) _ (⟨12, _⟩ : DmaSem sig) rfl) $$ HOut
    unfold FlO1
    iexact HX
  isplitl [HsL HIn_i_src HsR HwL HIn_w_src HwR]
  · isplitl [HsL HIn_i_src]
    · iapply (cut_seg (F := F) d fullShare segA (a := base1 L) (b := coff L (2 * k.val + 1)) (c := coff L (2 * k.val + 1) + 4000) (by unfold coff; omega) (by omega)).2
      isplitl [HsL]; · iexact HsL
      iexact HIn_i_src
    isplitl [HsR]; · iexact HsR
    isplitl [HwL HIn_w_src]
    · iapply (cut_ew (F := F) d fullShare ewA (a := base1 L) (b := coff L (2 * k.val + 1)) (c := coff L (2 * k.val + 1) + 4000) (by unfold coff; omega) (by omega)).2
      isplitl [HwL]; · iexact HwL
      iexact HIn_w_src
    iexact HwR
  isplitl [HoD HOut_dst HoT]
  · isplitl [HoD HOut_dst]
    · iapply (cut_out (F := F) d fullShare _ (a := base1 L) (b := coff L (2 * k.val + 1 - 2)) (c := coff L (2 * k.val + 1 - 2) + 4000) (by unfold coff; omega) (by omega)).2
      isplitl [HoD]; · iexact HoD
      iexact HOut_dst
    iexact HoT
  iexists _; isplitr
  swap
  · iexact HO
  · ipureintro; intro p hp
    simp only [Finset.mem_insert] at hp
    rcases hp with rfl | rfl | rfl | hp
    · exact .inr rfl
    · exact .inr rfl
    · exact .inr rfl
    · exact hW' p hp

set_option maxRecDepth 65536 in

theorem pair_step (d : Dev nD) (L : grid1.Coords) (segA : IVec SE 32) (hseg : ∀ e, (segA e).toNat < 100096) (ewA : FVec F SE .f32)
    (dinvA : FVec F SN .f32) (fo : FVec F SE .f32) (O : CellTallies nD τ sig (HIx 2)) (W : Waits sig (HIx 2))
    (v1 : BitVec 32) (k : Fin k1_t1_loop.trips) (acc : PUnit) :
    inv1 d L segA ewA dinvA fo O W k.val acc
      ⊢ wp frame (wpE (defs₀ (F := F)) 𝒱₀ (thr1 d L) none) Set.univ
          (k1_t1_body L A2 (Memref.isWhole_whole _) A3 (Memref.isWhole_whole _) A4 (Memref.isWhole_whole _) A5 (Memref.isWhole_whole _)
            B6 (Memref.isWhole_whole _) B7 (Memref.isWhole_whole _) B8 (Memref.isWhole_whole _) B9 (Memref.isWhole_whole _)
            B10 (Memref.isWhole_whole _) B11 (Memref.isWhole_whole _) B12 (Memref.isWhole_whole _)
            cc1_scratch7 cc1_scratch8 cc1_scratch9 cc1_scratch10 v1 k acc)
          (inv1 d L segA ewA dinvA fo O W (k.val + 1)) := by
  have hk : k.val < 25 := trips1 ▸ k.isLt
  by_cases h0 : k.val = 0
  · exact pair_step_zero d L segA hseg ewA dinvA fo O W v1 k acc h0 (by omega)
  · by_cases h24 : k.val < 24
    · exact pair_step_mid d L segA hseg ewA dinvA fo O W v1 k acc (by omega) h24
    · exact pair_step_last d L segA hseg ewA dinvA fo O W v1 k acc (by omega) h24

end Cert.Proof.KI.Norm

end
-- ==== Proof.Body1.lean ====
import proofs.«207891_g54065048322743_cont_9to1_m_676_18_alg».proof.Proof.Body1Pair

noncomputable section

namespace Cert.Proof.KI

open Norm

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

omit [FloatOps F] in
private theorem pts_A4_set (d : Dev nD) (L : grid1.Coords) (q : PosShare TreeShare) (f : Buf (Elt F) (dinvLoc d)) :
    (A4.view.loc (thr1 d L) ↦[A4.view.set]{q} f : sProp 𝕄) = (dinvLoc d ↦{q} f) := by
  simp only [Memref.view_whole, View.set_whole]
omit [FloatOps F] in
private theorem pts_B6 (d : Dev nD) (L : grid1.Coords) (f : Buf (Elt F) ((thr1 d L).loc cc1_scratch0)) :
    (B6.view.loc (thr1 d L) ↦{fullShare} f : sProp 𝕄) = ((thr1 d L).loc cc1_scratch0 ↦{fullShare} f) := rfl
omit [FloatOps F] in
private theorem pts_B7 (d : Dev nD) (L : grid1.Coords) (f : Buf (Elt F) ((thr1 d L).loc cc1_scratch1)) :
    (B7.view.loc (thr1 d L) ↦{fullShare} f : sProp 𝕄) = ((thr1 d L).loc cc1_scratch1 ↦{fullShare} f) := rfl
omit [FloatOps F] in
private theorem pts_B8 (d : Dev nD) (L : grid1.Coords) (f : Buf (Elt F) ((thr1 d L).loc cc1_scratch2)) :
    (B8.view.loc (thr1 d L) ↦{fullShare} f : sProp 𝕄) = ((thr1 d L).loc cc1_scratch2 ↦{fullShare} f) := rfl
omit [FloatOps F] in
private theorem pts_B9 (d : Dev nD) (L : grid1.Coords) (f : Buf (Elt F) ((thr1 d L).loc cc1_scratch3)) :
    (B9.view.loc (thr1 d L) ↦{fullShare} f : sProp 𝕄) = ((thr1 d L).loc cc1_scratch3 ↦{fullShare} f) := rfl
omit [FloatOps F] in
private theorem pts_B10 (d : Dev nD) (L : grid1.Coords) (f : Buf (Elt F) ((thr1 d L).loc cc1_scratch4)) :
    (B10.view.loc (thr1 d L) ↦{fullShare} f : sProp 𝕄) = ((thr1 d L).loc cc1_scratch4 ↦{fullShare} f) := rfl
omit [FloatOps F] in
private theorem pts_B11 (d : Dev nD) (L : grid1.Coords) (f : Buf (Elt F) ((thr1 d L).loc cc1_scratch5)) :
    (B11.view.loc (thr1 d L) ↦{fullShare} f : sProp 𝕄) = ((thr1 d L).loc cc1_scratch5 ↦{fullShare} f) := rfl
omit [FloatOps F] in
private theorem pts_B12 (d : Dev nD) (L : grid1.Coords) (f : Buf (Elt F) ((thr1 d L).loc cc1_scratch6)) :
    (B12.view.loc (thr1 d L) ↦{fullShare} f : sProp 𝕄) = ((thr1 d L).loc cc1_scratch6 ↦{fullShare} f) := rfl

omit [FloatOps F] in
private theorem head_seg (d : Dev nD) (L : grid1.Coords) (q : PosShare TreeShare) (f : IVec SE 32) (j : Nat) (hj : j < 50) :
    (segLoc d ↦[eset (coff L j) (base1 L + 200000)]{q} f : sProp 𝕄)
      ⊣⊢ iprop((segLoc d ↦[eset (coff L j) (coff L j + 4000)]{q} f) ∗ (segLoc d ↦[eset (coff L (j + 1)) (base1 L + 200000)]{q} f)) := by
  rw [coff_succ]; exact cut_seg d q f (by omega) (by unfold coff; omega)
omit [FloatOps F] in
private theorem head_ew (d : Dev nD) (L : grid1.Coords) (q : PosShare TreeShare) (f : FVec F SE .f32) (j : Nat) (hj : j < 50) :
    (ewLoc d ↦[eset (coff L j) (base1 L + 200000)]{q} f : sProp 𝕄)
      ⊣⊢ iprop((ewLoc d ↦[eset (coff L j) (coff L j + 4000)]{q} f) ∗ (ewLoc d ↦[eset (coff L (j + 1)) (base1 L + 200000)]{q} f)) := by
  rw [coff_succ]; exact cut_ew d q f (by omega) (by unfold coff; omega)

omit [FloatOps F] in
private theorem seg_none (d : Dev nD) (q : PosShare TreeShare) (f : IVec SE 32) {a b : Nat} (h : b ≤ a) :
    (emp : sProp 𝕄) ⊢ (segLoc d ↦[eset a b]{q} f) := by
  rw [eset_empty h, pointsTo_empty]
omit [FloatOps F] in
private theorem ew_none (d : Dev nD) (q : PosShare TreeShare) (f : FVec F SE .f32) {a b : Nat} (h : b ≤ a) :
    (emp : sProp 𝕄) ⊢ (ewLoc d ↦[eset a b]{q} f) := by
  rw [eset_empty h, pointsTo_empty]
omit [FloatOps F] in
private theorem out_none (d : Dev nD) (q : PosShare TreeShare) (f : FVec F SE .f32) {a b : Nat} (h : b ≤ a) :
    (emp : sProp 𝕄) ⊢ (outLoc d ↦[eset a b]{q} f) := by
  rw [eset_empty h, pointsTo_empty]

private theorem join_out (d : Dev nD) (L : grid1.Coords) (q : PosShare TreeShare) (G : FVec F SE .f32) :
    iprop((outLoc d ↦[eset (base1 L) (coff L 48)]{q} G) ∗ (outLoc d ↦[eset (coff L 48) (coff L 48 + 4000)]{q} G)
        ∗ (outLoc d ↦[eset (coff L 49) (coff L 49 + 4000)]{q} G))
      ⊢ (outLoc d ↦[eset (base1 L) (base1 L + 200000)]{q} G : sProp 𝕄) := by
  have e1 : coff L 49 = coff L 48 + 4000 := coff_succ L 48
  have e2 : base1 L + 200000 = coff L 48 + 4000 + 4000 := by unfold coff; omega
  rw [e2, e1]
  iintro ⟨H1, H2, H3⟩
  iapply (cut_out (F := F) d q G (a := base1 L) (b := coff L 48 + 4000) (c := coff L 48 + 4000 + 4000) (by unfold coff; omega) (by omega)).2
  isplitl [H1 H2]
  · iapply (cut_out (F := F) d q G (a := base1 L) (b := coff L 48) (c := coff L 48 + 4000) (by unfold coff; omega) (by omega)).2
    isplitl [H1]; · iexact H1
    iexact H2
  · iexact H3

set_option maxRecDepth 65536 in
set_option maxHeartbeats 4000000 in

theorem body1 (hF : (K (F := F)).Facts) (d : Dev nD) (L : grid1.Coords) (segA : IVec SE 32) (ewA : FVec F SE .f32) (dinvA : FVec F SN .f32)
    (hseg : ∀ e, (segA e).toNat < 100096) (O : CellTallies nD τ sig (HIx 2)) (W : Waits sig (HIx 2)) (hO : ∀ g, O g none = 0) :
    iprop(levAts (K (F := F)).L (K (F := F)).lev ∗ emp ∗ go1 d segA ewA dinvA (tOf1 L)
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1__normalize L (Memref.whole main_v1_scv) (Memref.isWhole_whole _) (Memref.whole main_v2_1_scv) (Memref.isWhole_whole _)
            (Memref.whole main_v67_scv) (Memref.isWhole_whole _) (Memref.whole main_v68_scv) (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) cc1_scratch7 cc1_scratch8 cc1_scratch9 cc1_scratch10)
          fun _ => iprop(td1 d segA ewA dinvA (tOf1 L) ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') := by
  simp only [cc1__normalize_eq_skeleton]; unfold cc1__normalize_skel
  unfold go1
  rw [edgesOf_eq L, show eset (base1 L) (base1 L + 200000) = eset (coff L 0) (base1 L + 200000) from by rw [coff_zero]]
  rw [(K (F := F)).scopedBufs_V hF d (cV1 L) (jV1 L), SparseCore.Cfg.scopedSems0_V (Val := Elt F) d (cV1 L) (jV1 L), ownSems0_V1, ownBufs_V1]
  iintro ⟨#Hlv, -, ⟨Hseg, Hew, Hdinv, %fo, Hout⟩, ⟨⟨⟨%f6, H6⟩, ⟨%f7, H7⟩, ⟨%f8, H8⟩, ⟨%f9, H9⟩, ⟨%f10, H10⟩, ⟨%f11, H11⟩, ⟨%f12, H12⟩⟩, Hbufs⟩,
    ⟨⟨Hi0, Hi1, Hw0, Hw1, Ho0, Ho1, Hd⟩, Hsems⟩, HO⟩
  ihave Hmw := ((K (F := F)).mayWaits_none (thr := thr1 d L) hO) $$ Hlv

  ihave Hs := (head_seg (F := F) d L fullShare segA 0 (by omega)).1 $$ Hseg
  icases Hs with ⟨Hs0, Hs⟩
  ihave Hs := (head_seg (F := F) d L fullShare segA 1 (by omega)).1 $$ Hs
  icases Hs with ⟨Hs1, HsR⟩
  ihave Hw := (head_ew (F := F) d L fullShare ewA 0 (by omega)).1 $$ Hew
  icases Hw with ⟨Hw0c, Hw⟩
  ihave Hw := (head_ew (F := F) d L fullShare ewA 1 (by omega)).1 $$ Hw
  icases Hw with ⟨Hw1c, HwR⟩
  ihave Hs0' := (Entails.of_eq (pts_segSl (F := F) d L (k1_off1 L 0#32) (k1_off1_inb L 0) (coff L 0) (congrFun (off1_0 L) 0) _ _).symm) $$ Hs0
  ihave Hs1' := (Entails.of_eq (pts_segSl (F := F) d L (k1_off1 L 4000#32) (k1_off1_inb L 1) (coff L 1) (congrFun (off1_1 L) 0) _ _).symm) $$ Hs1
  ihave Hw0' := (Entails.of_eq (pts_ewSl (F := F) d L (k1_off1 L 0#32) (k1_off1_inb L 0) (coff L 0) (congrFun (off1_0 L) 0) _ _).symm) $$ Hw0c
  ihave Hw1' := (Entails.of_eq (pts_ewSl (F := F) d L (k1_off1 L 4000#32) (k1_off1_inb L 1) (coff L 1) (congrFun (off1_1 L) 0) _ _).symm) $$ Hw1c
  ihave Hdinv' := (Entails.of_eq (pts_A4_set (F := F) d L _ _).symm) $$ Hdinv
  ihave H6' := (Entails.of_eq (pts_B6 (F := F) d L _).symm) $$ H6
  ihave H7' := (Entails.of_eq (pts_B7 (F := F) d L _).symm) $$ H7
  ihave H8' := (Entails.of_eq (pts_B8 (F := F) d L _).symm) $$ H8
  ihave H9' := (Entails.of_eq (pts_B9 (F := F) d L _).symm) $$ H9
  ihave H10' := (Entails.of_eq (pts_B10 (F := F) d L _).symm) $$ H10
  ihave H11' := (Entails.of_eq (pts_B11 (F := F) d L _).symm) $$ H11
  ihave H12' := (Entails.of_eq (pts_B12 (F := F) d L _).symm) $$ H12
  sl_exec
  sl_unfold_run_names
  rw [land6 dinvA f6]
  sl_for (inv1 d L segA ewA dinvA fo O W) $$ [Hmw H6' Hi0 Hw0 Hi1 Hw1 H11' Ho0 H12' Ho1 HsR HwR Hout HO]
  case region =>
    intro k acc
    exact pair_step d L segA hseg ewA dinvA fo O W _ k acc
  · unfold inv1
    rw [InSt0_pos d L segA ewA (2 * 0) (by omega), InSt1_pos d L segA ewA (2 * 0 + 1) (by omega),
      OutSt0_neg d L _ (2 * 0) (by omega), OutSt1_neg d L _ (2 * 0 + 1) (by omega)]
    unfold SegP OutP OwesW
    isplitl [Hmw]; · iexact Hmw
    isplitl [H6']; · iexact H6'
    isplitl [Hi0 Hw0]
    · isplitl [Hi0]
      · iapply (fl_in7 d L segA (k1_off1 L 0#32) (k1_off1_inb L 0) (coff L (2 * 0)) (congrFun (off1_0 L) 0) _ _ (⟨7, _⟩ : DmaSem sig) rfl) $$ Hi0
      · iapply (fl_in9 d L ewA (k1_off1 L 0#32) (k1_off1_inb L 0) (coff L (2 * 0)) (congrFun (off1_0 L) 0) _ _ (⟨9, _⟩ : DmaSem sig) rfl) $$ Hw0
    isplitl [Hi1 Hw1]
    · isplitl [Hi1]
      · iapply (fl_in8 d L segA (k1_off1 L 4000#32) (k1_off1_inb L 1) (coff L (2 * 0 + 1)) (congrFun (off1_1 L) 0) _ _ (⟨8, _⟩ : DmaSem sig) rfl) $$ Hi1
      · iapply (fl_in10 d L ewA (k1_off1 L 4000#32) (k1_off1_inb L 1) (coff L (2 * 0 + 1)) (congrFun (off1_1 L) 0) _ _ (⟨10, _⟩ : DmaSem sig) rfl) $$ Hw1
    isplitl [H11' Ho0]
    · isplitl [H11']; · iexists _; iexact H11'
      iexact Ho0
    isplitl [H12' Ho1]
    · isplitl [H12']; · iexists _; iexact H12'
      iexact Ho1
    isplitl [HsR HwR]
    · isplitr; · iapply (seg_none (F := F) d fullShare segA (a := base1 L) (b := coff L (2 * 0)) (by unfold coff; omega)); iempintro
      isplitl [HsR]; · iexact HsR
      isplitr; · iapply (ew_none (F := F) d fullShare ewA (a := base1 L) (b := coff L (2 * 0)) (by unfold coff; omega)); iempintro
      iexact HwR
    isplitl [Hout]
    · isplitr; · iapply (out_none (F := F) d fullShare _ (a := base1 L) (b := coff L (2 * 0 - 2)) (by unfold coff; omega)); iempintro
      iexact Hout
    iexists _; isplitr; swap; · iexact HO
    ipureintro; intro p hp
    rcases Finset.mem_insert.mp hp with hp | hp
    · exact .inr (hp ▸ rfl)
    · exact .inl hp
  iintro %acc HI
  unfold inv1
  rw [show Scf.trips k1_t1_loop.lb k1_t1_loop.ub k1_t1_loop.st = 25 from trips1,
    InSt0_neg d L segA ewA (2 * 25) (by omega), InSt1_neg d L segA ewA (2 * 25 + 1) (by omega),
    OutSt0_pos d L _ (2 * 25) (by omega) 48 (by omega) (coff_inb L 48 (by omega)),
    OutSt1_pos d L _ (2 * 25 + 1) (by omega) 49 (by omega) (coff_inb L 49 (by omega))]
  unfold SegP OutP OwesW FlO0 FlO1
  icases HI with ⟨-, H6, ⟨⟨%f7', H7⟩, ⟨%f9', H9⟩, Hi0, Hw0⟩, ⟨⟨%f8', H8⟩, ⟨%f10', H10⟩, Hi1, Hw1⟩, HFo0, HFo1, ⟨HsL, -, HwL, -⟩, ⟨HoD, -⟩, %W', %hW', HO⟩
  sl_exec
  sl_step
  unfold td1
  rw [edgesOf_eq L, show coff L (2 * 25) = base1 L + 200000 from coff_fifty L, show 2 * 25 - 2 = 48 from rfl]
  isplitl [HsL HwL Hdinv' HoD HFo0_dst HFo1_dst]
  · isplitl [HsL]; · iexact HsL
    isplitl [HwL]; · iexact HwL
    isplitl [Hdinv']; · iapply (Entails.of_eq (pts_A4_set (F := F) d L _ _)); iexact Hdinv'
    iapply (join_out d L fullShare _)
    isplitl [HoD]; · iexact HoD
    isplitl [HFo0_dst]; · iexact HFo0_dst
    iexact HFo1_dst
  isplitl [H6 H7 H8 H9 H10 HFo0_src HFo1_src Hbufs]
  · isplitl [H6 H7 H8 H9 H10 HFo0_src HFo1_src]
    · isplitl [H6]; · iexists _; iapply (Entails.of_eq (pts_B6 (F := F) d L _)); iexact H6
      isplitl [H7]; · iexists _; iapply (Entails.of_eq (pts_B7 (F := F) d L _)); iexact H7
      isplitl [H8]; · iexists _; iapply (Entails.of_eq (pts_B8 (F := F) d L _)); iexact H8
      isplitl [H9]; · iexists _; iapply (Entails.of_eq (pts_B9 (F := F) d L _)); iexact H9
      isplitl [H10]; · iexists _; iapply (Entails.of_eq (pts_B10 (F := F) d L _)); iexact H10
      isplitl [HFo0_src]; · iexists _; iapply (Entails.of_eq (pts_B11 (F := F) d L _)); iexact HFo0_src
      iexists _; iapply (Entails.of_eq (pts_B12 (F := F) d L _)); iexact HFo1_src
    · iexact Hbufs
  isplitl [Hi0 Hi1 Hw0 Hw1 HFo0 HFo1 Hd Hsems]
  · isplitl [Hi0 Hi1 Hw0 Hw1 HFo0 HFo1 Hd]
    · isplitl [Hi0]; · iexact Hi0
      isplitl [Hi1]; · iexact Hi1
      isplitl [Hw0]; · iexact Hw0
      isplitl [Hw1]; · iexact Hw1
      isplitl [HFo0]; · iexact HFo0
      isplitl [HFo1]; · iexact HFo1
      iexact Hd
    · iexact Hsems
  iexists _; isplitr; swap; · iexact HO
  ipureintro; intro p hp
  rcases Finset.mem_insert.mp hp with hp | hp
  · exact .inr (hp ▸ rfl)
  rcases Finset.mem_insert.mp hp with hp | hp
  · exact .inr (hp ▸ rfl)
  · exact hW' p hp

end Cert.Proof.KI

end
-- ==== Proof.Launch.lean ====
import proofs.«207891_g54065048322743_cont_9to1_m_676_18_alg».proof.Proof.Body0
import proofs.«207891_g54065048322743_cont_9to1_m_676_18_alg».proof.Proof.Body1

noncomputable section

namespace Cert.Proof.KI

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

def segA (d : Dev nD) : IVec SE 32 := segOf (m (a0Loc d))
def wA (d : Dev nD) : FVec F SE .f32 := m (wLoc d)
def ewA (d : Dev nD) : FVec F SE .f32 := expAll (wA m d)
def dinvA (d : Dev nD) : FVec F SN .f32 := dinvOf (accOf (partialAll (segA m d) (wA m d)))

def PreOK : Prop := ∀ (d : Dev nD) (e : SE.Idx), (segA m d e).toNat < 100096

def goP (q : Fin 2) (d : Dev nD) (c : Fin ((K (F := F)).nCore q)) (i : Fin ((K (F := F)).nSub q)) : sProp 𝕄 :=
  match q with
  | 0 => go0 d (segA m d) (wA m d) (16 * c.val + i.val)
  | 1 => go1 d (segA m d) (ewA m d) (dinvA m d) (16 * c.val + i.val)
def tdP (q : Fin 2) (d : Dev nD) (c : Fin ((K (F := F)).nCore q)) (i : Fin ((K (F := F)).nSub q)) : sProp 𝕄 :=
  match q with
  | 0 => td0 d (segA m d) (wA m d) (16 * c.val + i.val)
  | 1 => td1 d (segA m d) (ewA m d) (dinvA m d) (16 * c.val + i.val)

def P : (K (F := F)).Pay (nD := nD) (Val := Elt F) (Name := ℕ) (U := UU) where
  st := fun q d c => bigSep Finset.univ fun i => goP m q d c i
  dn := fun q d c => bigSep Finset.univ fun i => tdP m q d c i
  go := goP m
  td := tdP m
  x := fun _ _ => iprop(emp)

instance goP_storable (q : Fin 2) (d : Dev nD) (c : Fin ((K (F := F)).nCore q)) (i : Fin ((K (F := F)).nSub q)) :
    BI.Storable (upEmb : UEmb _ 𝕄) (goP m q d c i) := by
  unfold goP; match q with
  | 0 => unfold go0; infer_instance
  | 1 => unfold go1; infer_instance
instance tdP_storable (q : Fin 2) (d : Dev nD) (c : Fin ((K (F := F)).nCore q)) (i : Fin ((K (F := F)).nSub q)) :
    BI.Storable (upEmb : UEmb _ 𝕄) (tdP m q d c i) := by
  unfold tdP; match q with
  | 0 => unfold td0; infer_instance
  | 1 => unfold td1; infer_instance

instance P_storable : (P (F := F) m).IsStorable where
  st q d c := by unfold P; infer_instance
  dn q d c := by unfold P; infer_instance
  go q d c i := by unfold P; infer_instance
  td q d c i := by unfold P; infer_instance

theorem vecSplit (q : Fin 2) : (K (F := F)).VecSplit' (P m) q := by
  intro d c
  show (bigSep Finset.univ fun i => goP m q d c i) ⊢ |={Set.univ}=> iprop((bigSep Finset.univ fun i => goP m q d c i)
    ∗ ((bigSep Finset.univ fun i => tdP m q d c i) -∗ (bigSep Finset.univ fun i => tdP m q d c i)))
  iintro H; imodintro
  isplitl [H]; · iexact H
  iintro H; iexact H

def coordsV0 (c : Fin (grid0.bound 0)) (s : Fin (grid0.bound 1)) : grid0.Coords :=
  fun | 0 => c | 1 => s | ⟨_ + 2, h⟩ => absurd h (Nat.not_lt.2 (Nat.le_add_left _ _))
def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0__segment_sum (coordsV0 c s)
          (Memref.whole main_v1_scv) (Memref.isWhole_whole _) (Memref.whole main_arg1_scv) (Memref.isWhole_whole _)
          (Memref.whole main_v2_0_scv) (Memref.isWhole_whole _) (Memref.whole main_v2_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) cc0_scratch7 cc0_scratch8 cc0_scratch9 cc0_scoped0) ⟨⟩ c s := rfl

theorem defs₀_vector1 (c : Fin τ.nSC) (s : Fin τ.nSub) :
    defs₀ (F := F) (.scVector c s) 1 ()
      = SparseCore.onTile hcore1 hsub1 (fun c s => cc1__normalize (coordsV1 c s)
          (Memref.whole main_v1_scv) (Memref.isWhole_whole _) (Memref.whole main_v2_1_scv) (Memref.isWhole_whole _)
          (Memref.whole main_v67_scv) (Memref.isWhole_whole _) (Memref.whole main_v68_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) cc1_scratch7 cc1_scratch8 cc1_scratch9 cc1_scratch10) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (body0 hF d (coordsV0 ⟨_, hc.1⟩ ⟨_, hc.2⟩) (segA m d) (wA m d) (hpre d) O W hO).trans (wp_mono frame _ _ fun _ => obl_post)

theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector1]; simp only [SparseCore.onTile, hc, and_self, ↓reduceDIte]
  exact (body1 hF d (coordsV1 ⟨_, hc.1⟩ ⟨_, hc.2⟩) (segA m d) (ewA m d) (dinvA m d) (hpre d) O W hO).trans (wp_mono frame _ _ fun _ => obl_post)

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

end Cert.Proof.KI

end
-- ==== Proof.ArraySplit.lean ====
import proofs.«207891_g54065048322743_cont_9to1_m_676_18_alg».proof.Proof.Iface

noncomputable section

namespace Cert.Proof.KI

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

theorem edges_disjoint : ∀ s t : Nat, s ≠ t → Disjoint (edgesOf s) (edgesOf t) := by
  intro s t hst
  unfold edgesOf
  exact Finset.disjoint_filter.2 (fun e _ hs ht => hst (hs.symm.trans ht))

theorem edges_cover : (Finset.range 32).biUnion edgesOf = Finset.univ := by
  refine Finset.eq_univ_iff_forall.2 fun e => ?_
  have he : (e 0).val < 6400000 := (e 0).isLt
  refine Finset.mem_biUnion.2 ⟨(e 0).val / 200000, Finset.mem_range.2 (by omega), ?_⟩
  unfold edgesOf
  exact Finset.mem_filter.2 ⟨Finset.mem_univ _, rfl⟩

theorem slots_disjoint : ∀ s t : Nat, s ≠ t → Disjoint (slotsOf s) (slotsOf t) := by
  intro s t hst
  unfold slotsOf
  exact Finset.disjoint_filter.2 (fun i _ hs ht => hst (hs.symm.trans ht))

theorem slots_cover : (Finset.range 32).biUnion slotsOf = Finset.univ := by
  refine Finset.eq_univ_iff_forall.2 fun i => ?_
  have hi : (i 0).val < 3203072 := (i 0).isLt
  refine Finset.mem_biUnion.2 ⟨(i 0).val / 100096, Finset.mem_range.2 (by omega), ?_⟩
  unfold slotsOf
  exact Finset.mem_filter.2 ⟨Finset.mem_univ _, rfl⟩

theorem core_sub_of_wid {c c' : Fin 2} {i i' : Fin 16} (h : 16 * c.val + i.val = 16 * c'.val + i'.val) :
    (c, i) = (c', i') := by
  have hc : c.val = c'.val := by omega
  have hi : i.val = i'.val := by omega
  exact Prod.ext (Fin.ext hc) (Fin.ext hi)

theorem cover_pairs {α : Type} [DecidableEq α] [Fintype α] (K : Nat → Finset α)
    (hc : (Finset.range 32).biUnion K = Finset.univ) :
    (Finset.univ : Finset (Fin 2 × Fin 16)).biUnion (fun p => K (16 * p.1.val + p.2.val)) = Finset.univ := by
  refine Finset.eq_univ_iff_forall.2 fun x => ?_
  have hx : x ∈ (Finset.range 32).biUnion K := hc ▸ Finset.mem_univ x
  obtain ⟨t, ht, hxt⟩ := Finset.mem_biUnion.1 hx
  have ht' := Finset.mem_range.1 ht
  refine Finset.mem_biUnion.2 ⟨(⟨t / 16, by omega⟩, ⟨t % 16, by omega⟩), Finset.mem_univ _, ?_⟩
  show x ∈ K (16 * (t / 16) + t % 16)
  rw [Nat.div_add_mod]; exact hxt

theorem pts_pieces {ℓ : Loc nD τ sig} (K : Nat → Finset (Idx ℓ)) (hd : ∀ s t : Nat, s ≠ t → Disjoint (K s) (K t))
    (hc : (Finset.range 32).biUnion K = Finset.univ) (f : Buf (Elt F) ℓ) :
    (ℓ ↦{fullShare} f : sProp 𝕄)
      = bigSep Finset.univ fun c : Fin 2 => bigSep Finset.univ fun i : Fin 16 =>
          ℓ ↦[K (16 * c.val + i.val)]{fullShare} f := by
  rw [← bigSep_univ_prod (fun p : Fin 2 × Fin 16 => (ℓ ↦[K (16 * p.1.val + p.2.val)]{fullShare} f : sProp 𝕄)),
    ← pointsTo_biUnion Finset.univ (ℓ := ℓ) (fun p : Fin 2 × Fin 16 => K (16 * p.1.val + p.2.val))
      (fun p _ p' _ hne => hd _ _ (fun h => hne (core_sub_of_wid h))), cover_pairs K hc]

theorem pts_pieces_join {ℓ : Loc nD τ sig} (K : Nat → Finset (Idx ℓ)) (hd : ∀ s t : Nat, s ≠ t → Disjoint (K s) (K t))
    (hc : (Finset.range 32).biUnion K = Finset.univ) (f₀ : Buf (Elt F) ℓ) :
    (bigSep Finset.univ fun c : Fin 2 => bigSep Finset.univ fun i : Fin 16 =>
        iprop(∃ f, ℓ ↦[K (16 * c.val + i.val)]{fullShare} f))
      ⊢ (iprop(∃ f, ℓ ↦{fullShare} f) : sProp 𝕄) := by
  haveI : Nonempty (Buf (Elt F) ℓ) := ⟨f₀⟩
  rw [← bigSep_univ_prod (fun p : Fin 2 × Fin 16 => (iprop(∃ f, ℓ ↦[K (16 * p.1.val + p.2.val)]{fullShare} f) : sProp 𝕄))]
  refine (bigSep_exists_pi Finset.univ
    (fun (p : Fin 2 × Fin 16) (f : Buf (Elt F) ℓ) => (ℓ ↦[K (16 * p.1.val + p.2.val)]{fullShare} f : sProp 𝕄))).trans ?_
  iintro ⟨%fs, H⟩
  ihave H' := (pointsTo_biUnion_join Finset.univ (fun p : Fin 2 × Fin 16 => K (16 * p.1.val + p.2.val)) fs f₀
    (fun p _ p' _ hne => hd _ _ (fun h => hne (core_sub_of_wid h)))) $$ H
  icases H' with ⟨%g, -, Hg⟩
  rw [cover_pairs K hc]
  iexists g; iexact Hg

theorem seg_workers (d : Dev nD) (f : Buf (Elt F) (segLoc d)) :
    (segLoc d ↦{fullShare} f : sProp 𝕄)
      = bigSep Finset.univ fun c : Fin 2 => bigSep Finset.univ fun i : Fin 16 =>
          segLoc d ↦[edgesOf (16 * c.val + i.val)]{fullShare} f :=
  pts_pieces (ℓ := segLoc d) edgesOf edges_disjoint edges_cover f

theorem w_workers (d : Dev nD) (f : Buf (Elt F) (wLoc d)) :
    (wLoc d ↦{fullShare} f : sProp 𝕄)
      = bigSep Finset.univ fun c : Fin 2 => bigSep Finset.univ fun i : Fin 16 =>
          wLoc d ↦[edgesOf (16 * c.val + i.val)]{fullShare} f :=
  pts_pieces (ℓ := wLoc d) edgesOf edges_disjoint edges_cover f

theorem ew_workers (d : Dev nD) (f : Buf (Elt F) (ewLoc d)) :
    (ewLoc d ↦{fullShare} f : sProp 𝕄)
      = bigSep Finset.univ fun c : Fin 2 => bigSep Finset.univ fun i : Fin 16 =>
          ewLoc d ↦[edgesOf (16 * c.val + i.val)]{fullShare} f :=
  pts_pieces (ℓ := ewLoc d) edgesOf edges_disjoint edges_cover f

theorem out_workers (d : Dev nD) (f : Buf (Elt F) (outLoc d)) :
    (outLoc d ↦{fullShare} f : sProp 𝕄)
      = bigSep Finset.univ fun c : Fin 2 => bigSep Finset.univ fun i : Fin 16 =>
          outLoc d ↦[edgesOf (16 * c.val + i.val)]{fullShare} f :=
  pts_pieces (ℓ := outLoc d) edgesOf edges_disjoint edges_cover f

theorem part_workers (d : Dev nD) (f : Buf (Elt F) (partLoc d)) :
    (partLoc d ↦{fullShare} f : sProp 𝕄)
      = bigSep Finset.univ fun c : Fin 2 => bigSep Finset.univ fun i : Fin 16 =>
          partLoc d ↦[slotsOf (16 * c.val + i.val)]{fullShare} f :=
  pts_pieces (ℓ := partLoc d) slotsOf slots_disjoint slots_cover f

theorem ew_workers_join (d : Dev nD) :
    (bigSep Finset.univ fun c : Fin 2 => bigSep Finset.univ fun i : Fin 16 =>
        iprop(∃ f, ewLoc d ↦[edgesOf (16 * c.val + i.val)]{fullShare} f))
      ⊢ (iprop(∃ f, ewLoc d ↦{fullShare} f) : sProp 𝕄) :=
  pts_pieces_join (ℓ := ewLoc d) edgesOf edges_disjoint edges_cover (fun _ => default)

theorem out_workers_join (d : Dev nD) :
    (bigSep Finset.univ fun c : Fin 2 => bigSep Finset.univ fun i : Fin 16 =>
        iprop(∃ f, outLoc d ↦[edgesOf (16 * c.val + i.val)]{fullShare} f))
      ⊢ (iprop(∃ f, outLoc d ↦{fullShare} f) : sProp 𝕄) :=
  pts_pieces_join (ℓ := outLoc d) edgesOf edges_disjoint edges_cover (fun _ => default)

theorem part_workers_join (d : Dev nD) :
    (bigSep Finset.univ fun c : Fin 2 => bigSep Finset.univ fun i : Fin 16 =>
        iprop(∃ f, partLoc d ↦[slotsOf (16 * c.val + i.val)]{fullShare} f))
      ⊢ (iprop(∃ f, partLoc d ↦{fullShare} f) : sProp 𝕄) :=
  pts_pieces_join (ℓ := partLoc d) slotsOf slots_disjoint slots_cover (fun _ => default)

end Cert.Proof.KI

end
-- ==== Proof.HostStretch.lean ====
import proofs.«207891_g54065048322743_cont_9to1_m_676_18_alg».proof.KernelIdeal
import proofs.«207891_g54065048322743_cont_9to1_m_676_18_alg».proof.Proof.Spec
import Idealize.ShloMosaic.Lib.StableHlo.Run
import Idealize.ShloMosaic.Lib.ValueLayout
import Idealize.ShloMosaic.Lib.Pipeline.Value

noncomputable section

namespace Cert.Proof.KI

open Cert.KernelIdeal Cert.KernelIdeal.Facts₀ Cert.KernelIdeal.Facts
open Idealize.ShloMosaic Idealize.SL.Sem Idealize.ShloMosaic.ValueIdx Idealize.ShloMosaic.StableHlo

variable {F : FTy → Type} [FloatOps F] [Cert.KernelIdeal.Facts]

abbrev opsA : List (HloOp τ sig (Elt F)) :=
  [ StableHlo.unary main_arg0 main_v0 ((extractStridedSlice S1x6400000 ![1, 0] · slices_S2x6400000_S1x6400000_1_0) : (⟨S2x6400000, .i32⟩ : BufTy).Contents (Elt F) → (⟨S1x6400000, .i32⟩ : BufTy).Contents (Elt F)),
    StableHlo.reshape main_v0 main_v1 rfl shapeCasts_S1x6400000_S6400000 ]

abbrev opsB : List (HloOp τ sig (Elt F)) :=
  [ StableHlo.unary main_v2_0 main_v3 ((extractStridedSlice S100096 ![0] · slices_S3203072_S100096_0) : (⟨S3203072, .f32⟩ : BufTy).Contents (Elt F) → (⟨S100096, .f32⟩ : BufTy).Contents (Elt F)),
    StableHlo.unary main_v2_0 main_v4 ((extractStridedSlice S100096 ![100096] · slices_S3203072_S100096_100096) : (⟨S3203072, .f32⟩ : BufTy).Contents (Elt F) → (⟨S100096, .f32⟩ : BufTy).Contents (Elt F)),
    StableHlo.binary main_v3 main_v4 main_v5 (addf : (⟨S100096, .f32⟩ : BufTy).Contents (Elt F) → (⟨S100096, .f32⟩ : BufTy).Contents (Elt F) → (⟨S100096, .f32⟩ : BufTy).Contents (Elt F)),
    StableHlo.unary main_v2_0 main_v6 ((extractStridedSlice S100096 ![200192] · slices_S3203072_S100096_200192) : (⟨S3203072, .f32⟩ : BufTy).Contents (Elt F) → (⟨S100096, .f32⟩ : BufTy).Contents (Elt F)),
    StableHlo.binary main_v5 main_v6 main_v7 (addf : (⟨S100096, .f32⟩ : BufTy).Contents (Elt F) → (⟨S100096, .f32⟩ : BufTy).Contents (Elt F) → (⟨S100096, .f32⟩ : BufTy).Contents (Elt F)),
    StableHlo.unary main_v2_0 main_v8 ((extractStridedSlice S100096 ![300288] · slices_S3203072_S100096_300288) : (⟨S3203072, .f32⟩ : BufTy).Contents (Elt F) → (⟨S100096, .f32⟩ : BufTy).Contents (Elt F)),
    StableHlo.binary main_v7 main_v8 main_v9 (addf : (⟨S100096, .f32⟩ : BufTy).Contents (Elt F) → (⟨S100096, .f32⟩ : BufTy).Contents (Elt F) → (⟨S100096, .f32⟩ : BufTy).Contents (Elt F)),
    StableHlo.unary main_v2_0 main_v10 ((extractStridedSlice S100096 ![400384] · slices_S3203072_S100096_400384) : (⟨S3203072, .f32⟩ : BufTy).Contents (Elt F) → (⟨S100096, .f32⟩ : BufTy).Contents (Elt F)),
    StableHlo.binary main_v9 main_v10 main_v11 (addf : (⟨S100096, .f32⟩ : BufTy).Contents (Elt F) → (⟨S100096, .f32⟩ : BufTy).Contents (Elt F) → (⟨S100096, .f32⟩ : BufTy).Contents (Elt F)),
    StableHlo.unary main_v2_0 main_v12 ((extractStridedSlice S100096 ![500480] · slices_S3203072_S100096_500480) : (⟨S3203072, .f32⟩ : BufTy).Contents (Elt F) → (⟨S100096, .f32⟩ : BufTy).Contents (Elt F)),
    StableHlo.binary main_v11 main_v12 main_v13 (addf : (⟨S100096, .f32⟩ : BufTy).Contents (Elt F) → (⟨S100096, .f32⟩ : BufTy).Contents (Elt F) → (⟨S100096, .f32⟩ : BufTy).Contents (Elt F)),
    StableHlo.unary main_v2_0 main_v14 ((extractStridedSlice S100096 ![600576] · slices_S3203072_S100096_600576) : (⟨S3203072, .f32⟩ : BufTy).Contents (Elt F) → (⟨S100096, .f32⟩ : BufTy).Contents (Elt F)),
    StableHlo.binary main_v13 main_v14 main_v15 (addf : (⟨S100096, .f32⟩ : BufTy).Contents (Elt F) → (⟨S100096, .f32⟩ : BufTy).Contents (Elt F) → (⟨S100096, .f32⟩ : BufTy).Contents (Elt F)),
    StableHlo.unary main_v2_0 main_v16 ((extractStridedSlice S100096 ![700672] · slices_S3203072_S100096_700672) : (⟨S3203072, .f32⟩ : BufTy).Contents (Elt F) → (⟨S100096, .f32⟩ : BufTy).Contents (Elt F)),
    StableHlo.binary main_v15 main_v16 main_v17 (addf : (⟨S100096, .f32⟩ : BufTy).Contents (Elt F) → (⟨S100096, .f32⟩ : BufTy).Contents (Elt F) → (⟨S100096, .f32⟩ : BufTy).Contents (Elt F)),
    StableHlo.unary main_v2_0 main_v18 ((extractStridedSlice S100096 ![800768] · slices_S3203072_S100096_800768) : (⟨S3203072, .f32⟩ : BufTy).Contents (Elt F) → (⟨S100096, .f32⟩ : BufTy).Contents (Elt F)),
    StableHlo.binary main_v17 main_v18 main_v19 (addf : (⟨S100096, .f32⟩ : BufTy).Contents (Elt F) → (⟨S100096, .f32⟩ : BufTy).Contents (Elt F) → (⟨S100096, .f32⟩ : BufTy).Contents (Elt F)),
    StableHlo.unary main_v2_0 main_v20 ((extractStridedSlice S100096 ![900864] · slices_S3203072_S100096_900864) : (⟨S3203072, .f32⟩ : BufTy).Contents (Elt F) → (⟨S100096, .f32⟩ : BufTy).Contents (Elt F)),
    StableHlo.binary main_v19 main_v20 main_v21 (addf : (⟨S100096, .f32⟩ : BufTy).Contents (Elt F) → (⟨S100096, .f32⟩ : BufTy).Contents (Elt F) → (⟨S100096, .f32⟩ : BufTy).Contents (Elt F)),
    StableHlo.unary main_v2_0 main_v22 ((extractStridedSlice S100096 ![1000960] · slices_S3203072_S100096_1000960) : (⟨S3203072, .f32⟩ : BufTy).Contents (Elt F) → (⟨S100096, .f32⟩ : BufTy).Contents (Elt F)),
    StableHlo.binary main_v21 main_v22 main_v23 (addf : (⟨S100096, .f32⟩ : BufTy).Contents (Elt F) → (⟨S100096, .f32⟩ : BufTy).Contents (Elt F) → (⟨S100096, .f32⟩ : BufTy).Contents (Elt F)),
    StableHlo.unary main_v2_0 main_v24 ((extractStridedSlice S100096 ![1101056] · slices_S3203072_S100096_1101056) : (⟨S3203072, .f32⟩ : BufTy).Contents (Elt F) → (⟨S100096, .f32⟩ : BufTy).Contents (Elt F)),
    StableHlo.binary main_v23 main_v24 main_v25 (addf : (⟨S100096, .f32⟩ : BufTy).Contents (Elt F) → (⟨S100096, .f32⟩ : BufTy).Contents (Elt F) → (⟨S100096, .f32⟩ : BufTy).Contents (Elt F)),
    StableHlo.unary main_v2_0 main_v26 ((extractStridedSlice S100096 ![1201152] · slices_S3203072_S100096_1201152) : (⟨S3203072, .f32⟩ : BufTy).Contents (Elt F) → (⟨S100096, .f32⟩ : BufTy).Contents (Elt F)),
    StableHlo.binary main_v25 main_v26 main_v27 (addf : (⟨S100096, .f32⟩ : BufTy).Contents (Elt F) → (⟨S100096, .f32⟩ : BufTy).Contents (Elt F) → (⟨S100096, .f32⟩ : BufTy).Contents (Elt F)),
    StableHlo.unary main_v2_0 main_v28 ((extractStridedSlice S100096 ![1301248] · slices_S3203072_S100096_1301248) : (⟨S3203072, .f32⟩ : BufTy).Contents (Elt F) → (⟨S100096, .f32⟩ : BufTy).Contents (Elt F)),
    StableHlo.binary main_v27 main_v28 main_v29 (addf : (⟨S100096, .f32⟩ : BufTy).Contents (Elt F) → (⟨S100096, .f32⟩ : BufTy).Contents (Elt F) → (⟨S100096, .f32⟩ : BufTy).Contents (Elt F)),
    StableHlo.unary main_v2_0 main_v30 ((extractStridedSlice S100096 ![1401344] · slices_S3203072_S100096_1401344) : (⟨S3203072, .f32⟩ : BufTy).Contents (Elt F) → (⟨S100096, .f32⟩ : BufTy).Contents (Elt F)),
    StableHlo.binary main_v29 main_v30 main_v31 (addf : (⟨S100096, .f32⟩ : BufTy).Contents (Elt F) → (⟨S100096, .f32⟩ : BufTy).Contents (Elt F) → (⟨S100096, .f32⟩ : BufTy).Contents (Elt F)),
    StableHlo.unary main_v2_0 main_v32 ((extractStridedSlice S100096 ![1501440] · slices_S3203072_S100096_1501440) : (⟨S3203072, .f32⟩ : BufTy).Contents (Elt F) → (⟨S100096, .f32⟩ : BufTy).Contents (Elt F)),
    StableHlo.binary main_v31 main_v32 main_v33 (addf : (⟨S100096, .f32⟩ : BufTy).Contents (Elt F) → (⟨S100096, .f32⟩ : BufTy).Contents (Elt F) → (⟨S100096, .f32⟩ : BufTy).Contents (Elt F)),
    StableHlo.unary main_v2_0 main_v34 ((extractStridedSlice S100096 ![1601536] · slices_S3203072_S100096_1601536) : (⟨S3203072, .f32⟩ : BufTy).Contents (Elt F) → (⟨S100096, .f32⟩ : BufTy).Contents (Elt F)),
    StableHlo.binary main_v33 main_v34 main_v35 (addf : (⟨S100096, .f32⟩ : BufTy).Contents (Elt F) → (⟨S100096, .f32⟩ : BufTy).Contents (Elt F) → (⟨S100096, .f32⟩ : BufTy).Contents (Elt F)),
    StableHlo.unary main_v2_0 main_v36 ((extractStridedSlice S100096 ![1701632] · slices_S3203072_S100096_1701632) : (⟨S3203072, .f32⟩ : BufTy).Contents (Elt F) → (⟨S100096, .f32⟩ : BufTy).Contents (Elt F)),
    StableHlo.binary main_v35 main_v36 main_v37 (addf : (⟨S100096, .f32⟩ : BufTy).Contents (Elt F) → (⟨S100096, .f32⟩ : BufTy).Contents (Elt F) → (⟨S100096, .f32⟩ : BufTy).Contents (Elt F)),
    StableHlo.unary main_v2_0 main_v38 ((extractStridedSlice S100096 ![1801728] · slices_S3203072_S100096_1801728) : (⟨S3203072, .f32⟩ : BufTy).Contents (Elt F) → (⟨S100096, .f32⟩ : BufTy).Contents (Elt F)),
    StableHlo.binary main_v37 main_v38 main_v39 (addf : (⟨S100096, .f32⟩ : BufTy).Contents (Elt F) → (⟨S100096, .f32⟩ : BufTy).Contents (Elt F) → (⟨S100096, .f32⟩ : BufTy).Contents (Elt F)),
    StableHlo.unary main_v2_0 main_v40 ((extractStridedSlice S100096 ![1901824] · slices_S3203072_S100096_1901824) : (⟨S3203072, .f32⟩ : BufTy).Contents (Elt F) → (⟨S100096, .f32⟩ : BufTy).Contents (Elt F)),
    StableHlo.binary main_v39 main_v40 main_v41 (addf : (⟨S100096, .f32⟩ : BufTy).Contents (Elt F) → (⟨S100096, .f32⟩ : BufTy).Contents (Elt F) → (⟨S100096, .f32⟩ : BufTy).Contents (Elt F)),
    StableHlo.unary main_v2_0 main_v42 ((extractStridedSlice S100096 ![2001920] · slices_S3203072_S100096_2001920) : (⟨S3203072, .f32⟩ : BufTy).Contents (Elt F) → (⟨S100096, .f32⟩ : BufTy).Contents (Elt F)),
    StableHlo.binary main_v41 main_v42 main_v43 (addf : (⟨S100096, .f32⟩ : BufTy).Contents (Elt F) → (⟨S100096, .f32⟩ : BufTy).Contents (Elt F) → (⟨S100096, .f32⟩ : BufTy).Contents (Elt F)),
    StableHlo.unary main_v2_0 main_v44 ((extractStridedSlice S100096 ![2102016] · slices_S3203072_S100096_2102016) : (⟨S3203072, .f32⟩ : BufTy).Contents (Elt F) → (⟨S100096, .f32⟩ : BufTy).Contents (Elt F)),
    StableHlo.binary main_v43 main_v44 main_v45 (addf : (⟨S100096, .f32⟩ : BufTy).Contents (Elt F) → (⟨S100096, .f32⟩ : BufTy).Contents (Elt F) → (⟨S100096, .f32⟩ : BufTy).Contents (Elt F)),
    StableHlo.unary main_v2_0 main_v46 ((extractStridedSlice S100096 ![2202112] · slices_S3203072_S100096_2202112) : (⟨S3203072, .f32⟩ : BufTy).Contents (Elt F) → (⟨S100096, .f32⟩ : BufTy).Contents (Elt F)),
    StableHlo.binary main_v45 main_v46 main_v47 (addf : (⟨S100096, .f32⟩ : BufTy).Contents (Elt F) → (⟨S100096, .f32⟩ : BufTy).Contents (Elt F) → (⟨S100096, .f32⟩ : BufTy).Contents (Elt F)),
    StableHlo.unary main_v2_0 main_v48 ((extractStridedSlice S100096 ![2302208] · slices_S3203072_S100096_2302208) : (⟨S3203072, .f32⟩ : BufTy).Contents (Elt F) → (⟨S100096, .f32⟩ : BufTy).Contents (Elt F)),
    StableHlo.binary main_v47 main_v48 main_v49 (addf : (⟨S100096, .f32⟩ : BufTy).Contents (Elt F) → (⟨S100096, .f32⟩ : BufTy).Contents (Elt F) → (⟨S100096, .f32⟩ : BufTy).Contents (Elt F)),
    StableHlo.unary main_v2_0 main_v50 ((extractStridedSlice S100096 ![2402304] · slices_S3203072_S100096_2402304) : (⟨S3203072, .f32⟩ : BufTy).Contents (Elt F) → (⟨S100096, .f32⟩ : BufTy).Contents (Elt F)),
    StableHlo.binary main_v49 main_v50 main_v51 (addf : (⟨S100096, .f32⟩ : BufTy).Contents (Elt F) → (⟨S100096, .f32⟩ : BufTy).Contents (Elt F) → (⟨S100096, .f32⟩ : BufTy).Contents (Elt F)),
    StableHlo.unary main_v2_0 main_v52 ((extractStridedSlice S100096 ![2502400] · slices_S3203072_S100096_2502400) : (⟨S3203072, .f32⟩ : BufTy).Contents (Elt F) → (⟨S100096, .f32⟩ : BufTy).Contents (Elt F)),
    StableHlo.binary main_v51 main_v52 main_v53 (addf : (⟨S100096, .f32⟩ : BufTy).Contents (Elt F) → (⟨S100096, .f32⟩ : BufTy).Contents (Elt F) → (⟨S100096, .f32⟩ : BufTy).Contents (Elt F)),
    StableHlo.unary main_v2_0 main_v54 ((extractStridedSlice S100096 ![2602496] · slices_S3203072_S100096_2602496) : (⟨S3203072, .f32⟩ : BufTy).Contents (Elt F) → (⟨S100096, .f32⟩ : BufTy).Contents (Elt F)),
    StableHlo.binary main_v53 main_v54 main_v55 (addf : (⟨S100096, .f32⟩ : BufTy).Contents (Elt F) → (⟨S100096, .f32⟩ : BufTy).Contents (Elt F) → (⟨S100096, .f32⟩ : BufTy).Contents (Elt F)),
    StableHlo.unary main_v2_0 main_v56 ((extractStridedSlice S100096 ![2702592] · slices_S3203072_S100096_2702592) : (⟨S3203072, .f32⟩ : BufTy).Contents (Elt F) → (⟨S100096, .f32⟩ : BufTy).Contents (Elt F)),
    StableHlo.binary main_v55 main_v56 main_v57 (addf : (⟨S100096, .f32⟩ : BufTy).Contents (Elt F) → (⟨S100096, .f32⟩ : BufTy).Contents (Elt F) → (⟨S100096, .f32⟩ : BufTy).Contents (Elt F)),
    StableHlo.unary main_v2_0 main_v58 ((extractStridedSlice S100096 ![2802688] · slices_S3203072_S100096_2802688) : (⟨S3203072, .f32⟩ : BufTy).Contents (Elt F) → (⟨S100096, .f32⟩ : BufTy).Contents (Elt F)),
    StableHlo.binary main_v57 main_v58 main_v59 (addf : (⟨S100096, .f32⟩ : BufTy).Contents (Elt F) → (⟨S100096, .f32⟩ : BufTy).Contents (Elt F) → (⟨S100096, .f32⟩ : BufTy).Contents (Elt F)),
    StableHlo.unary main_v2_0 main_v60 ((extractStridedSlice S100096 ![2902784] · slices_S3203072_S100096_2902784) : (⟨S3203072, .f32⟩ : BufTy).Contents (Elt F) → (⟨S100096, .f32⟩ : BufTy).Contents (Elt F)),
    StableHlo.binary main_v59 main_v60 main_v61 (addf : (⟨S100096, .f32⟩ : BufTy).Contents (Elt F) → (⟨S100096, .f32⟩ : BufTy).Contents (Elt F) → (⟨S100096, .f32⟩ : BufTy).Contents (Elt F)),
    StableHlo.unary main_v2_0 main_v62 ((extractStridedSlice S100096 ![3002880] · slices_S3203072_S100096_3002880) : (⟨S3203072, .f32⟩ : BufTy).Contents (Elt F) → (⟨S100096, .f32⟩ : BufTy).Contents (Elt F)),
    StableHlo.binary main_v61 main_v62 main_v63 (addf : (⟨S100096, .f32⟩ : BufTy).Contents (Elt F) → (⟨S100096, .f32⟩ : BufTy).Contents (Elt F) → (⟨S100096, .f32⟩ : BufTy).Contents (Elt F)),
    StableHlo.unary main_v2_0 main_v64 ((extractStridedSlice S100096 ![3102976] · slices_S3203072_S100096_3102976) : (⟨S3203072, .f32⟩ : BufTy).Contents (Elt F) → (⟨S100096, .f32⟩ : BufTy).Contents (Elt F)),
    StableHlo.binary main_v63 main_v64 main_v65 (addf : (⟨S100096, .f32⟩ : BufTy).Contents (Elt F) → (⟨S100096, .f32⟩ : BufTy).Contents (Elt F) → (⟨S100096, .f32⟩ : BufTy).Contents (Elt F)),
    StableHlo.nullary main_cst (constant S_ .f32 0x3F800000#32),
    StableHlo.unary main_cst main_v66 (broadcastInDim S100096 ![] bcast_S_S100096 : (⟨S_, .f32⟩ : BufTy).Contents (Elt F) → (⟨S100096, .f32⟩ : BufTy).Contents (Elt F)),
    StableHlo.binary main_v66 main_v65 main_v67 (Host.divf : (⟨S100096, .f32⟩ : BufTy).Contents (Elt F) → (⟨S100096, .f32⟩ : BufTy).Contents (Elt F) → (⟨S100096, .f32⟩ : BufTy).Contents (Elt F)) ]

theorem slice_eq_tableAt (P : FVec F Cert.EdgeSoftmax.SP .f32) (o k : Nat) (ho : o = 100096 * k) (hk : k < 32)
    (h : S3203072.Slices ![o] S100096) :
    extractStridedSlice S100096 ![o] P h = Cert.EdgeSoftmax.tableAt P k := by
  subst ho
  funext n
  have hn : (n 0).val < 100096 := (n 0).isLt
  have hlt : k * 100096 + (n 0).val < 3203072 := by omega
  unfold Cert.EdgeSoftmax.tableAt
  rw [dif_pos hlt]
  exact extractStridedSlice_apply _ P h n _ (fun a => match a with
    | ⟨0, _⟩ => by show k * 100096 + (n 0).val = 100096 * k + (n 0).val; omega)

theorem accOf_nest (P : FVec F Cert.EdgeSoftmax.SP .f32) :
    Cert.EdgeSoftmax.accOf P = addf (addf (addf (addf (addf (addf (addf (addf (addf (addf (addf (addf (addf (addf (addf (addf (addf (addf (addf (addf (addf (addf (addf (addf (addf (addf (addf (addf (addf (addf (addf (Cert.EdgeSoftmax.tableAt P 0) (Cert.EdgeSoftmax.tableAt P 1)) (Cert.EdgeSoftmax.tableAt P 2)) (Cert.EdgeSoftmax.tableAt P 3)) (Cert.EdgeSoftmax.tableAt P 4)) (Cert.EdgeSoftmax.tableAt P 5)) (Cert.EdgeSoftmax.tableAt P 6)) (Cert.EdgeSoftmax.tableAt P 7)) (Cert.EdgeSoftmax.tableAt P 8)) (Cert.EdgeSoftmax.tableAt P 9)) (Cert.EdgeSoftmax.tableAt P 10)) (Cert.EdgeSoftmax.tableAt P 11)) (Cert.EdgeSoftmax.tableAt P 12)) (Cert.EdgeSoftmax.tableAt P 13)) (Cert.EdgeSoftmax.tableAt P 14)) (Cert.EdgeSoftmax.tableAt P 15)) (Cert.EdgeSoftmax.tableAt P 16)) (Cert.EdgeSoftmax.tableAt P 17)) (Cert.EdgeSoftmax.tableAt P 18)) (Cert.EdgeSoftmax.tableAt P 19)) (Cert.EdgeSoftmax.tableAt P 20)) (Cert.EdgeSoftmax.tableAt P 21)) (Cert.EdgeSoftmax.tableAt P 22)) (Cert.EdgeSoftmax.tableAt P 23)) (Cert.EdgeSoftmax.tableAt P 24)) (Cert.EdgeSoftmax.tableAt P 25)) (Cert.EdgeSoftmax.tableAt P 26)) (Cert.EdgeSoftmax.tableAt P 27)) (Cert.EdgeSoftmax.tableAt P 28)) (Cert.EdgeSoftmax.tableAt P 29)) (Cert.EdgeSoftmax.tableAt P 30)) (Cert.EdgeSoftmax.tableAt P 31) := by
  unfold Cert.EdgeSoftmax.accOf
  rfl

theorem bcast_one :
    broadcastInDim S100096 ![] bcast_S_S100096 (constant S_ .f32 0x3F800000#32 : FVec F S_ .f32)
      = fun _ => FloatOps.ofBits .f32 0x3F800000#32 := rfl

theorem main_eq (d : Dev nD) :
    Cert.KernelIdeal.main (F := F) d
      = (StableHlo.seq (opsA (F := F)) >>= fun _ => sc.run d 0 >>= fun _ => StableHlo.seq (opsB (F := F)) >>= fun _ =>
          sc.run d 1 >>= fun _ => pure ⟨⟩) := by
  rfl

abbrev SALL : Finset (DevRef τ sig) := StableHlo.tcRefs τ sig

theorem opsA_sub : ∀ op ∈ opsA (F := F), op.bufs ⊆ SALL :=
  List.forall_iff_forall_mem.mp
    (show (opsA (F := F)).Forall (fun op => op.bufs ⊆ SALL) from ⟨StableHlo.unary_bufs_sub .., StableHlo.reshape_bufs_sub ..⟩)

theorem opsA_fresh : ∀ op ∈ opsA (F := F), op.fresh = ∅ :=
  List.forall_iff_forall_mem.mp (show (opsA (F := F)).Forall (fun op => op.fresh = ∅) from ⟨rfl, rfl⟩)

theorem opsB_sub : ∀ op ∈ opsB (F := F), op.bufs ⊆ SALL :=
  List.forall_iff_forall_mem.mp
    (show (opsB (F := F)).Forall (fun op => op.bufs ⊆ SALL) from
    ⟨ StableHlo.unary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.unary_bufs_sub ..,
      StableHlo.binary_bufs_sub ..,
      StableHlo.nullary_bufs_sub ..,
      StableHlo.unary_bufs_sub ..,
      StableHlo.binary_bufs_sub ..⟩)

theorem opsB_fresh : ∀ op ∈ opsB (F := F), op.fresh = ∅ :=
  List.forall_iff_forall_mem.mp (show (opsB (F := F)).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

theorem afterA_seg (V : Valuation τ sig (Elt F)) :
    StableHlo.after (opsA (F := F)) V (Proc.devRef .tc main_v1) = Cert.EdgeSoftmax.segOf (V (Proc.devRef .tc main_arg0)) := by
  after_results
  funext e
  obtain ⟨i, rfl⟩ : ∃ i, e = ix1 i := ⟨e 0, eq_ix1 e⟩
  generalize V (Proc.devRef .tc main_arg0) = a0
  show shapeCast S6400000 (extractStridedSlice S1x6400000 ![1, 0] a0 slices_S2x6400000_S1x6400000_1_0)
      shapeCasts_S1x6400000_S6400000 (ix1 i) = a0 (ix2 (1 : Fin 2) i)
  refine (shapeCast_1a_a_apply _ _ i).trans ?_
  exact extractStridedSlice_apply _ a0 _ _ _ (fun a => match a with
    | ⟨0, _⟩ => rfl
    | ⟨1, _⟩ => by show i.val = 0 + i.val; omega)

theorem afterA_keep (V : Valuation τ sig (Elt F)) (b : DevRef τ sig) (hb : b ≠ Proc.devRef .tc main_v0)
    (hb' : b ≠ Proc.devRef .tc main_v1) : StableHlo.after (opsA (F := F)) V b = V b := by
  refine StableHlo.after_of_forall_not_mem _ V fun op hop => ?_
  simp only [List.mem_cons, List.mem_nil_iff, or_false] at hop
  rcases hop with rfl | rfl
  · rw [StableHlo.unary_writes, Finset.mem_singleton]; exact hb
  · rw [StableHlo.reshape_writes, Finset.mem_singleton]; exact hb'

theorem afterB_dinv (V : Valuation τ sig (Elt F)) :
    StableHlo.after (opsB (F := F)) V (Proc.devRef .tc main_v67)
      = Cert.EdgeSoftmax.dinvOf (Cert.EdgeSoftmax.accOf (V (Proc.devRef .tc main_v2_0))) := by
  after_results_simp
  generalize V (Proc.devRef .tc main_v2_0) = P
  rw [slice_eq_tableAt P 0 0 (by norm_num) (by norm_num),
    slice_eq_tableAt P 100096 1 (by norm_num) (by norm_num),
    slice_eq_tableAt P 200192 2 (by norm_num) (by norm_num),
    slice_eq_tableAt P 300288 3 (by norm_num) (by norm_num),
    slice_eq_tableAt P 400384 4 (by norm_num) (by norm_num),
    slice_eq_tableAt P 500480 5 (by norm_num) (by norm_num),
    slice_eq_tableAt P 600576 6 (by norm_num) (by norm_num),
    slice_eq_tableAt P 700672 7 (by norm_num) (by norm_num),
    slice_eq_tableAt P 800768 8 (by norm_num) (by norm_num),
    slice_eq_tableAt P 900864 9 (by norm_num) (by norm_num),
    slice_eq_tableAt P 1000960 10 (by norm_num) (by norm_num),
    slice_eq_tableAt P 1101056 11 (by norm_num) (by norm_num),
    slice_eq_tableAt P 1201152 12 (by norm_num) (by norm_num),
    slice_eq_tableAt P 1301248 13 (by norm_num) (by norm_num),
    slice_eq_tableAt P 1401344 14 (by norm_num) (by norm_num),
    slice_eq_tableAt P 1501440 15 (by norm_num) (by norm_num),
    slice_eq_tableAt P 1601536 16 (by norm_num) (by norm_num),
    slice_eq_tableAt P 1701632 17 (by norm_num) (by norm_num),
    slice_eq_tableAt P 1801728 18 (by norm_num) (by norm_num),
    slice_eq_tableAt P 1901824 19 (by norm_num) (by norm_num),
    slice_eq_tableAt P 2001920 20 (by norm_num) (by norm_num),
    slice_eq_tableAt P 2102016 21 (by norm_num) (by norm_num),
    slice_eq_tableAt P 2202112 22 (by norm_num) (by norm_num),
    slice_eq_tableAt P 2302208 23 (by norm_num) (by norm_num),
    slice_eq_tableAt P 2402304 24 (by norm_num) (by norm_num),
    slice_eq_tableAt P 2502400 25 (by norm_num) (by norm_num),
    slice_eq_tableAt P 2602496 26 (by norm_num) (by norm_num),
    slice_eq_tableAt P 2702592 27 (by norm_num) (by norm_num),
    slice_eq_tableAt P 2802688 28 (by norm_num) (by norm_num),
    slice_eq_tableAt P 2902784 29 (by norm_num) (by norm_num),
    slice_eq_tableAt P 3002880 30 (by norm_num) (by norm_num),
    slice_eq_tableAt P 3102976 31 (by norm_num) (by norm_num)]
  rw [accOf_nest P, bcast_one]
  rfl

theorem afterB_keep (V : Valuation τ sig (Elt F)) (b : DevRef τ sig)
    (hb : b ∈ ({Proc.devRef .tc main_arg0, Proc.devRef .tc main_arg1, Proc.devRef .tc main_v1, Proc.devRef .tc main_v2_0,
      Proc.devRef .tc main_v2_1, Proc.devRef .tc main_v68} : Finset (DevRef τ sig))) :
    StableHlo.after (opsB (F := F)) V b = V b := by
  simp only [Finset.mem_insert, Finset.mem_singleton] at hb
  rcases hb with rfl | rfl | rfl | rfl | rfl | rfl <;> after_results_simp

end Cert.Proof.KI

end
-- ==== Proof.HMain.lean ====
import proofs.«207891_g54065048322743_cont_9to1_m_676_18_alg».proof.Proof.Launch
import proofs.«207891_g54065048322743_cont_9to1_m_676_18_alg».proof.Proof.ArraySplit
import proofs.«207891_g54065048322743_cont_9to1_m_676_18_alg».proof.Proof.HostStretch

noncomputable section

namespace Cert.Proof.KI

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type} [FloatOps F]

local notation "𝕄" => MT nD τ sig (HIx 2) (Elt F) ℕ UU ℕ

variable (m : (ℓ : Loc nD τ sig) → Buf (Elt F) ℓ) (ρ : Dev nD → PrngReg)

abbrev a0' : DevRef τ sig := Proc.devRef .tc (main_arg0 : Ref sig .tc)
abbrev w' : DevRef τ sig := Proc.devRef .tc (main_arg1 : Ref sig .tc)
abbrev seg' : DevRef τ sig := Proc.devRef .tc (main_v1 : Ref sig .tc)
abbrev part' : DevRef τ sig := Proc.devRef .tc (main_v2_0 : Ref sig .tc)
abbrev ew' : DevRef τ sig := Proc.devRef .tc (main_v2_1 : Ref sig .tc)
abbrev dinv' : DevRef τ sig := Proc.devRef .tc (main_v67 : Ref sig .tc)
abbrev out' : DevRef τ sig := Proc.devRef .tc (main_v68 : Ref sig .tc)

abbrev S4 : Finset (DevRef τ sig) := {seg', w', part', ew'}

abbrev S6 : Finset (DevRef τ sig) := {a0', w', seg', ew', dinv', out'}

omit [FloatOps F] in
theorem allUnscoped : (Finset.univ.filter fun b : Ref sig .tc => ¬ b.isScoped) = Finset.univ := by decide

omit [FloatOps F] in
theorem S4_sub : S4 ⊆ SALL := by
  intro b hb
  simp only [S4, Finset.mem_insert, Finset.mem_singleton] at hb
  rcases hb with rfl | rfl | rfl | rfl <;> exact StableHlo.devRef_mem_tcRefs _

omit [FloatOps F] in
theorem S6_sub : S6 ⊆ SALL := by
  intro b hb
  simp only [S6, Finset.mem_insert, Finset.mem_singleton] at hb
  rcases hb with rfl | rfl | rfl | rfl | rfl | rfl <;> exact StableHlo.devRef_mem_tcRefs _

omit [FloatOps F] in
theorem held_S4 (d : Dev nD) (W : Valuation τ sig (Elt F)) :
    (held (T d) S4 W : sProp 𝕄) = iprop((segLoc d ↦{fullShare} W seg') ∗ (wLoc d ↦{fullShare} W w')
      ∗ (partLoc d ↦{fullShare} W part') ∗ (ewLoc d ↦{fullShare} W ew')) := by
  unfold held S4
  rw [SparseCore.bigSep_insert' (by decide), SparseCore.bigSep_insert' (by decide), SparseCore.bigSep_insert' (by decide),
    bigSep_singleton]

omit [FloatOps F] in
theorem held_S6 (d : Dev nD) (W : Valuation τ sig (Elt F)) :
    (held (T d) S6 W : sProp 𝕄) = iprop((a0Loc d ↦{fullShare} W a0') ∗ (wLoc d ↦{fullShare} W w')
      ∗ (segLoc d ↦{fullShare} W seg') ∗ (ewLoc d ↦{fullShare} W ew') ∗ (dinvLoc d ↦{fullShare} W dinv')
      ∗ (outLoc d ↦{fullShare} W out')) := by
  unfold held S6
  rw [SparseCore.bigSep_insert' (by decide), SparseCore.bigSep_insert' (by decide), SparseCore.bigSep_insert' (by decide),
    SparseCore.bigSep_insert' (by decide), SparseCore.bigSep_insert' (by decide), bigSep_singleton]

def V0 (d : Dev nD) : Valuation τ sig (Elt F) := fun b => m (d, b)
def V1 (d : Dev nD) : Valuation τ sig (Elt F) := StableHlo.after (opsA (F := F)) (V0 m d)
def V2 (d : Dev nD) : Valuation τ sig (Elt F) :=
  Function.update (Function.update (V1 m d) part' (partialAll (segA m d) (wA m d))) ew' (expAll (wA m d))
def V3 (d : Dev nD) : Valuation τ sig (Elt F) := StableHlo.after (opsB (F := F)) (V2 m d)

theorem unscoped_held (d : Dev nD) :
    (unscopedBufs d (fun b => m ((SparseCore.T d).loc b)) : sProp 𝕄) = held (T d) SALL (V0 m d) := by
  unfold unscopedBufs held SALL StableHlo.tcRefs
  rw [allUnscoped, bigSep_map]
  rfl

theorem V1_seg (d : Dev nD) : V1 m d seg' = segA m d := afterA_seg (V0 m d)
theorem V1_keep (d : Dev nD) (b : DevRef τ sig) (hb : b ≠ Proc.devRef .tc main_v0) (hb' : b ≠ seg') : V1 m d b = m (d, b) :=
  afterA_keep (V0 m d) b hb hb'
theorem V2_ew (d : Dev nD) : V2 m d ew' = ewA m d := Function.update_self _ _ _
theorem V2_part (d : Dev nD) : V2 m d part' = partialAll (segA m d) (wA m d) :=
  (Function.update_of_ne (show part' ≠ ew' by decide) _ _).trans (Function.update_self _ _ _)
theorem V2_other (d : Dev nD) (b : DevRef τ sig) (h1 : b ≠ part') (h2 : b ≠ ew') : V2 m d b = V1 m d b :=
  (Function.update_of_ne h2 _ _).trans (Function.update_of_ne h1 _ _)
theorem V3_dinv (d : Dev nD) : V3 m d dinv' = dinvA m d := by
  unfold V3 dinvA
  rw [afterB_dinv, V2_part]
theorem V3_keep (d : Dev nD) (b : DevRef τ sig)
    (hb : b ∈ ({a0', w', seg', part', ew', out'} : Finset (DevRef τ sig))) : V3 m d b = V2 m d b :=
  afterB_keep (V2 m d) b hb

theorem V3_a0 (d : Dev nD) : V3 m d a0' = m (a0Loc d) := by
  rw [V3_keep m d a0' (by decide), V2_other m d a0' (by decide) (by decide), V1_keep m d a0' (by decide) (by decide)]
theorem V3_w (d : Dev nD) : V3 m d w' = m (wLoc d) := by
  rw [V3_keep m d w' (by decide), V2_other m d w' (by decide) (by decide), V1_keep m d w' (by decide) (by decide)]
theorem V3_seg (d : Dev nD) : V3 m d seg' = segA m d := by
  rw [V3_keep m d seg' (by decide), V2_other m d seg' (by decide) (by decide), V1_seg]
theorem V3_ew (d : Dev nD) : V3 m d ew' = ewA m d := by
  rw [V3_keep m d ew' (by decide), V2_ew]
theorem V2_seg (d : Dev nD) : V2 m d seg' = segA m d := by
  rw [V2_other m d seg' (by decide) (by decide), V1_seg]
theorem V2_w (d : Dev nD) : V2 m d w' = wA m d := by
  rw [V2_other m d w' (by decide) (by decide), V1_keep m d w' (by decide) (by decide)]; rfl
theorem V1_w (d : Dev nD) : V1 m d w' = wA m d := by
  rw [V1_keep m d w' (by decide) (by decide)]; rfl

theorem whole4 (d : Dev nD) (sA : IVec SE 32) (wv : FVec F SE .f32) (f : FVec F SP .f32) (g : FVec F SE .f32) :
    (iprop((segLoc d ↦{fullShare} sA) ∗ (wLoc d ↦{fullShare} wv) ∗ (partLoc d ↦{fullShare} f) ∗ (ewLoc d ↦{fullShare} g)) : sProp 𝕄)
      = bigSep Finset.univ fun c : Fin 2 => bigSep Finset.univ fun i : Fin 16 =>
          iprop((segLoc d ↦[edgesOf (16 * c.val + i.val)]{fullShare} sA) ∗ (wLoc d ↦[edgesOf (16 * c.val + i.val)]{fullShare} wv)
            ∗ (partLoc d ↦[slotsOf (16 * c.val + i.val)]{fullShare} f) ∗ (ewLoc d ↦[edgesOf (16 * c.val + i.val)]{fullShare} g)) := by
  rw [seg_workers, w_workers, part_workers, ew_workers]
  simp only [bigSep_sep']

theorem go0_intro (d : Dev nD) (sA : IVec SE 32) (wv : FVec F SE .f32) (t : Nat) (f : FVec F SP .f32) (g : FVec F SE .f32) :
    (iprop((segLoc d ↦[edgesOf t]{fullShare} sA) ∗ (wLoc d ↦[edgesOf t]{fullShare} wv)
      ∗ (partLoc d ↦[slotsOf t]{fullShare} f) ∗ (ewLoc d ↦[edgesOf t]{fullShare} g)) : sProp 𝕄) ⊢ go0 d sA wv t := by
  unfold go0
  iintro ⟨H1, H2, H3, H4⟩
  isplitl [H1]; · iexact H1
  isplitl [H2]; · iexact H2
  isplitl [H3]; · iexists f; iexact H3
  iexists g; iexact H4

theorem st0_of_whole (d : Dev nD) (f : FVec F SP .f32) (g : FVec F SE .f32) :
    (iprop((segLoc d ↦{fullShare} segA m d) ∗ (wLoc d ↦{fullShare} wA m d) ∗ (partLoc d ↦{fullShare} f) ∗ (ewLoc d ↦{fullShare} g)) : sProp 𝕄)
      ⊢ bigSep Finset.univ fun c : Fin ((K (F := F)).nCore 0) => (P m).st 0 d c := by
  rw [whole4]
  show (bigSep (Finset.univ : Finset (Fin 2)) fun c => _) ⊢ bigSep (Finset.univ : Finset (Fin 2)) fun c =>
    bigSep (Finset.univ : Finset (Fin 16)) fun i => go0 d (segA m d) (wA m d) (16 * c.val + i.val)
  exact bigSep_mono fun c _ => bigSep_mono fun i _ => go0_intro d _ _ _ f g

theorem dn0_eq (d : Dev nD) :
    (bigSep Finset.univ fun c : Fin ((K (F := F)).nCore 0) => (P m).dn 0 d c : sProp 𝕄)
      = iprop((segLoc d ↦{fullShare} segA m d) ∗ (wLoc d ↦{fullShare} wA m d)
          ∗ (partLoc d ↦{fullShare} partialAll (segA m d) (wA m d)) ∗ (ewLoc d ↦{fullShare} expAll (wA m d))) := by
  rw [whole4]
  rfl

omit [FloatOps F] in

theorem toks_regroup {ℓ : Loc nD τ sig} (f : Buf (Elt F) ℓ) (q : PosShare TreeShare) :
    (bigSep Finset.univ fun k : Fin 32 => (ℓ ↦{Transfers.shareTok q 32 k} f : sProp 𝕄))
      = bigSep Finset.univ fun c : Fin 2 => bigSep Finset.univ fun i : Fin 16 =>
          ℓ ↦{Transfers.shareTokN q (16 * c.val + i.val)} f := by
  rw [bigSep_univ_equiv (finProdFinEquiv (m := 2) (n := 16)), bigSep_univ_prod]
  refine bigSep_congr fun c _ => bigSep_congr fun i _ => ?_
  show (ℓ ↦{Transfers.shareTokN q (i.val + 16 * c.val)} f) = _
  rw [Nat.add_comm]

theorem whole4' (d : Dev nD) (sA : IVec SE 32) (ev : FVec F SE .f32) (dv : FVec F SN .f32) (f : FVec F SE .f32) :
    (iprop((segLoc d ↦{fullShare} sA) ∗ (ewLoc d ↦{fullShare} ev)
        ∗ (bigSep Finset.univ fun k : Fin 32 => dinvLoc d ↦{Transfers.shareTok fullShare 32 k} dv)
        ∗ (outLoc d ↦{fullShare} f)) : sProp 𝕄)
      = bigSep Finset.univ fun c : Fin 2 => bigSep Finset.univ fun i : Fin 16 =>
          iprop((segLoc d ↦[edgesOf (16 * c.val + i.val)]{fullShare} sA) ∗ (ewLoc d ↦[edgesOf (16 * c.val + i.val)]{fullShare} ev)
            ∗ (dinvLoc d ↦{Transfers.shareTokN fullShare (16 * c.val + i.val)} dv)
            ∗ (outLoc d ↦[edgesOf (16 * c.val + i.val)]{fullShare} f)) := by
  rw [seg_workers, ew_workers, out_workers, toks_regroup]
  simp only [bigSep_sep']

theorem go1_intro (d : Dev nD) (sA : IVec SE 32) (ev : FVec F SE .f32) (dv : FVec F SN .f32) (t : Nat) (f : FVec F SE .f32) :
    (iprop((segLoc d ↦[edgesOf t]{fullShare} sA) ∗ (ewLoc d ↦[edgesOf t]{fullShare} ev)
      ∗ (dinvLoc d ↦{Transfers.shareTokN fullShare t} dv) ∗ (outLoc d ↦[edgesOf t]{fullShare} f)) : sProp 𝕄) ⊢ go1 d sA ev dv t := by
  unfold go1
  iintro ⟨H1, H2, H3, H4⟩
  isplitl [H1]; · iexact H1
  isplitl [H2]; · iexact H2
  isplitl [H3]; · iexact H3
  iexists f; iexact H4

theorem st1_of_whole (d : Dev nD) (f : FVec F SE .f32) :
    (iprop((segLoc d ↦{fullShare} segA m d) ∗ (ewLoc d ↦{fullShare} ewA m d)
        ∗ (bigSep Finset.univ fun k : Fin 32 => dinvLoc d ↦{Transfers.shareTok fullShare 32 k} dinvA m d)
        ∗ (outLoc d ↦{fullShare} f)) : sProp 𝕄)
      ⊢ bigSep Finset.univ fun c : Fin ((K (F := F)).nCore 1) => (P m).st 1 d c := by
  rw [whole4']
  show (bigSep (Finset.univ : Finset (Fin 2)) fun c => _) ⊢ bigSep (Finset.univ : Finset (Fin 2)) fun c =>
    bigSep (Finset.univ : Finset (Fin 16)) fun i => go1 d (segA m d) (ewA m d) (dinvA m d) (16 * c.val + i.val)
  exact bigSep_mono fun c _ => bigSep_mono fun i _ => go1_intro d _ _ _ _ f

theorem dn1_eq (d : Dev nD) :
    (bigSep Finset.univ fun c : Fin ((K (F := F)).nCore 1) => (P m).dn 1 d c : sProp 𝕄)
      = iprop((segLoc d ↦{fullShare} segA m d) ∗ (ewLoc d ↦{fullShare} ewA m d)
          ∗ (bigSep Finset.univ fun k : Fin 32 => dinvLoc d ↦{Transfers.shareTok fullShare 32 k} dinvA m d)
          ∗ (outLoc d ↦{fullShare} normAll (segA m d) (ewA m d) (dinvA m d))) := by
  rw [whole4']
  rfl

theorem heldV1 (d : Dev nD) :
    (held (T d) SALL (V1 m d) : sProp 𝕄)
      = iprop(((segLoc d ↦{fullShare} segA m d) ∗ (wLoc d ↦{fullShare} wA m d) ∗ (partLoc d ↦{fullShare} V1 m d part')
          ∗ (ewLoc d ↦{fullShare} V1 m d ew')) ∗ held (T d) (SALL \ S4) (V1 m d)) := by
  rw [held_sub_split (T d) S4_sub, held_S4, V1_seg, V1_w]

theorem heldV2 (d : Dev nD) :
    (held (T d) SALL (V2 m d) : sProp 𝕄)
      = iprop(((segLoc d ↦{fullShare} segA m d) ∗ (wLoc d ↦{fullShare} wA m d)
          ∗ (partLoc d ↦{fullShare} partialAll (segA m d) (wA m d)) ∗ (ewLoc d ↦{fullShare} expAll (wA m d)))
          ∗ held (T d) (SALL \ S4) (V1 m d)) := by
  have hne : ∀ b ∈ SALL \ S4, V2 m d b = V1 m d b := fun b hb =>
    V2_other m d b (fun h => (Finset.mem_sdiff.mp hb).2 (by rw [h]; decide))
      (fun h => (Finset.mem_sdiff.mp hb).2 (by rw [h]; decide))
  rw [held_sub_split (T d) S4_sub, held_S4, V2_seg, V2_w, V2_part, V2_ew, held_congr (T d) hne]
  rfl

theorem heldV3 (d : Dev nD) :
    (held (T d) SALL (V3 m d) : sProp 𝕄)
      = iprop(((a0Loc d ↦{fullShare} m (a0Loc d)) ∗ (wLoc d ↦{fullShare} m (wLoc d)) ∗ (segLoc d ↦{fullShare} segA m d)
          ∗ (ewLoc d ↦{fullShare} ewA m d) ∗ (dinvLoc d ↦{fullShare} dinvA m d) ∗ (outLoc d ↦{fullShare} V3 m d out'))
          ∗ held (T d) (SALL \ S6) (V3 m d)) := by
  rw [held_sub_split (T d) S6_sub, held_S6, V3_a0, V3_w, V3_seg, V3_ew, V3_dinv]

theorem heldV1_split (d : Dev nD) :
    (held (d.tc : Thread nD τ) SALL (StableHlo.after (opsA (F := F)) (V0 m d)) : sProp 𝕄)
      ⊢ iprop(((segLoc d ↦{fullShare} segA m d) ∗ (wLoc d ↦{fullShare} wA m d) ∗ (partLoc d ↦{fullShare} V1 m d part')
          ∗ (ewLoc d ↦{fullShare} V1 m d ew')) ∗ held (d.tc : Thread nD τ) (SALL \ S4) (StableHlo.after (opsA (F := F)) (V0 m d))) :=
  Entails.of_eq (heldV1 m d)

theorem heldV2_join (d : Dev nD) :
    (iprop(((segLoc d ↦{fullShare} segA m d) ∗ (wLoc d ↦{fullShare} wA m d)
          ∗ (partLoc d ↦{fullShare} partialAll (segA m d) (wA m d)) ∗ (ewLoc d ↦{fullShare} expAll (wA m d)))
          ∗ held (d.tc : Thread nD τ) (SALL \ S4) (StableHlo.after (opsA (F := F)) (V0 m d))) : sProp 𝕄)
      ⊢ held (d.tc : Thread nD τ) SALL (V2 m d) :=
  Entails.of_eq (heldV2 m d).symm

theorem heldV3_split (d : Dev nD) :
    (held (d.tc : Thread nD τ) SALL (StableHlo.after (opsB (F := F)) (V2 m d)) : sProp 𝕄)
      ⊢ iprop(((a0Loc d ↦{fullShare} m (a0Loc d)) ∗ (wLoc d ↦{fullShare} m (wLoc d)) ∗ (segLoc d ↦{fullShare} segA m d)
          ∗ (ewLoc d ↦{fullShare} ewA m d) ∗ (dinvLoc d ↦{fullShare} dinvA m d) ∗ (outLoc d ↦{fullShare} V3 m d out'))
          ∗ held (d.tc : Thread nD τ) (SALL \ S6) (V3 m d)) :=
  Entails.of_eq (heldV3 m d)

def FIN (d : Dev nD) : sProp 𝕄 :=
  iprop((a0Loc d ↦{fullShare} m (a0Loc d)) ∗ (wLoc d ↦{fullShare} m (wLoc d))
    ∗ (outLoc d ↦{fullShare} (kernVal (m (a0Loc d)) (m (wLoc d)) : FVec F SE .f32)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [unscoped_held, main_eq]
  iintro ⟨#Hctx, Hst, ⟨Hb, Hheld, -, -⟩, -⟩

  iapply (StableHlo.wp_seq 𝒱 none Set.univ d SALL _ (opsA (F := F)) opsA_sub opsA_fresh (V0 m d)) $$ [Hb Hheld]
  · isplitl [Hb]; · iexact Hb
    iexact Hheld
  iintro ⟨Hb, Hheld⟩
  ihave Hh := (heldV1_split m d) $$ Hheld
  icases Hh with ⟨⟨Hs, Hw, Hp, He⟩, Hrest⟩

  rw [wp_bind]
  iapply ((K (F := F)).wp_run (D (F := F)) 𝒱 (EH := EH) (P := P m) κ d 0) $$ [Hst Hs Hw Hp He Hb Hrest]
  isplitr; · iexact Hctx
  isplitl [Hst]; · iexact Hst
  isplitl [Hs Hw Hp He]
  · iapply (st0_of_whole m d _ _)
    isplitl [Hs]; · iexact Hs
    isplitl [Hw]; · iexact Hw
    isplitl [Hp]; · iexact Hp
    iexact He
  iintro ⟨Hst, Hdn⟩
  ihave Hdn' := (Entails.of_eq (dn0_eq m d)) $$ Hdn

  ihave Hheld := (heldV2_join m d) $$ [Hdn' Hrest]
  · isplitl [Hdn']; · iexact Hdn'
    iexact Hrest

  iapply (StableHlo.wp_seq 𝒱 none Set.univ d SALL _ (opsB (F := F)) opsB_sub opsB_fresh (V2 m d)) $$ [Hb Hheld]
  · isplitl [Hb]; · iexact Hb
    iexact Hheld
  iintro ⟨Hb, Hheld⟩
  ihave Hh := (heldV3_split m d) $$ Hheld
  icases Hh with ⟨⟨Ha, Hw, Hs, He, Hd, Ho⟩, -⟩
  ihave Hd' := (Transfers.pointsTo_toks_split fullShare 32) $$ Hd
  icases Hd' with ⟨Hdrop, Htoks⟩

  rw [wp_bind]
  iapply ((K (F := F)).wp_run (D (F := F)) 𝒱 (EH := EH) (P := P m) κ d 1) $$ [Hst Hs He Htoks Ho Ha Hw Hdrop Hb]
  isplitr; · iexact Hctx
  isplitl [Hst]; · iexact Hst
  isplitl [Hs He Htoks Ho]
  · iapply (st1_of_whole m d _)
    isplitl [Hs]; · iexact Hs
    isplitl [He]; · iexact He
    isplitl [Htoks]; · iexact Htoks
    iexact Ho
  iintro ⟨Hst, Hdn⟩
  ihave Hdn' := (Entails.of_eq (dn1_eq m d)) $$ Hdn
  icases Hdn' with ⟨-, -, -, Ho⟩
  rw [wp_pure]; imodintro
  isplitl [Hst]; · iexact Hst
  unfold FIN
  isplitl [Ha]; · iexact Ha
  isplitl [Hw]; · iexact Hw
  iexact Ho

end Cert.Proof.KI

end
-- ==== Proof.Run.lean ====
import proofs.«207891_g54065048322743_cont_9to1_m_676_18_alg».proof.Proof.HMain

noncomputable section

namespace Cert.Proof.KI

open Cert.KernelIdeal Cert.KernelIdeal.Gen Cert.EdgeSoftmax

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

def fq (d : Dev nD) (s' : Phys nD τ sig (Elt F)) : Prop :=
  s'.mem.mem (a0Loc d) = m (a0Loc d) ∧ s'.mem.mem (wLoc d) = m (wLoc d)
    ∧ s'.mem.mem (outLoc d) = (kernVal (m (a0Loc d)) (m (wLoc d)) : FVec F SE .f32)

theorem hfin (d : Dev nD) (s' : Phys nD τ sig (Elt F)) : iprop(FIN m d ∗ SI s') ⊢ (⌜fq m d s'⌝ : sProp 𝕄) := by
  unfold FIN
  iintro ⟨⟨Ha, Hw, Ho⟩, HSI⟩
  ihave H := (persistent_entails_right (SI_pointsTo_agree (st := s') (ℓ := a0Loc d) (I := Finset.univ) (q := fullShare) (f := m (a0Loc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := outLoc d) (I := Finset.univ) (q := fullShare) (f := (kernVal (m (a0Loc d)) (m (wLoc d)) : FVec F SE .f32))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r => ∀ c : Dev nD,
  r.2.mem (a0Loc c) = m (a0Loc c) ∧ r.2.mem (wLoc c) = m (wLoc c)
    ∧ r.2.mem (outLoc c) = (kernVal (m (a0Loc c)) (m (wLoc c)) : FVec F SE .f32)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => tileObl0 m facts hpre | 1 => tileObl1 m facts hpre)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h => h)

end Cert.Proof.KI

end
-- ==== Proof.PreDecode.lean ====
import proofs.«207891_g54065048322743_cont_9to1_m_676_18_alg».proof.Pre_input_domain
import proofs.«207891_g54065048322743_cont_9to1_m_676_18_alg».proof.Proof.Spec
import Idealize.ShloMosaic.Lib.ReduceAll
import Idealize.ShloMosaic.Lib.StableHlo.Predicate
import Idealize.ShloMosaic.PureOps.Ideal

noncomputable section

namespace Cert.EdgeSoftmax

open Idealize.ShloMosaic Idealize.ShloMosaic.ValueIdx

instance : Subsingleton Cert.Pre_input_domain.S_.Idx := ⟨fun a b => funext fun d => d.elim0⟩

theorem toNat_le_of_signed_range (v : BitVec 32)
    (e : IntOp.andi (IntOp.cmpi .sge v 0#32) (IntOp.cmpi .sle v 99999#32) = 1#1) : v.toNat ≤ 99999 := by
  obtain ⟨hge, hle⟩ := IntOp.andi_eq_one.1 e
  rw [IntOp.cmpi_sge, show (0#32 : BitVec 32).toInt = 0 from by decide] at hge
  rw [IntOp.cmpi_sle, show (99999#32 : BitVec 32).toInt = 99999 from by decide] at hle
  have hc := BitVec.toInt_eq_toNat_cond v
  split at hc <;> omega

theorem ofBits_inf : Ideal.ofBits .f32 0x7F800000#32 = (⊤ : EReal) := by
  simp [Ideal.ofBits, Ideal.ieee]

theorem real_of_abs_lt_top (x : EReal) (hx : max x (-x) < ⊤) : ∃ r : ℝ, x = (r : EReal) := by
  induction x using EReal.rec with
  | bot => simp at hx
  | coe r => exact ⟨r, rfl⟩
  | top => simp at hx

theorem idx_le_of_pre {F : FTy → Type} [FloatOps F] [Cert.Pre_input_domain.Facts] (a0 : IVec S2E 32) (a1 : FVec F SE .f32)
    (h : Cert.Pre_input_domain.fn (F := F) a0 a1 = fun _ => 1#1) : ∀ i, (a0 i).toNat ≤ 99999 := by
  intro i
  have h0 := congrFun h ValueIdx.ix0
  dsimp only [Cert.Pre_input_domain.fn] at h0
  rw [andi] at h0
  obtain ⟨-, h2⟩ := IntOp.andi_eq_one.1 h0
  have h3 := Host.reduce_andi_all _ _ _ _ _ h2 i
  exact toNat_le_of_signed_range (a0 i) h3

theorem finite_of_pre [Cert.Pre_input_domain.Facts] (a0 : IVec S2E 32) (a1 : SE.Idx → EReal)
    (h : Cert.Pre_input_domain.fn (F := Ideal) a0 a1 = fun _ => 1#1) : ∀ e, ∃ r : ℝ, a1 e = (r : EReal) := by
  intro e
  have h0 := congrFun h ValueIdx.ix0
  dsimp only [Cert.Pre_input_domain.fn] at h0
  rw [andi] at h0
  obtain ⟨h1, -⟩ := IntOp.andi_eq_one.1 h0
  have h3 := Host.reduce_andi_all _ _ _ _ _ h1 e
  have h4 : Ideal.cmp .olt (max (a1 e) (-(a1 e))) (Ideal.ofBits .f32 0x7F800000#32) = 1#1 := h3
  rw [ofBits_inf] at h4
  simp only [Ideal.cmp, StableHlo.Predicate.ofBool_eq_one_iff, decide_eq_true_eq] at h4
  exact real_of_abs_lt_top _ h4

end Cert.EdgeSoftmax

end
-- ==== Proof.TileSum.lean ====
import proofs.«207891_g54065048322743_cont_9to1_m_676_18_alg».proof.Proof.Spec
import Idealize.ShloMosaic.PureOps.Ideal
import Idealize.ShloMosaic.Lib.ValueIdx
import Idealize.ShloMosaic.Lib.ValueIdxRank1
import Mathlib.Algebra.BigOperators.Group.Finset.Basic
import Mathlib.Algebra.BigOperators.Fin

noncomputable section

namespace Cert.EdgeSoftmax

open Idealize.ShloMosaic Idealize.ShloMosaic.ValueIdx

theorem ofLane_eta (l : SL.Idx) : Shape.ofLane (d := ![16]) (l 0) = l := by
  funext a
  have ha : a = 0 := Fin.eq_zero a
  subst ha
  rfl

theorem storeIdx_fold_apply (idx : IVec SL 32) (v : SL.Idx → EReal)
    (h : ∀ (a : Fin SN.rank) (x : SL.Idx), ((![idx] : Fin SN.rank → IVec SL 32) a x).toNat < SN.size a) (n : SN.Idx)
    (L : List (Fin ((![16] : Fin 1 → Nat) 0))) :
    ∀ g : SN.Idx → EReal,
    (L.foldl (fun (g : Vec Ideal SN .f32) k =>
      let x : SL.Idx := Shape.ofLane k
      if (fun _ => 1#1 : IVec SL 1) x = 1 then
        let i := idxAt (s := SN) ![idx] h x
        let y := if true then Elt.idxAdd (F := Ideal) .f32 (g i) (v x) else v x
        fun j => if (∀ a, (j a).val = (i a).val) then y else g j
      else g) g) n
      = g n + (L.map (fun k => if (idx (Shape.ofLane k)).toNat = (n 0).val then v (Shape.ofLane k) else 0)).sum := by
  induction L with
  | nil => intro g; simp
  | cons k L ih =>
    intro g
    rw [List.foldl_cons, ih, List.map_cons, List.sum_cons, ← add_assoc]
    congr 1
    dsimp only
    have h1 : ((1#1 : BitVec 1) = 1) := rfl
    rw [if_pos h1]
    have hiff : (∀ a : Fin 1, (n a).val = (idxAt (s := SN) ![idx] h (Shape.ofLane k) a).val)
        ↔ (idx (Shape.ofLane k)).toNat = (n 0).val := by
      constructor
      · intro H; exact (H 0).symm
      · intro H a
        have ha : a = 0 := Fin.eq_zero a
        subst ha
        exact H.symm
    by_cases hc : (idx (Shape.ofLane k)).toNat = (n 0).val
    · rw [if_pos hc, if_pos (hiff.2 hc)]
      have hn : idxAt (s := SN) ![idx] h (Shape.ofLane k) = n :=
        funext fun a => Fin.ext (hiff.2 hc a).symm
      rw [hn]
      rfl
    · rw [if_neg hc, if_neg (mt hiff.1 hc), add_zero]

theorem storeIdx_add_apply (D : SN.Idx → EReal) (idx : IVec SL 32) (v : SL.Idx → EReal)
    (h : ∀ (a : Fin SN.rank) (x : SL.Idx), ((![idx] : Fin SN.rank → IVec SL 32) a x).toNat < SN.size a) (n : SN.Idx) :
    storeIdx (F := Ideal) (s := SN) (e := .f32) D ![idx] v (fun _ => 1#1) true h n
      = D n + ∑ l ∈ Finset.univ.filter (fun l : SL.Idx => (idx l).toNat = (n 0).val), v l := by
  unfold storeIdx
  rw [storeIdx_fold_apply idx v h n (List.finRange ((![16] : Fin 1 → Nat) 0)) D]
  congr 1
  rw [Finset.sum_filter]
  rw [← Fin.sum_univ_def]
  have hs : ∀ l : SL.Idx, (if (idx l).toNat = (n 0).val then v l else 0)
      = (fun k : Fin 16 => if (idx (Shape.ofLane (d := ![16]) k)).toNat = (n 0).val
          then v (Shape.ofLane (d := ![16]) k) else 0) (idxEquiv1 (n := 16) l) := fun l => by
    show _ = (if (idx (Shape.ofLane (d := ![16]) (l 0))).toNat = (n 0).val
      then v (Shape.ofLane (d := ![16]) (l 0)) else 0)
    rw [ofLane_eta]
  exact (Fintype.sum_equiv (idxEquiv1 (n := 16)) _ _ hs).symm

def laneEdge (off : Nat) (h : off + 16 ≤ 6400000) (l : SL.Idx) : SE.Idx :=
  ix1 ⟨off + (l 0).val, by have := lane_lt l; omega⟩

theorem lanes_eq {α : Type} (x : SE.Idx → α) (off : Nat) (h : off + 16 ≤ 6400000) (l : SL.Idx) :
    lanes x off h l = x (laneEdge off h l) := rfl

theorem sum_lanes_eq (seg : IVec SE 32) (f : SE.Idx → EReal) (off : Nat) (h : off + 16 ≤ 6400000) (m : Nat) :
    ∑ l ∈ Finset.univ.filter (fun l : SL.Idx => (seg (laneEdge off h l)).toNat = m), f (laneEdge off h l)
      = ∑ e ∈ Finset.univ.filter (fun e : SE.Idx => off ≤ (e 0).val ∧ (e 0).val < off + 16 ∧ (seg e).toNat = m), f e := by
  refine Finset.sum_bij (fun l _ => laneEdge off h l) ?_ ?_ ?_ ?_
  · intro l hl
    rw [Finset.mem_filter] at hl ⊢
    have hl0 := lane_lt l
    refine ⟨Finset.mem_univ _, ?_, ?_, hl.2⟩
    · show off ≤ off + (l 0).val; omega
    · show off + (l 0).val < off + 16; omega
  · intro l₁ _ l₂ _ he
    have h0 : off + (l₁ 0).val = off + (l₂ 0).val := congrArg (fun e : SE.Idx => (e 0).val) he
    rw [eq_ix1 l₁, eq_ix1 l₂]
    congr 1
    exact Fin.ext (by omega)
  · intro e he
    rw [Finset.mem_filter] at he
    obtain ⟨_, h1, h2, h3⟩ := he
    have hb : (e 0).val - off < 16 := by omega
    have hE : laneEdge off h (ix1 ⟨(e 0).val - off, hb⟩) = e := by
      refine Eq.trans ?_ (eq_ix1 e).symm
      show ix1 _ = ix1 _
      congr 1
      apply Fin.ext
      show off + ((e 0).val - off) = (e 0).val
      omega
    refine ⟨ix1 ⟨(e 0).val - off, hb⟩, ?_, hE⟩
    rw [Finset.mem_filter]
    exact ⟨Finset.mem_univ _, by rw [hE]; exact h3⟩
  · intro l _
    rfl

theorem tilePartialUpTo_apply (seg : IVec SE 32) (w : SE.Idx → EReal) (hseg : ∀ e, (seg e).toNat < 100096)
    (t : Nat) (ht : t < 32) (n : SN.Idx) :
    ∀ k, k ≤ 12500 → tilePartialUpTo (F := Ideal) seg w t k n
      = ∑ e ∈ Finset.univ.filter (fun e : SE.Idx =>
          t * 200000 ≤ (e 0).val ∧ (e 0).val < t * 200000 + 16 * k ∧ (seg e).toNat = (n 0).val), Ideal.exp (w e) := by
  intro k
  induction k with
  | zero =>
    intro _
    rw [tilePartialUpTo_zero, Finset.sum_filter]
    have hz : (zeroTable (F := Ideal) n : EReal) = 0 := by
      show Ideal.ofBits .f32 0x00000000#32 = 0
      simp [Ideal.ofBits, Ideal.ieee]
    rw [hz]
    exact (Finset.sum_eq_zero (fun e _ => if_neg (by omega))).symm
  | succ k ih =>
    intro hk
    have h1 : t * 200000 + 16 * k + 16 ≤ 6400000 := by omega
    have h2 : ∀ (a : Fin SN.rank) (x : SL.Idx),
        ((![lanes seg (t * 200000 + 16 * k) h1] : Fin SN.rank → IVec SL 32) a x).toNat < SN.size a := by
      intro a x
      have ha : a = 0 := Fin.eq_zero a
      subst ha
      exact hseg _
    rw [tilePartialUpTo_succ]
    unfold scatStep
    rw [dif_pos h1, dif_pos h2, storeIdx_add_apply, ih (by omega)]
    have hstep := sum_lanes_eq seg (fun e => Ideal.exp (w e)) (t * 200000 + 16 * k) h1 (n 0).val
    have hL : (∑ l ∈ Finset.univ.filter (fun l : SL.Idx => (lanes seg (t * 200000 + 16 * k) h1 l).toNat = (n 0).val),
        exp (F := Ideal) (φ := .f32) (lanes w (t * 200000 + 16 * k) h1) l)
        = ∑ l ∈ Finset.univ.filter (fun l : SL.Idx => (seg (laneEdge (t * 200000 + 16 * k) h1 l)).toNat = (n 0).val),
            (fun e => Ideal.exp (w e)) (laneEdge (t * 200000 + 16 * k) h1 l) := rfl
    rw [hL, hstep, ← Finset.sum_union (Finset.disjoint_filter.2 (fun e _ hp hr => by omega)), ← Finset.filter_or]
    refine Finset.sum_congr (Finset.filter_congr (fun e _ => ?_)) (fun _ _ => rfl)
    omega

theorem tilePartial_apply (seg : IVec SE 32) (w : SE.Idx → EReal) (hseg : ∀ e, (seg e).toNat < 100096)
    (t : Nat) (ht : t < 32) (n : SN.Idx) :
    tilePartial (F := Ideal) seg w t n
      = ∑ e ∈ Finset.univ.filter (fun e : SE.Idx => (e 0).val / 200000 = t ∧ (seg e).toNat = (n 0).val), Ideal.exp (w e) := by
  unfold tilePartial
  rw [tilePartialUpTo_apply seg w hseg t ht n 12500 le_rfl]
  refine Finset.sum_congr (Finset.filter_congr (fun e _ => ?_)) (fun _ _ => rfl)
  omega

end Cert.EdgeSoftmax

end
-- ==== Proof.KernValue.lean ====
import proofs.«207891_g54065048322743_cont_9to1_m_676_18_alg».proof.Proof.Spec
import proofs.«207891_g54065048322743_cont_9to1_m_676_18_alg».proof.Proof.TileSum
import Idealize.ShloMosaic.PureOps.Ideal
import Idealize.ShloMosaic.Lib.ValueIdx

noncomputable section

namespace Cert.EdgeSoftmax

open Idealize.ShloMosaic Idealize.ShloMosaic.ValueIdx
open scoped BigOperators

theorem tableAt_partialAll {F : FTy → Type} [FloatOps F] (seg : IVec SE 32) (w : FVec F SE .f32) (t : Nat) (ht : t < 32)
    (n : SN.Idx) : tableAt (partialAll seg w) t n = tilePartial seg w t n := by
  have hn : (n 0).val < 100096 := (n 0).isLt
  have h : t * 100096 + (n 0).val < 3203072 := by omega
  have h1 : (t * 100096 + (n 0).val) / 100096 = t := by omega
  have h2 : (t * 100096 + (n 0).val) % 100096 = (n 0).val := by omega
  have key : ∀ (a b : Nat) (hb : b < 100096), a = t → b = (n 0).val →
      tilePartial seg w a (ix1 ⟨b, hb⟩) = tilePartial seg w t n := by
    intro a b hb ha hb'
    subst ha; subst hb'
    exact congrArg _ (eq_ix1 n).symm
  unfold tableAt
  rw [dif_pos h]
  exact key _ _ _ h1 h2

theorem foldl_tables (P : FVec Ideal SP .f32) (n : SN.Idx) (k : Nat) :
    ((List.range k).foldl (fun a t => addf a (tableAt P (t + 1))) (tableAt P 0)) n
      = ∑ t ∈ Finset.range (k + 1), tableAt P t n := by
  induction k with
  | zero => simp
  | succ k ih =>
    rw [List.range_succ, List.foldl_append, List.foldl_cons, List.foldl_nil, Finset.sum_range_succ, ← ih]
    rfl

theorem accOf_eq_sum (seg : IVec SE 32) (w : SE.Idx → EReal) (hseg : ∀ e, (seg e).toNat < 100096) (n : SN.Idx) :
    accOf (F := Ideal) (partialAll seg w) n
      = ∑ e ∈ Finset.univ.filter (fun e : SE.Idx => (seg e).toNat = (n 0).val), Ideal.exp (w e) := by
  unfold accOf
  rw [foldl_tables]
  rw [← Finset.sum_fiberwise_of_maps_to (s := Finset.univ.filter (fun e : SE.Idx => (seg e).toNat = (n 0).val))
    (t := Finset.range 32) (g := fun e : SE.Idx => (e 0).val / 200000)]
  · apply Finset.sum_congr rfl
    intro t ht
    rw [tableAt_partialAll _ _ _ (Finset.mem_range.mp ht), tilePartial_apply seg w hseg t (Finset.mem_range.mp ht),
      Finset.filter_filter]
    apply Finset.sum_congr _ (fun _ _ => rfl)
    apply Finset.filter_congr
    intro e' _
    exact and_comm
  · intro e' _
    have : (e' 0).val < 6400000 := (e' 0).isLt
    rw [Finset.mem_range]
    omega

theorem sum_exp_coe (r : SE.Idx → ℝ) (s : Finset SE.Idx) :
    ∑ e ∈ s, Ideal.exp ((r e : ℝ) : EReal) = ((∑ e ∈ s, Real.exp (r e) : ℝ) : EReal) := by
  classical
  refine Finset.induction_on s ?_ ?_
  · simp
  · intro a s ha ih
    rw [Finset.sum_insert ha, Finset.sum_insert ha, ih, Ideal.exp_coe, EReal.coe_add]

theorem ofBits_one : Ideal.ofBits .f32 0x3F800000#32 = 1 := by
  simp [Ideal.ofBits, Ideal.ieee, -EReal.coe_mul]; norm_num

theorem kernVal_eq_spec (a0 : IVec S2E 32) (a1 : SE.Idx → EReal) (hseg : ∀ e, (segOf a0 e).toNat ≤ 99999)
    (hfin : ∀ e, ∃ r : ℝ, a1 e = (r : EReal)) :
    kernVal (F := Ideal) a0 a1 = softmaxSpec a0 a1 := by
  classical
  choose r hr using hfin
  have hlt : ∀ e, (segOf a0 e).toNat < 100096 := fun e => by have := hseg e; omega
  funext e
  have he := hlt e
  have hfilter : Finset.univ.filter (fun e' : SE.Idx => (segOf a0 e').toNat = (segOf a0 e).toNat)
      = Finset.univ.filter (fun e' : SE.Idx => segOf a0 e' = segOf a0 e) := by
    apply Finset.filter_congr
    intro e' _
    exact BitVec.toNat_inj
  have hacc : accOf (F := Ideal) (partialAll (segOf a0) a1) (ix1 ⟨(segOf a0 e).toNat, he⟩)
      = ∑ e' ∈ Finset.univ.filter (fun e' : SE.Idx => segOf a0 e' = segOf a0 e), Ideal.exp (a1 e') := by
    rw [accOf_eq_sum _ _ hlt, ← hfilter]
  have hsum : ∑ e' ∈ Finset.univ.filter (fun e' : SE.Idx => segOf a0 e' = segOf a0 e), Ideal.exp (a1 e')
      = ((∑ e' ∈ Finset.univ.filter (fun e' : SE.Idx => segOf a0 e' = segOf a0 e), Real.exp (r e') : ℝ) : EReal) := by
    rw [← sum_exp_coe]
    exact Finset.sum_congr rfl (fun e' _ => by rw [hr e'])
  have hpos : 0 < ∑ e' ∈ Finset.univ.filter (fun e' : SE.Idx => segOf a0 e' = segOf a0 e), Real.exp (r e') :=
    Finset.sum_pos (fun e' _ => Real.exp_pos _) ⟨e, by simp⟩
  have hne : (∑ e' ∈ Finset.univ.filter (fun e' : SE.Idx => segOf a0 e' = segOf a0 e), Real.exp (r e')) ≠ 0 :=
    ne_of_gt hpos
  unfold kernVal normAll softmaxSpec
  rw [dif_pos he]
  unfold dinvOf Host.divf expAll
  rw [hacc, hsum, Ideal.mulf_def, Ideal.hostDivf_def, Ideal.ofBits_def, ofBits_one, Ideal.div_coe hne, Ideal.div_coe hne,
    one_mul]
  rfl

end Cert.EdgeSoftmax

end
-- ==== Proof.RefTerm.lean ====
import proofs.«207891_g54065048322743_cont_9to1_m_676_18_alg».proof.ReferenceIdeal

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F] [Cert.ReferenceIdeal.Facts]

def refTerm (a0 : IVec S2x6400000 32) (a1 : FVec F S6400000 .f32) : FVec F S6400000 .f32 :=

  let e : FVec F S6400000 .f32 := Host.exp a1

  let seg : IVec S6400000 32 :=
    shapeCast S6400000 (extractStridedSlice S1x6400000 ![1, 0] a0 slices_S2x6400000_S1x6400000_1_0)
      shapeCasts_S1x6400000_S6400000

  let segCol : IVec S6400000x1 32 := broadcastInDim S6400000x1 ![0] bcast_S6400000_S6400000x1_0 seg

  let zeros : FVec F S100000 .f32 := broadcastInDim S100000 ![] bcast_S_S100000 (constant S_ .f32 0x00000000#32)

  let sums : FVec F S100000 .f32 := Host.scatterAdd scatter_S100000_S6400000x1_S6400000_n_0_0_1 zeros segCol e

  let neg : IVec S6400000 1 := cmpi .slt seg (broadcastInDim S6400000 ![] bcast_S_S6400000 (constantI S_ 32 0#32))
  let wrapped : IVec S6400000 32 :=
    addi seg (broadcastInDim S6400000 ![] bcast_S_S6400000 (constantI S_ 32 100000#32))
  let idx : IVec S6400000 32 := select neg wrapped seg
  let idxCol : IVec S6400000x1 32 := broadcastInDim S6400000x1 ![0] bcast_S6400000_S6400000x1_0 idx

  let ge0 : IVec S6400000x1 1 :=
    cmpi .sge idxCol (broadcastInDim S6400000x1 ![] bcast_S_S6400000x1 (constantI S_ 32 0#32))
  let leMax : IVec S6400000x1 1 :=
    cmpi .sle idxCol (broadcastInDim S6400000x1 ![0, 1] bcast_S1x1_S6400000x1_0_1
      (broadcastInDim S1x1 ![1] bcast_S1_S1x1_1 (constantI S1 32 99999#32)))
  let inb : IVec S6400000 1 :=
    Host.reduce IntOp.andi (andi ge0 leMax) (constantI S_ 1 1#1) reducesTo_S6400000x1_S6400000_d1 h_S_

  let got : FVec F S6400000 .f32 := Host.gather gather_S100000_S6400000x1_S6400000_n_0_n_n_0_1_1 sums idxCol

  let nan : FVec F S6400000 .f32 := broadcastInDim S6400000 ![] bcast_S_S6400000 (constant S_ .f32 0x7FC00000#32)
  Host.divf e (select inb got nan)

end Cert.ReferenceIdeal.Hand

end
-- ==== Proof.RefRun.lean ====
import proofs.«207891_g54065048322743_cont_9to1_m_676_18_alg».proof.ReferenceIdeal
import proofs.«207891_g54065048322743_cont_9to1_m_676_18_alg».proof.Proof.Gen.ReferenceIdeal
import proofs.«207891_g54065048322743_cont_9to1_m_676_18_alg».proof.Proof.RefTerm
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

abbrev ops : List (HloOp τ sig (Elt F)) :=
  [ unary main_arg1 main_v0 (Host.exp : (⟨S6400000, .f32⟩ : BufTy).Contents (Elt F) → (⟨S6400000, .f32⟩ : BufTy).Contents (Elt F)),
    unary main_arg0 main_v1 ((extractStridedSlice S1x6400000 ![1, 0] · slices_S2x6400000_S1x6400000_1_0) : (⟨S2x6400000, .i32⟩ : BufTy).Contents (Elt F) → (⟨S1x6400000, .i32⟩ : BufTy).Contents (Elt F)),
    reshape main_v1 main_v2 rfl shapeCasts_S1x6400000_S6400000,
    nullary main_cst (constant S_ .f32 0x00000000#32),
    unary main_cst main_v3 (broadcastInDim S100000 ![] bcast_S_S100000 : (⟨S_, .f32⟩ : BufTy).Contents (Elt F) → (⟨S100000, .f32⟩ : BufTy).Contents (Elt F)),
    unary main_v2 main_v4 (broadcastInDim S6400000x1 ![0] bcast_S6400000_S6400000x1_0 : (⟨S6400000, .i32⟩ : BufTy).Contents (Elt F) → (⟨S6400000x1, .i32⟩ : BufTy).Contents (Elt F)),
    ternary main_v3 main_v4 main_v0 main_v5 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    nullary main_call0_c (constantI S_ 32 0#32),
    unary main_call0_c main_call0_v0 (broadcastInDim S6400000 ![] bcast_S_S6400000 : (⟨S_, .i32⟩ : BufTy).Contents (Elt F) → (⟨S6400000, .i32⟩ : BufTy).Contents (Elt F)),
    binary main_v2 main_call0_v0 main_call0_v1 (cmpi .slt : (⟨S6400000, .i32⟩ : BufTy).Contents (Elt F) → (⟨S6400000, .i32⟩ : BufTy).Contents (Elt F) → (⟨S6400000, .i1⟩ : BufTy).Contents (Elt F)),
    nullary main_call0_c_0 (constantI S_ 32 100000#32),
    unary main_call0_c_0 main_call0_v2 (broadcastInDim S6400000 ![] bcast_S_S6400000 : (⟨S_, .i32⟩ : BufTy).Contents (Elt F) → (⟨S6400000, .i32⟩ : BufTy).Contents (Elt F)),
    binary main_v2 main_call0_v2 main_call0_v3 (addi : (⟨S6400000, .i32⟩ : BufTy).Contents (Elt F) → (⟨S6400000, .i32⟩ : BufTy).Contents (Elt F) → (⟨S6400000, .i32⟩ : BufTy).Contents (Elt F)),
    ternary main_call0_v1 main_call0_v3 main_v2 main_call0_v4 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_call0_v4 main_call0_v5 (broadcastInDim S6400000x1 ![0] bcast_S6400000_S6400000x1_0 : (⟨S6400000, .i32⟩ : BufTy).Contents (Elt F) → (⟨S6400000x1, .i32⟩ : BufTy).Contents (Elt F)),
    nullary main_call0_c_1 (constantI S1 32 99999#32),
    nullary main_call0_c_2 (constantI S_ 32 0#32),
    unary main_call0_c_2 main_call0_v6 (broadcastInDim S6400000x1 ![] bcast_S_S6400000x1 : (⟨S_, .i32⟩ : BufTy).Contents (Elt F) → (⟨S6400000x1, .i32⟩ : BufTy).Contents (Elt F)),
    binary main_call0_v5 main_call0_v6 main_call0_v7 (cmpi .sge : (⟨S6400000x1, .i32⟩ : BufTy).Contents (Elt F) → (⟨S6400000x1, .i32⟩ : BufTy).Contents (Elt F) → (⟨S6400000x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S6400000x1 ![0, 1] bcast_S1x1_S6400000x1_0_1 : (⟨S1x1, .i32⟩ : BufTy).Contents (Elt F) → (⟨S6400000x1, .i32⟩ : BufTy).Contents (Elt F)),
    binary main_call0_v5 main_call0_v9 main_call0_v10 (cmpi .sle : (⟨S6400000x1, .i32⟩ : BufTy).Contents (Elt F) → (⟨S6400000x1, .i32⟩ : BufTy).Contents (Elt F) → (⟨S6400000x1, .i1⟩ : BufTy).Contents (Elt F)),
    binary main_call0_v7 main_call0_v10 main_call0_v11 (andi : (⟨S6400000x1, .i1⟩ : BufTy).Contents (Elt F) → (⟨S6400000x1, .i1⟩ : BufTy).Contents (Elt F) → (⟨S6400000x1, .i1⟩ : BufTy).Contents (Elt F)),
    nullary main_call0_c_3 (constantI S_ 1 1#1),
    binary main_call0_v11 main_call0_c_3 main_call0_v12 ((fun x v => Host.reduce IntOp.andi x v reducesTo_S6400000x1_S6400000_d1 h_S_) : (⟨S6400000x1, .i1⟩ : BufTy).Contents (Elt F) → (⟨S_, .i1⟩ : BufTy).Contents (Elt F) → (⟨S6400000, .i1⟩ : BufTy).Contents (Elt F)),
    binary main_v5 main_call0_v5 main_call0_v13 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    nullary main_call0_cst (constant S_ .f32 0x7FC00000#32),
    unary main_call0_cst main_call0_v14 (broadcastInDim S6400000 ![] bcast_S_S6400000 : (⟨S_, .f32⟩ : BufTy).Contents (Elt F) → (⟨S6400000, .f32⟩ : BufTy).Contents (Elt F)),
    ternary main_call0_v12 main_call0_v13 main_call0_v14 main_v6 (select : (⟨S6400000, .i1⟩ : BufTy).Contents (Elt F) → (⟨S6400000, .f32⟩ : BufTy).Contents (Elt F) → (⟨S6400000, .f32⟩ : BufTy).Contents (Elt F) → (⟨S6400000, .f32⟩ : BufTy).Contents (Elt F)),
    binary main_v0 main_v6 main_v7 (Host.divf : (⟨S6400000, .f32⟩ : BufTy).Contents (Elt F) → (⟨S6400000, .f32⟩ : BufTy).Contents (Elt F) → (⟨S6400000, .f32⟩ : BufTy).Contents (Elt F)) ]

attribute [local irreducible] Host.reduce Host.gather Host.scatterAdd in
set_option maxRecDepth 4096 in

theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., reshape_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., binary_bufs_sub ..⟩

attribute [local irreducible] Host.reduce Host.gather Host.scatterAdd in
set_option maxRecDepth 8192 in

theorem out_eq (V : Valuation τ sig (Elt F)) :
    after ops V (main_v7 : DevRef τ sig) = refTerm (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev nD,
      r.2.mem ((c.tc : Thread nD τ).loc main_v7) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v7).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Hand

end
-- ==== Proof.RefValue.lean ====
import proofs.«207891_g54065048322743_cont_9to1_m_676_18_alg».proof.Proof.RefTerm
import proofs.«207891_g54065048322743_cont_9to1_m_676_18_alg».proof.Proof.Spec
import Idealize.ShloMosaic.PureOps.Ideal
import Idealize.ShloMosaic.Lib.ValueIdx
import Idealize.ShloMosaic.Lib.ReduceAll
import Idealize.ShloMosaic.Lib.StableHlo.Predicate

noncomputable section

namespace Cert.ReferenceIdeal.Hand

open Cert.ReferenceIdeal Idealize.ShloMosaic Idealize.ShloMosaic.ValueIdx Idealize.ShloMosaic.StableHlo.Predicate
open Cert.ReferenceIdeal.Facts₀ Cert.ReferenceIdeal.Facts

theorem row1_apply {α : Type} (x : S2x6400000.Idx → α) (h1 : S2x6400000.Slices ![1, 0] S1x6400000)
    (h2 : S1x6400000.ShapeCasts S6400000) (e : S6400000.Idx) :
    shapeCast S6400000 (extractStridedSlice S1x6400000 ![1, 0] x h1) h2 e = x (ix2 (1 : Fin 2) (e 0)) := by
  unfold shapeCast
  have hk : Shape.reshapeEquiv h2 e = (ix2 (0 : Fin 1) (e 0) : S1x6400000.Idx) :=
    Shape.reshapeEquiv_eq_of_rowMajor h2 (by rw [Shape.rowMajor_val_two, Shape.rowMajor_val_one]; simp)
  rw [hk]
  unfold extractStridedSlice
  congr 1
  funext a
  match a with
  | ⟨0, _⟩ => exact Fin.ext rfl
  | ⟨1, _⟩ => exact Fin.ext (by simp)

theorem col_apply {α : Type} (h : S6400000.BroadcastsInDim S6400000x1 ![0]) (v : S6400000.Idx → α) (j : S6400000x1.Idx) :
    broadcastInDim S6400000x1 ![0] h v j = v (Shape.Idx.ofFin (j 0)) := by
  simp only [broadcastInDim]
  congr 1
  funext a
  have ha : a = 0 := Subsingleton.elim _ _
  subst ha
  apply Fin.ext
  split
  · next h1 => exact absurd h1 (by decide)
  · rfl

section Scatter

variable {N n w : Nat} (d : ScatterDims ⟨1, ![N]⟩ ⟨2, ![n, 1]⟩ ⟨1, ![n]⟩)

theorem scatter_window (hiw : d.insertedWindowDims = [0]) (j : (⟨1, ![n]⟩ : Shape).Idx) (a : Fin 1) : d.window j a = 0 := by
  unfold ScatterDims.window
  rw [dif_neg]
  obtain rfl : a = 0 := Subsingleton.elim _ _
  simp [ScatterDims.sKept, Shape.kept, hiw]

theorem scatter_start (hsd : d.scatterDimsToOperandDims = [0]) (hivd : d.indexVectorDim = 1)
    (idx : IVec ⟨2, ![n, 1]⟩ w) (j : (⟨1, ![n]⟩ : Shape).Idx) (a : Fin 1) :
    d.start j idx a = (idx (ixP (j 0))).toInt := by
  obtain rfl : a = 0 := Subsingleton.elim _ _
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      obtain rfl : X = 0 := Subsingleton.elim _ _; rfl
    exact e _
  | ⟨1, _⟩ =>
    unfold ScatterDims.siIdx
    rw [dif_pos (by rw [hivd])]
    apply Fin.ext
    show List.idxOf (0 : Fin 1) d.scatterDimsToOperandDims = 0
    rw [hsd]; simp

theorem scatter_resultIdx (hiw : d.insertedWindowDims = [0]) (hsd : d.scatterDimsToOperandDims = [0])
    (hivd : d.indexVectorDim = 1) (idx : IVec ⟨2, ![n, 1]⟩ 32) (j : (⟨1, ![n]⟩ : Shape).Idx)
    (hlt : (idx (ixP (j 0))).toNat < N) (hN : N < 2 ^ 31) :
    d.resultIdx? j idx = some (Shape.Idx.ofFin ⟨(idx (ixP (j 0))).toNat, hlt⟩) := by
  have hint : (idx (ixP (j 0))).toInt = ((idx (ixP (j 0))).toNat : Int) := toInt_eq_toNat_of_lt (by omega)
  have hs : ∀ a, d.start j idx a + d.window j a = ((idx (ixP (j 0))).toNat : Int) := fun a => by
    rw [scatter_start d hsd hivd, scatter_window d hiw, hint]; simp
  unfold ScatterDims.resultIdx?
  rw [dif_pos (fun a => by
    rw [hs a]; obtain rfl : a = 0 := Subsingleton.elim _ _
    exact ⟨by omega, by show ((idx (ixP (j 0))).toNat : Int) < (N : Int); omega⟩)]
  congr 1
  funext a
  apply Fin.ext
  show (d.start j idx a + d.window j a).toNat = _
  rw [hs a]
  obtain rfl : a = 0 := Subsingleton.elim _ _
  simp

end Scatter

theorem not_slt_zero (v : BitVec 32) (hv : v.toNat ≤ 99999) : ¬ IntOp.cmpi .slt v 0#32 = 1#1 := by
  rw [IntOp.cmpi_slt, toInt_eq_toNat_of_lt (by omega), show (0#32 : BitVec 32).toInt = 0 from by decide]
  omega

theorem in_range (v : BitVec 32) (hv : v.toNat ≤ 99999) :
    IntOp.andi (IntOp.cmpi .sge v 0#32) (IntOp.cmpi .sle v 99999#32) = 1#1 := by
  rw [IntOp.andi_eq_one, IntOp.cmpi_sge, IntOp.cmpi_sle, toInt_eq_toNat_of_lt (a := v) (by omega),
    show (0#32 : BitVec 32).toInt = 0 from by decide, show (99999#32 : BitVec 32).toInt = 99999 from by decide]
  omega

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

theorem hostDivf_apply {s : Shape} (a b : FVec Ideal s .f32) (i : s.Idx) : Host.divf a b i = Ideal.div (a i) (b i) := rfl

theorem hostExp_apply {s : Shape} (a : FVec Ideal s .f32) (i : s.Idx) : Host.exp a i = Ideal.exp (a i) := rfl

theorem zeros_apply {t : Shape} (h : (⟨0, ![]⟩ : Shape).BroadcastsInDim t ![]) (i : t.Idx) :
    broadcastInDim t ![] h (constant (F := Ideal) ⟨0, ![]⟩ .f32 0x00000000#32) i = (0 : EReal) := by
  show Ideal.ofBits .f32 0x00000000#32 = 0
  simp [Ideal.ofBits, Ideal.ieee]

theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

section Column

variable {N n : Nat} (h₁ : (⟨1, ![n]⟩ : Shape).BroadcastsInDim ⟨2, ![n, 1]⟩ ![0])

theorem col_row {α : Type} (v : (⟨1, ![n]⟩ : Shape).Idx → α) (j : (⟨1, ![n]⟩ : Shape).Idx) :
    broadcastInDim ⟨2, ![n, 1]⟩ ![0] h₁ v (ixP (j 0)) = v j :=
  (bcast_col1 h₁ v (j 0)).trans (congrArg v (Shape.Idx.eq_ofFin j).symm)

theorem scatterAdd_col (d : ScatterDims ⟨1, ![N]⟩ ⟨2, ![n, 1]⟩ ⟨1, ![n]⟩) (hiw : d.insertedWindowDims = [0])
    (hsd : d.scatterDimsToOperandDims = [0]) (hivd : d.indexVectorDim = 1) (hN : N < 2 ^ 31)
    (x : FVec Ideal ⟨1, ![N]⟩ .f32) (seg : IVec ⟨1, ![n]⟩ 32) (hseg : ∀ e, (seg e).toNat < N)
    (upd : FVec Ideal ⟨1, ![n]⟩ .f32) (i : (⟨1, ![N]⟩ : Shape).Idx) :
    Host.scatterAdd d x (broadcastInDim ⟨2, ![n, 1]⟩ ![0] h₁ seg) upd i
      = x i + ∑ j ∈ Finset.univ.filter (fun j => (seg j).toNat = (i 0).val), upd j := by
  rw [scatterAdd_apply]
  congr 1
  refine Finset.sum_congr (Finset.filter_congr fun j _ => ?_) (fun _ _ => rfl)
  have hc := col_row h₁ seg j
  have hlt : (broadcastInDim ⟨2, ![n, 1]⟩ ![0] h₁ seg (ixP (j 0))).toNat < N := by rw [hc]; exact hseg j
  rw [scatter_resultIdx d hiw hsd hivd _ j hlt hN]
  constructor
  · intro h
    have h2 := congrArg (fun k : (⟨1, ![N]⟩ : Shape).Idx => (k 0).val) (Option.some.inj h)
    rw [← hc]
    exact h2
  · intro h
    have h3 : (Shape.Idx.ofFin ⟨_, hlt⟩ : (⟨1, ![N]⟩ : Shape).Idx) = i := by
      rw [Shape.Idx.eq_ofFin i]
      refine congrArg Shape.Idx.ofFin (Fin.ext ?_)
      show (broadcastInDim ⟨2, ![n, 1]⟩ ![0] h₁ seg (ixP (j 0))).toNat = (i 0).val
      rw [hc]; exact h
    rw [h3]

theorem take_col {α : Type} (d : GatherDims ⟨1, ![N]⟩ ⟨2, ![n, 1]⟩ ⟨1, ![n]⟩) (hcoll : d.collapsedSliceDims = [0])
    (hob : d.operandBatchingDims = []) (hsim : d.startIndexMap = [0]) (hivd : d.indexVectorDim = 1) (hN : N < 2 ^ 31)
    (x : (⟨1, ![N]⟩ : Shape).Idx → α) (idx : IVec ⟨1, ![n]⟩ 32) (hidx : ∀ e, (idx e).toNat < N) (p : Fin n) :
    Host.gather d x (broadcastInDim ⟨2, ![n, 1]⟩ ![0] h₁ idx) (Shape.Idx.ofFin p)
      = x (Shape.Idx.ofFin ⟨(idx (Shape.Idx.ofFin p)).toNat, hidx _⟩) := by
  have hpos : 0 < N := lt_of_le_of_lt (Nat.zero_le _) (hidx (Shape.Idx.ofFin p))
  rw [gather_take d hcoll hob hsim hivd x _ p hpos]
  refine congrArg x (congrArg Shape.Idx.ofFin (Fin.ext ?_))
  show min (broadcastInDim ⟨2, ![n, 1]⟩ ![0] h₁ idx (ixP p)).toInt.toNat (N - 1) = (idx (Shape.Idx.ofFin p)).toNat
  have hlt := hidx (Shape.Idx.ofFin p)
  rw [bcast_col1, toInt_eq_toNat_of_lt (by omega), Int.toNat_natCast]
  omega

end Column

section Stages

variable [Cert.ReferenceIdeal.Facts]

theorem wrap_eq (seg : IVec S6400000 32) (hseg : ∀ e, (seg e).toNat ≤ 99999) :
    select (cmpi .slt seg (broadcastInDim S6400000 ![] bcast_S_S6400000 (constantI S_ 32 0#32)))
      (addi seg (broadcastInDim S6400000 ![] bcast_S_S6400000 (constantI S_ 32 100000#32))) seg = seg := by
  funext e
  rw [select_apply]
  have h0 : cmpi .slt seg (broadcastInDim S6400000 ![] bcast_S_S6400000 (constantI S_ 32 0#32)) e = 0#1 :=
    eq_zero_of_ne_one (not_slt_zero (seg e) (hseg e))
  rw [h0, select_zero]

theorem mask_eq (idx : IVec S6400000 32) (hidx : ∀ e, (idx e).toNat ≤ 99999) (e : S6400000.Idx) :
    Host.reduce IntOp.andi
      (andi (cmpi .sge (broadcastInDim S6400000x1 ![0] bcast_S6400000_S6400000x1_0 idx)
              (broadcastInDim S6400000x1 ![] bcast_S_S6400000x1 (constantI S_ 32 0#32)))
            (cmpi .sle (broadcastInDim S6400000x1 ![0] bcast_S6400000_S6400000x1_0 idx)
              (broadcastInDim S6400000x1 ![0, 1] bcast_S1x1_S6400000x1_0_1
                (broadcastInDim S1x1 ![1] bcast_S1_S1x1_1 (constantI S1 32 99999#32)))))
      (constantI S_ 1 1#1) reducesTo_S6400000x1_S6400000_d1 h_S_ e = 1#1 := by
  apply reduce_andi_ones
  intro i
  show IntOp.andi (IntOp.cmpi .sge (broadcastInDim S6400000x1 ![0] bcast_S6400000_S6400000x1_0 idx i) 0#32)
      (IntOp.cmpi .sle (broadcastInDim S6400000x1 ![0] bcast_S6400000_S6400000x1_0 idx i) 99999#32) = 1#1
  rw [col_apply]
  exact in_range _ (hidx _)

theorem refTerm_eq_spec (a0 : IVec S2x6400000 32) (a1 : S6400000.Idx → EReal) (hidx : ∀ i, (a0 i).toNat ≤ 99999) :
    refTerm (F := Ideal) a0 a1 = Cert.EdgeSoftmax.softmaxSpec a0 a1 := by
  have hrow : shapeCast S6400000 (extractStridedSlice S1x6400000 ![1, 0] a0 slices_S2x6400000_S1x6400000_1_0)
      shapeCasts_S1x6400000_S6400000 = Cert.EdgeSoftmax.segOf a0 := funext fun e => row1_apply a0 _ _ e
  have hseg : ∀ e, (Cert.EdgeSoftmax.segOf a0 e).toNat ≤ 99999 := fun e => hidx _
  have hseg' : ∀ e, (Cert.EdgeSoftmax.segOf a0 e).toNat < 100000 := fun e => Nat.lt_succ_of_le (hseg e)
  funext e
  obtain ⟨p, rfl⟩ : ∃ p : Fin 6400000, e = Shape.Idx.ofFin p := ⟨e 0, Shape.Idx.eq_ofFin e⟩
  unfold refTerm
  simp only [hrow]
  rw [wrap_eq _ hseg, hostDivf_apply, hostExp_apply, select_apply, mask_eq _ hseg, select_one,
    take_col bcast_S6400000_S6400000x1_0 gather_S100000_S6400000x1_S6400000_n_0_n_n_0_1_1 rfl rfl rfl rfl (by norm_num)
      _ _ hseg' p,
    scatterAdd_col bcast_S6400000_S6400000x1_0 scatter_S100000_S6400000x1_S6400000_n_0_0_1 rfl rfl rfl (by norm_num)
      _ _ hseg', zeros_apply, zero_add]
  simp only [Cert.EdgeSoftmax.softmaxSpec]
  refine congrArg (Ideal.div _) ?_
  refine Finset.sum_congr (Finset.filter_congr fun j _ => ?_) (fun _ _ => rfl)
  show (Cert.EdgeSoftmax.segOf a0 j).toNat = (Cert.EdgeSoftmax.segOf a0 (Shape.Idx.ofFin p)).toNat ↔ _
  exact BitVec.toNat_inj

end Stages

end Cert.ReferenceIdeal.Hand

end
-- ==== Proof.Claims.lean ====
import proofs.«207891_g54065048322743_cont_9to1_m_676_18_alg».proof.Proof.Run
import proofs.«207891_g54065048322743_cont_9to1_m_676_18_alg».proof.Proof.PreDecode
import proofs.«207891_g54065048322743_cont_9to1_m_676_18_alg».proof.Proof.KernValue
import proofs.«207891_g54065048322743_cont_9to1_m_676_18_alg».proof.Proof.RefRun
import proofs.«207891_g54065048322743_cont_9to1_m_676_18_alg».proof.Proof.RefValue
import proofs.«207891_g54065048322743_cont_9to1_m_676_18_alg».proof.Proof.Gen.Pre_input_domain
import proofs.«207891_g54065048322743_cont_9to1_m_676_18_alg».proof.Proof.Gen.ReferenceIdeal
import proofs.«207891_g54065048322743_cont_9to1_m_676_18_alg».proof.Proof.Gen.Kernel

noncomputable section

namespace Cert.Proof.KI

open Cert.KernelIdeal Cert.EdgeSoftmax
open Idealize.ShloMosaic Idealize.ShloMosaic.ValueIdx Idealize.SL.Sem

section Frame

variable {F : FTy → Type} [FloatOps F] (m : (ℓ : Loc nD τ sig) → Buf (Elt F) ℓ)

-- The precondition bounds every destination by 99 999, below the 100 096 slots of a worker's table.
theorem ok_of_pre
    (h : ∀ c : Dev nD, Cert.Pre_input_domain.fn (F := F) (m (a0Loc c)) (m (wLoc c)) = fun _ => 1#1) : PreOK m := by
  intro d e
  have h1 := idx_le_of_pre (F := F) (m (a0Loc d)) (m (wLoc d)) (h d) (ix2 (1 : Fin 2) (e 0))
  show (segOf (m (a0Loc d)) e).toNat < 100096
  unfold segOf
  omega

-- The run with its value dropped: at any float instance the program ends and keeps its two arguments.
theorem frame_any [∀ e, Nonempty (Elt F e)] (ρ : Dev nD → PrngReg)
    (h : ∀ c : Dev nD, Cert.Pre_input_domain.fn (F := F) (m (a0Loc c)) (m (wLoc c)) = fun _ => 1#1) :
    θ_run (Cert.KernelIdeal.defs (F := F)) (Cert.KernelIdeal.threads (F := F)) ⟨m, fun _ => 0, ρ⟩
      (fun r => ∀ c : Dev nD, r.2.mem (a0Loc c) = m (a0Loc c) ∧ r.2.mem (wLoc c) = m (wLoc c)) :=
  (θ_run Cert.KernelIdeal.defs _ _).mono (fun _ h c => ⟨(h c).1, (h c).2.1⟩) (run_main m ρ (ok_of_pre m h))

end Frame

theorem frame_ki : Cert.frame_KernelIdeal := fun m ρ hpre => frame_any (F := Ideal) m ρ hpre

-- No rewrite was applied: the word-level program is the idealized program's own text, definition by definition.
theorem defs_eq : Cert.Kernel.defs (F := Bits) = Cert.KernelIdeal.defs (F := Bits) := rfl
theorem threads_eq : Cert.Kernel.threads (F := Bits) = Cert.KernelIdeal.threads (F := Bits) := rfl

-- So the word-level program's run is the generic run read at the word-level floats.
theorem frame_k : Cert.frame_Kernel := fun m ρ hpre => by
  have h := frame_any (F := Bits) m ρ hpre
  rw [← defs_eq, ← threads_eq] at h
  exact h

theorem frame_ri : Cert.frame_ReferenceIdeal := fun m ρ _ =>
  (θ_run Cert.ReferenceIdeal.defs _ _).mono (fun _ h c => ⟨(h c).2.1, (h c).2.2⟩) (Cert.ReferenceIdeal.Hand.run (F := Ideal) m ρ)

-- Both results are the edge softmax's closed form; finite weights make every total met a positive real.
theorem algebraic : Cert.algebraic_KernelIdeal_ReferenceIdeal := by
  intro m ρ m' ρ' hpre hagree
  have hok := ok_of_pre m hpre
  refine ⟨fun c => m (a0Loc c), fun c => (kernVal (m (a0Loc c)) (m (wLoc c)) : FVec Ideal SE .f32), ?_, ?_⟩
  · exact (θ_run Cert.KernelIdeal.defs _ _).mono (fun _ h c => ⟨(h c).1, (h c).2.2, (h c).1, (h c).2.1⟩) (run_main (F := Ideal) m ρ hok)
  · refine (θ_run Cert.ReferenceIdeal.defs _ _).mono (fun _ h c => ?_) (Cert.ReferenceIdeal.Hand.run (F := Ideal) m' ρ')
    obtain ⟨h1, h2, h3⟩ := h c
    refine ⟨h2.trans (hagree c).1, ?_, h2, h3⟩
    rw [h1, (hagree c).1, (hagree c).2]
    have hidx := idx_le_of_pre (F := Ideal) (m (a0Loc c)) (m (wLoc c)) (hpre c)
    rw [Cert.ReferenceIdeal.Hand.refTerm_eq_spec _ _ hidx]
    exact (kernVal_eq_spec _ _ (fun e => hidx _) (finite_of_pre _ _ (hpre c))).symm

end Cert.Proof.KI

end
-- ==== Proof.lean ====
import proofs.«207891_g54065048322743_cont_9to1_m_676_18_alg».proof.Proof.Claims
import Idealize.ShloMosaic.Adequacy
import Idealize.ShloMosaic.Init

noncomputable section

namespace Cert.Proof

-- Edge softmax: exp (w e) over the sum of the exponentials of the edges into e's destination; the workers' partial sums regroup into that one sum.
theorem claim : Cert.Claim :=
  ⟨Cert.Kernel.Gen.facts, Cert.KernelIdeal.Gen.facts, Cert.ReferenceIdeal.Gen.facts, Cert.Pre_input_domain.Gen.facts,
    KI.frame_k, KI.frame_ki, KI.frame_ri, trivial, KI.algebraic⟩

end Cert.Proof

end
